-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v29)) (v6 : (c : Dev Cert.KernelIdeal.nD) → Buf (Elt Ideal) ((c.tc : Thread Cert.KernelIdeal.nD Cert.KernelIdeal.τ).loc Cert.KernelIdeal.main_v69)) (v7 : (c : Dev Cert.KernelIdeal.nD) → Buf (Elt Ideal) ((c.tc : Thread Cert.KernelIdeal.nD Cert.KernelIdeal.τ).loc Cert.KernelIdeal.main_v60)) (v8 : (c : Dev Cert.KernelIdeal.nD) → Buf (Elt Ideal) ((c.tc : Thread Cert.KernelIdeal.nD Cert.KernelIdeal.τ).loc Cert.KernelIdeal.main_v64)) (v9 : (c : Dev Cert.KernelIdeal.nD) → Buf (Elt Ideal) ((c.tc : Thread Cert.KernelIdeal.nD Cert.KernelIdeal.τ).loc Cert.KernelIdeal.main_v12)) (v10 : (c : Dev Cert.KernelIdeal.nD) → Buf (Elt Ideal) ((c.tc : Thread Cert.KernelIdeal.nD Cert.KernelIdeal.τ).loc Cert.KernelIdeal.main_v25)) (v11 : (c : Dev Cert.KernelIdeal.nD) → Buf (Elt Ideal) ((c.tc : Thread Cert.KernelIdeal.nD Cert.KernelIdeal.τ).loc Cert.KernelIdeal.main_v38)) (v12 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v29) = v5 c
          ∧ r.2.mem ((c.tc : Thread Cert.KernelIdeal.nD Cert.KernelIdeal.τ).loc Cert.KernelIdeal.main_v69) = v6 c
          ∧ r.2.mem ((c.tc : Thread Cert.KernelIdeal.nD Cert.KernelIdeal.τ).loc Cert.KernelIdeal.main_v60) = v7 c
          ∧ r.2.mem ((c.tc : Thread Cert.KernelIdeal.nD Cert.KernelIdeal.τ).loc Cert.KernelIdeal.main_v64) = v8 c
          ∧ r.2.mem ((c.tc : Thread Cert.KernelIdeal.nD Cert.KernelIdeal.τ).loc Cert.KernelIdeal.main_v12) = v9 c
          ∧ r.2.mem ((c.tc : Thread Cert.KernelIdeal.nD Cert.KernelIdeal.τ).loc Cert.KernelIdeal.main_v25) = v10 c
          ∧ r.2.mem ((c.tc : Thread Cert.KernelIdeal.nD Cert.KernelIdeal.τ).loc Cert.KernelIdeal.main_v38) = v11 c
          ∧ r.2.mem ((c.tc : Thread Cert.KernelIdeal.nD Cert.KernelIdeal.τ).loc Cert.KernelIdeal.main_v51) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v115) = v5 c
          ∧ r.2.mem ((c.tc : Thread Cert.ReferenceIdeal.nD Cert.ReferenceIdeal.τ).loc Cert.ReferenceIdeal.main_v251) = v6 c
          ∧ r.2.mem ((c.tc : Thread Cert.ReferenceIdeal.nD Cert.ReferenceIdeal.τ).loc Cert.ReferenceIdeal.main_v238) = v7 c
          ∧ r.2.mem ((c.tc : Thread Cert.ReferenceIdeal.nD Cert.ReferenceIdeal.τ).loc Cert.ReferenceIdeal.main_v242) = v8 c
          ∧ r.2.mem ((c.tc : Thread Cert.ReferenceIdeal.nD Cert.ReferenceIdeal.τ).loc Cert.ReferenceIdeal.main_v55) = v9 c
          ∧ r.2.mem ((c.tc : Thread Cert.ReferenceIdeal.nD Cert.ReferenceIdeal.τ).loc Cert.ReferenceIdeal.main_v111) = v10 c
          ∧ r.2.mem ((c.tc : Thread Cert.ReferenceIdeal.nD Cert.ReferenceIdeal.τ).loc Cert.ReferenceIdeal.main_v167) = v11 c
          ∧ r.2.mem ((c.tc : Thread Cert.ReferenceIdeal.nD Cert.ReferenceIdeal.τ).loc Cert.ReferenceIdeal.main_v223) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3072x784 : Shape := ⟨2, ![3072, 784]⟩
abbrev S784x500 : Shape := ⟨2, ![784, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S3072x2000 : Shape := ⟨2, ![3072, 2000]⟩
abbrev S2000x500 : Shape := ⟨2, ![2000, 500]⟩
abbrev S500x784 : Shape := ⟨2, ![500, 784]⟩
abbrev S784 : Shape := ⟨1, ![784]⟩
abbrev S3072x3072 : Shape := ⟨2, ![3072, 3072]⟩
abbrev S10x3072 : Shape := ⟨2, ![10, 3072]⟩
abbrev S_ : Shape := ⟨0, ![]⟩

class Facts : Prop where
  bcast_S_S3072x784 : S_.BroadcastsInDim S3072x784 (![] : Fin 0 → Fin S3072x784.rank)
  reducesTo_S3072x784_S_d0_1 : S3072x784.ReducesTo [0, 1] S_
  h_S_ : 0 < S_.numel
  bcast_S_S784x500 : S_.BroadcastsInDim S784x500 (![] : Fin 0 → Fin S784x500.rank)
  reducesTo_S784x500_S_d0_1 : S784x500.ReducesTo [0, 1] S_
  bcast_S_S500 : S_.BroadcastsInDim S500 (![] : Fin 0 → Fin S500.rank)
  reducesTo_S500_S_d0 : S500.ReducesTo [0] S_
  bcast_S_S500x500 : S_.BroadcastsInDim S500x500 (![] : Fin 0 → Fin S500x500.rank)
  reducesTo_S500x500_S_d0_1 : S500x500.ReducesTo [0, 1] S_
  bcast_S_S500x2000 : S_.BroadcastsInDim S500x2000 (![] : Fin 0 → Fin S500x2000.rank)
  reducesTo_S500x2000_S_d0_1 : S500x2000.ReducesTo [0, 1] S_
  bcast_S_S2000 : S_.BroadcastsInDim S2000 (![] : Fin 0 → Fin S2000.rank)
  reducesTo_S2000_S_d0 : S2000.ReducesTo [0] S_
  bcast_S_S2000x10 : S_.BroadcastsInDim S2000x10 (![] : Fin 0 → Fin S2000x10.rank)
  reducesTo_S2000x10_S_d0_1 : S2000x10.ReducesTo [0, 1] S_
  bcast_S_S10 : S_.BroadcastsInDim S10 (![] : Fin 0 → Fin S10.rank)
  reducesTo_S10_S_d0 : S10.ReducesTo [0] S_
  bcast_S_S3072x2000 : S_.BroadcastsInDim S3072x2000 (![] : Fin 0 → Fin S3072x2000.rank)
  reducesTo_S3072x2000_S_d0_1 : S3072x2000.ReducesTo [0, 1] S_
  bcast_S_S2000x500 : S_.BroadcastsInDim S2000x500 (![] : Fin 0 → Fin S2000x500.rank)
  reducesTo_S2000x500_S_d0_1 : S2000x500.ReducesTo [0, 1] S_
  bcast_S_S500x784 : S_.BroadcastsInDim S500x784 (![] : Fin 0 → Fin S500x784.rank)
  reducesTo_S500x784_S_d0_1 : S500x784.ReducesTo [0, 1] S_
  bcast_S_S784 : S_.BroadcastsInDim S784 (![] : Fin 0 → Fin S784.rank)
  reducesTo_S784_S_d0 : S784.ReducesTo [0] S_
  bcast_S_S3072x3072 : S_.BroadcastsInDim S3072x3072 (![] : Fin 0 → Fin S3072x3072.rank)
  reducesTo_S3072x3072_S_d0_1 : S3072x3072.ReducesTo [0, 1] S_
  bcast_S_S10x3072 : S_.BroadcastsInDim S10x3072 (![] : Fin 0 → Fin S10x3072.rank)
  reducesTo_S10x3072_S_d0_1 : S10x3072.ReducesTo [0, 1] S_

variable [Facts]

def fn_part11 {F : FTy → Type} [FloatOps F] (main_v183 : IVec S_ 1) (main_v187 : IVec S_ 1) : IVec S_ 1 :=
  let main_v188 : IVec S_ 1 := andi main_v183 main_v187
  main_v188

def fn_part10 {F : FTy → Type} [FloatOps F] (main_arg35 : FVec F S3072x3072 .f32) (main_arg36 : FVec F S3072x3072 .f32) (main_arg37 : FVec F S10x3072 .f32) (main_v168 : IVec S_ 1) (main_v169 : FVec F S3072x3072 .f32) (main_v170 : FVec F S3072x3072 .f32) : IVec S_ 1 :=
  let main_v171 : IVec S3072x3072 1 := cmpf .olt main_v169 main_v170
  let main_c_67 : IVec S_ 1 := constantI S_ 1 1#1
  let main_v172 : IVec S_ 1 := (fun x v => Host.reduce IntOp.andi x v reducesTo_S3072x3072_S_d0_1 h_S_) main_v171 main_c_67
  let main_v173 : IVec S_ 1 := andi main_v168 main_v172
  let main_v174 : FVec F S3072x3072 .f32 := Host.absf main_arg35
  let main_cst_68 : FVec F S_ .f32 := constant S_ .f32 0x7F800000#32
  let main_v175 : FVec F S3072x3072 .f32 := broadcastInDim S3072x3072 ![] bcast_S_S3072x3072 main_cst_68
  let main_v176 : IVec S3072x3072 1 := cmpf .olt main_v174 main_v175
  let main_c_69 : IVec S_ 1 := constantI S_ 1 1#1
  let main_v177 : IVec S_ 1 := (fun x v => Host.reduce IntOp.andi x v reducesTo_S3072x3072_S_d0_1 h_S_) main_v176 main_c_69
  let main_v178 : IVec S_ 1 := andi main_v173 main_v177
  let main_v179 : FVec F S3072x3072 .f32 := Host.absf main_arg36
  let main_cst_70 : FVec F S_ .f32 := constant S_ .f32 0x7F800000#32
  let main_v180 : FVec F S3072x3072 .f32 := broadcastInDim S3072x3072 ![] bcast_S_S3072x3072 main_cst_70
  let main_v181 : IVec S3072x3072 1 := cmpf .olt main_v179 main_v180
  let main_c_71 : IVec S_ 1 := constantI S_ 1 1#1
  let main_v182 : IVec S_ 1 := (fun x v => Host.reduce IntOp.andi x v reducesTo_S3072x3072_S_d0_1 h_S_) main_v181 main_c_71
  let main_v183 : IVec S_ 1 := andi main_v178 main_v182
  let main_v184 : FVec F S10x3072 .f32 := Host.absf main_arg37
  let main_cst_72 : FVec F S_ .f32 := constant S_ .f32 0x7F800000#32
  let main_v185 : FVec F S10x3072 .f32 := broadcastInDim S10x3072 ![] bcast_S_S10x3072 main_cst_72
  let main_v186 : IVec S10x3072 1 := cmpf .olt main_v184 main_v185
  let main_c_73 : IVec S_ 1 := constantI S_ 1 1#1
  let main_v187 : IVec S_ 1 := (fun x v => Host.reduce IntOp.andi x v reducesTo_S10x3072_S_d0_1 h_S_) main_v186 main_c_73
  fn_part11 (F := F) main_v183 main_v187

def fn_part9 {F : FTy → Type} [FloatOps F] (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v153 : IVec S_ 1) : IVec S_ 1 :=
  let main_v154 : FVec F S3072x3072 .f32 := Host.absf main_arg31
  let main_cst_60 : FVec F S_ .f32 := constant S_ .f32 0x7F800000#32
  let main_v155 : FVec F S3072x3072 .f32 := broadcastInDim S3072x3072 ![] bcast_S_S3072x3072 main_cst_60
  let main_v156 : IVec S3072x3072 1 := cmpf .olt main_v154 main_v155
  let main_c_61 : IVec S_ 1 := constantI S_ 1 1#1
  let main_v157 : IVec S_ 1 := (fun x v => Host.reduce IntOp.andi x v reducesTo_S3072x3072_S_d0_1 h_S_) main_v156 main_c_61
  let main_v158 : IVec S_ 1 := andi main_v153 main_v157
  let main_v159 : FVec F S3072x3072 .f32 := Host.absf main_arg32
  let main_cst_62 : FVec F S_ .f32 := constant S_ .f32 0x7F800000#32
  let main_v160 : FVec F S3072x3072 .f32 := broadcastInDim S3072x3072 ![] bcast_S_S3072x3072 main_cst_62
  let main_v161 : IVec S3072x3072 1 := cmpf .olt main_v159 main_v160
  let main_c_63 : IVec S_ 1 := constantI S_ 1 1#1
  let main_v162 : IVec S_ 1 := (fun x v => Host.reduce IntOp.andi x v reducesTo_S3072x3072_S_d0_1 h_S_) main_v161 main_c_63
  let main_v163 : IVec S_ 1 := andi main_v158 main_v162
  let main_v164 : FVec F S3072x3072 .f32 := Host.absf main_arg33
  let main_cst_64 : FVec F S_ .f32 := constant S_ .f32 0x7F800000#32
  let main_v165 : FVec F S3072x3072 .f32 := broadcastInDim S3072x3072 ![] bcast_S_S3072x3072 main_cst_64
  let main_v166 : IVec S3072x3072 1 := cmpf .olt main_v164 main_v165
  let main_c_65 : IVec S_ 1 := constantI S_ 1 1#1
  let main_v167 : IVec S_ 1 := (fun x v => Host.reduce IntOp.andi x v reducesTo_S3072x3072_S_d0_1 h_S_) main_v166 main_c_65
  let main_v168 : IVec S_ 1 := andi main_v163 main_v167
  let main_v169 : FVec F S3072x3072 .f32 := Host.absf main_arg34
  let main_cst_66 : FVec F S_ .f32 := constant S_ .f32 0x7F800000#32
  let main_v170 : FVec F S3072x3072 .f32 := broadcastInDim S3072x3072 ![] bcast_S_S3072x3072 main_cst_66
  fn_part10 (F := F) main_arg35 main_arg36 main_arg37 main_v168 main_v169 main_v170

def fn_part8 {F : FTy → Type} [FloatOps F] (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v133 : IVec S_ 1) (main_v136 : IVec S3072x3072 1) : IVec S_ 1 :=
  let main_c_53 : IVec S_ 1 := constantI S_ 1 1#1
  let main_v137 : IVec S_ 1 := (fun x v => Host.reduce IntOp.andi x v reducesTo_S3072x3072_S_d0_1 h_S_) main_v136 main_c_53
  let main_v138 : IVec S_ 1 := andi main_v133 main_v137
  let main_v139 : FVec F S3072x3072 .f32 := Host.absf main_arg28
  let main_cst_54 : FVec F S_ .f32 := constant S_ .f32 0x7F800000#32
  let main_v140 : FVec F S3072x3072 .f32 := broadcastInDim S3072x3072 ![] bcast_S_S3072x3072 main_cst_54
  let main_v141 : IVec S3072x3072 1 := cmpf .olt main_v139 main_v140
  let main_c_55 : IVec S_ 1 := constantI S_ 1 1#1
  let main_v142 : IVec S_ 1 := (fun x v => Host.reduce IntOp.andi x v reducesTo_S3072x3072_S_d0_1 h_S_) main_v141 main_c_55
  let main_v143 : IVec S_ 1 := andi main_v138 main_v142
  let main_v144 : FVec F S3072x3072 .f32 := Host.absf main_arg29
  let main_cst_56 : FVec F S_ .f32 := constant S_ .f32 0x7F800000#32
  let main_v145 : FVec F S3072x3072 .f32 := broadcastInDim S3072x3072 ![] bcast_S_S3072x3072 main_cst_56
  let main_v146 : IVec S3072x3072 1 := cmpf .olt main_v144 main_v145
  let main_c_57 : IVec S_ 1 := constantI S_ 1 1#1
  let main_v147 : IVec S_ 1 := (fun x v => Host.reduce IntOp.andi x v reducesTo_S3072x3072_S_d0_1 h_S_) main_v146 main_c_57
  let main_v148 : IVec S_ 1 := andi main_v143 main_v147
  let main_v149 : FVec F S3072x3072 .f32 := Host.absf main_arg30
  let main_cst_58 : FVec F S_ .f32 := constant S_ .f32 0x7F800000#32
  let main_v150 : FVec F S3072x3072 .f32 := broadcastInDim S3072x3072 ![] bcast_S_S3072x3072 main_cst_58
  let main_v151 : IVec S3072x3072 1 := cmpf .olt main_v149 main_v150
  let main_c_59 : IVec S_ 1 := constantI S_ 1 1#1
  let main_v152 : IVec S_ 1 := (fun x v => Host.reduce IntOp.andi x v reducesTo_S3072x3072_S_d0_1 h_S_) main_v151 main_c_59
  let main_v153 : IVec S_ 1 := andi main_v148 main_v152
  fn_part9 (F := F) main_arg31 main_arg32 main_arg33 main_arg34 main_arg35 main_arg36 main_arg37 main_v153

def fn_part7 {F : FTy → Type} [FloatOps F] (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v118 : IVec S_ 1) (main_v119 : FVec F S3072x3072 .f32) : IVec S_ 1 :=
  let main_cst_46 : FVec F S_ .f32 := constant S_ .f32 0x7F800000#32
  let main_v120 : FVec F S3072x3072 .f32 := broadcastInDim S3072x3072 ![] bcast_S_S3072x3072 main_cst_46
  let main_v121 : IVec S3072x3072 1 := cmpf .olt main_v119 main_v120
  let main_c_47 : IVec S_ 1 := constantI S_ 1 1#1
  let main_v122 : IVec S_ 1 := (fun x v => Host.reduce IntOp.andi x v reducesTo_S3072x3072_S_d0_1 h_S_) main_v121 main_c_47
  let main_v123 : IVec S_ 1 := andi main_v118 main_v122
  let main_v124 : FVec F S3072x3072 .f32 := Host.absf main_arg25
  let main_cst_48 : FVec F S_ .f32 := constant S_ .f32 0x7F800000#32
  let main_v125 : FVec F S3072x3072 .f32 := broadcastInDim S3072x3072 ![] bcast_S_S3072x3072 main_cst_48
  let main_v126 : IVec S3072x3072 1 := cmpf .olt main_v124 main_v125
  let main_c_49 : IVec S_ 1 := constantI S_ 1 1#1
  let main_v127 : IVec S_ 1 := (fun x v => Host.reduce IntOp.andi x v reducesTo_S3072x3072_S_d0_1 h_S_) main_v126 main_c_49
  let main_v128 : IVec S_ 1 := andi main_v123 main_v127
  let main_v129 : FVec F S3072x3072 .f32 := Host.absf main_arg26
  let main_cst_50 : FVec F S_ .f32 := constant S_ .f32 0x7F800000#32
  let main_v130 : FVec F S3072x3072 .f32 := broadcastInDim S3072x3072 ![] bcast_S_S3072x3072 main_cst_50
  let main_v131 : IVec S3072x3072 1 := cmpf .olt main_v129 main_v130
  let main_c_51 : IVec S_ 1 := constantI S_ 1 1#1
  let main_v132 : IVec S_ 1 := (fun x v => Host.reduce IntOp.andi x v reducesTo_S3072x3072_S_d0_1 h_S_) main_v131 main_c_51
  let main_v133 : IVec S_ 1 := andi main_v128 main_v132
  let main_v134 : FVec F S3072x3072 .f32 := Host.absf main_arg27
  let main_cst_52 : FVec F S_ .f32 := constant S_ .f32 0x7F800000#32
  let main_v135 : FVec F S3072x3072 .f32 := broadcastInDim S3072x3072 ![] bcast_S_S3072x3072 main_cst_52
  let main_v136 : IVec S3072x3072 1 := cmpf .olt main_v134 main_v135
  fn_part8 (F := F) main_arg28 main_arg29 main_arg30 main_arg31 main_arg32 main_arg33 main_arg34 main_arg35 main_arg36 main_arg37 main_v133 main_v136

def fn_part6 {F : FTy → Type} [FloatOps F] (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v98 : IVec S_ 1) (main_v101 : IVec S3072x3072 1) (main_c_39 : IVec S_ 1) : IVec S_ 1 :=
  let main_v102 : IVec S_ 1 := (fun x v => Host.reduce IntOp.andi x v reducesTo_S3072x3072_S_d0_1 h_S_) main_v101 main_c_39
  let main_v103 : IVec S_ 1 := andi main_v98 main_v102
  let main_v104 : FVec F S3072x3072 .f32 := Host.absf main_arg21
  let main_cst_40 : FVec F S_ .f32 := constant S_ .f32 0x7F800000#32
  let main_v105 : FVec F S3072x3072 .f32 := broadcastInDim S3072x3072 ![] bcast_S_S3072x3072 main_cst_40
  let main_v106 : IVec S3072x3072 1 := cmpf .olt main_v104 main_v105
  let main_c_41 : IVec S_ 1 := constantI S_ 1 1#1
  let main_v107 : IVec S_ 1 := (fun x v => Host.reduce IntOp.andi x v reducesTo_S3072x3072_S_d0_1 h_S_) main_v106 main_c_41
  let main_v108 : IVec S_ 1 := andi main_v103 main_v107
  let main_v109 : FVec F S3072x3072 .f32 := Host.absf main_arg22
  let main_cst_42 : FVec F S_ .f32 := constant S_ .f32 0x7F800000#32
  let main_v110 : FVec F S3072x3072 .f32 := broadcastInDim S3072x3072 ![] bcast_S_S3072x3072 main_cst_42
  let main_v111 : IVec S3072x3072 1 := cmpf .olt main_v109 main_v110
  let main_c_43 : IVec S_ 1 := constantI S_ 1 1#1
  let main_v112 : IVec S_ 1 := (fun x v => Host.reduce IntOp.andi x v reducesTo_S3072x3072_S_d0_1 h_S_) main_v111 main_c_43
  let main_v113 : IVec S_ 1 := andi main_v108 main_v112
  let main_v114 : FVec F S3072x3072 .f32 := Host.absf main_arg23
  let main_cst_44 : FVec F S_ .f32 := constant S_ .f32 0x7F800000#32
  let main_v115 : FVec F S3072x3072 .f32 := broadcastInDim S3072x3072 ![] bcast_S_S3072x3072 main_cst_44
  let main_v116 : IVec S3072x3072 1 := cmpf .olt main_v114 main_v115
  let main_c_45 : IVec S_ 1 := constantI S_ 1 1#1
  let main_v117 : IVec S_ 1 := (fun x v => Host.reduce IntOp.andi x v reducesTo_S3072x3072_S_d0_1 h_S_) main_v116 main_c_45
  let main_v118 : IVec S_ 1 := andi main_v113 main_v117
  let main_v119 : FVec F S3072x3072 .f32 := Host.absf main_arg24
  fn_part7 (F := F) main_arg25 main_arg26 main_arg27 main_arg28 main_arg29 main_arg30 main_arg31 main_arg32 main_arg33 main_arg34 main_arg35 main_arg36 main_arg37 main_v118 main_v119

def fn_part5 {F : FTy → Type} [FloatOps F] (main_arg18 : FVec F S3072x3072 .f32) (main_arg19 : FVec F S3072x3072 .f32) (main_arg20 : FVec F S3072x3072 .f32) (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v83 : IVec S_ 1) (main_v84 : FVec F S3072x3072 .f32) (main_cst_32 : FVec F S_ .f32) : IVec S_ 1 :=
  let main_v85 : FVec F S3072x3072 .f32 := broadcastInDim S3072x3072 ![] bcast_S_S3072x3072 main_cst_32
  let main_v86 : IVec S3072x3072 1 := cmpf .olt main_v84 main_v85
  let main_c_33 : IVec S_ 1 := constantI S_ 1 1#1
  let main_v87 : IVec S_ 1 := (fun x v => Host.reduce IntOp.andi x v reducesTo_S3072x3072_S_d0_1 h_S_) main_v86 main_c_33
  let main_v88 : IVec S_ 1 := andi main_v83 main_v87
  let main_v89 : FVec F S3072x3072 .f32 := Host.absf main_arg18
  let main_cst_34 : FVec F S_ .f32 := constant S_ .f32 0x7F800000#32
  let main_v90 : FVec F S3072x3072 .f32 := broadcastInDim S3072x3072 ![] bcast_S_S3072x3072 main_cst_34
  let main_v91 : IVec S3072x3072 1 := cmpf .olt main_v89 main_v90
  let main_c_35 : IVec S_ 1 := constantI S_ 1 1#1
  let main_v92 : IVec S_ 1 := (fun x v => Host.reduce IntOp.andi x v reducesTo_S3072x3072_S_d0_1 h_S_) main_v91 main_c_35
  let main_v93 : IVec S_ 1 := andi main_v88 main_v92
  let main_v94 : FVec F S3072x3072 .f32 := Host.absf main_arg19
  let main_cst_36 : FVec F S_ .f32 := constant S_ .f32 0x7F800000#32
  let main_v95 : FVec F S3072x3072 .f32 := broadcastInDim S3072x3072 ![] bcast_S_S3072x3072 main_cst_36
  let main_v96 : IVec S3072x3072 1 := cmpf .olt main_v94 main_v95
  let main_c_37 : IVec S_ 1 := constantI S_ 1 1#1
  let main_v97 : IVec S_ 1 := (fun x v => Host.reduce IntOp.andi x v reducesTo_S3072x3072_S_d0_1 h_S_) main_v96 main_c_37
  let main_v98 : IVec S_ 1 := andi main_v93 main_v97
  let main_v99 : FVec F S3072x3072 .f32 := Host.absf main_arg20
  let main_cst_38 : FVec F S_ .f32 := constant S_ .f32 0x7F800000#32
  let main_v100 : FVec F S3072x3072 .f32 := broadcastInDim S3072x3072 ![] bcast_S_S3072x3072 main_cst_38
  let main_v101 : IVec S3072x3072 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_v98 main_v101 main_c_39

def fn_part4 {F : FTy → Type} [FloatOps F] (main_arg14 : FVec F S500 .f32) (main_arg15 : FVec F S500x784 .f32) (main_arg16 : FVec F S784 .f32) (main_arg17 : FVec F S3072x3072 .f32) (main_arg18 : FVec F S3072x3072 .f32) (main_arg19 : FVec F S3072x3072 .f32) (main_arg20 : FVec F S3072x3072 .f32) (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v63 : IVec S_ 1) (main_v67 : IVec S_ 1) : IVec S_ 1 :=
  let main_v68 : IVec S_ 1 := andi main_v63 main_v67
  let main_v69 : FVec F S500 .f32 := Host.absf main_arg14
  let main_cst_26 : FVec F S_ .f32 := constant S_ .f32 0x7F800000#32
  let main_v70 : FVec F S500 .f32 := broadcastInDim S500 ![] bcast_S_S500 main_cst_26
  let main_v71 : IVec S500 1 := cmpf .olt main_v69 main_v70
  let main_c_27 : IVec S_ 1 := constantI S_ 1 1#1
  let main_v72 : IVec S_ 1 := (fun x v => Host.reduce IntOp.andi x v reducesTo_S500_S_d0 h_S_) main_v71 main_c_27
  let main_v73 : IVec S_ 1 := andi main_v68 main_v72
  let main_v74 : FVec F S500x784 .f32 := Host.absf main_arg15
  let main_cst_28 : FVec F S_ .f32 := constant S_ .f32 0x7F800000#32
  let main_v75 : FVec F S500x784 .f32 := broadcastInDim S500x784 ![] bcast_S_S500x784 main_cst_28
  let main_v76 : IVec S500x784 1 := cmpf .olt main_v74 main_v75
  let main_c_29 : IVec S_ 1 := constantI S_ 1 1#1
  let main_v77 : IVec S_ 1 := (fun x v => Host.reduce IntOp.andi x v reducesTo_S500x784_S_d0_1 h_S_) main_v76 main_c_29
  let main_v78 : IVec S_ 1 := andi main_v73 main_v77
  let main_v79 : FVec F S784 .f32 := Host.absf main_arg16
  let main_cst_30 : FVec F S_ .f32 := constant S_ .f32 0x7F800000#32
  let main_v80 : FVec F S784 .f32 := broadcastInDim S784 ![] bcast_S_S784 main_cst_30
  let main_v81 : IVec S784 1 := cmpf .olt main_v79 main_v80
  let main_c_31 : IVec S_ 1 := constantI S_ 1 1#1
  let main_v82 : IVec S_ 1 := (fun x v => Host.reduce IntOp.andi x v reducesTo_S784_S_d0 h_S_) main_v81 main_c_31
  let main_v83 : IVec S_ 1 := andi main_v78 main_v82
  let main_v84 : FVec F S3072x3072 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_v83 main_v84 main_cst_32

def fn_part3 {F : FTy → Type} [FloatOps F] (main_arg11 : FVec F S2000x500 .f32) (main_arg12 : FVec F S500 .f32) (main_arg13 : FVec F S500x500 .f32) (main_arg14 : FVec F S500 .f32) (main_arg15 : FVec F S500x784 .f32) (main_arg16 : FVec F S784 .f32) (main_arg17 : FVec F S3072x3072 .f32) (main_arg18 : FVec F S3072x3072 .f32) (main_arg19 : FVec F S3072x3072 .f32) (main_arg20 : FVec F S3072x3072 .f32) (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v48 : IVec S_ 1) (main_v49 : FVec F S2000 .f32) (main_v50 : FVec F S2000 .f32) : IVec S_ 1 :=
  let main_v51 : IVec S2000 1 := cmpf .olt main_v49 main_v50
  let main_c_19 : IVec S_ 1 := constantI S_ 1 1#1
  let main_v52 : IVec S_ 1 := (fun x v => Host.reduce IntOp.andi x v reducesTo_S2000_S_d0 h_S_) main_v51 main_c_19
  let main_v53 : IVec S_ 1 := andi main_v48 main_v52
  let main_v54 : FVec F S2000x500 .f32 := Host.absf main_arg11
  let main_cst_20 : FVec F S_ .f32 := constant S_ .f32 0x7F800000#32
  let main_v55 : FVec F S2000x500 .f32 := broadcastInDim S2000x500 ![] bcast_S_S2000x500 main_cst_20
  let main_v56 : IVec S2000x500 1 := cmpf .olt main_v54 main_v55
  let main_c_21 : IVec S_ 1 := constantI S_ 1 1#1
  let main_v57 : IVec S_ 1 := (fun x v => Host.reduce IntOp.andi x v reducesTo_S2000x500_S_d0_1 h_S_) main_v56 main_c_21
  let main_v58 : IVec S_ 1 := andi main_v53 main_v57
  let main_v59 : FVec F S500 .f32 := Host.absf main_arg12
  let main_cst_22 : FVec F S_ .f32 := constant S_ .f32 0x7F800000#32
  let main_v60 : FVec F S500 .f32 := broadcastInDim S500 ![] bcast_S_S500 main_cst_22
  let main_v61 : IVec S500 1 := cmpf .olt main_v59 main_v60
  let main_c_23 : IVec S_ 1 := constantI S_ 1 1#1
  let main_v62 : IVec S_ 1 := (fun x v => Host.reduce IntOp.andi x v reducesTo_S500_S_d0 h_S_) main_v61 main_c_23
  let main_v63 : IVec S_ 1 := andi main_v58 main_v62
  let main_v64 : FVec F S500x500 .f32 := Host.absf main_arg13
  let main_cst_24 : FVec F S_ .f32 := constant S_ .f32 0x7F800000#32
  let main_v65 : FVec F S500x500 .f32 := broadcastInDim S500x500 ![] bcast_S_S500x500 main_cst_24
  let main_v66 : IVec S500x500 1 := cmpf .olt main_v64 main_v65
  let main_c_25 : IVec S_ 1 := constantI S_ 1 1#1
  let main_v67 : IVec S_ 1 := (fun x v => Host.reduce IntOp.andi x v reducesTo_S500x500_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v63 main_v67

def fn_part2 {F : FTy → Type} [FloatOps F] (main_arg7 : FVec F S2000x10 .f32) (main_arg8 : FVec F S10 .f32) (main_arg9 : FVec F S3072x2000 .f32) (main_arg10 : FVec F S2000 .f32) (main_arg11 : FVec F S2000x500 .f32) (main_arg12 : FVec F S500 .f32) (main_arg13 : FVec F S500x500 .f32) (main_arg14 : FVec F S500 .f32) (main_arg15 : FVec F S500x784 .f32) (main_arg16 : FVec F S784 .f32) (main_arg17 : FVec F S3072x3072 .f32) (main_arg18 : FVec F S3072x3072 .f32) (main_arg19 : FVec F S3072x3072 .f32) (main_arg20 : FVec F S3072x3072 .f32) (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v33 : IVec S_ 1) : IVec S_ 1 :=
  let main_v34 : FVec F S2000x10 .f32 := Host.absf main_arg7
  let main_cst_12 : FVec F S_ .f32 := constant S_ .f32 0x7F800000#32
  let main_v35 : FVec F S2000x10 .f32 := broadcastInDim S2000x10 ![] bcast_S_S2000x10 main_cst_12
  let main_v36 : IVec S2000x10 1 := cmpf .olt main_v34 main_v35
  let main_c_13 : IVec S_ 1 := constantI S_ 1 1#1
  let main_v37 : IVec S_ 1 := (fun x v => Host.reduce IntOp.andi x v reducesTo_S2000x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S3072x2000 .f32 := Host.absf main_arg9
  let main_cst_16 : FVec F S_ .f32 := constant S_ .f32 0x7F800000#32
  let main_v45 : FVec F S3072x2000 .f32 := broadcastInDim S3072x2000 ![] bcast_S_S3072x2000 main_cst_16
  let main_v46 : IVec S3072x2000 1 := cmpf .olt main_v44 main_v45
  let main_c_17 : IVec S_ 1 := constantI S_ 1 1#1
  let main_v47 : IVec S_ 1 := (fun x v => Host.reduce IntOp.andi x v reducesTo_S3072x2000_S_d0_1 h_S_) main_v46 main_c_17
  let main_v48 : IVec S_ 1 := andi main_v43 main_v47
  let main_v49 : FVec F S2000 .f32 := Host.absf main_arg10
  let main_cst_18 : FVec F S_ .f32 := constant S_ .f32 0x7F800000#32
  let main_v50 : FVec F S2000 .f32 := broadcastInDim S2000 ![] bcast_S_S2000 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg4 : FVec F S500 .f32) (main_arg5 : FVec F S500x2000 .f32) (main_arg6 : FVec F S2000 .f32) (main_arg7 : FVec F S2000x10 .f32) (main_arg8 : FVec F S10 .f32) (main_arg9 : FVec F S3072x2000 .f32) (main_arg10 : FVec F S2000 .f32) (main_arg11 : FVec F S2000x500 .f32) (main_arg12 : FVec F S500 .f32) (main_arg13 : FVec F S500x500 .f32) (main_arg14 : FVec F S500 .f32) (main_arg15 : FVec F S500x784 .f32) (main_arg16 : FVec F S784 .f32) (main_arg17 : FVec F S3072x3072 .f32) (main_arg18 : FVec F S3072x3072 .f32) (main_arg19 : FVec F S3072x3072 .f32) (main_arg20 : FVec F S3072x3072 .f32) (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) (main_v13 : IVec S_ 1) (main_v16 : IVec S500x500 1) : IVec S_ 1 :=
  let main_c_5 : IVec S_ 1 := constantI S_ 1 1#1
  let main_v17 : IVec S_ 1 := (fun x v => Host.reduce IntOp.andi x v reducesTo_S500x500_S_d0_1 h_S_) main_v16 main_c_5
  let main_v18 : IVec S_ 1 := andi main_v13 main_v17
  let main_v19 : FVec F S500 .f32 := Host.absf main_arg4
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S500x2000 .f32 := Host.absf main_arg5
  let main_cst_8 : FVec F S_ .f32 := constant S_ .f32 0x7F800000#32
  let main_v25 : FVec F S500x2000 .f32 := broadcastInDim S500x2000 ![] bcast_S_S500x2000 main_cst_8
  let main_v26 : IVec S500x2000 1 := cmpf .olt main_v24 main_v25
  let main_c_9 : IVec S_ 1 := constantI S_ 1 1#1
  let main_v27 : IVec S_ 1 := (fun x v => Host.reduce IntOp.andi x v reducesTo_S500x2000_S_d0_1 h_S_) main_v26 main_c_9
  let main_v28 : IVec S_ 1 := andi main_v23 main_v27
  let main_v29 : FVec F S2000 .f32 := Host.absf main_arg6
  let main_cst_10 : FVec F S_ .f32 := constant S_ .f32 0x7F800000#32
  let main_v30 : FVec F S2000 .f32 := broadcastInDim S2000 ![] bcast_S_S2000 main_cst_10
  let main_v31 : IVec S2000 1 := cmpf .olt main_v29 main_v30
  let main_c_11 : IVec S_ 1 := constantI S_ 1 1#1
  let main_v32 : IVec S_ 1 := (fun x v => Host.reduce IntOp.andi x v reducesTo_S2000_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S3072x784 .f32) (main_arg1 : FVec F S784x500 .f32) (main_arg2 : FVec F S500 .f32) (main_arg3 : FVec F S500x500 .f32) (main_arg4 : FVec F S500 .f32) (main_arg5 : FVec F S500x2000 .f32) (main_arg6 : FVec F S2000 .f32) (main_arg7 : FVec F S2000x10 .f32) (main_arg8 : FVec F S10 .f32) (main_arg9 : FVec F S3072x2000 .f32) (main_arg10 : FVec F S2000 .f32) (main_arg11 : FVec F S2000x500 .f32) (main_arg12 : FVec F S500 .f32) (main_arg13 : FVec F S500x500 .f32) (main_arg14 : FVec F S500 .f32) (main_arg15 : FVec F S500x784 .f32) (main_arg16 : FVec F S784 .f32) (main_arg17 : FVec F S3072x3072 .f32) (main_arg18 : FVec F S3072x3072 .f32) (main_arg19 : FVec F S3072x3072 .f32) (main_arg20 : FVec F S3072x3072 .f32) (main_arg21 : FVec F S3072x3072 .f32) (main_arg22 : FVec F S3072x3072 .f32) (main_arg23 : FVec F S3072x3072 .f32) (main_arg24 : FVec F S3072x3072 .f32) (main_arg25 : FVec F S3072x3072 .f32) (main_arg26 : FVec F S3072x3072 .f32) (main_arg27 : FVec F S3072x3072 .f32) (main_arg28 : FVec F S3072x3072 .f32) (main_arg29 : FVec F S3072x3072 .f32) (main_arg30 : FVec F S3072x3072 .f32) (main_arg31 : FVec F S3072x3072 .f32) (main_arg32 : FVec F S3072x3072 .f32) (main_arg33 : FVec F S3072x3072 .f32) (main_arg34 : FVec F S3072x3072 .f32) (main_arg35 : FVec F S3072x3072 .f32) (main_arg36 : FVec F S3072x3072 .f32) (main_arg37 : FVec F S10x3072 .f32) : IVec S_ 1 :=
  let main_v0 : FVec F S3072x784 .f32 := Host.absf main_arg0
  let main_cst : FVec F S_ .f32 := constant S_ .f32 0x7F800000#32
  let main_v1 : FVec F S3072x784 .f32 := broadcastInDim S3072x784 ![] bcast_S_S3072x784 main_cst
  let main_v2 : IVec S3072x784 1 := cmpf .olt main_v0 main_v1
  let main_c : IVec S_ 1 := constantI S_ 1 1#1
  let main_v3 : IVec S_ 1 := (fun x v => Host.reduce IntOp.andi x v reducesTo_S3072x784_S_d0_1 h_S_) main_v2 main_c
  let main_v4 : FVec F S784x500 .f32 := Host.absf main_arg1
  let main_cst_0 : FVec F S_ .f32 := constant S_ .f32 0x7F800000#32
  let main_v5 : FVec F S784x500 .f32 := broadcastInDim S784x500 ![] bcast_S_S784x500 main_cst_0
  let main_v6 : IVec S784x500 1 := cmpf .olt main_v4 main_v5
  let main_c_1 : IVec S_ 1 := constantI S_ 1 1#1
  let main_v7 : IVec S_ 1 := (fun x v => Host.reduce IntOp.andi x v reducesTo_S784x500_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500x500 .f32 := Host.absf main_arg3
  let main_cst_4 : FVec F S_ .f32 := constant S_ .f32 0x7F800000#32
  let main_v15 : FVec F S500x500 .f32 := broadcastInDim S500x500 ![] bcast_S_S500x500 main_cst_4
  let main_v16 : IVec S500x500 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S3072x784 : Shape := ⟨2, ![3072, 784]⟩
abbrev S784x500 : Shape := ⟨2, ![784, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S3072x2000 : Shape := ⟨2, ![3072, 2000]⟩
abbrev S2000x500 : Shape := ⟨2, ![2000, 500]⟩
abbrev S500x784 : Shape := ⟨2, ![500, 784]⟩
abbrev S784 : Shape := ⟨1, ![784]⟩
abbrev S3072x3072 : Shape := ⟨2, ![3072, 3072]⟩
abbrev S10x3072 : Shape := ⟨2, ![10, 3072]⟩
abbrev S1x500 : Shape := ⟨2, ![1, 500]⟩
abbrev S3072x500 : Shape := ⟨2, ![3072, 500]⟩
abbrev S256x784 : Shape := ⟨2, ![256, 784]⟩
abbrev S256x500 : Shape := ⟨2, ![256, 500]⟩
abbrev S_ : Shape := ⟨0, ![]⟩
abbrev S3072 : Shape := ⟨1, ![3072]⟩
abbrev S3072x1 : Shape := ⟨2, ![3072, 1]⟩
abbrev S1x3072 : Shape := ⟨2, ![1, 3072]⟩
abbrev S64x500 : Shape := ⟨2, ![64, 500]⟩
abbrev S64x1 : Shape := ⟨2, ![64, 1]⟩
abbrev S64x3072 : Shape := ⟨2, ![64, 3072]⟩
abbrev S64 : Shape := ⟨1, ![64]⟩
abbrev S1x2000 : Shape := ⟨2, ![1, 2000]⟩
abbrev S256x2000 : Shape := ⟨2, ![256, 2000]⟩
abbrev S64x2000 : Shape := ⟨2, ![64, 2000]⟩
abbrev S1x10 : Shape := ⟨2, ![1, 10]⟩
abbrev S3072x10 : Shape := ⟨2, ![3072, 10]⟩
abbrev S256x10 : Shape := ⟨2, ![256, 10]⟩
abbrev S64x10 : Shape := ⟨2, ![64, 10]⟩
abbrev S128x3072 : Shape := ⟨2, ![128, 3072]⟩
abbrev S256x3072 : Shape := ⟨2, ![256, 3072]⟩
abbrev S1x784 : Shape := ⟨2, ![1, 784]⟩
abbrev S3072x10x3072 : Shape := ⟨3, ![3072, 10, 3072]⟩
abbrev S64x10x3072 : Shape := ⟨3, ![64, 10, 3072]⟩
abbrev S64x1x3072 : Shape := ⟨3, ![64, 1, 3072]⟩
abbrev S1x10x3072 : Shape := ⟨3, ![1, 10, 3072]⟩

abbrev nBuf : Space → Nat
  | .hbm => 112
  | .vmem => 179
  | .smem => 0
  | _ => 0

abbrev vmemTy0_0 (i : Nat) : BufTy := match i % 128 with
  | 0 => ⟨S256x784, .bf16⟩
  | 1 => ⟨S256x784, .bf16⟩
  | 2 => ⟨S784x500, .bf16⟩
  | 3 => ⟨S1x500, .f32⟩
  | 4 => ⟨S256x500, .f32⟩
  | 5 => ⟨S256x500, .f32⟩
  | 6 => ⟨S64x500, .bf16⟩
  | 7 => ⟨S64x500, .bf16⟩
  | 8 => ⟨S3072x500, .bf16⟩
  | 9 => ⟨S64x1, .f32⟩
  | 10 => ⟨S64x1, .f32⟩
  | 11 => ⟨S1x3072, .f32⟩
  | 12 => ⟨S64x1, .f32⟩
  | 13 => ⟨S64x1, .f32⟩
  | 14 => ⟨S64x500, .bf16⟩
  | 15 => ⟨S64x500, .bf16⟩
  | 16 => ⟨S3072x500, .bf16⟩
  | 17 => ⟨S64x1, .f32⟩
  | 18 => ⟨S64x1, .f32⟩
  | 19 => ⟨S1x3072, .f32⟩
  | 20 => ⟨S64x1, .f32⟩
  | 21 => ⟨S64x1, .f32⟩
  | 22 => ⟨S1x3072, .f32⟩
  | 23 => ⟨S64x3072, .f32⟩
  | 24 => ⟨S64x3072, .f32⟩
  | 25 => ⟨S64x3072, .f32⟩
  | 26 => ⟨S64x3072, .f32⟩
  | 27 => ⟨S64x3072, .f32⟩
  | 28 => ⟨S64x3072, .f32⟩
  | 29 => ⟨S64x3072, .f32⟩
  | 30 => ⟨S64x3072, .f32⟩
  | 31 => ⟨S64x3072, .f32⟩
  | 32 => ⟨S64x3072, .f32⟩
  | 33 => ⟨S256x500, .bf16⟩
  | 34 => ⟨S256x500, .bf16⟩
  | 35 => ⟨S500x500, .bf16⟩
  | 36 => ⟨S1x500, .f32⟩
  | 37 => ⟨S256x500, .f32⟩
  | 38 => ⟨S256x500, .f32⟩
  | 39 => ⟨S64x500, .bf16⟩
  | 40 => ⟨S64x500, .bf16⟩
  | 41 => ⟨S3072x500, .bf16⟩
  | 42 => ⟨S64x1, .f32⟩
  | 43 => ⟨S64x1, .f32⟩
  | 44 => ⟨S1x3072, .f32⟩
  | 45 => ⟨S64x1, .f32⟩
  | 46 => ⟨S64x1, .f32⟩
  | 47 => ⟨S64x500, .bf16⟩
  | 48 => ⟨S64x500, .bf16⟩
  | 49 => ⟨S3072x500, .bf16⟩
  | 50 => ⟨S64x1, .f32⟩
  | 51 => ⟨S64x1, .f32⟩
  | 52 => ⟨S1x3072, .f32⟩
  | 53 => ⟨S64x1, .f32⟩
  | 54 => ⟨S64x1, .f32⟩
  | 55 => ⟨S1x3072, .f32⟩
  | 56 => ⟨S64x3072, .f32⟩
  | 57 => ⟨S64x3072, .f32⟩
  | 58 => ⟨S64x3072, .f32⟩
  | 59 => ⟨S64x3072, .f32⟩
  | 60 => ⟨S64x3072, .f32⟩
  | 61 => ⟨S64x3072, .f32⟩
  | 62 => ⟨S64x3072, .f32⟩
  | 63 => ⟨S64x3072, .f32⟩
  | 64 => ⟨S64x3072, .f32⟩
  | 65 => ⟨S64x3072, .f32⟩
  | 66 => ⟨S256x500, .bf16⟩
  | 67 => ⟨S256x500, .bf16⟩
  | 68 => ⟨S500x2000, .bf16⟩
  | 69 => ⟨S1x2000, .f32⟩
  | 70 => ⟨S256x2000, .f32⟩
  | 71 => ⟨S256x2000, .f32⟩
  | 72 => ⟨S64x2000, .bf16⟩
  | 73 => ⟨S64x2000, .bf16⟩
  | 74 => ⟨S3072x2000, .bf16⟩
  | 75 => ⟨S64x1, .f32⟩
  | 76 => ⟨S64x1, .f32⟩
  | 77 => ⟨S1x3072, .f32⟩
  | 78 => ⟨S64x1, .f32⟩
  | 79 => ⟨S64x1, .f32⟩
  | 80 => ⟨S64x2000, .bf16⟩
  | 81 => ⟨S64x2000, .bf16⟩
  | 82 => ⟨S3072x2000, .bf16⟩
  | 83 => ⟨S64x1, .f32⟩
  | 84 => ⟨S64x1, .f32⟩
  | 85 => ⟨S1x3072, .f32⟩
  | 86 => ⟨S64x1, .f32⟩
  | 87 => ⟨S64x1, .f32⟩
  | 88 => ⟨S1x3072, .f32⟩
  | 89 => ⟨S64x3072, .f32⟩
  | 90 => ⟨S64x3072, .f32⟩
  | 91 => ⟨S64x3072, .f32⟩
  | 92 => ⟨S64x3072, .f32⟩
  | 93 => ⟨S64x3072, .f32⟩
  | 94 => ⟨S64x3072, .f32⟩
  | 95 => ⟨S64x3072, .f32⟩
  | 96 => ⟨S64x3072, .f32⟩
  | 97 => ⟨S64x3072, .f32⟩
  | 98 => ⟨S64x3072, .f32⟩
  | 99 => ⟨S256x2000, .bf16⟩
  | 100 => ⟨S256x2000, .bf16⟩
  | 101 => ⟨S2000x10, .bf16⟩
  | 102 => ⟨S1x10, .f32⟩
  | 103 => ⟨S256x10, .f32⟩
  | 104 => ⟨S256x10, .f32⟩
  | 105 => ⟨S64x10, .bf16⟩
  | 106 => ⟨S64x10, .bf16⟩
  | 107 => ⟨S3072x10, .bf16⟩
  | 108 => ⟨S64x1, .f32⟩
  | 109 => ⟨S64x1, .f32⟩
  | 110 => ⟨S1x3072, .f32⟩
  | 111 => ⟨S64x1, .f32⟩
  | 112 => ⟨S64x1, .f32⟩
  | 113 => ⟨S64x10, .bf16⟩
  | 114 => ⟨S64x10, .bf16⟩
  | 115 => ⟨S3072x10, .bf16⟩
  | 116 => ⟨S64x1, .f32⟩
  | 117 => ⟨S64x1, .f32⟩
  | 118 => ⟨S1x3072, .f32⟩
  | 119 => ⟨S64x1, .f32⟩
  | 120 => ⟨S64x1, .f32⟩
  | 121 => ⟨S1x3072, .f32⟩
  | 122 => ⟨S64x3072, .f32⟩
  | 123 => ⟨S64x3072, .f32⟩
  | 124 => ⟨S64x3072, .f32⟩
  | 125 => ⟨S64x3072, .f32⟩
  | 126 => ⟨S64x3072, .f32⟩
  | 127 => ⟨S64x3072, .f32⟩
  | _ => ⟨S3072x784, .f32⟩

abbrev vmemTy0_1 (i : Nat) : BufTy := match i % 128 with
  | 0 => ⟨S64x3072, .f32⟩
  | 1 => ⟨S64x3072, .f32⟩
  | 2 => ⟨S64x3072, .f32⟩
  | 3 => ⟨S64x3072, .f32⟩
  | 4 => ⟨S128x3072, .f32⟩
  | 5 => ⟨S128x3072, .f32⟩
  | 6 => ⟨S128x3072, .f32⟩
  | 7 => ⟨S128x3072, .f32⟩
  | 8 => ⟨S128x3072, .f32⟩
  | 9 => ⟨S128x3072, .f32⟩
  | 10 => ⟨S128x3072, .f32⟩
  | 11 => ⟨S128x3072, .f32⟩
  | 12 => ⟨S128x3072, .f32⟩
  | 13 => ⟨S128x3072, .f32⟩
  | 14 => ⟨S128x3072, .f32⟩
  | 15 => ⟨S128x3072, .f32⟩
  | 16 => ⟨S128x3072, .f32⟩
  | 17 => ⟨S128x3072, .f32⟩
  | 18 => ⟨S128x3072, .f32⟩
  | 19 => ⟨S128x3072, .f32⟩
  | 20 => ⟨S128x3072, .f32⟩
  | 21 => ⟨S128x3072, .f32⟩
  | 22 => ⟨S256x3072, .bf16⟩
  | 23 => ⟨S256x3072, .bf16⟩
  | 24 => ⟨S3072x2000, .bf16⟩
  | 25 => ⟨S1x2000, .f32⟩
  | 26 => ⟨S256x2000, .f32⟩
  | 27 => ⟨S256x2000, .f32⟩
  | 28 => ⟨S256x2000, .bf16⟩
  | 29 => ⟨S256x2000, .bf16⟩
  | 30 => ⟨S2000x500, .bf16⟩
  | 31 => ⟨S1x500, .f32⟩
  | 32 => ⟨S256x500, .f32⟩
  | 33 => ⟨S256x500, .f32⟩
  | 34 => ⟨S256x500, .bf16⟩
  | 35 => ⟨S256x500, .bf16⟩
  | 36 => ⟨S500x500, .bf16⟩
  | 37 => ⟨S1x500, .f32⟩
  | 38 => ⟨S256x500, .f32⟩
  | 39 => ⟨S256x500, .f32⟩
  | 40 => ⟨S256x500, .bf16⟩
  | 41 => ⟨S256x500, .bf16⟩
  | 42 => ⟨S500x784, .bf16⟩
  | 43 => ⟨S1x784, .f32⟩
  | 44 => ⟨S256x784, .f32⟩
  | 45 => ⟨S256x784, .f32⟩
  | 46 => ⟨S64x3072, .f32⟩
  | 47 => ⟨S64x3072, .f32⟩
  | 48 => ⟨S10x3072, .f32⟩
  | 49 => ⟨S64x10x3072, .f32⟩
  | 50 => ⟨S64x10x3072, .f32⟩
  | _ => ⟨S3072x784, .f32⟩

abbrev vmemTy (i : Nat) : BufTy := match i / 128 with
  | 0 => vmemTy0_0 i
  | 1 => vmemTy0_1 i
  | _ => ⟨S3072x784, .f32⟩

abbrev bufTy : (tb : Table) → Fin (tcTables nBuf tb) → BufTy
  | .hbm, ⟨0, _⟩ => ⟨S3072x784, .f32⟩
  | .hbm, ⟨1, _⟩ => ⟨S784x500, .f32⟩
  | .hbm, ⟨2, _⟩ => ⟨S500, .f32⟩
  | .hbm, ⟨3, _⟩ => ⟨S500x500, .f32⟩
  | .hbm, ⟨4, _⟩ => ⟨S500, .f32⟩
  | .hbm, ⟨5, _⟩ => ⟨S500x2000, .f32⟩
  | .hbm, ⟨6, _⟩ => ⟨S2000, .f32⟩
  | .hbm, ⟨7, _⟩ => ⟨S2000x10, .f32⟩
  | .hbm, ⟨8, _⟩ => ⟨S10, .f32⟩
  | .hbm, ⟨9, _⟩ => ⟨S3072x2000, .f32⟩
  | .hbm, ⟨10, _⟩ => ⟨S2000, .f32⟩
  | .hbm, ⟨11, _⟩ => ⟨S2000x500, .f32⟩
  | .hbm, ⟨12, _⟩ => ⟨S500, .f32⟩
  | .hbm, ⟨13, _⟩ => ⟨S500x500, .f32⟩
  | .hbm, ⟨14, _⟩ => ⟨S500, .f32⟩
  | .hbm, ⟨15, _⟩ => ⟨S500x784, .f32⟩
  | .hbm, ⟨16, _⟩ => ⟨S784, .f32⟩
  | .hbm, ⟨17, _⟩ => ⟨S3072x3072, .f32⟩
  | .hbm, ⟨18, _⟩ => ⟨S3072x3072, .f32⟩
  | .hbm, ⟨19, _⟩ => ⟨S3072x3072, .f32⟩
  | .hbm, ⟨20, _⟩ => ⟨S3072x3072, .f32⟩
  | .hbm, ⟨21, _⟩ => ⟨S3072x3072, .f32⟩
  | .hbm, ⟨22, _⟩ => ⟨S3072x3072, .f32⟩
  | .hbm, ⟨23, _⟩ => ⟨S3072x3072, .f32⟩
  | .hbm, ⟨24, _⟩ => ⟨S3072x3072, .f32⟩
  | .hbm, ⟨25, _⟩ => ⟨S3072x3072, .f32⟩
  | .hbm, ⟨26, _⟩ => ⟨S3072x3072, .f32⟩
  | .hbm, ⟨27, _⟩ => ⟨S3072x3072, .f32⟩
  | .hbm, ⟨28, _⟩ => ⟨S3072x3072, .f32⟩
  | .hbm, ⟨29, _⟩ => ⟨S3072x3072, .f32⟩
  | .hbm, ⟨30, _⟩ => ⟨S3072x3072, .f32⟩
  | .hbm, ⟨31, _⟩ => ⟨S3072x3072, .f32⟩
  | .hbm, ⟨32, _⟩ => ⟨S3072x3072, .f32⟩
  | .hbm, ⟨33, _⟩ => ⟨S3072x3072, .f32⟩
  | .hbm, ⟨34, _⟩ => ⟨S3072x3072, .f32⟩
  | .hbm, ⟨35, _⟩ => ⟨S3072x3072, .f32⟩
  | .hbm, ⟨36, _⟩ => ⟨S3072x3072, .f32⟩
  | .hbm, ⟨37, _⟩ => ⟨S10x3072, .f32⟩
  | .hbm, ⟨38, _⟩ => ⟨S3072x784, .bf16⟩
  | .hbm, ⟨39, _⟩ => ⟨S784x500, .bf16⟩
  | .hbm, ⟨40, _⟩ => ⟨S1x500, .f32⟩
  | .hbm, ⟨41, _⟩ => ⟨S3072x500, .f32⟩
  | .hbm, ⟨42, _⟩ => ⟨S3072x500, .bf16⟩
  | .hbm, ⟨43, _⟩ => ⟨S3072x500, .f32⟩
  | .hbm, ⟨44, _⟩ => ⟨S3072x500, .f32⟩
  | .hbm, ⟨45, _⟩ => ⟨S_, .f32⟩
  | .hbm, ⟨46, _⟩ => ⟨S3072, .f32⟩
  | .hbm, ⟨47, _⟩ => ⟨S3072x1, .f32⟩
  | .hbm, ⟨48, _⟩ => ⟨S1x3072, .f32⟩
  | .hbm, ⟨49, _⟩ => ⟨S3072x1, .f32⟩
  | .hbm, ⟨50, _⟩ => ⟨S1x3072, .f32⟩
  | .hbm, ⟨51, _⟩ => ⟨S3072x3072, .f32⟩
  | .hbm, ⟨52, _⟩ => ⟨S3072x500, .bf16⟩
  | .hbm, ⟨53, _⟩ => ⟨S500x500, .bf16⟩
  | .hbm, ⟨54, _⟩ => ⟨S1x500, .f32⟩
  | .hbm, ⟨55, _⟩ => ⟨S3072x500, .f32⟩
  | .hbm, ⟨56, _⟩ => ⟨S3072x500, .bf16⟩
  | .hbm, ⟨57, _⟩ => ⟨S3072x500, .f32⟩
  | .hbm, ⟨58, _⟩ => ⟨S3072x500, .f32⟩
  | .hbm, ⟨59, _⟩ => ⟨S_, .f32⟩
  | .hbm, ⟨60, _⟩ => ⟨S3072, .f32⟩
  | .hbm, ⟨61, _⟩ => ⟨S3072x1, .f32⟩
  | .hbm, ⟨62, _⟩ => ⟨S1x3072, .f32⟩
  | .hbm, ⟨63, _⟩ => ⟨S3072x1, .f32⟩
  | .hbm, ⟨64, _⟩ => ⟨S1x3072, .f32⟩
  | .hbm, ⟨65, _⟩ => ⟨S3072x3072, .f32⟩
  | .hbm, ⟨66, _⟩ => ⟨S3072x500, .bf16⟩
  | .hbm, ⟨67, _⟩ => ⟨S500x2000, .bf16⟩
  | .hbm, ⟨68, _⟩ => ⟨S1x2000, .f32⟩
  | .hbm, ⟨69, _⟩ => ⟨S3072x2000, .f32⟩
  | .hbm, ⟨70, _⟩ => ⟨S3072x2000, .bf16⟩
  | .hbm, ⟨71, _⟩ => ⟨S3072x2000, .f32⟩
  | .hbm, ⟨72, _⟩ => ⟨S3072x2000, .f32⟩
  | .hbm, ⟨73, _⟩ => ⟨S_, .f32⟩
  | .hbm, ⟨74, _⟩ => ⟨S3072, .f32⟩
  | .hbm, ⟨75, _⟩ => ⟨S3072x1, .f32⟩
  | .hbm, ⟨76, _⟩ => ⟨S1x3072, .f32⟩
  | .hbm, ⟨77, _⟩ => ⟨S3072x1, .f32⟩
  | .hbm, ⟨78, _⟩ => ⟨S1x3072, .f32⟩
  | .hbm, ⟨79, _⟩ => ⟨S3072x3072, .f32⟩
  | .hbm, ⟨80, _⟩ => ⟨S3072x2000, .bf16⟩
  | .hbm, ⟨81, _⟩ => ⟨S2000x10, .bf16⟩
  | .hbm, ⟨82, _⟩ => ⟨S1x10, .f32⟩
  | .hbm, ⟨83, _⟩ => ⟨S3072x10, .f32⟩
  | .hbm, ⟨84, _⟩ => ⟨S3072x10, .bf16⟩
  | .hbm, ⟨85, _⟩ => ⟨S3072x10, .f32⟩
  | .hbm, ⟨86, _⟩ => ⟨S3072x10, .f32⟩
  | .hbm, ⟨87, _⟩ => ⟨S_, .f32⟩
  | .hbm, ⟨88, _⟩ => ⟨S3072, .f32⟩
  | .hbm, ⟨89, _⟩ => ⟨S3072x1, .f32⟩
  | .hbm, ⟨90, _⟩ => ⟨S1x3072, .f32⟩
  | .hbm, ⟨91, _⟩ => ⟨S3072x1, .f32⟩
  | .hbm, ⟨92, _⟩ => ⟨S1x3072, .f32⟩
  | .hbm, ⟨93, _⟩ => ⟨S3072x3072, .f32⟩
  | .hbm, ⟨94, _⟩ => ⟨S3072x3072, .f32⟩
  | .hbm, ⟨95, _⟩ => ⟨S3072x3072, .bf16⟩
  | .hbm, ⟨96, _⟩ => ⟨S3072x2000, .bf16⟩
  | .hbm, ⟨97, _⟩ => ⟨S1x2000, .f32⟩
  | .hbm, ⟨98, _⟩ => ⟨S3072x2000, .f32⟩
  | .hbm, ⟨99, _⟩ => ⟨S3072x2000, .bf16⟩
  | .hbm, ⟨100, _⟩ => ⟨S2000x500, .bf16⟩
  | .hbm, ⟨101, _⟩ => ⟨S1x500, .f32⟩
  | .hbm, ⟨102, _⟩ => ⟨S3072x500, .f32⟩
  | .hbm, ⟨103, _⟩ => ⟨S3072x500, .bf16⟩
  | .hbm, ⟨104, _⟩ => ⟨S500x500, .bf16⟩
  | .hbm, ⟨105, _⟩ => ⟨S1x500, .f32⟩
  | .hbm, ⟨106, _⟩ => ⟨S3072x500, .f32⟩
  | .hbm, ⟨107, _⟩ => ⟨S3072x500, .bf16⟩
  | .hbm, ⟨108, _⟩ => ⟨S500x784, .bf16⟩
  | .hbm, ⟨109, _⟩ => ⟨S1x784, .f32⟩
  | .hbm, ⟨110, _⟩ => ⟨S3072x784, .f32⟩
  | .hbm, ⟨111, _⟩ => ⟨S3072x10x3072, .f32⟩
  | .local _ .vmem, ⟨i, _⟩ => vmemTy i
  | _, _ => ⟨S3072x784, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 179 → Bool
  | ⟨i, _⟩ => dmaSemScopedAt i

abbrev sig : RefSig :=
  ofTc nBuf bufTy 0 179 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_2 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc5_stg7_1 : Ref sig .tc := ⟨.vmem, 59, rfl⟩
abbrev cc5_stg8_0 : Ref sig .tc := ⟨.vmem, 60, rfl⟩
abbrev cc5_stg8_1 : Ref sig .tc := ⟨.vmem, 61, rfl⟩
abbrev cc5_stg9_0 : Ref sig .tc := ⟨.vmem, 62, rfl⟩
abbrev cc5_stg9_1 : Ref sig .tc := ⟨.vmem, 63, rfl⟩
abbrev cc5_stg10_0 : Ref sig .tc := ⟨.vmem, 64, rfl⟩
abbrev cc5_stg10_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg3_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg2_1 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg4_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg2_1 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg4_1 : Ref sig .tc := ⟨.vmem, 87, rfl⟩
abbrev cc8_stg5_0 : Ref sig .tc := ⟨.vmem, 88, rfl⟩
abbrev cc8_stg6_0 : Ref sig .tc := ⟨.vmem, 89, rfl⟩
abbrev cc8_stg6_1 : Ref sig .tc := ⟨.vmem, 90, rfl⟩
abbrev cc8_stg7_0 : Ref sig .tc := ⟨.vmem, 91, rfl⟩
abbrev cc8_stg7_1 : Ref sig .tc := ⟨.vmem, 92, rfl⟩
abbrev cc8_stg8_0 : Ref sig .tc := ⟨.vmem, 93, rfl⟩
abbrev cc8_stg8_1 : Ref sig .tc := ⟨.vmem, 94, rfl⟩
abbrev cc8_stg9_0 : Ref sig .tc := ⟨.vmem, 95, rfl⟩
abbrev cc8_stg9_1 : Ref sig .tc := ⟨.vmem, 96, rfl⟩
abbrev cc8_stg10_0 : Ref sig .tc := ⟨.vmem, 97, rfl⟩
abbrev cc8_stg10_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg2_0 : Ref sig .tc := ⟨.vmem, 102, rfl⟩
abbrev cc9_stg3_0 : Ref sig .tc := ⟨.vmem, 103, rfl⟩
abbrev cc9_stg3_1 : Ref sig .tc := ⟨.vmem, 104, rfl⟩
abbrev cc10_stg0_0 : Ref sig .tc := ⟨.vmem, 105, rfl⟩
abbrev cc10_stg0_1 : Ref sig .tc := ⟨.vmem, 106, rfl⟩
abbrev cc10_stg1_0 : Ref sig .tc := ⟨.vmem, 107, rfl⟩
abbrev cc10_stg2_0 : Ref sig .tc := ⟨.vmem, 108, rfl⟩
abbrev cc10_stg2_1 : Ref sig .tc := ⟨.vmem, 109, rfl⟩
abbrev cc10_stg3_0 : Ref sig .tc := ⟨.vmem, 110, rfl⟩
abbrev cc10_stg4_0 : Ref sig .tc := ⟨.vmem, 111, rfl⟩
abbrev cc10_stg4_1 : Ref sig .tc := ⟨.vmem, 112, rfl⟩
abbrev cc11_stg0_0 : Ref sig .tc := ⟨.vmem, 113, rfl⟩
abbrev cc11_stg0_1 : Ref sig .tc := ⟨.vmem, 114, rfl⟩
abbrev cc11_stg1_0 : Ref sig .tc := ⟨.vmem, 115, rfl⟩
abbrev cc11_stg2_0 : Ref sig .tc := ⟨.vmem, 116, rfl⟩
abbrev cc11_stg2_1 : Ref sig .tc := ⟨.vmem, 117, rfl⟩
abbrev cc11_stg3_0 : Ref sig .tc := ⟨.vmem, 118, rfl⟩
abbrev cc11_stg4_0 : Ref sig .tc := ⟨.vmem, 119, rfl⟩
abbrev cc11_stg4_1 : Ref sig .tc := ⟨.vmem, 120, rfl⟩
abbrev cc11_stg5_0 : Ref sig .tc := ⟨.vmem, 121, rfl⟩
abbrev cc11_stg6_0 : Ref sig .tc := ⟨.vmem, 122, rfl⟩
abbrev cc11_stg6_1 : Ref sig .tc := ⟨.vmem, 123, rfl⟩
abbrev cc11_stg7_0 : Ref sig .tc := ⟨.vmem, 124, rfl⟩
abbrev cc11_stg7_1 : Ref sig .tc := ⟨.vmem, 125, rfl⟩
abbrev cc11_stg8_0 : Ref sig .tc := ⟨.vmem, 126, rfl⟩
abbrev cc11_stg8_1 : Ref sig .tc := ⟨.vmem, 127, rfl⟩
abbrev cc11_stg9_0 : Ref sig .tc := ⟨.vmem, 128, rfl⟩
abbrev cc11_stg9_1 : Ref sig .tc := ⟨.vmem, 129, rfl⟩
abbrev cc11_stg10_0 : Ref sig .tc := ⟨.vmem, 130, rfl⟩
abbrev cc11_stg10_1 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg1_1 : Ref sig .tc := ⟨.vmem, 135, rfl⟩
abbrev cc12_stg2_0 : Ref sig .tc := ⟨.vmem, 136, rfl⟩
abbrev cc12_stg2_1 : Ref sig .tc := ⟨.vmem, 137, rfl⟩
abbrev cc12_stg3_0 : Ref sig .tc := ⟨.vmem, 138, rfl⟩
abbrev cc12_stg3_1 : Ref sig .tc := ⟨.vmem, 139, rfl⟩
abbrev cc12_stg4_0 : Ref sig .tc := ⟨.vmem, 140, rfl⟩
abbrev cc12_stg4_1 : Ref sig .tc := ⟨.vmem, 141, rfl⟩
abbrev cc12_stg5_0 : Ref sig .tc := ⟨.vmem, 142, rfl⟩
abbrev cc12_stg5_1 : Ref sig .tc := ⟨.vmem, 143, rfl⟩
abbrev cc12_stg6_0 : Ref sig .tc := ⟨.vmem, 144, rfl⟩
abbrev cc12_stg6_1 : Ref sig .tc := ⟨.vmem, 145, rfl⟩
abbrev cc12_stg7_0 : Ref sig .tc := ⟨.vmem, 146, rfl⟩
abbrev cc12_stg7_1 : Ref sig .tc := ⟨.vmem, 147, rfl⟩
abbrev cc12_stg8_0 : Ref sig .tc := ⟨.vmem, 148, rfl⟩
abbrev cc12_stg8_1 : Ref sig .tc := ⟨.vmem, 149, rfl⟩
abbrev cc13_stg0_0 : Ref sig .tc := ⟨.vmem, 150, rfl⟩
abbrev cc13_stg0_1 : Ref sig .tc := ⟨.vmem, 151, rfl⟩
abbrev cc13_stg1_0 : Ref sig .tc := ⟨.vmem, 152, rfl⟩
abbrev cc13_stg2_0 : Ref sig .tc := ⟨.vmem, 153, rfl⟩
abbrev cc13_stg3_0 : Ref sig .tc := ⟨.vmem, 154, rfl⟩
abbrev cc13_stg3_1 : Ref sig .tc := ⟨.vmem, 155, rfl⟩
abbrev cc14_stg0_0 : Ref sig .tc := ⟨.vmem, 156, rfl⟩
abbrev cc14_stg0_1 : Ref sig .tc := ⟨.vmem, 157, rfl⟩
abbrev cc14_stg1_0 : Ref sig .tc := ⟨.vmem, 158, rfl⟩
abbrev cc14_stg2_0 : Ref sig .tc := ⟨.vmem, 159, rfl⟩
abbrev cc14_stg3_0 : Ref sig .tc := ⟨.vmem, 160, rfl⟩
abbrev cc14_stg3_1 : Ref sig .tc := ⟨.vmem, 161, rfl⟩
abbrev cc15_stg0_0 : Ref sig .tc := ⟨.vmem, 162, rfl⟩
abbrev cc15_stg0_1 : Ref sig .tc := ⟨.vmem, 163, rfl⟩
abbrev cc15_stg1_0 : Ref sig .tc := ⟨.vmem, 164, rfl⟩
abbrev cc15_stg2_0 : Ref sig .tc := ⟨.vmem, 165, rfl⟩
abbrev cc15_stg3_0 : Ref sig .tc := ⟨.vmem, 166, rfl⟩
abbrev cc15_stg3_1 : Ref sig .tc := ⟨.vmem, 167, rfl⟩
abbrev cc16_stg0_0 : Ref sig .tc := ⟨.vmem, 168, rfl⟩
abbrev cc16_stg0_1 : Ref sig .tc := ⟨.vmem, 169, rfl⟩
abbrev cc16_stg1_0 : Ref sig .tc := ⟨.vmem, 170, rfl⟩
abbrev cc16_stg2_0 : Ref sig .tc := ⟨.vmem, 171, rfl⟩
abbrev cc16_stg3_0 : Ref sig .tc := ⟨.vmem, 172, rfl⟩
abbrev cc16_stg3_1 : Ref sig .tc := ⟨.vmem, 173, rfl⟩
abbrev cc17_stg0_0 : Ref sig .tc := ⟨.vmem, 174, rfl⟩
abbrev cc17_stg0_1 : Ref sig .tc := ⟨.vmem, 175, rfl⟩
abbrev cc17_stg1_0 : Ref sig .tc := ⟨.vmem, 176, rfl⟩
abbrev cc17_stg2_0 : Ref sig .tc := ⟨.vmem, 177, rfl⟩
abbrev cc17_stg2_1 : Ref sig .tc := ⟨.vmem, 178, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc2_sem9_0 : DmaSem sig := 29
abbrev cc2_sem9_1 : DmaSem sig := 30
abbrev cc2_sem10_0 : DmaSem sig := 31
abbrev cc2_sem10_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem4_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem4_1 : DmaSem sig := 54
abbrev cc5_sem5_0 : DmaSem sig := 55
abbrev cc5_sem6_0 : DmaSem sig := 56
abbrev cc5_sem6_1 : DmaSem sig := 57
abbrev cc5_sem7_0 : DmaSem sig := 58
abbrev cc5_sem7_1 : DmaSem sig := 59
abbrev cc5_sem8_0 : DmaSem sig := 60
abbrev cc5_sem8_1 : DmaSem sig := 61
abbrev cc5_sem9_0 : DmaSem sig := 62
abbrev cc5_sem9_1 : DmaSem sig := 63
abbrev cc5_sem10_0 : DmaSem sig := 64
abbrev cc5_sem10_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem3_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem2_1 : DmaSem sig := 76
abbrev cc7_sem3_0 : DmaSem sig := 77
abbrev cc7_sem4_0 : DmaSem sig := 78
abbrev cc7_sem4_1 : DmaSem sig := 79
abbrev cc8_sem0_0 : DmaSem sig := 80
abbrev cc8_sem0_1 : DmaSem sig := 81
abbrev cc8_sem1_0 : DmaSem sig := 82
abbrev cc8_sem2_0 : DmaSem sig := 83
abbrev cc8_sem2_1 : DmaSem sig := 84
abbrev cc8_sem3_0 : DmaSem sig := 85
abbrev cc8_sem4_0 : DmaSem sig := 86
abbrev cc8_sem4_1 : DmaSem sig := 87
abbrev cc8_sem5_0 : DmaSem sig := 88
abbrev cc8_sem6_0 : DmaSem sig := 89
abbrev cc8_sem6_1 : DmaSem sig := 90
abbrev cc8_sem7_0 : DmaSem sig := 91
abbrev cc8_sem7_1 : DmaSem sig := 92
abbrev cc8_sem8_0 : DmaSem sig := 93
abbrev cc8_sem8_1 : DmaSem sig := 94
abbrev cc8_sem9_0 : DmaSem sig := 95
abbrev cc8_sem9_1 : DmaSem sig := 96
abbrev cc8_sem10_0 : DmaSem sig := 97
abbrev cc8_sem10_1 : DmaSem sig := 98
abbrev cc9_sem0_0 : DmaSem sig := 99
abbrev cc9_sem0_1 : DmaSem sig := 100
abbrev cc9_sem1_0 : DmaSem sig := 101
abbrev cc9_sem2_0 : DmaSem sig := 102
abbrev cc9_sem3_0 : DmaSem sig := 103
abbrev cc9_sem3_1 : DmaSem sig := 104
abbrev cc10_sem0_0 : DmaSem sig := 105
abbrev cc10_sem0_1 : DmaSem sig := 106
abbrev cc10_sem1_0 : DmaSem sig := 107
abbrev cc10_sem2_0 : DmaSem sig := 108
abbrev cc10_sem2_1 : DmaSem sig := 109
abbrev cc10_sem3_0 : DmaSem sig := 110
abbrev cc10_sem4_0 : DmaSem sig := 111
abbrev cc10_sem4_1 : DmaSem sig := 112
abbrev cc11_sem0_0 : DmaSem sig := 113
abbrev cc11_sem0_1 : DmaSem sig := 114
abbrev cc11_sem1_0 : DmaSem sig := 115
abbrev cc11_sem2_0 : DmaSem sig := 116
abbrev cc11_sem2_1 : DmaSem sig := 117
abbrev cc11_sem3_0 : DmaSem sig := 118
abbrev cc11_sem4_0 : DmaSem sig := 119
abbrev cc11_sem4_1 : DmaSem sig := 120
abbrev cc11_sem5_0 : DmaSem sig := 121
abbrev cc11_sem6_0 : DmaSem sig := 122
abbrev cc11_sem6_1 : DmaSem sig := 123
abbrev cc11_sem7_0 : DmaSem sig := 124
abbrev cc11_sem7_1 : DmaSem sig := 125
abbrev cc11_sem8_0 : DmaSem sig := 126
abbrev cc11_sem8_1 : DmaSem sig := 127
abbrev cc11_sem9_0 : DmaSem sig := 128
abbrev cc11_sem9_1 : DmaSem sig := 129
abbrev cc11_sem10_0 : DmaSem sig := 130
abbrev cc11_sem10_1 : DmaSem sig := 131
abbrev cc12_sem0_0 : DmaSem sig := 132
abbrev cc12_sem0_1 : DmaSem sig := 133
abbrev cc12_sem1_0 : DmaSem sig := 134
abbrev cc12_sem1_1 : DmaSem sig := 135
abbrev cc12_sem2_0 : DmaSem sig := 136
abbrev cc12_sem2_1 : DmaSem sig := 137
abbrev cc12_sem3_0 : DmaSem sig := 138
abbrev cc12_sem3_1 : DmaSem sig := 139
abbrev cc12_sem4_0 : DmaSem sig := 140
abbrev cc12_sem4_1 : DmaSem sig := 141
abbrev cc12_sem5_0 : DmaSem sig := 142
abbrev cc12_sem5_1 : DmaSem sig := 143
abbrev cc12_sem6_0 : DmaSem sig := 144
abbrev cc12_sem6_1 : DmaSem sig := 145
abbrev cc12_sem7_0 : DmaSem sig := 146
abbrev cc12_sem7_1 : DmaSem sig := 147
abbrev cc12_sem8_0 : DmaSem sig := 148
abbrev cc12_sem8_1 : DmaSem sig := 149
abbrev cc13_sem0_0 : DmaSem sig := 150
abbrev cc13_sem0_1 : DmaSem sig := 151
abbrev cc13_sem1_0 : DmaSem sig := 152
abbrev cc13_sem2_0 : DmaSem sig := 153
abbrev cc13_sem3_0 : DmaSem sig := 154
abbrev cc13_sem3_1 : DmaSem sig := 155
abbrev cc14_sem0_0 : DmaSem sig := 156
abbrev cc14_sem0_1 : DmaSem sig := 157
abbrev cc14_sem1_0 : DmaSem sig := 158
abbrev cc14_sem2_0 : DmaSem sig := 159
abbrev cc14_sem3_0 : DmaSem sig := 160
abbrev cc14_sem3_1 : DmaSem sig := 161
abbrev cc15_sem0_0 : DmaSem sig := 162
abbrev cc15_sem0_1 : DmaSem sig := 163
abbrev cc15_sem1_0 : DmaSem sig := 164
abbrev cc15_sem2_0 : DmaSem sig := 165
abbrev cc15_sem3_0 : DmaSem sig := 166
abbrev cc15_sem3_1 : DmaSem sig := 167
abbrev cc16_sem0_0 : DmaSem sig := 168
abbrev cc16_sem0_1 : DmaSem sig := 169
abbrev cc16_sem1_0 : DmaSem sig := 170
abbrev cc16_sem2_0 : DmaSem sig := 171
abbrev cc16_sem3_0 : DmaSem sig := 172
abbrev cc16_sem3_1 : DmaSem sig := 173
abbrev cc17_sem0_0 : DmaSem sig := 174
abbrev cc17_sem0_1 : DmaSem sig := 175
abbrev cc17_sem1_0 : DmaSem sig := 176
abbrev cc17_sem2_0 : DmaSem sig := 177
abbrev cc17_sem2_1 : DmaSem sig := 178

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x500 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x500 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x3072 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![48], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x500 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3072x500 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S64x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x3072 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S64x3072 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x3072 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S64x3072 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S64x3072 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S64x3072 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x500 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S500x500 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x500 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x500 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![48], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x500 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3072x500 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S64x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x3072 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S64x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![48], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S64x500 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3072x500 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S64x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x3072 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S64x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x3072 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S64x3072 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S64x3072 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S64x3072 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S64x3072 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S64x3072 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![12], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x500 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S500x2000 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2000 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x2000 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![48], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S64x2000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3072x2000 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S64x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x3072 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S64x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![48], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S64x2000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S3072x2000 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S64x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x3072 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S64x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x3072 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S64x3072 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S64x3072 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S64x3072 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S64x3072 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 2 → Memref sig .tc .vmem S64x3072 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev grid9 : Pipeline.Grid := ⟨1, ![12], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x2000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2000x10 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S256x10 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![48], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S64x10 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S3072x10 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S64x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x3072 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S64x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![48], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S64x10 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S3072x10 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S64x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x3072 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S64x1 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S1x3072 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S64x3072 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S64x3072 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S64x3072 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S64x3072 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev stage11_10 : Fin 2 → Memref sig .tc .vmem S64x3072 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev grid12 : Pipeline.Grid := ⟨1, ![24], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x3072 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S128x3072 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S128x3072 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S128x3072 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S128x3072 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S128x3072 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S128x3072 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S128x3072 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S128x3072 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev grid13 : Pipeline.Grid := ⟨1, ![12], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S256x3072 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S3072x2000 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x2000 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S256x2000 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![12], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S256x2000 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S2000x500 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x500 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S256x500 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![12], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S256x500 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S500x500 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x500 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S256x500 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![12], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S256x500 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S500x784 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x784 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S256x784 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![48], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage17_0 : Fin 2 → Memref sig .tc .vmem S64x3072 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S10x3072 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S64x10x3072 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

class Facts₀ : Prop where
  bitsLt_bf16_f32 : FTy.bits .bf16 < FTy.bits .f32
  shapeCasts_S500_S1x500 : S500.ShapeCasts S1x500
  inb_S256x784_S256x784_0_0 : ∀ a, (![0, 0] : Fin 2 → Nat) a + S256x784.size a ≤ S256x784.size a
  h_S256x784 : 0 < S256x784.numel
  shapeCasts_S256x784_S256x784 : S256x784.ShapeCasts S256x784
  inb_S784x500_S784x500_0_0 : ∀ a, (![0, 0] : Fin 2 → Nat) a + S784x500.size a ≤ S784x500.size a
  h_S784x500 : 0 < S784x500.numel
  shapeCasts_S784x500_S784x500 : S784x500.ShapeCasts S784x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S256x500 : S1x500.Broadcasts S256x500
  inb_S256x500_S256x500_0_0 : ∀ a, (![0, 0] : Fin 2 → Nat) a + S256x500.size a ≤ S256x500.size a
  h_S256x500 : 0 < S256x500.numel
  reducesTo_S3072x500_S3072_d1 : S3072x500.ReducesTo [1] S3072
  h_S_ : 0 < S_.numel
  shapeCasts_S3072_S3072x1 : S3072.ShapeCasts S3072x1
  shapeCasts_S3072_S1x3072 : S3072.ShapeCasts S1x3072
  inb_S64x500_S64x500_0_0 : ∀ a, (![0, 0] : Fin 2 → Nat) a + S64x500.size a ≤ S64x500.size a
  h_S64x500 : 0 < S64x500.numel
  shapeCasts_S64x500_S64x500 : S64x500.ShapeCasts S64x500
  inb_S3072x500_S3072x500_0_0 : ∀ a, (![0, 0] : Fin 2 → Nat) a + S3072x500.size a ≤ S3072x500.size a
  h_S3072x500 : 0 < S3072x500.numel
  shapeCasts_S3072x500_S3072x500 : S3072x500.ShapeCasts S3072x500
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S64x1_S64x3072 : S64x1.Broadcasts S64x3072
  broadcasts_S1x3072_S64x3072 : S1x3072.Broadcasts S64x3072
  iota_S64x3072_d0_w32 : S64x3072.Iotas .tc 32 [0]
  iota_S64x3072_d1_w32 : S64x3072.Iotas .tc 32 [1]
  natLt_1_32 : 1 < 32
  reduces_S64x3072_S64 : S64x3072.Reduces [1] S64
  shapeCasts_S64_S64x1 : S64.ShapeCasts S64x1
  shapeCasts_S3072x1_S1x3072 : S3072x1.ShapeCasts S1x3072
  inb_S64x3072_S64x3072_0_0 : ∀ a, (![0, 0] : Fin 2 → Nat) a + S64x3072.size a ≤ S64x3072.size a
  h_S64x3072 : 0 < S64x3072.numel
  shapeCasts_S256x500_S256x500 : S256x500.ShapeCasts S256x500
  inb_S500x500_S500x500_0_0 : ∀ a, (![0, 0] : Fin 2 → Nat) a + S500x500.size a ≤ S500x500.size a
  h_S500x500 : 0 < S500x500.numel
  shapeCasts_S500x500_S500x500 : S500x500.ShapeCasts S500x500
  shapeCasts_S2000_S1x2000 : S2000.ShapeCasts S1x2000
  inb_S500x2000_S500x2000_0_0 : ∀ a, (![0, 0] : Fin 2 → Nat) a + S500x2000.size a ≤ S500x2000.size a
  h_S500x2000 : 0 < S500x2000.numel
  shapeCasts_S500x2000_S500x2000 : S500x2000.ShapeCasts S500x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S256x2000 : S1x2000.Broadcasts S256x2000
  inb_S256x2000_S256x2000_0_0 : ∀ a, (![0, 0] : Fin 2 → Nat) a + S256x2000.size a ≤ S256x2000.size a
  h_S256x2000 : 0 < S256x2000.numel
  reducesTo_S3072x2000_S3072_d1 : S3072x2000.ReducesTo [1] S3072
  inb_S64x2000_S64x2000_0_0 : ∀ a, (![0, 0] : Fin 2 → Nat) a + S64x2000.size a ≤ S64x2000.size a
  h_S64x2000 : 0 < S64x2000.numel
  shapeCasts_S64x2000_S64x2000 : S64x2000.ShapeCasts S64x2000
  inb_S3072x2000_S3072x2000_0_0 : ∀ a, (![0, 0] : Fin 2 → Nat) a + S3072x2000.size a ≤ S3072x2000.size a
  h_S3072x2000 : 0 < S3072x2000.numel
  shapeCasts_S3072x2000_S3072x2000 : S3072x2000.ShapeCasts S3072x2000
  shapeCasts_S10_S1x10 : S10.ShapeCasts S1x10
  shapeCasts_S256x2000_S256x2000 : S256x2000.ShapeCasts S256x2000
  inb_S2000x10_S2000x10_0_0 : ∀ a, (![0, 0] : Fin 2 → Nat) a + S2000x10.size a ≤ S2000x10.size a
  h_S2000x10 : 0 < S2000x10.numel
  shapeCasts_S2000x10_S2000x10 : S2000x10.ShapeCasts S2000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  reducesTo_S3072x10_S3072_d1 : S3072x10.ReducesTo [1] S3072
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S3072x10_S3072x10_0_0 : ∀ a, (![0, 0] : Fin 2 → Nat) a + S3072x10.size a ≤ S3072x10.size a
  h_S3072x10 : 0 < S3072x10.numel
  shapeCasts_S3072x10_S3072x10 : S3072x10.ShapeCasts S3072x10
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S2000x500_S2000x500_0_0 : ∀ a, (![0, 0] : Fin 2 → Nat) a + S2000x500.size a ≤ S2000x500.size a
  h_S2000x500 : 0 < S2000x500.numel
  shapeCasts_S2000x500_S2000x500 : S2000x500.ShapeCasts S2000x500
  shapeCasts_S784_S1x784 : S784.ShapeCasts S1x784
  inb_S500x784_S500x784_0_0 : ∀ a, (![0, 0] : Fin 2 → Nat) a + S500x784.size a ≤ S500x784.size a
  h_S500x784 : 0 < S500x784.numel
  shapeCasts_S500x784_S500x784 : S500x784.ShapeCasts S500x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S256x784 : S1x784.Broadcasts S256x784
  shapeCasts_S64x3072_S64x3072 : S64x3072.ShapeCasts S64x3072
  inb_S10x3072_S10x3072_0_0 : ∀ a, (![0, 0] : Fin 2 → Nat) a + S10x3072.size a ≤ S10x3072.size a
  h_S10x3072 : 0 < S10x3072.numel
  shapeCasts_S64x3072_S64x1x3072 : S64x3072.ShapeCasts S64x1x3072
  shapeCasts_S10x3072_S1x10x3072 : S10x3072.ShapeCasts S1x10x3072
  broadcasts_S64x1x3072_S64x10x3072 : S64x1x3072.Broadcasts S64x10x3072
  broadcasts_S1x10x3072_S64x10x3072 : S1x10x3072.Broadcasts S64x10x3072
  inb_S64x10x3072_S64x10x3072_0_0_0 : ∀ a, (![0, 0, 0] : Fin 3 → Nat) a + S64x10x3072.size a ≤ S64x10x3072.size a
  h_S64x10x3072 : 0 < S64x10x3072.numel
  dot_S256x784_S784x500_S256x500_1_0_0_1_n_n_wf : DotDims.WF S256x784 S784x500 S256x500 [1] [0] [0] [1] [] []
  dot_S64x500_S3072x500_S64x3072_1_1_0_0_n_n_wf : DotDims.WF S64x500 S3072x500 S64x3072 [1] [1] [0] [0] [] []
  dot_S256x500_S500x500_S256x500_1_0_0_1_n_n_wf : DotDims.WF S256x500 S500x500 S256x500 [1] [0] [0] [1] [] []
  dot_S256x500_S500x2000_S256x2000_1_0_0_1_n_n_wf : DotDims.WF S256x500 S500x2000 S256x2000 [1] [0] [0] [1] [] []
  dot_S64x2000_S3072x2000_S64x3072_1_1_0_0_n_n_wf : DotDims.WF S64x2000 S3072x2000 S64x3072 [1] [1] [0] [0] [] []
  dot_S256x2000_S2000x10_S256x10_1_0_0_1_n_n_wf : DotDims.WF S256x2000 S2000x10 S256x10 [1] [0] [0] [1] [] []
  dot_S64x10_S3072x10_S64x3072_1_1_0_0_n_n_wf : DotDims.WF S64x10 S3072x10 S64x3072 [1] [1] [0] [0] [] []
  dot_S256x3072_S3072x2000_S256x2000_1_0_0_1_n_n_wf : DotDims.WF S256x3072 S3072x2000 S256x2000 [1] [0] [0] [1] [] []
  dot_S256x2000_S2000x500_S256x500_1_0_0_1_n_n_wf : DotDims.WF S256x2000 S2000x500 S256x500 [1] [0] [0] [1] [] []
  dot_S256x500_S500x784_S256x784_1_0_0_1_n_n_wf : DotDims.WF S256x500 S500x784 S256x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S3072x784.size a
  hwx0_0 : ∀ i : grid0.Coords, EltTy.bits .bf16 = 32 ∨ (Rect.block (s := S3072x784) S256x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x500.size a ≤ S784x500.size a
  hwx0_1 : ∀ i : grid0.Coords, EltTy.bits .bf16 = 32 ∨ (Rect.block (s := S784x500) S784x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x500.size a ≤ S3072x500.size a
  hwx0_3 : ∀ i : grid0.Coords, EltTy.bits .f32 = 32 ∨ (Rect.block (s := S3072x500) S256x500.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x500.size a ≤ S3072x500.size a
  hwx1_0 : ∀ i : grid1.Coords, EltTy.bits .bf16 = 32 ∨ (Rect.block (s := S3072x500) S64x500.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x500.size a ≤ S3072x500.size a
  hwx1_1 : ∀ i : grid1.Coords, EltTy.bits .bf16 = 32 ∨ (Rect.block (s := S3072x500) S3072x500.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S3072x1.size a
  hwx1_2 : ∀ i : grid1.Coords, EltTy.bits .f32 = 32 ∨ (Rect.block (s := S3072x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3072.size a ≤ S1x3072.size a
  hwx1_3 : ∀ i : grid1.Coords, EltTy.bits .f32 = 32 ∨ (Rect.block (s := S1x3072) S1x3072.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S3072x1.size a
  hwx1_4 : ∀ i : grid1.Coords, EltTy.bits .f32 = 32 ∨ (Rect.block (s := S3072x1) S64x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x500.size a ≤ S3072x500.size a
  hwx2_0 : ∀ i : grid2.Coords, EltTy.bits .bf16 = 32 ∨ (Rect.block (s := S3072x500) S64x500.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3072x500.size a ≤ S3072x500.size a
  hwx2_1 : ∀ i : grid2.Coords, EltTy.bits .bf16 = 32 ∨ (Rect.block (s := S3072x500) S3072x500.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S3072x1.size a
  hwx2_2 : ∀ i : grid2.Coords, EltTy.bits .f32 = 32 ∨ (Rect.block (s := S3072x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x3072.size a ≤ S1x3072.size a
  hwx2_3 : ∀ i : grid2.Coords, EltTy.bits .f32 = 32 ∨ (Rect.block (s := S1x3072) S1x3072.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S3072x1.size a
  hwx2_4 : ∀ i : grid2.Coords, EltTy.bits .f32 = 32 ∨ (Rect.block (s := S3072x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x3072.size a ≤ S1x3072.size a
  hwx2_5 : ∀ i : grid2.Coords, EltTy.bits .f32 = 32 ∨ (Rect.block (s := S1x3072) S1x3072.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x3072.size a ≤ S3072x3072.size a
  hwx2_6 : ∀ i : grid2.Coords, EltTy.bits .f32 = 32 ∨ (Rect.block (s := S3072x3072) S64x3072.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S64x3072.size a ≤ S3072x3072.size a
  hwx2_7 : ∀ i : grid2.Coords, EltTy.bits .f32 = 32 ∨ (Rect.block (s := S3072x3072) S64x3072.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S64x3072.size a ≤ S3072x3072.size a
  hwx2_8 : ∀ i : grid2.Coords, EltTy.bits .f32 = 32 ∨ (Rect.block (s := S3072x3072) S64x3072.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S64x3072.size a ≤ S3072x3072.size a
  hwx2_9 : ∀ i : grid2.Coords, EltTy.bits .f32 = 32 ∨ (Rect.block (s := S3072x3072) S64x3072.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S64x3072.size a ≤ S3072x3072.size a
  hwx2_10 : ∀ i : grid2.Coords, EltTy.bits .f32 = 32 ∨ (Rect.block (s := S3072x3072) S64x3072.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x500.size a ≤ S3072x500.size a
  hwx3_0 : ∀ i : grid3.Coords, EltTy.bits .bf16 = 32 ∨ (Rect.block (s := S3072x500) S256x500.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S500x500.size a ≤ S500x500.size a
  hwx3_1 : ∀ i : grid3.Coords, EltTy.bits .bf16 = 32 ∨ (Rect.block (s := S500x500) S500x500.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x500.size a ≤ S1x500.size a
  hwx3_2 : ∀ i : grid3.Coords, EltTy.bits .f32 = 32 ∨ (Rect.block (s := S1x500) S1x500.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x500.size a ≤ S3072x500.size a
  hwx3_3 : ∀ i : grid3.Coords, EltTy.bits .f32 = 32 ∨ (Rect.block (s := S3072x500) S256x500.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x500.size a ≤ S3072x500.size a
  hwx4_0 : ∀ i : grid4.Coords, EltTy.bits .bf16 = 32 ∨ (Rect.block (s := S3072x500) S64x500.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3072x500.size a ≤ S3072x500.size a
  hwx4_1 : ∀ i : grid4.Coords, EltTy.bits .bf16 = 32 ∨ (Rect.block (s := S3072x500) S3072x500.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S3072x1.size a
  hwx4_2 : ∀ i : grid4.Coords, EltTy.bits .f32 = 32 ∨ (Rect.block (s := S3072x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x3072.size a ≤ S1x3072.size a
  hwx4_3 : ∀ i : grid4.Coords, EltTy.bits .f32 = 32 ∨ (Rect.block (s := S1x3072) S1x3072.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S3072x1.size a
  hwx4_4 : ∀ i : grid4.Coords, EltTy.bits .f32 = 32 ∨ (Rect.block (s := S3072x1) S64x1.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x500.size a ≤ S3072x500.size a
  hwx5_0 : ∀ i : grid5.Coords, EltTy.bits .bf16 = 32 ∨ (Rect.block (s := S3072x500) S64x500.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3072x500.size a ≤ S3072x500.size a
  hwx5_1 : ∀ i : grid5.Coords, EltTy.bits .bf16 = 32 ∨ (Rect.block (s := S3072x500) S3072x500.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S3072x1.size a
  hwx5_2 : ∀ i : grid5.Coords, EltTy.bits .f32 = 32 ∨ (Rect.block (s := S3072x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x3072.size a ≤ S1x3072.size a
  hwx5_3 : ∀ i : grid5.Coords, EltTy.bits .f32 = 32 ∨ (Rect.block (s := S1x3072) S1x3072.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S64x1.size a ≤ S3072x1.size a
  hwx5_4 : ∀ i : grid5.Coords, EltTy.bits .f32 = 32 ∨ (Rect.block (s := S3072x1) S64x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x3072.size a ≤ S1x3072.size a
  hwx5_5 : ∀ i : grid5.Coords, EltTy.bits .f32 = 32 ∨ (Rect.block (s := S1x3072) S1x3072.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S64x3072.size a ≤ S3072x3072.size a
  hwx5_6 : ∀ i : grid5.Coords, EltTy.bits .f32 = 32 ∨ (Rect.block (s := S3072x3072) S64x3072.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S64x3072.size a ≤ S3072x3072.size a
  hwx5_7 : ∀ i : grid5.Coords, EltTy.bits .f32 = 32 ∨ (Rect.block (s := S3072x3072) S64x3072.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S64x3072.size a ≤ S3072x3072.size a
  hwx5_8 : ∀ i : grid5.Coords, EltTy.bits .f32 = 32 ∨ (Rect.block (s := S3072x3072) S64x3072.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S64x3072.size a ≤ S3072x3072.size a
  hwx5_9 : ∀ i : grid5.Coords, EltTy.bits .f32 = 32 ∨ (Rect.block (s := S3072x3072) S64x3072.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S64x3072.size a ≤ S3072x3072.size a
  hwx5_10 : ∀ i : grid5.Coords, EltTy.bits .f32 = 32 ∨ (Rect.block (s := S3072x3072) S64x3072.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x500.size a ≤ S3072x500.size a
  hwx6_0 : ∀ i : grid6.Coords, EltTy.bits .bf16 = 32 ∨ (Rect.block (s := S3072x500) S256x500.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S500x2000.size a ≤ S500x2000.size a
  hwx6_1 : ∀ i : grid6.Coords, EltTy.bits .bf16 = 32 ∨ (Rect.block (s := S500x2000) S500x2000.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2000.size a ≤ S1x2000.size a
  hwx6_2 : ∀ i : grid6.Coords, EltTy.bits .f32 = 32 ∨ (Rect.block (s := S1x2000) S1x2000.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x2000.size a ≤ S3072x2000.size a
  hwx6_3 : ∀ i : grid6.Coords, EltTy.bits .f32 = 32 ∨ (Rect.block (s := S3072x2000) S256x2000.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x2000.size a ≤ S3072x2000.size a
  hwx7_0 : ∀ i : grid7.Coords, EltTy.bits .bf16 = 32 ∨ (Rect.block (s := S3072x2000) S64x2000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S3072x2000.size a ≤ S3072x2000.size a
  hwx7_1 : ∀ i : grid7.Coords, EltTy.bits .bf16 = 32 ∨ (Rect.block (s := S3072x2000) S3072x2000.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S64x1.size a ≤ S3072x1.size a
  hwx7_2 : ∀ i : grid7.Coords, EltTy.bits .f32 = 32 ∨ (Rect.block (s := S3072x1) S64x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x3072.size a ≤ S1x3072.size a
  hwx7_3 : ∀ i : grid7.Coords, EltTy.bits .f32 = 32 ∨ (Rect.block (s := S1x3072) S1x3072.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S64x1.size a ≤ S3072x1.size a
  hwx7_4 : ∀ i : grid7.Coords, EltTy.bits .f32 = 32 ∨ (Rect.block (s := S3072x1) S64x1.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S64x2000.size a ≤ S3072x2000.size a
  hwx8_0 : ∀ i : grid8.Coords, EltTy.bits .bf16 = 32 ∨ (Rect.block (s := S3072x2000) S64x2000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S3072x2000.size a ≤ S3072x2000.size a
  hwx8_1 : ∀ i : grid8.Coords, EltTy.bits .bf16 = 32 ∨ (Rect.block (s := S3072x2000) S3072x2000.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S64x1.size a ≤ S3072x1.size a
  hwx8_2 : ∀ i : grid8.Coords, EltTy.bits .f32 = 32 ∨ (Rect.block (s := S3072x1) S64x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x3072.size a ≤ S1x3072.size a
  hwx8_3 : ∀ i : grid8.Coords, EltTy.bits .f32 = 32 ∨ (Rect.block (s := S1x3072) S1x3072.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S64x1.size a ≤ S3072x1.size a
  hwx8_4 : ∀ i : grid8.Coords, EltTy.bits .f32 = 32 ∨ (Rect.block (s := S3072x1) S64x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x3072.size a ≤ S1x3072.size a
  hwx8_5 : ∀ i : grid8.Coords, EltTy.bits .f32 = 32 ∨ (Rect.block (s := S1x3072) S1x3072.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S64x3072.size a ≤ S3072x3072.size a
  hwx8_6 : ∀ i : grid8.Coords, EltTy.bits .f32 = 32 ∨ (Rect.block (s := S3072x3072) S64x3072.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S64x3072.size a ≤ S3072x3072.size a
  hwx8_7 : ∀ i : grid8.Coords, EltTy.bits .f32 = 32 ∨ (Rect.block (s := S3072x3072) S64x3072.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S64x3072.size a ≤ S3072x3072.size a
  hwx8_8 : ∀ i : grid8.Coords, EltTy.bits .f32 = 32 ∨ (Rect.block (s := S3072x3072) S64x3072.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S64x3072.size a ≤ S3072x3072.size a
  hwx8_9 : ∀ i : grid8.Coords, EltTy.bits .f32 = 32 ∨ (Rect.block (s := S3072x3072) S64x3072.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S64x3072.size a ≤ S3072x3072.size a
  hwx8_10 : ∀ i : grid8.Coords, EltTy.bits .f32 = 32 ∨ (Rect.block (s := S3072x3072) S64x3072.size (cc8_transform_10 i) (hinb8_10 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x2000.size a ≤ S3072x2000.size a
  hwx9_0 : ∀ i : grid9.Coords, EltTy.bits .bf16 = 32 ∨ (Rect.block (s := S3072x2000) S256x2000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2000x10.size a ≤ S2000x10.size a
  hwx9_1 : ∀ i : grid9.Coords, EltTy.bits .bf16 = 32 ∨ (Rect.block (s := S2000x10) S2000x10.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S256x10.size a ≤ S3072x10.size a
  hwx9_3 : ∀ i : grid9.Coords, EltTy.bits .f32 = 32 ∨ (Rect.block (s := S3072x10) S256x10.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S64x10.size a ≤ S3072x10.size a
  hwx10_0 : ∀ i : grid10.Coords, EltTy.bits .bf16 = 32 ∨ (Rect.block (s := S3072x10) S64x10.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S3072x10.size a ≤ S3072x10.size a
  hwx10_1 : ∀ i : grid10.Coords, EltTy.bits .bf16 = 32 ∨ (Rect.block (s := S3072x10) S3072x10.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S64x1.size a ≤ S3072x1.size a
  hwx10_2 : ∀ i : grid10.Coords, EltTy.bits .f32 = 32 ∨ (Rect.block (s := S3072x1) S64x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x3072.size a ≤ S1x3072.size a
  hwx10_3 : ∀ i : grid10.Coords, EltTy.bits .f32 = 32 ∨ (Rect.block (s := S1x3072) S1x3072.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S64x1.size a ≤ S3072x1.size a
  hwx10_4 : ∀ i : grid10.Coords, EltTy.bits .f32 = 32 ∨ (Rect.block (s := S3072x1) S64x1.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S64x10.size a ≤ S3072x10.size a
  hwx11_0 : ∀ i : grid11.Coords, EltTy.bits .bf16 = 32 ∨ (Rect.block (s := S3072x10) S64x10.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S3072x10.size a ≤ S3072x10.size a
  hwx11_1 : ∀ i : grid11.Coords, EltTy.bits .bf16 = 32 ∨ (Rect.block (s := S3072x10) S3072x10.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S64x1.size a ≤ S3072x1.size a
  hwx11_2 : ∀ i : grid11.Coords, EltTy.bits .f32 = 32 ∨ (Rect.block (s := S3072x1) S64x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x3072.size a ≤ S1x3072.size a
  hwx11_3 : ∀ i : grid11.Coords, EltTy.bits .f32 = 32 ∨ (Rect.block (s := S1x3072) S1x3072.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S64x1.size a ≤ S3072x1.size a
  hwx11_4 : ∀ i : grid11.Coords, EltTy.bits .f32 = 32 ∨ (Rect.block (s := S3072x1) S64x1.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x3072.size a ≤ S1x3072.size a
  hwx11_5 : ∀ i : grid11.Coords, EltTy.bits .f32 = 32 ∨ (Rect.block (s := S1x3072) S1x3072.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S64x3072.size a ≤ S3072x3072.size a
  hwx11_6 : ∀ i : grid11.Coords, EltTy.bits .f32 = 32 ∨ (Rect.block (s := S3072x3072) S64x3072.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S64x3072.size a ≤ S3072x3072.size a
  hwx11_7 : ∀ i : grid11.Coords, EltTy.bits .f32 = 32 ∨ (Rect.block (s := S3072x3072) S64x3072.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S64x3072.size a ≤ S3072x3072.size a
  hwx11_8 : ∀ i : grid11.Coords, EltTy.bits .f32 = 32 ∨ (Rect.block (s := S3072x3072) S64x3072.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S64x3072.size a ≤ S3072x3072.size a
  hwx11_9 : ∀ i : grid11.Coords, EltTy.bits .f32 = 32 ∨ (Rect.block (s := S3072x3072) S64x3072.size (cc11_transform_9 i) (hinb11_9 i)).WholeWords (EltTy.packing .f32)
  hstage11_10 : ∀ j, (stage11_10 j).IsWhole
  nbuf11_10 : grid11.bufCount reads11_10 false = 2
  hreads11_10 : ∀ i i' : grid11.Coords, (∀ a, reads11_10 a = true → i a = i' a) → cc11_transform_10 i = cc11_transform_10 i'
  hinb11_10 : ∀ (i : grid11.Coords) a, (cc11_transform_10 i a + 1) * S64x3072.size a ≤ S3072x3072.size a
  hwx11_10 : ∀ i : grid11.Coords, EltTy.bits .f32 = 32 ∨ (Rect.block (s := S3072x3072) S64x3072.size (cc11_transform_10 i) (hinb11_10 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S128x3072.size a ≤ S3072x3072.size a
  hwx12_0 : ∀ i : grid12.Coords, EltTy.bits .f32 = 32 ∨ (Rect.block (s := S3072x3072) S128x3072.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S128x3072.size a ≤ S3072x3072.size a
  hwx12_1 : ∀ i : grid12.Coords, EltTy.bits .f32 = 32 ∨ (Rect.block (s := S3072x3072) S128x3072.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S128x3072.size a ≤ S3072x3072.size a
  hwx12_2 : ∀ i : grid12.Coords, EltTy.bits .f32 = 32 ∨ (Rect.block (s := S3072x3072) S128x3072.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S128x3072.size a ≤ S3072x3072.size a
  hwx12_3 : ∀ i : grid12.Coords, EltTy.bits .f32 = 32 ∨ (Rect.block (s := S3072x3072) S128x3072.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S128x3072.size a ≤ S3072x3072.size a
  hwx12_4 : ∀ i : grid12.Coords, EltTy.bits .f32 = 32 ∨ (Rect.block (s := S3072x3072) S128x3072.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S128x3072.size a ≤ S3072x3072.size a
  hwx12_5 : ∀ i : grid12.Coords, EltTy.bits .f32 = 32 ∨ (Rect.block (s := S3072x3072) S128x3072.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S128x3072.size a ≤ S3072x3072.size a
  hwx12_6 : ∀ i : grid12.Coords, EltTy.bits .f32 = 32 ∨ (Rect.block (s := S3072x3072) S128x3072.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S128x3072.size a ≤ S3072x3072.size a
  hwx12_7 : ∀ i : grid12.Coords, EltTy.bits .f32 = 32 ∨ (Rect.block (s := S3072x3072) S128x3072.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S128x3072.size a ≤ S3072x3072.size a
  hwx12_8 : ∀ i : grid12.Coords, EltTy.bits .f32 = 32 ∨ (Rect.block (s := S3072x3072) S128x3072.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S256x3072.size a ≤ S3072x3072.size a
  hwx13_0 : ∀ i : grid13.Coords, EltTy.bits .bf16 = 32 ∨ (Rect.block (s := S3072x3072) S256x3072.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S3072x2000.size a ≤ S3072x2000.size a
  hwx13_1 : ∀ i : grid13.Coords, EltTy.bits .bf16 = 32 ∨ (Rect.block (s := S3072x2000) S3072x2000.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x2000.size a ≤ S1x2000.size a
  hwx13_2 : ∀ i : grid13.Coords, EltTy.bits .f32 = 32 ∨ (Rect.block (s := S1x2000) S1x2000.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S256x2000.size a ≤ S3072x2000.size a
  hwx13_3 : ∀ i : grid13.Coords, EltTy.bits .f32 = 32 ∨ (Rect.block (s := S3072x2000) S256x2000.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S256x2000.size a ≤ S3072x2000.size a
  hwx14_0 : ∀ i : grid14.Coords, EltTy.bits .bf16 = 32 ∨ (Rect.block (s := S3072x2000) S256x2000.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S2000x500.size a ≤ S2000x500.size a
  hwx14_1 : ∀ i : grid14.Coords, EltTy.bits .bf16 = 32 ∨ (Rect.block (s := S2000x500) S2000x500.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x500.size a ≤ S1x500.size a
  hwx14_2 : ∀ i : grid14.Coords, EltTy.bits .f32 = 32 ∨ (Rect.block (s := S1x500) S1x500.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S256x500.size a ≤ S3072x500.size a
  hwx14_3 : ∀ i : grid14.Coords, EltTy.bits .f32 = 32 ∨ (Rect.block (s := S3072x500) S256x500.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S256x500.size a ≤ S3072x500.size a
  hwx15_0 : ∀ i : grid15.Coords, EltTy.bits .bf16 = 32 ∨ (Rect.block (s := S3072x500) S256x500.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S500x500.size a ≤ S500x500.size a
  hwx15_1 : ∀ i : grid15.Coords, EltTy.bits .bf16 = 32 ∨ (Rect.block (s := S500x500) S500x500.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x500.size a ≤ S1x500.size a
  hwx15_2 : ∀ i : grid15.Coords, EltTy.bits .f32 = 32 ∨ (Rect.block (s := S1x500) S1x500.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S256x500.size a ≤ S3072x500.size a
  hwx15_3 : ∀ i : grid15.Coords, EltTy.bits .f32 = 32 ∨ (Rect.block (s := S3072x500) S256x500.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S256x500.size a ≤ S3072x500.size a
  hwx16_0 : ∀ i : grid16.Coords, EltTy.bits .bf16 = 32 ∨ (Rect.block (s := S3072x500) S256x500.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S500x784.size a ≤ S500x784.size a
  hwx16_1 : ∀ i : grid16.Coords, EltTy.bits .bf16 = 32 ∨ (Rect.block (s := S500x784) S500x784.size (cc16_transform_1 i) (hinb16_1 i)).WholeWords (EltTy.packing .bf16)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x784.size a ≤ S1x784.size a
  hwx16_2 : ∀ i : grid16.Coords, EltTy.bits .f32 = 32 ∨ (Rect.block (s := S1x784) S1x784.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S256x784.size a ≤ S3072x784.size a
  hwx16_3 : ∀ i : grid16.Coords, EltTy.bits .f32 = 32 ∨ (Rect.block (s := S3072x784) S256x784.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S64x3072.size a ≤ S3072x3072.size a
  hwx17_0 : ∀ i : grid17.Coords, EltTy.bits .f32 = 32 ∨ (Rect.block (s := S3072x3072) S64x3072.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S10x3072.size a ≤ S10x3072.size a
  hwx17_1 : ∀ i : grid17.Coords, EltTy.bits .f32 = 32 ∨ (Rect.block (s := S10x3072) S10x3072.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S64x10x3072.size a ≤ S3072x10x3072.size a
  hwx17_2 : ∀ i : grid17.Coords, EltTy.bits .f32 = 32 ∨ (Rect.block (s := S3072x10x3072) S64x10x3072.size (cc17_transform_2 i) (hinb17_2 i)).WholeWords (EltTy.packing .f32)

variable [Facts₀]

def dot_S256x784_S784x500_S256x500_1_0_0_1_n_n : DotDims S256x784 S784x500 S256x500 where
  lhsContracting := [1]
  rhsContracting := [0]
  lhsNonContracting := [0]
  rhsNonContracting := [1]
  lhsBatch := []
  rhsBatch := []
  wf := dot_S256x784_S784x500_S256x500_1_0_0_1_n_n_wf
def dot_S64x500_S3072x500_S64x3072_1_1_0_0_n_n : DotDims S64x500 S3072x500 S64x3072 where
  lhsContracting := [1]
  rhsContracting := [1]
  lhsNonContracting := [0]
  rhsNonContracting := [0]
  lhsBatch := []
  rhsBatch := []
  wf := dot_S64x500_S3072x500_S64x3072_1_1_0_0_n_n_wf
def dot_S256x500_S500x500_S256x500_1_0_0_1_n_n : DotDims S256x500 S500x500 S256x500 where
  lhsContracting := [1]
  rhsContracting := [0]
  lhsNonContracting := [0]
  rhsNonContracting := [1]
  lhsBatch := []
  rhsBatch := []
  wf := dot_S256x500_S500x500_S256x500_1_0_0_1_n_n_wf
def dot_S256x500_S500x2000_S256x2000_1_0_0_1_n_n : DotDims S256x500 S500x2000 S256x2000 where
  lhsContracting := [1]
  rhsContracting := [0]
  lhsNonContracting := [0]
  rhsNonContracting := [1]
  lhsBatch := []
  rhsBatch := []
  wf := dot_S256x500_S500x2000_S256x2000_1_0_0_1_n_n_wf
def dot_S64x2000_S3072x2000_S64x3072_1_1_0_0_n_n : DotDims S64x2000 S3072x2000 S64x3072 where
  lhsContracting := [1]
  rhsContracting := [1]
  lhsNonContracting := [0]
  rhsNonContracting := [0]
  lhsBatch := []
  rhsBatch := []
  wf := dot_S64x2000_S3072x2000_S64x3072_1_1_0_0_n_n_wf
def dot_S256x2000_S2000x10_S256x10_1_0_0_1_n_n : DotDims S256x2000 S2000x10 S256x10 where
  lhsContracting := [1]
  rhsContracting := [0]
  lhsNonContracting := [0]
  rhsNonContracting := [1]
  lhsBatch := []
  rhsBatch := []
  wf := dot_S256x2000_S2000x10_S256x10_1_0_0_1_n_n_wf
def dot_S64x10_S3072x10_S64x3072_1_1_0_0_n_n : DotDims S64x10 S3072x10 S64x3072 where
  lhsContracting := [1]
  rhsContracting := [1]
  lhsNonContracting := [0]
  rhsNonContracting := [0]
  lhsBatch := []
  rhsBatch := []
  wf := dot_S64x10_S3072x10_S64x3072_1_1_0_0_n_n_wf
def dot_S256x3072_S3072x2000_S256x2000_1_0_0_1_n_n : DotDims S256x3072 S3072x2000 S256x2000 where
  lhsContracting := [1]
  rhsContracting := [0]
  lhsNonContracting := [0]
  rhsNonContracting := [1]
  lhsBatch := []
  rhsBatch := []
  wf := dot_S256x3072_S3072x2000_S256x2000_1_0_0_1_n_n_wf
def dot_S256x2000_S2000x500_S256x500_1_0_0_1_n_n : DotDims S256x2000 S2000x500 S256x500 where
  lhsContracting := [1]
  rhsContracting := [0]
  lhsNonContracting := [0]
  rhsNonContracting := [1]
  lhsBatch := []
  rhsBatch := []
  wf := dot_S256x2000_S2000x500_S256x500_1_0_0_1_n_n_wf
def dot_S256x500_S500x784_S256x784_1_0_0_1_n_n : DotDims S256x500 S500x784 S256x784 where
  lhsContracting := [1]
  rhsContracting := [0]
  lhsNonContracting := [0]
  rhsNonContracting := [1]
  lhsBatch := []
  rhsBatch := []
  wf := dot_S256x500_S500x784_S256x784_1_0_0_1_n_n_wf

abbrev win0_0 : Pipeline.Window sig grid0 :=
  Pipeline.Window.ofSpec (Memref.whole main_v0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x500.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S64x500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S3072x500.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x3072.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S64x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4) S64x500.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S3072x500.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S64x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x3072.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S64x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x3072.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg25) S64x3072.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg26) S64x3072.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg27) S64x3072.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_arg28) S64x3072.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v12) S64x3072.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v13) S256x500.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S500x500.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x500.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S256x500.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v17) S64x500.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S3072x500.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S64x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S1x3072.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v23) S64x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v17) S64x500.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S3072x500.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v21) S64x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v22) S1x3072.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v23) S64x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v24) S1x3072.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg29) S64x3072.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_arg30) S64x3072.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_arg31) S64x3072.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_arg32) S64x3072.size cc5_transform_9 reads5_9 false false 2 stage5_9 sem5_9
    hrank5 hreads5_9 hinb5_9 nbuf5_9 (Memref.isWhole_whole _) hwx5_9 hstage5_9

abbrev win5_10 : Pipeline.Window sig grid5 :=
  Pipeline.Window.ofSpec (Memref.whole main_v25) S64x3072.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v26) S256x500.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S500x2000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v28) S1x2000.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v29) S256x2000.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v30) S64x2000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S3072x2000.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v34) S64x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v35) S1x3072.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v36) S64x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v30) S64x2000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v30) S3072x2000.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v34) S64x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v35) S1x3072.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v36) S64x1.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v37) S1x3072.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg33) S64x3072.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_arg34) S64x3072.size cc8_transform_7 reads8_7 false false 2 stage8_7 sem8_7
    hrank8 hreads8_7 hinb8_7 nbuf8_7 (Memref.isWhole_whole _) hwx8_7 hstage8_7

abbrev win8_8 : Pipeline.Window sig grid8 :=
  Pipeline.Window.ofSpec (Memref.whole main_arg35) S64x3072.size cc8_transform_8 reads8_8 false false 2 stage8_8 sem8_8
    hrank8 hreads8_8 hinb8_8 nbuf8_8 (Memref.isWhole_whole _) hwx8_8 hstage8_8

abbrev win8_9 : Pipeline.Window sig grid8 :=
  Pipeline.Window.ofSpec (Memref.whole main_arg36) S64x3072.size cc8_transform_9 reads8_9 false false 2 stage8_9 sem8_9
    hrank8 hreads8_9 hinb8_9 nbuf8_9 (Memref.isWhole_whole _) hwx8_9 hstage8_9

abbrev win8_10 : Pipeline.Window sig grid8 :=
  Pipeline.Window.ofSpec (Memref.whole main_v38) S64x3072.size cc8_transform_10 reads8_10 true false 2 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.ofSpec (Memref.whole main_v39) S256x2000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v40) S2000x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v41) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v42) S256x10.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v43) S64x10.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v43) S3072x10.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v47) S64x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v48) S1x3072.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v49) S64x1.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v43) S64x10.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v43) S3072x10.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v47) S64x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v48) S1x3072.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v49) S64x1.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v50) S1x3072.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_arg21) S64x3072.size cc11_transform_6 reads11_6 false false 2 stage11_6 sem11_6
    hrank11 hreads11_6 hinb11_6 nbuf11_6 (Memref.isWhole_whole _) hwx11_6 hstage11_6

abbrev win11_7 : Pipeline.Window sig grid11 :=
  Pipeline.Window.ofSpec (Memref.whole main_arg22) S64x3072.size cc11_transform_7 reads11_7 false false 2 stage11_7 sem11_7
    hrank11 hreads11_7 hinb11_7 nbuf11_7 (Memref.isWhole_whole _) hwx11_7 hstage11_7

abbrev win11_8 : Pipeline.Window sig grid11 :=
  Pipeline.Window.ofSpec (Memref.whole main_arg23) S64x3072.size cc11_transform_8 reads11_8 false false 2 stage11_8 sem11_8
    hrank11 hreads11_8 hinb11_8 nbuf11_8 (Memref.isWhole_whole _) hwx11_8 hstage11_8

abbrev win11_9 : Pipeline.Window sig grid11 :=
  Pipeline.Window.ofSpec (Memref.whole main_arg24) S64x3072.size cc11_transform_9 reads11_9 false false 2 stage11_9 sem11_9
    hrank11 hreads11_9 hinb11_9 nbuf11_9 (Memref.isWhole_whole _) hwx11_9 hstage11_9

abbrev win11_10 : Pipeline.Window sig grid11 :=
  Pipeline.Window.ofSpec (Memref.whole main_v51) S64x3072.size cc11_transform_10 reads11_10 true false 2 stage11_10 sem11_10
    hrank11 hreads11_10 hinb11_10 nbuf11_10 (Memref.isWhole_whole _) hwx11_10 hstage11_10

abbrev win11 : Fin 11 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | ⟨_ + 11, h⟩ => absurd h (Nat.not_lt.2 (Nat.le_add_left _ _))
abbrev spec11 : Fin 11 → Pipeline.WinSpec sig grid11.rank := fun w => (win11 w).toWinSpec

abbrev win12_0 : Pipeline.Window sig grid12 :=
  Pipeline.Window.ofSpec (Memref.whole main_arg17) S128x3072.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg18) S128x3072.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_arg19) S128x3072.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_arg20) S128x3072.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v12) S128x3072.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v25) S128x3072.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v38) S128x3072.size cc12_transform_6 reads12_6 false false 2 stage12_6 sem12_6
    hrank12 hreads12_6 hinb12_6 nbuf12_6 (Memref.isWhole_whole _) hwx12_6 hstage12_6

abbrev win12_7 : Pipeline.Window sig grid12 :=
  Pipeline.Window.ofSpec (Memref.whole main_v51) S128x3072.size cc12_transform_7 reads12_7 false false 2 stage12_7 sem12_7
    hrank12 hreads12_7 hinb12_7 nbuf12_7 (Memref.isWhole_whole _) hwx12_7 hstage12_7

abbrev win12_8 : Pipeline.Window sig grid12 :=
  Pipeline.Window.ofSpec (Memref.whole main_v52) S128x3072.size cc12_transform_8 reads12_8 true false 2 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v53) S256x3072.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v54) S3072x2000.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v55) S1x2000.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v56) S256x2000.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v57) S256x2000.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v58) S2000x500.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v59) S1x500.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v60) S256x500.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v61) S256x500.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v62) S500x500.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v63) S1x500.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v64) S256x500.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v65) S256x500.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v66) S500x784.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v67) S1x784.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v68) S256x784.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v52) S64x3072.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg37) S10x3072.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v69) S64x10x3072.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

class Facts : Prop extends Facts₀ where

variable [Facts]
-- ==== ReferenceIdeal.lean ====
abbrev S3072x784 : Shape := ⟨2, ![3072, 784]⟩
abbrev S784x500 : Shape := ⟨2, ![784, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S3072x2000 : Shape := ⟨2, ![3072, 2000]⟩
abbrev S2000x500 : Shape := ⟨2, ![2000, 500]⟩
abbrev S500x784 : Shape := ⟨2, ![500, 784]⟩
abbrev S784 : Shape := ⟨1, ![784]⟩
abbrev S3072x3072 : Shape := ⟨2, ![3072, 3072]⟩
abbrev S10x3072 : Shape := ⟨2, ![10, 3072]⟩
abbrev S3072x500 : Shape := ⟨2, ![3072, 500]⟩
abbrev S1x500 : Shape := ⟨2, ![1, 500]⟩
abbrev S500x3072 : Shape := ⟨2, ![500, 3072]⟩
abbrev S_ : Shape := ⟨0, ![]⟩
abbrev S3072 : Shape := ⟨1, ![3072]⟩
abbrev S3072x1 : Shape := ⟨2, ![3072, 1]⟩
abbrev S1x3072 : Shape := ⟨2, ![1, 3072]⟩
abbrev S1x2000 : Shape := ⟨2, ![1, 2000]⟩
abbrev S2000x3072 : Shape := ⟨2, ![2000, 3072]⟩
abbrev S3072x10 : Shape := ⟨2, ![3072, 10]⟩
abbrev S1x10 : Shape := ⟨2, ![1, 10]⟩
abbrev S1x784 : Shape := ⟨2, ![1, 784]⟩
abbrev S3072x1x3072 : Shape := ⟨3, ![3072, 1, 3072]⟩
abbrev S1x10x3072 : Shape := ⟨3, ![1, 10, 3072]⟩
abbrev S3072x10x3072 : Shape := ⟨3, ![3072, 10, 3072]⟩

abbrev nBuf : Space → Nat
  | .hbm => 338
  | .vmem => 0
  | .smem => 0
  | _ => 0

abbrev hbmTy0_0 (i : Nat) : BufTy := match i % 128 with
  | 0 => ⟨S3072x784, .f32⟩
  | 1 => ⟨S784x500, .f32⟩
  | 2 => ⟨S500, .f32⟩
  | 3 => ⟨S500x500, .f32⟩
  | 4 => ⟨S500, .f32⟩
  | 5 => ⟨S500x2000, .f32⟩
  | 6 => ⟨S2000, .f32⟩
  | 7 => ⟨S2000x10, .f32⟩
  | 8 => ⟨S10, .f32⟩
  | 9 => ⟨S3072x2000, .f32⟩
  | 10 => ⟨S2000, .f32⟩
  | 11 => ⟨S2000x500, .f32⟩
  | 12 => ⟨S500, .f32⟩
  | 13 => ⟨S500x500, .f32⟩
  | 14 => ⟨S500, .f32⟩
  | 15 => ⟨S500x784, .f32⟩
  | 16 => ⟨S784, .f32⟩
  | 17 => ⟨S3072x3072, .f32⟩
  | 18 => ⟨S3072x3072, .f32⟩
  | 19 => ⟨S3072x3072, .f32⟩
  | 20 => ⟨S3072x3072, .f32⟩
  | 21 => ⟨S3072x3072, .f32⟩
  | 22 => ⟨S3072x3072, .f32⟩
  | 23 => ⟨S3072x3072, .f32⟩
  | 24 => ⟨S3072x3072, .f32⟩
  | 25 => ⟨S3072x3072, .f32⟩
  | 26 => ⟨S3072x3072, .f32⟩
  | 27 => ⟨S3072x3072, .f32⟩
  | 28 => ⟨S3072x3072, .f32⟩
  | 29 => ⟨S3072x3072, .f32⟩
  | 30 => ⟨S3072x3072, .f32⟩
  | 31 => ⟨S3072x3072, .f32⟩
  | 32 => ⟨S3072x3072, .f32⟩
  | 33 => ⟨S3072x3072, .f32⟩
  | 34 => ⟨S3072x3072, .f32⟩
  | 35 => ⟨S3072x3072, .f32⟩
  | 36 => ⟨S3072x3072, .f32⟩
  | 37 => ⟨S10x3072, .f32⟩
  | 38 => ⟨S3072x500, .f32⟩
  | 39 => ⟨S1x500, .f32⟩
  | 40 => ⟨S3072x500, .f32⟩
  | 41 => ⟨S3072x500, .f32⟩
  | 42 => ⟨S500x3072, .f32⟩
  | 43 => ⟨S3072x3072, .f32⟩
  | 44 => ⟨S3072x500, .f32⟩
  | 45 => ⟨S_, .f32⟩
  | 46 => ⟨S3072, .f32⟩
  | 47 => ⟨S3072x1, .f32⟩
  | 48 => ⟨S1x3072, .f32⟩
  | 49 => ⟨S3072x3072, .f32⟩
  | 50 => ⟨S3072x3072, .f32⟩
  | 51 => ⟨S3072x3072, .f32⟩
  | 52 => ⟨S_, .f32⟩
  | 53 => ⟨S3072x3072, .f32⟩
  | 54 => ⟨S3072x3072, .f32⟩
  | 55 => ⟨S3072x3072, .f32⟩
  | 56 => ⟨S_, .f32⟩
  | 57 => ⟨S3072x3072, .f32⟩
  | 58 => ⟨S3072x3072, .f32⟩
  | 59 => ⟨S_, .f32⟩
  | 60 => ⟨S3072x3072, .f32⟩
  | 61 => ⟨S3072x3072, .f32⟩
  | 62 => ⟨S_, .f32⟩
  | 63 => ⟨S3072x3072, .f32⟩
  | 64 => ⟨S3072x3072, .f32⟩
  | 65 => ⟨S_, .f32⟩
  | 66 => ⟨S3072x3072, .f32⟩
  | 67 => ⟨S3072x3072, .f32⟩
  | 68 => ⟨S3072x3072, .f32⟩
  | 69 => ⟨S_, .f32⟩
  | 70 => ⟨S3072x3072, .f32⟩
  | 71 => ⟨S3072x3072, .f32⟩
  | 72 => ⟨S3072x3072, .f32⟩
  | 73 => ⟨S3072x3072, .i32⟩
  | 74 => ⟨S3072x3072, .i32⟩
  | 75 => ⟨S_, .i32⟩
  | 76 => ⟨S3072x3072, .i32⟩
  | 77 => ⟨S3072x3072, .i32⟩
  | 78 => ⟨S3072x3072, .i1⟩
  | 79 => ⟨S3072x3072, .f32⟩
  | 80 => ⟨S_, .f32⟩
  | 81 => ⟨S3072x3072, .f32⟩
  | 82 => ⟨S3072x3072, .f32⟩
  | 83 => ⟨S3072x3072, .f32⟩
  | 84 => ⟨S_, .f32⟩
  | 85 => ⟨S3072, .f32⟩
  | 86 => ⟨S_, .f32⟩
  | 87 => ⟨S3072, .f32⟩
  | 88 => ⟨S3072, .f32⟩
  | 89 => ⟨S3072, .f32⟩
  | 90 => ⟨S_, .f32⟩
  | 91 => ⟨S3072, .f32⟩
  | 92 => ⟨S3072, .f32⟩
  | 93 => ⟨S3072x1, .f32⟩
  | 94 => ⟨S3072x3072, .f32⟩
  | 95 => ⟨S3072x3072, .f32⟩
  | 96 => ⟨S1x3072, .f32⟩
  | 97 => ⟨S3072x3072, .f32⟩
  | 98 => ⟨S3072x3072, .f32⟩
  | 99 => ⟨S3072x3072, .f32⟩
  | 100 => ⟨S3072x3072, .f32⟩
  | 101 => ⟨S3072x3072, .f32⟩
  | 102 => ⟨S3072x3072, .f32⟩
  | 103 => ⟨S3072x3072, .f32⟩
  | 104 => ⟨S3072x3072, .f32⟩
  | 105 => ⟨S3072x3072, .f32⟩
  | 106 => ⟨S3072x500, .f32⟩
  | 107 => ⟨S1x500, .f32⟩
  | 108 => ⟨S3072x500, .f32⟩
  | 109 => ⟨S3072x500, .f32⟩
  | 110 => ⟨S500x3072, .f32⟩
  | 111 => ⟨S3072x3072, .f32⟩
  | 112 => ⟨S3072x500, .f32⟩
  | 113 => ⟨S_, .f32⟩
  | 114 => ⟨S3072, .f32⟩
  | 115 => ⟨S3072x1, .f32⟩
  | 116 => ⟨S1x3072, .f32⟩
  | 117 => ⟨S3072x3072, .f32⟩
  | 118 => ⟨S3072x3072, .f32⟩
  | 119 => ⟨S3072x3072, .f32⟩
  | 120 => ⟨S_, .f32⟩
  | 121 => ⟨S3072x3072, .f32⟩
  | 122 => ⟨S3072x3072, .f32⟩
  | 123 => ⟨S3072x3072, .f32⟩
  | 124 => ⟨S_, .f32⟩
  | 125 => ⟨S3072x3072, .f32⟩
  | 126 => ⟨S3072x3072, .f32⟩
  | 127 => ⟨S_, .f32⟩
  | _ => ⟨S3072x784, .f32⟩

abbrev hbmTy0_1 (i : Nat) : BufTy := match i % 128 with
  | 0 => ⟨S3072x3072, .f32⟩
  | 1 => ⟨S3072x3072, .f32⟩
  | 2 => ⟨S_, .f32⟩
  | 3 => ⟨S3072x3072, .f32⟩
  | 4 => ⟨S3072x3072, .f32⟩
  | 5 => ⟨S_, .f32⟩
  | 6 => ⟨S3072x3072, .f32⟩
  | 7 => ⟨S3072x3072, .f32⟩
  | 8 => ⟨S3072x3072, .f32⟩
  | 9 => ⟨S_, .f32⟩
  | 10 => ⟨S3072x3072, .f32⟩
  | 11 => ⟨S3072x3072, .f32⟩
  | 12 => ⟨S3072x3072, .f32⟩
  | 13 => ⟨S3072x3072, .i32⟩
  | 14 => ⟨S3072x3072, .i32⟩
  | 15 => ⟨S_, .i32⟩
  | 16 => ⟨S3072x3072, .i32⟩
  | 17 => ⟨S3072x3072, .i32⟩
  | 18 => ⟨S3072x3072, .i1⟩
  | 19 => ⟨S3072x3072, .f32⟩
  | 20 => ⟨S_, .f32⟩
  | 21 => ⟨S3072x3072, .f32⟩
  | 22 => ⟨S3072x3072, .f32⟩
  | 23 => ⟨S3072x3072, .f32⟩
  | 24 => ⟨S_, .f32⟩
  | 25 => ⟨S3072, .f32⟩
  | 26 => ⟨S_, .f32⟩
  | 27 => ⟨S3072, .f32⟩
  | 28 => ⟨S3072, .f32⟩
  | 29 => ⟨S3072, .f32⟩
  | 30 => ⟨S_, .f32⟩
  | 31 => ⟨S3072, .f32⟩
  | 32 => ⟨S3072, .f32⟩
  | 33 => ⟨S3072x1, .f32⟩
  | 34 => ⟨S3072x3072, .f32⟩
  | 35 => ⟨S3072x3072, .f32⟩
  | 36 => ⟨S1x3072, .f32⟩
  | 37 => ⟨S3072x3072, .f32⟩
  | 38 => ⟨S3072x3072, .f32⟩
  | 39 => ⟨S3072x3072, .f32⟩
  | 40 => ⟨S3072x3072, .f32⟩
  | 41 => ⟨S3072x3072, .f32⟩
  | 42 => ⟨S3072x3072, .f32⟩
  | 43 => ⟨S3072x3072, .f32⟩
  | 44 => ⟨S3072x3072, .f32⟩
  | 45 => ⟨S3072x3072, .f32⟩
  | 46 => ⟨S3072x2000, .f32⟩
  | 47 => ⟨S1x2000, .f32⟩
  | 48 => ⟨S3072x2000, .f32⟩
  | 49 => ⟨S3072x2000, .f32⟩
  | 50 => ⟨S2000x3072, .f32⟩
  | 51 => ⟨S3072x3072, .f32⟩
  | 52 => ⟨S3072x2000, .f32⟩
  | 53 => ⟨S_, .f32⟩
  | 54 => ⟨S3072, .f32⟩
  | 55 => ⟨S3072x1, .f32⟩
  | 56 => ⟨S1x3072, .f32⟩
  | 57 => ⟨S3072x3072, .f32⟩
  | 58 => ⟨S3072x3072, .f32⟩
  | 59 => ⟨S3072x3072, .f32⟩
  | 60 => ⟨S_, .f32⟩
  | 61 => ⟨S3072x3072, .f32⟩
  | 62 => ⟨S3072x3072, .f32⟩
  | 63 => ⟨S3072x3072, .f32⟩
  | 64 => ⟨S_, .f32⟩
  | 65 => ⟨S3072x3072, .f32⟩
  | 66 => ⟨S3072x3072, .f32⟩
  | 67 => ⟨S_, .f32⟩
  | 68 => ⟨S3072x3072, .f32⟩
  | 69 => ⟨S3072x3072, .f32⟩
  | 70 => ⟨S_, .f32⟩
  | 71 => ⟨S3072x3072, .f32⟩
  | 72 => ⟨S3072x3072, .f32⟩
  | 73 => ⟨S_, .f32⟩
  | 74 => ⟨S3072x3072, .f32⟩
  | 75 => ⟨S3072x3072, .f32⟩
  | 76 => ⟨S3072x3072, .f32⟩
  | 77 => ⟨S_, .f32⟩
  | 78 => ⟨S3072x3072, .f32⟩
  | 79 => ⟨S3072x3072, .f32⟩
  | 80 => ⟨S3072x3072, .f32⟩
  | 81 => ⟨S3072x3072, .i32⟩
  | 82 => ⟨S3072x3072, .i32⟩
  | 83 => ⟨S_, .i32⟩
  | 84 => ⟨S3072x3072, .i32⟩
  | 85 => ⟨S3072x3072, .i32⟩
  | 86 => ⟨S3072x3072, .i1⟩
  | 87 => ⟨S3072x3072, .f32⟩
  | 88 => ⟨S_, .f32⟩
  | 89 => ⟨S3072x3072, .f32⟩
  | 90 => ⟨S3072x3072, .f32⟩
  | 91 => ⟨S3072x3072, .f32⟩
  | 92 => ⟨S_, .f32⟩
  | 93 => ⟨S3072, .f32⟩
  | 94 => ⟨S_, .f32⟩
  | 95 => ⟨S3072, .f32⟩
  | 96 => ⟨S3072, .f32⟩
  | 97 => ⟨S3072, .f32⟩
  | 98 => ⟨S_, .f32⟩
  | 99 => ⟨S3072, .f32⟩
  | 100 => ⟨S3072, .f32⟩
  | 101 => ⟨S3072x1, .f32⟩
  | 102 => ⟨S3072x3072, .f32⟩
  | 103 => ⟨S3072x3072, .f32⟩
  | 104 => ⟨S1x3072, .f32⟩
  | 105 => ⟨S3072x3072, .f32⟩
  | 106 => ⟨S3072x3072, .f32⟩
  | 107 => ⟨S3072x3072, .f32⟩
  | 108 => ⟨S3072x3072, .f32⟩
  | 109 => ⟨S3072x3072, .f32⟩
  | 110 => ⟨S3072x3072, .f32⟩
  | 111 => ⟨S3072x3072, .f32⟩
  | 112 => ⟨S3072x3072, .f32⟩
  | 113 => ⟨S3072x3072, .f32⟩
  | 114 => ⟨S3072x10, .f32⟩
  | 115 => ⟨S1x10, .f32⟩
  | 116 => ⟨S3072x10, .f32⟩
  | 117 => ⟨S3072x10, .f32⟩
  | 118 => ⟨S10x3072, .f32⟩
  | 119 => ⟨S3072x3072, .f32⟩
  | 120 => ⟨S3072x10, .f32⟩
  | 121 => ⟨S_, .f32⟩
  | 122 => ⟨S3072, .f32⟩
  | 123 => ⟨S3072x1, .f32⟩
  | 124 => ⟨S1x3072, .f32⟩
  | 125 => ⟨S3072x3072, .f32⟩
  | 126 => ⟨S3072x3072, .f32⟩
  | 127 => ⟨S3072x3072, .f32⟩
  | _ => ⟨S3072x784, .f32⟩

abbrev hbmTy0_2 (i : Nat) : BufTy := match i % 128 with
  | 0 => ⟨S_, .f32⟩
  | 1 => ⟨S3072x3072, .f32⟩
  | 2 => ⟨S3072x3072, .f32⟩
  | 3 => ⟨S3072x3072, .f32⟩
  | 4 => ⟨S_, .f32⟩
  | 5 => ⟨S3072x3072, .f32⟩
  | 6 => ⟨S3072x3072, .f32⟩
  | 7 => ⟨S_, .f32⟩
  | 8 => ⟨S3072x3072, .f32⟩
  | 9 => ⟨S3072x3072, .f32⟩
  | 10 => ⟨S_, .f32⟩
  | 11 => ⟨S3072x3072, .f32⟩
  | 12 => ⟨S3072x3072, .f32⟩
  | 13 => ⟨S_, .f32⟩
  | 14 => ⟨S3072x3072, .f32⟩
  | 15 => ⟨S3072x3072, .f32⟩
  | 16 => ⟨S3072x3072, .f32⟩
  | 17 => ⟨S_, .f32⟩
  | 18 => ⟨S3072x3072, .f32⟩
  | 19 => ⟨S3072x3072, .f32⟩
  | 20 => ⟨S3072x3072, .f32⟩
  | 21 => ⟨S3072x3072, .i32⟩
  | 22 => ⟨S3072x3072, .i32⟩
  | 23 => ⟨S_, .i32⟩
  | 24 => ⟨S3072x3072, .i32⟩
  | 25 => ⟨S3072x3072, .i32⟩
  | 26 => ⟨S3072x3072, .i1⟩
  | 27 => ⟨S3072x3072, .f32⟩
  | 28 => ⟨S_, .f32⟩
  | 29 => ⟨S3072x3072, .f32⟩
  | 30 => ⟨S3072x3072, .f32⟩
  | 31 => ⟨S3072x3072, .f32⟩
  | 32 => ⟨S_, .f32⟩
  | 33 => ⟨S3072, .f32⟩
  | 34 => ⟨S_, .f32⟩
  | 35 => ⟨S3072, .f32⟩
  | 36 => ⟨S3072, .f32⟩
  | 37 => ⟨S3072, .f32⟩
  | 38 => ⟨S_, .f32⟩
  | 39 => ⟨S3072, .f32⟩
  | 40 => ⟨S3072, .f32⟩
  | 41 => ⟨S3072x1, .f32⟩
  | 42 => ⟨S3072x3072, .f32⟩
  | 43 => ⟨S3072x3072, .f32⟩
  | 44 => ⟨S1x3072, .f32⟩
  | 45 => ⟨S3072x3072, .f32⟩
  | 46 => ⟨S3072x3072, .f32⟩
  | 47 => ⟨S3072x3072, .f32⟩
  | 48 => ⟨S3072x3072, .f32⟩
  | 49 => ⟨S3072x3072, .f32⟩
  | 50 => ⟨S3072x3072, .f32⟩
  | 51 => ⟨S3072x3072, .f32⟩
  | 52 => ⟨S3072x3072, .f32⟩
  | 53 => ⟨S3072x3072, .f32⟩
  | 54 => ⟨S3072x3072, .f32⟩
  | 55 => ⟨S3072x3072, .f32⟩
  | 56 => ⟨S3072x3072, .f32⟩
  | 57 => ⟨S3072x3072, .f32⟩
  | 58 => ⟨S3072x3072, .f32⟩
  | 59 => ⟨S3072x3072, .f32⟩
  | 60 => ⟨S3072x3072, .f32⟩
  | 61 => ⟨S3072x2000, .f32⟩
  | 62 => ⟨S1x2000, .f32⟩
  | 63 => ⟨S3072x2000, .f32⟩
  | 64 => ⟨S3072x2000, .f32⟩
  | 65 => ⟨S3072x500, .f32⟩
  | 66 => ⟨S1x500, .f32⟩
  | 67 => ⟨S3072x500, .f32⟩
  | 68 => ⟨S3072x500, .f32⟩
  | 69 => ⟨S3072x500, .f32⟩
  | 70 => ⟨S1x500, .f32⟩
  | 71 => ⟨S3072x500, .f32⟩
  | 72 => ⟨S3072x500, .f32⟩
  | 73 => ⟨S3072x784, .f32⟩
  | 74 => ⟨S1x784, .f32⟩
  | 75 => ⟨S3072x784, .f32⟩
  | 76 => ⟨S3072x784, .f32⟩
  | 77 => ⟨S3072x1x3072, .f32⟩
  | 78 => ⟨S1x10x3072, .f32⟩
  | 79 => ⟨S3072x10x3072, .f32⟩
  | 80 => ⟨S3072x10x3072, .f32⟩
  | 81 => ⟨S3072x10x3072, .f32⟩
  | _ => ⟨S3072x784, .f32⟩

abbrev hbmTy (i : Nat) : BufTy := match i / 128 with
  | 0 => hbmTy0_0 i
  | 1 => hbmTy0_1 i
  | 2 => hbmTy0_2 i
  | _ => ⟨S3072x784, .f32⟩

abbrev bufTy : (tb : Table) → Fin (tcTables nBuf tb) → BufTy
  | .hbm, ⟨i, _⟩ => hbmTy i
  | _, _ => ⟨S3072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_1 : Ref sig .tc := ⟨.hbm, 56, rfl⟩
abbrev main_v16 : Ref sig .tc := ⟨.hbm, 57, rfl⟩
abbrev main_v17 : Ref sig .tc := ⟨.hbm, 58, rfl⟩
abbrev main_cst_2 : Ref sig .tc := ⟨.hbm, 59, rfl⟩
abbrev main_v18 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_v21 : Ref sig .tc := ⟨.hbm, 64, rfl⟩
abbrev main_cst_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_5 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_6 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_7 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_9 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_10 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_11 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_12 : Ref sig .tc := ⟨.hbm, 124, rfl⟩
abbrev main_v72 : Ref sig .tc := ⟨.hbm, 125, rfl⟩
abbrev main_v73 : Ref sig .tc := ⟨.hbm, 126, rfl⟩
abbrev main_cst_13 : Ref sig .tc := ⟨.hbm, 127, rfl⟩
abbrev main_v74 : Ref sig .tc := ⟨.hbm, 128, rfl⟩
abbrev main_v75 : Ref sig .tc := ⟨.hbm, 129, rfl⟩
abbrev main_cst_14 : Ref sig .tc := ⟨.hbm, 130, rfl⟩
abbrev main_v76 : Ref sig .tc := ⟨.hbm, 131, rfl⟩
abbrev main_v77 : Ref sig .tc := ⟨.hbm, 132, rfl⟩
abbrev main_cst_15 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_16 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_c_17 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_18 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_19 : Ref sig .tc := ⟨.hbm, 152, rfl⟩
abbrev main_v93 : Ref sig .tc := ⟨.hbm, 153, rfl⟩
abbrev main_cst_20 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_21 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_cst_22 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_23 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_24 : Ref sig .tc := ⟨.hbm, 192, rfl⟩
abbrev main_v128 : Ref sig .tc := ⟨.hbm, 193, rfl⟩
abbrev main_v129 : Ref sig .tc := ⟨.hbm, 194, rfl⟩
abbrev main_cst_25 : Ref sig .tc := ⟨.hbm, 195, rfl⟩
abbrev main_v130 : Ref sig .tc := ⟨.hbm, 196, rfl⟩
abbrev main_v131 : Ref sig .tc := ⟨.hbm, 197, rfl⟩
abbrev main_cst_26 : Ref sig .tc := ⟨.hbm, 198, rfl⟩
abbrev main_v132 : Ref sig .tc := ⟨.hbm, 199, rfl⟩
abbrev main_v133 : Ref sig .tc := ⟨.hbm, 200, rfl⟩
abbrev main_cst_27 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_28 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_c_29 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_cst_30 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_31 : Ref sig .tc := ⟨.hbm, 220, rfl⟩
abbrev main_v149 : Ref sig .tc := ⟨.hbm, 221, rfl⟩
abbrev main_cst_32 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_33 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_34 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_cst_35 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_cst_36 : Ref sig .tc := ⟨.hbm, 260, rfl⟩
abbrev main_v184 : Ref sig .tc := ⟨.hbm, 261, rfl⟩
abbrev main_v185 : Ref sig .tc := ⟨.hbm, 262, rfl⟩
abbrev main_cst_37 : Ref sig .tc := ⟨.hbm, 263, rfl⟩
abbrev main_v186 : Ref sig .tc := ⟨.hbm, 264, rfl⟩
abbrev main_v187 : Ref sig .tc := ⟨.hbm, 265, rfl⟩
abbrev main_cst_38 : Ref sig .tc := ⟨.hbm, 266, rfl⟩
abbrev main_v188 : Ref sig .tc := ⟨.hbm, 267, rfl⟩
abbrev main_v189 : Ref sig .tc := ⟨.hbm, 268, rfl⟩
abbrev main_cst_39 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_cst_40 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_c_41 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_cst_42 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_cst_43 : Ref sig .tc := ⟨.hbm, 288, rfl⟩
abbrev main_v205 : Ref sig .tc := ⟨.hbm, 289, rfl⟩
abbrev main_cst_44 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_cst_45 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S3072x500_0_1 : S1x500.BroadcastsInDim S3072x500 (![0, 1] : Fin 2 → Fin S3072x500.rank)
  transposes_S3072x500_S500x3072_1_0 : S3072x500.Transposes [1, 0] S500x3072
  reducesTo_S3072x500_S3072_d1 : S3072x500.ReducesTo [1] S3072
  h_S_ : 0 < S_.numel
  bcast_S3072_S3072x1_0 : S3072.BroadcastsInDim S3072x1 (![0] : Fin 1 → Fin S3072x1.rank)
  bcast_S3072_S1x3072_1 : S3072.BroadcastsInDim S1x3072 (![1] : Fin 1 → Fin S1x3072.rank)
  bcast_S3072x1_S3072x3072_0_1 : S3072x1.BroadcastsInDim S3072x3072 (![0, 1] : Fin 2 → Fin S3072x3072.rank)
  bcast_S1x3072_S3072x3072_0_1 : S1x3072.BroadcastsInDim S3072x3072 (![0, 1] : Fin 2 → Fin S3072x3072.rank)
  bcast_S_S3072x3072 : S_.BroadcastsInDim S3072x3072 (![] : Fin 0 → Fin S3072x3072.rank)
  reducesTo_S3072x3072_S3072_d1 : S3072x3072.ReducesTo [1] S3072
  bcast_S_S3072 : S_.BroadcastsInDim S3072 (![] : Fin 0 → Fin S3072.rank)
  bcast_S2000_S1x2000_1 : S2000.BroadcastsInDim S1x2000 (![1] : Fin 1 → Fin S1x2000.rank)
  bcast_S1x2000_S3072x2000_0_1 : S1x2000.BroadcastsInDim S3072x2000 (![0, 1] : Fin 2 → Fin S3072x2000.rank)
  transposes_S3072x2000_S2000x3072_1_0 : S3072x2000.Transposes [1, 0] S2000x3072
  reducesTo_S3072x2000_S3072_d1 : S3072x2000.ReducesTo [1] S3072
  bcast_S10_S1x10_1 : S10.BroadcastsInDim S1x10 (![1] : Fin 1 → Fin S1x10.rank)
  bcast_S1x10_S3072x10_0_1 : S1x10.BroadcastsInDim S3072x10 (![0, 1] : Fin 2 → Fin S3072x10.rank)
  transposes_S3072x10_S10x3072_1_0 : S3072x10.Transposes [1, 0] S10x3072
  reducesTo_S3072x10_S3072_d1 : S3072x10.ReducesTo [1] S3072
  bcast_S784_S1x784_1 : S784.BroadcastsInDim S1x784 (![1] : Fin 1 → Fin S1x784.rank)
  bcast_S1x784_S3072x784_0_1 : S1x784.BroadcastsInDim S3072x784 (![0, 1] : Fin 2 → Fin S3072x784.rank)
  bcast_S3072x3072_S3072x1x3072_0_2 : S3072x3072.BroadcastsInDim S3072x1x3072 (![0, 2] : Fin 2 → Fin S3072x1x3072.rank)
  bcast_S10x3072_S1x10x3072_1_2 : S10x3072.BroadcastsInDim S1x10x3072 (![1, 2] : Fin 2 → Fin S1x10x3072.rank)
  bcast_S3072x1x3072_S3072x10x3072_0_1_2 : S3072x1x3072.BroadcastsInDim S3072x10x3072 (![0, 1, 2] : Fin 3 → Fin S3072x10x3072.rank)
  bcast_S1x10x3072_S3072x10x3072_0_1_2 : S1x10x3072.BroadcastsInDim S3072x10x3072 (![0, 1, 2] : Fin 3 → Fin S3072x10x3072.rank)
  dot_S3072x784_S784x500_S3072x500_1_0_0_1_n_n_wf : DotDims.WF S3072x784 S784x500 S3072x500 [1] [0] [0] [1] [] []
  dot_S3072x500_S500x3072_S3072x3072_1_0_0_1_n_n_wf : DotDims.WF S3072x500 S500x3072 S3072x3072 [1] [0] [0] [1] [] []
  dot_S3072x500_S500x500_S3072x500_1_0_0_1_n_n_wf : DotDims.WF S3072x500 S500x500 S3072x500 [1] [0] [0] [1] [] []
  dot_S3072x500_S500x2000_S3072x2000_1_0_0_1_n_n_wf : DotDims.WF S3072x500 S500x2000 S3072x2000 [1] [0] [0] [1] [] []
  dot_S3072x2000_S2000x3072_S3072x3072_1_0_0_1_n_n_wf : DotDims.WF S3072x2000 S2000x3072 S3072x3072 [1] [0] [0] [1] [] []
  dot_S3072x2000_S2000x10_S3072x10_1_0_0_1_n_n_wf : DotDims.WF S3072x2000 S2000x10 S3072x10 [1] [0] [0] [1] [] []
  dot_S3072x10_S10x3072_S3072x3072_1_0_0_1_n_n_wf : DotDims.WF S3072x10 S10x3072 S3072x3072 [1] [0] [0] [1] [] []
  dot_S3072x3072_S3072x2000_S3072x2000_1_0_0_1_n_n_wf : DotDims.WF S3072x3072 S3072x2000 S3072x2000 [1] [0] [0] [1] [] []
  dot_S3072x2000_S2000x500_S3072x500_1_0_0_1_n_n_wf : DotDims.WF S3072x2000 S2000x500 S3072x500 [1] [0] [0] [1] [] []
  dot_S3072x500_S500x784_S3072x784_1_0_0_1_n_n_wf : DotDims.WF S3072x500 S500x784 S3072x784 [1] [0] [0] [1] [] []

variable [Facts₀]

def dot_S3072x784_S784x500_S3072x500_1_0_0_1_n_n : DotDims S3072x784 S784x500 S3072x500 where
  lhsContracting := [1]
  rhsContracting := [0]
  lhsNonContracting := [0]
  rhsNonContracting := [1]
  lhsBatch := []
  rhsBatch := []
  wf := dot_S3072x784_S784x500_S3072x500_1_0_0_1_n_n_wf
def dot_S3072x500_S500x3072_S3072x3072_1_0_0_1_n_n : DotDims S3072x500 S500x3072 S3072x3072 where
  lhsContracting := [1]
  rhsContracting := [0]
  lhsNonContracting := [0]
  rhsNonContracting := [1]
  lhsBatch := []
  rhsBatch := []
  wf := dot_S3072x500_S500x3072_S3072x3072_1_0_0_1_n_n_wf
def dot_S3072x500_S500x500_S3072x500_1_0_0_1_n_n : DotDims S3072x500 S500x500 S3072x500 where
  lhsContracting := [1]
  rhsContracting := [0]
  lhsNonContracting := [0]
  rhsNonContracting := [1]
  lhsBatch := []
  rhsBatch := []
  wf := dot_S3072x500_S500x500_S3072x500_1_0_0_1_n_n_wf
def dot_S3072x500_S500x2000_S3072x2000_1_0_0_1_n_n : DotDims S3072x500 S500x2000 S3072x2000 where
  lhsContracting := [1]
  rhsContracting := [0]
  lhsNonContracting := [0]
  rhsNonContracting := [1]
  lhsBatch := []
  rhsBatch := []
  wf := dot_S3072x500_S500x2000_S3072x2000_1_0_0_1_n_n_wf
def dot_S3072x2000_S2000x3072_S3072x3072_1_0_0_1_n_n : DotDims S3072x2000 S2000x3072 S3072x3072 where
  lhsContracting := [1]
  rhsContracting := [0]
  lhsNonContracting := [0]
  rhsNonContracting := [1]
  lhsBatch := []
  rhsBatch := []
  wf := dot_S3072x2000_S2000x3072_S3072x3072_1_0_0_1_n_n_wf
def dot_S3072x2000_S2000x10_S3072x10_1_0_0_1_n_n : DotDims S3072x2000 S2000x10 S3072x10 where
  lhsContracting := [1]
  rhsContracting := [0]
  lhsNonContracting := [0]
  rhsNonContracting := [1]
  lhsBatch := []
  rhsBatch := []
  wf := dot_S3072x2000_S2000x10_S3072x10_1_0_0_1_n_n_wf
def dot_S3072x10_S10x3072_S3072x3072_1_0_0_1_n_n : DotDims S3072x10 S10x3072 S3072x3072 where
  lhsContracting := [1]
  rhsContracting := [0]
  lhsNonContracting := [0]
  rhsNonContracting := [1]
  lhsBatch := []
  rhsBatch := []
  wf := dot_S3072x10_S10x3072_S3072x3072_1_0_0_1_n_n_wf
def dot_S3072x3072_S3072x2000_S3072x2000_1_0_0_1_n_n : DotDims S3072x3072 S3072x2000 S3072x2000 where
  lhsContracting := [1]
  rhsContracting := [0]
  lhsNonContracting := [0]
  rhsNonContracting := [1]
  lhsBatch := []
  rhsBatch := []
  wf := dot_S3072x3072_S3072x2000_S3072x2000_1_0_0_1_n_n_wf
def dot_S3072x2000_S2000x500_S3072x500_1_0_0_1_n_n : DotDims S3072x2000 S2000x500 S3072x500 where
  lhsContracting := [1]
  rhsContracting := [0]
  lhsNonContracting := [0]
  rhsNonContracting := [1]
  lhsBatch := []
  rhsBatch := []
  wf := dot_S3072x2000_S2000x500_S3072x500_1_0_0_1_n_n_wf
def dot_S3072x500_S500x784_S3072x784_1_0_0_1_n_n : DotDims S3072x500 S500x784 S3072x784 where
  lhsContracting := [1]
  rhsContracting := [0]
  lhsNonContracting := [0]
  rhsNonContracting := [1]
  lhsBatch := []
  rhsBatch := []
  wf := dot_S3072x500_S500x784_S3072x784_1_0_0_1_n_n_wf

class Facts : Prop extends Facts₀ where

variable [Facts]
-- ==== Proof.KB.HostFacts.lean ====
import proofs.«146000_j29076928594330_2_alg».proof.Proof.Gen.Kernel.Launch
import Idealize.ShloMosaic.Lib.Pipeline.Frame
import Idealize.ShloMosaic.Lib.Pipeline.Regions

set_option maxRecDepth 1676

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v4, main_v5, main_v6, main_cst, main_v7, main_v8, main_v9]
theorem hostOps1_writes : (hostOps1 : List (HloOp τ sig (Elt F))).Forall fun op => op.writes ⊆ (hostOps1_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_v11]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v13, main_v14, main_v15]
theorem hostOps3_writes : (hostOps3 : List (HloOp τ sig (Elt F))).Forall fun op => op.writes ⊆ (hostOps3_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_v17, main_v18, main_v19, main_cst_0, main_v20, main_v21, main_v22]
theorem hostOps4_writes : (hostOps4 : List (HloOp τ sig (Elt F))).Forall fun op => op.writes ⊆ (hostOps4_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor
abbrev hostOps5_W : List (Ref sig .tc) := [main_v24]
theorem hostOps5_writes : (hostOps5 : List (HloOp τ sig (Elt F))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor
abbrev hostOps6_W : List (Ref sig .tc) := [main_v26, main_v27, main_v28]
theorem hostOps6_writes : (hostOps6 : List (HloOp τ sig (Elt F))).Forall fun op => op.writes ⊆ (hostOps6_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor
abbrev hostOps7_W : List (Ref sig .tc) := [main_v30, main_v31, main_v32, main_cst_1, main_v33, main_v34, main_v35]
theorem hostOps7_writes : (hostOps7 : List (HloOp τ sig (Elt F))).Forall fun op => op.writes ⊆ (hostOps7_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor
abbrev hostOps8_W : List (Ref sig .tc) := [main_v37]
theorem hostOps8_writes : (hostOps8 : List (HloOp τ sig (Elt F))).Forall fun op => op.writes ⊆ (hostOps8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor
abbrev hostOps9_W : List (Ref sig .tc) := [main_v39, main_v40, main_v41]
theorem hostOps9_writes : (hostOps9 : List (HloOp τ sig (Elt F))).Forall fun op => op.writes ⊆ (hostOps9_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor
abbrev hostOps10_W : List (Ref sig .tc) := [main_v43, main_v44, main_v45, main_cst_2, main_v46, main_v47, main_v48]
theorem hostOps10_writes : (hostOps10 : List (HloOp τ sig (Elt F))).Forall fun op => op.writes ⊆ (hostOps10_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor
abbrev hostOps11_W : List (Ref sig .tc) := [main_v50]
theorem hostOps11_writes : (hostOps11 : List (HloOp τ sig (Elt F))).Forall fun op => op.writes ⊆ (hostOps11_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor
abbrev hostOps13_W : List (Ref sig .tc) := [main_v53, main_v54, main_v55]
theorem hostOps13_writes : (hostOps13 : List (HloOp τ sig (Elt F))).Forall fun op => op.writes ⊆ (hostOps13_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor
abbrev hostOps14_W : List (Ref sig .tc) := [main_v57, main_v58, main_v59]
theorem hostOps14_writes : (hostOps14 : List (HloOp τ sig (Elt F))).Forall fun op => op.writes ⊆ (hostOps14_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor
abbrev hostOps15_W : List (Ref sig .tc) := [main_v61, main_v62, main_v63]
theorem hostOps15_writes : (hostOps15 : List (HloOp τ sig (Elt F))).Forall fun op => op.writes ⊆ (hostOps15_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor
abbrev hostOps16_W : List (Ref sig .tc) := [main_v65, main_v66, main_v67]
theorem hostOps16_writes : (hostOps16 : List (HloOp τ sig (Elt F))).Forall fun op => op.writes ⊆ (hostOps16_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 19 → Dev nD → sProp (MT nD τ sig Ix (Elt F) ℕ U Lvl))

end Segs

section

variable {Ix : Type} [DecidableEq Ix] {U : Type} [URA U] {Lvl : Type} [Preorder Lvl]

end

end Cert.Kernel.GenP

end
-- ==== Proof.KB.R00.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x784 := Rect.unit (s := S256x784) ![0, 0] S256x784.size inb_S256x784_S256x784_0_0
abbrev r0_1 : Rect S784x500 := Rect.unit (s := S784x500) ![0, 0] S784x500.size inb_S784x500_S784x500_0_0
abbrev r0_2 : Rect S1x500 := Rect.unit (s := S1x500) ![0, 0] S1x500.size inb_S1x500_S1x500_0_0
abbrev r0_3 : Rect S256x500 := Rect.unit (s := S256x500) ![0, 0] S256x500.size inb_S256x500_S256x500_0_0

def out0_3 (x0 : Vec F S256x784 .bf16) (x1 : Vec F S784x500 .bf16) (x2 : Vec F S1x500 .f32) : Vec F S256x500 .f32 :=
  View.canon [⟨r0_3, k0_pay1 (View.ld x0 r0_0) (View.ld x1 r0_1) (View.ld x2 r0_2)⟩]

theorem cover0_3 (p0 : Vec F S256x500 .f32) (y : S256x500.Idx) :
    ∃ pc ∈ ([⟨r0_3, p0⟩] : List (View.Piece (Elt F) S256x500 .f32)), y ∈ pc.1.set :=
  View.cover_of_tiled [⟨r0_3, p0⟩] S256x500.size (by rfl) y

set_option maxHeartbeats 1000000 in
theorem sound_kernel0 (c : Dev nD) (E : Set ℕ) (i : grid0.Coords)
    (arg1 : Memref sig .tc .vmem S256x784 .bf16) (harg1 : arg1.IsWhole) (arg2 : Memref sig .tc .vmem S784x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x784 .bf16) (x1 : Vec F S784x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KB
-- ==== Proof.Shares.lean ====
import Idealize.SL.RA.TreeShare

namespace Cert.Shares

open Idealize.SL.RA
open Idealize.SL.RA.PCS

def shL : PosShare TreeShare := fullShare.left
def shR : PosShare TreeShare := fullShare.right

theorem full_mem : fullShare ∈ shL ·? shR := PosShare.mem_left_op_right fullShare

end Cert.Shares
-- ==== Proof.KB.R01.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S64x500 := Rect.unit (s := S64x500) ![0, 0] S64x500.size inb_S64x500_S64x500_0_0
abbrev r1_1 : Rect S3072x500 := Rect.unit (s := S3072x500) ![0, 0] S3072x500.size inb_S3072x500_S3072x500_0_0
abbrev r1_2 : Rect S64x1 := Rect.unit (s := S64x1) ![0, 0] S64x1.size inb_S64x1_S64x1_0_0
abbrev r1_3 : Rect S1x3072 := Rect.unit (s := S1x3072) ![0, 0] S1x3072.size inb_S1x3072_S1x3072_0_0
abbrev r1_4 : Rect S64x1 := Rect.unit (s := S64x1) ![0, 0] S64x1.size inb_S64x1_S64x1_0_0

def out1_4 (i : grid1.Coords) (x0 : Vec F S64x500 .bf16) (x1 : Vec F S3072x500 .bf16) (x2 : Vec F S64x1 .f32) (x3 : Vec F S1x3072 .f32) : Vec F S64x1 .f32 :=
  View.canon [⟨r1_4, k1_pay1 i (View.ld x0 r1_0) (View.ld x1 r1_1) (View.ld x2 r1_2) (View.ld x3 r1_3)⟩]

theorem cover1_4 (p0 : Vec F S64x1 .f32) (y : S64x1.Idx) :
    ∃ pc ∈ ([⟨r1_4, p0⟩] : List (View.Piece (Elt F) S64x1 .f32)), y ∈ pc.1.set :=
  View.cover_of_tiled [⟨r1_4, p0⟩] S64x1.size (by rfl) y

set_option maxHeartbeats 1000000 in
theorem sound_kernel1 (c : Dev nD) (E : Set ℕ) (i : grid1.Coords)
    (arg1 : Memref sig .tc .vmem S64x500 .bf16) (harg1 : arg1.IsWhole) (arg2 : Memref sig .tc .vmem S3072x500 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x500 .bf16) (x1 : Vec F S3072x500 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 i x0 x1 x2 x3)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (cfg1.grid.coords t) (iblk1 V c 0 t) (iblk1 V c 1 t) (iblk1 V c 2 t) (iblk1 V c 3 t)
  Φ _ := Pipeline.ΦA spec1 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (cfg1.grid.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KB
-- ==== Proof.KB.R02.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_S64x500 : Rect S64x500 := Rect.unit (s := S64x500) ![0, 0] S64x500.size inb_S64x500_S64x500_0_0
abbrev r2_S3072x500 : Rect S3072x500 := Rect.unit (s := S3072x500) ![0, 0] S3072x500.size inb_S3072x500_S3072x500_0_0
abbrev r2_S64x1 : Rect S64x1 := Rect.unit (s := S64x1) ![0, 0] S64x1.size inb_S64x1_S64x1_0_0
abbrev r2_S1x3072 : Rect S1x3072 := Rect.unit (s := S1x3072) ![0, 0] S1x3072.size inb_S1x3072_S1x3072_0_0
abbrev r2_S64x3072 : Rect S64x3072 := Rect.unit (s := S64x3072) ![0, 0] S64x3072.size inb_S64x3072_S64x3072_0_0

def out2_10 (i : grid2.Coords) (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r2_S64x3072, k2_pay1
    (k2_pay2 (View.ld x0 r2_S64x500) (View.ld x1 r2_S3072x500))
    (k2_pay4 (View.ld x0 r2_S64x500) (View.ld x1 r2_S3072x500) (View.ld x2 r2_S64x1) (View.ld x3 r2_S1x3072))
    (k2_pay5 (View.ld x0 r2_S64x500) (View.ld x1 r2_S3072x500))
    (k2_pay6 i (View.ld x0 r2_S64x500) (View.ld x1 r2_S3072x500) (View.ld x2 r2_S64x1) (View.ld x3 r2_S1x3072) (View.ld x4 r2_S64x1))
    (View.ld x5 r2_S1x3072) (View.ld x6 r2_S64x3072) (View.ld x7 r2_S64x3072) (View.ld x8 r2_S64x3072) (View.ld x9 r2_S64x3072)⟩]

theorem cover2_10 (p0 : Vec F S64x3072 .f32) (y : S64x3072.Idx) :
    ∃ pc ∈ ([⟨r2_S64x3072, p0⟩] : List (View.Piece (Elt F) S64x3072 .f32)), y ∈ pc.1.set :=
  View.cover_of_tiled [⟨r2_S64x3072, p0⟩] S64x3072.size (by rfl) y

set_option maxHeartbeats 4000000 in
theorem sound_kernel2 (c : Dev nD) (E : Set ℕ) (i : grid2.Coords) (arg0 : Memref sig .tc .vmem S64x500 .bf16) (harg0 : arg0.IsWhole) (arg1 : Memref sig .tc .vmem S3072x500 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out2_10 i x0 x1 x2 x3 x4 x5 x6 x7 x8 x9)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7 arg8 harg8 arg9 harg9 arg10 harg10) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation2 (c : Dev nD) : BodyObligation (dat2 (F := F) V c) (defs₀ (F := F)) Variants.none () Set.univ := fun t => by
  rw [bigSep_W2, bigSep_W2]
  exact sound_body2 V c t

end Cert.KB

end
-- ==== Proof.KB.R03.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S256x500 := Rect.unit (s := S256x500) ![0, 0] S256x500.size inb_S256x500_S256x500_0_0
abbrev r3_1 : Rect S500x500 := Rect.unit (s := S500x500) ![0, 0] S500x500.size inb_S500x500_S500x500_0_0
abbrev r3_2 : Rect S1x500 := Rect.unit (s := S1x500) ![0, 0] S1x500.size inb_S1x500_S1x500_0_0
abbrev r3_3 : Rect S256x500 := Rect.unit (s := S256x500) ![0, 0] S256x500.size inb_S256x500_S256x500_0_0

def out3_3 (x0 : Vec F S256x500 .bf16) (x1 : Vec F S500x500 .bf16) (x2 : Vec F S1x500 .f32) : Vec F S256x500 .f32 :=
  View.canon [⟨r3_3, k3_pay1 (View.ld x0 r3_0) (View.ld x1 r3_1) (View.ld x2 r3_2)⟩]

theorem cover3_3 (p0 : Vec F S256x500 .f32) (y : S256x500.Idx) :
    ∃ pc ∈ ([⟨r3_3, p0⟩] : List (View.Piece (Elt F) S256x500 .f32)), y ∈ pc.1.set :=
  View.cover_of_tiled [⟨r3_3, p0⟩] S256x500.size (by rfl) y

set_option maxHeartbeats 1000000 in
theorem sound_kernel3 (c : Dev nD) (E : Set ℕ) (i : grid3.Coords)
    (arg1 : Memref sig .tc .vmem S256x500 .bf16) (harg1 : arg1.IsWhole) (arg2 : Memref sig .tc .vmem S500x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x500 .bf16) (x1 : Vec F S500x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KB
-- ==== Proof.KB.R04.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S64x500 := Rect.unit (s := S64x500) ![0, 0] S64x500.size inb_S64x500_S64x500_0_0
abbrev r4_1 : Rect S3072x500 := Rect.unit (s := S3072x500) ![0, 0] S3072x500.size inb_S3072x500_S3072x500_0_0
abbrev r4_2 : Rect S64x1 := Rect.unit (s := S64x1) ![0, 0] S64x1.size inb_S64x1_S64x1_0_0
abbrev r4_3 : Rect S1x3072 := Rect.unit (s := S1x3072) ![0, 0] S1x3072.size inb_S1x3072_S1x3072_0_0
abbrev r4_4 : Rect S64x1 := Rect.unit (s := S64x1) ![0, 0] S64x1.size inb_S64x1_S64x1_0_0

def out4_4 (i : grid4.Coords) (x0 : Vec F S64x500 .bf16) (x1 : Vec F S3072x500 .bf16) (x2 : Vec F S64x1 .f32) (x3 : Vec F S1x3072 .f32) : Vec F S64x1 .f32 :=
  View.canon [⟨r4_4, k4_pay1 i (View.ld x0 r4_0) (View.ld x1 r4_1) (View.ld x2 r4_2) (View.ld x3 r4_3)⟩]

theorem cover4_4 (p0 : Vec F S64x1 .f32) (y : S64x1.Idx) :
    ∃ pc ∈ ([⟨r4_4, p0⟩] : List (View.Piece (Elt F) S64x1 .f32)), y ∈ pc.1.set :=
  View.cover_of_tiled [⟨r4_4, p0⟩] S64x1.size (by rfl) y

set_option maxHeartbeats 1000000 in
theorem sound_kernel4 (c : Dev nD) (E : Set ℕ) (i : grid4.Coords)
    (arg1 : Memref sig .tc .vmem S64x500 .bf16) (harg1 : arg1.IsWhole) (arg2 : Memref sig .tc .vmem S3072x500 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x500 .bf16) (x1 : Vec F S3072x500 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 i x0 x1 x2 x3)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (cfg4.grid.coords t) (iblk4 V c 0 t) (iblk4 V c 1 t) (iblk4 V c 2 t) (iblk4 V c 3 t)
  Φ _ := Pipeline.ΦA spec4 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (cfg4.grid.coords t) (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KB
-- ==== Proof.KB.R05.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

abbrev r5_S64x500 : Rect S64x500 := Rect.unit (s := S64x500) ![0, 0] S64x500.size inb_S64x500_S64x500_0_0
abbrev r5_S3072x500 : Rect S3072x500 := Rect.unit (s := S3072x500) ![0, 0] S3072x500.size inb_S3072x500_S3072x500_0_0
abbrev r5_S64x1 : Rect S64x1 := Rect.unit (s := S64x1) ![0, 0] S64x1.size inb_S64x1_S64x1_0_0
abbrev r5_S1x3072 : Rect S1x3072 := Rect.unit (s := S1x3072) ![0, 0] S1x3072.size inb_S1x3072_S1x3072_0_0
abbrev r5_S64x3072 : Rect S64x3072 := Rect.unit (s := S64x3072) ![0, 0] S64x3072.size inb_S64x3072_S64x3072_0_0

def out5_10 (i : grid5.Coords) (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r5_S64x3072, k5_pay1
    (k5_pay2 (View.ld x0 r5_S64x500) (View.ld x1 r5_S3072x500))
    (k5_pay4 (View.ld x0 r5_S64x500) (View.ld x1 r5_S3072x500) (View.ld x2 r5_S64x1) (View.ld x3 r5_S1x3072))
    (k5_pay5 (View.ld x0 r5_S64x500) (View.ld x1 r5_S3072x500))
    (k5_pay6 i (View.ld x0 r5_S64x500) (View.ld x1 r5_S3072x500) (View.ld x2 r5_S64x1) (View.ld x3 r5_S1x3072) (View.ld x4 r5_S64x1))
    (View.ld x5 r5_S1x3072) (View.ld x6 r5_S64x3072) (View.ld x7 r5_S64x3072) (View.ld x8 r5_S64x3072) (View.ld x9 r5_S64x3072)⟩]

theorem cover5_10 (p0 : Vec F S64x3072 .f32) (y : S64x3072.Idx) :
    ∃ pc ∈ ([⟨r5_S64x3072, p0⟩] : List (View.Piece (Elt F) S64x3072 .f32)), y ∈ pc.1.set :=
  View.cover_of_tiled [⟨r5_S64x3072, p0⟩] S64x3072.size (by rfl) y

set_option maxHeartbeats 4000000 in
theorem sound_kernel5 (c : Dev nD) (E : Set ℕ) (i : grid5.Coords) (arg0 : Memref sig .tc .vmem S64x500 .bf16) (harg0 : arg0.IsWhole) (arg1 : Memref sig .tc .vmem S3072x500 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out5_10 i x0 x1 x2 x3 x4 x5 x6 x7 x8 x9)) -∗ K ⟨⟩))
      ⊢ wp frame (wpE (defs₀ (F := F)) Variants.none c none) E (cc5__combine_kernel i arg0 harg0 arg1 harg1 arg2 harg2 arg3 harg3 arg4 harg4 arg5 harg5 arg6 harg6 arg7 harg7 arg8 harg8 arg9 harg9 arg10 harg10) K := by
  simp only [cc5__combine_kernel_eq_skeleton]; unfold cc5__combine_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover5_10 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (grid5.coords t) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = out5_10 (grid5.coords t) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ (grid5.coords t) _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation5 (c : Dev nD) : BodyObligation (dat5 (F := F) V c) (defs₀ (F := F)) Variants.none () Set.univ := fun t => by
  rw [bigSep_W5, bigSep_W5]
  exact sound_body5 V c t

end Cert.KB

end
-- ==== Proof.KB.R06.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S256x500 := Rect.unit (s := S256x500) ![0, 0] S256x500.size inb_S256x500_S256x500_0_0
abbrev r6_1 : Rect S500x2000 := Rect.unit (s := S500x2000) ![0, 0] S500x2000.size inb_S500x2000_S500x2000_0_0
abbrev r6_2 : Rect S1x2000 := Rect.unit (s := S1x2000) ![0, 0] S1x2000.size inb_S1x2000_S1x2000_0_0
abbrev r6_3 : Rect S256x2000 := Rect.unit (s := S256x2000) ![0, 0] S256x2000.size inb_S256x2000_S256x2000_0_0

def out6_3 (x0 : Vec F S256x500 .bf16) (x1 : Vec F S500x2000 .bf16) (x2 : Vec F S1x2000 .f32) : Vec F S256x2000 .f32 :=
  View.canon [⟨r6_3, k6_pay1 (View.ld x0 r6_0) (View.ld x1 r6_1) (View.ld x2 r6_2)⟩]

theorem cover6_3 (p0 : Vec F S256x2000 .f32) (y : S256x2000.Idx) :
    ∃ pc ∈ ([⟨r6_3, p0⟩] : List (View.Piece (Elt F) S256x2000 .f32)), y ∈ pc.1.set :=
  View.cover_of_tiled [⟨r6_3, p0⟩] S256x2000.size (by rfl) y

set_option maxHeartbeats 1000000 in
theorem sound_kernel6 (c : Dev nD) (E : Set ℕ) (i : grid6.Coords)
    (arg1 : Memref sig .tc .vmem S256x500 .bf16) (harg1 : arg1.IsWhole) (arg2 : Memref sig .tc .vmem S500x2000 .bf16) (harg2 : arg2.IsWhole)
    (arg3 : Memref sig .tc .vmem S1x2000 .f32) (harg3 : arg3.IsWhole) (arg4 : Memref sig .tc .vmem S256x2000 .f32) (harg4 : arg4.IsWhole)
    (x0 : Vec F S256x500 .bf16) (x1 : Vec F S500x2000 .bf16) (x2 : Vec F S1x2000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KB
-- ==== Proof.KB.R07.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S64x2000 := Rect.unit (s := S64x2000) ![0, 0] S64x2000.size inb_S64x2000_S64x2000_0_0
abbrev r7_1 : Rect S3072x2000 := Rect.unit (s := S3072x2000) ![0, 0] S3072x2000.size inb_S3072x2000_S3072x2000_0_0
abbrev r7_2 : Rect S64x1 := Rect.unit (s := S64x1) ![0, 0] S64x1.size inb_S64x1_S64x1_0_0
abbrev r7_3 : Rect S1x3072 := Rect.unit (s := S1x3072) ![0, 0] S1x3072.size inb_S1x3072_S1x3072_0_0
abbrev r7_4 : Rect S64x1 := Rect.unit (s := S64x1) ![0, 0] S64x1.size inb_S64x1_S64x1_0_0

def out7_4 (i : grid7.Coords) (x0 : Vec F S64x2000 .bf16) (x1 : Vec F S3072x2000 .bf16) (x2 : Vec F S64x1 .f32) (x3 : Vec F S1x3072 .f32) : Vec F S64x1 .f32 :=
  View.canon [⟨r7_4, k7_pay1 i (View.ld x0 r7_0) (View.ld x1 r7_1) (View.ld x2 r7_2) (View.ld x3 r7_3)⟩]

theorem cover7_4 (p0 : Vec F S64x1 .f32) (y : S64x1.Idx) :
    ∃ pc ∈ ([⟨r7_4, p0⟩] : List (View.Piece (Elt F) S64x1 .f32)), y ∈ pc.1.set :=
  View.cover_of_tiled [⟨r7_4, p0⟩] S64x1.size (by rfl) y

set_option maxHeartbeats 1000000 in
theorem sound_kernel7 (c : Dev nD) (E : Set ℕ) (i : grid7.Coords)
    (arg1 : Memref sig .tc .vmem S64x2000 .bf16) (harg1 : arg1.IsWhole) (arg2 : Memref sig .tc .vmem S3072x2000 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x2000 .bf16) (x1 : Vec F S3072x2000 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 i x0 x1 x2 x3)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (cfg7.grid.coords t) (iblk7 V c 0 t) (iblk7 V c 1 t) (iblk7 V c 2 t) (iblk7 V c 3 t)
  Φ _ := Pipeline.ΦA spec7 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (cfg7.grid.coords t) (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KB
-- ==== Proof.KB.R08.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

abbrev r8_S64x2000 : Rect S64x2000 := Rect.unit (s := S64x2000) ![0, 0] S64x2000.size inb_S64x2000_S64x2000_0_0
abbrev r8_S3072x2000 : Rect S3072x2000 := Rect.unit (s := S3072x2000) ![0, 0] S3072x2000.size inb_S3072x2000_S3072x2000_0_0
abbrev r8_S64x1 : Rect S64x1 := Rect.unit (s := S64x1) ![0, 0] S64x1.size inb_S64x1_S64x1_0_0
abbrev r8_S1x3072 : Rect S1x3072 := Rect.unit (s := S1x3072) ![0, 0] S1x3072.size inb_S1x3072_S1x3072_0_0
abbrev r8_S64x3072 : Rect S64x3072 := Rect.unit (s := S64x3072) ![0, 0] S64x3072.size inb_S64x3072_S64x3072_0_0

def out8_10 (i : grid8.Coords) (x0 : Vec F S64x2000 .bf16) (x1 : Vec F S3072x2000 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r8_S64x3072, k8_pay1
    (k8_pay2 (View.ld x0 r8_S64x2000) (View.ld x1 r8_S3072x2000))
    (k8_pay4 (View.ld x0 r8_S64x2000) (View.ld x1 r8_S3072x2000) (View.ld x2 r8_S64x1) (View.ld x3 r8_S1x3072))
    (k8_pay5 (View.ld x0 r8_S64x2000) (View.ld x1 r8_S3072x2000))
    (k8_pay6 i (View.ld x0 r8_S64x2000) (View.ld x1 r8_S3072x2000) (View.ld x2 r8_S64x1) (View.ld x3 r8_S1x3072) (View.ld x4 r8_S64x1))
    (View.ld x5 r8_S1x3072) (View.ld x6 r8_S64x3072) (View.ld x7 r8_S64x3072) (View.ld x8 r8_S64x3072) (View.ld x9 r8_S64x3072)⟩]

theorem cover8_10 (p0 : Vec F S64x3072 .f32) (y : S64x3072.Idx) :
    ∃ pc ∈ ([⟨r8_S64x3072, p0⟩] : List (View.Piece (Elt F) S64x3072 .f32)), y ∈ pc.1.set :=
  View.cover_of_tiled [⟨r8_S64x3072, p0⟩] S64x3072.size (by rfl) y

set_option maxHeartbeats 4000000 in
theorem sound_kernel8 (c : Dev nD) (E : Set ℕ) (i : grid8.Coords) (arg0 : Memref sig .tc .vmem S64x2000 .bf16) (harg0 : arg0.IsWhole) (arg1 : Memref sig .tc .vmem S3072x2000 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x2000 .bf16) (x1 : Vec F S3072x2000 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out8_10 i x0 x1 x2 x3 x4 x5 x6 x7 x8 x9)) -∗ K ⟨⟩))
      ⊢ wp frame (wpE (defs₀ (F := F)) Variants.none c none) E (cc8__combine_kernel i arg0 harg0 arg1 harg1 arg2 harg2 arg3 harg3 arg4 harg4 arg5 harg5 arg6 harg6 arg7 harg7 arg8 harg8 arg9 harg9 arg10 harg10) K := by
  simp only [cc8__combine_kernel_eq_skeleton]; unfold cc8__combine_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover8_10 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => out8_10 (grid8.coords t) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t)
  Φ _ := Pipeline.ΦA spec8 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = out8_10 (grid8.coords t) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t))

set_option maxHeartbeats 1000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel8 c Set.univ (grid8.coords t) _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation8 (c : Dev nD) : BodyObligation (dat8 (F := F) V c) (defs₀ (F := F)) Variants.none () Set.univ := fun t => by
  rw [bigSep_W8, bigSep_W8]
  exact sound_body8 V c t

end Cert.KB

end
-- ==== Proof.KB.R09.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S256x2000 := Rect.unit (s := S256x2000) ![0, 0] S256x2000.size inb_S256x2000_S256x2000_0_0
abbrev r9_1 : Rect S2000x10 := Rect.unit (s := S2000x10) ![0, 0] S2000x10.size inb_S2000x10_S2000x10_0_0
abbrev r9_2 : Rect S1x10 := Rect.unit (s := S1x10) ![0, 0] S1x10.size inb_S1x10_S1x10_0_0
abbrev r9_3 : Rect S256x10 := Rect.unit (s := S256x10) ![0, 0] S256x10.size inb_S256x10_S256x10_0_0

def out9_3 (x0 : Vec F S256x2000 .bf16) (x1 : Vec F S2000x10 .bf16) (x2 : Vec F S1x10 .f32) : Vec F S256x10 .f32 :=
  View.canon [⟨r9_3, k9_pay1 (View.ld x0 r9_0) (View.ld x1 r9_1) (View.ld x2 r9_2)⟩]

theorem cover9_3 (p0 : Vec F S256x10 .f32) (y : S256x10.Idx) :
    ∃ pc ∈ ([⟨r9_3, p0⟩] : List (View.Piece (Elt F) S256x10 .f32)), y ∈ pc.1.set :=
  View.cover_of_tiled [⟨r9_3, p0⟩] S256x10.size (by rfl) y

set_option maxHeartbeats 1000000 in
theorem sound_kernel9 (c : Dev nD) (E : Set ℕ) (i : grid9.Coords)
    (arg1 : Memref sig .tc .vmem S256x2000 .bf16) (harg1 : arg1.IsWhole) (arg2 : Memref sig .tc .vmem S2000x10 .bf16) (harg2 : arg2.IsWhole)
    (arg3 : Memref sig .tc .vmem S1x10 .f32) (harg3 : arg3.IsWhole) (arg4 : Memref sig .tc .vmem S256x10 .f32) (harg4 : arg4.IsWhole)
    (x0 : Vec F S256x2000 .bf16) (x1 : Vec F S2000x10 .bf16) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__matmul_bias_kernel i arg1 harg1 arg2 harg2 arg3 harg3 arg4 harg4) K := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

end Cert.KB
-- ==== Proof.KB.R10.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S64x10 := Rect.unit (s := S64x10) ![0, 0] S64x10.size inb_S64x10_S64x10_0_0
abbrev r10_1 : Rect S3072x10 := Rect.unit (s := S3072x10) ![0, 0] S3072x10.size inb_S3072x10_S3072x10_0_0
abbrev r10_2 : Rect S64x1 := Rect.unit (s := S64x1) ![0, 0] S64x1.size inb_S64x1_S64x1_0_0
abbrev r10_3 : Rect S1x3072 := Rect.unit (s := S1x3072) ![0, 0] S1x3072.size inb_S1x3072_S1x3072_0_0
abbrev r10_4 : Rect S64x1 := Rect.unit (s := S64x1) ![0, 0] S64x1.size inb_S64x1_S64x1_0_0

def out10_4 (i : grid10.Coords) (x0 : Vec F S64x10 .bf16) (x1 : Vec F S3072x10 .bf16) (x2 : Vec F S64x1 .f32) (x3 : Vec F S1x3072 .f32) : Vec F S64x1 .f32 :=
  View.canon [⟨r10_4, k10_pay1 i (View.ld x0 r10_0) (View.ld x1 r10_1) (View.ld x2 r10_2) (View.ld x3 r10_3)⟩]

theorem cover10_4 (p0 : Vec F S64x1 .f32) (y : S64x1.Idx) :
    ∃ pc ∈ ([⟨r10_4, p0⟩] : List (View.Piece (Elt F) S64x1 .f32)), y ∈ pc.1.set :=
  View.cover_of_tiled [⟨r10_4, p0⟩] S64x1.size (by rfl) y

set_option maxHeartbeats 1000000 in
theorem sound_kernel10 (c : Dev nD) (E : Set ℕ) (i : grid10.Coords)
    (arg1 : Memref sig .tc .vmem S64x10 .bf16) (harg1 : arg1.IsWhole) (arg2 : Memref sig .tc .vmem S3072x10 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x10 .bf16) (x1 : Vec F S3072x10 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out10_4 i x0 x1 x2 x3)) -∗ K ⟨⟩))
      ⊢ wp frame (wpE (defs₀ (F := F)) Variants.none c none) E (cc10__stats_kernel i arg1 harg1 arg2 harg2 arg3 harg3 arg4 harg4 arg5 harg5) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (cfg10.grid.coords t) (iblk10 V c 0 t) (iblk10 V c 1 t) (iblk10 V c 2 t) (iblk10 V c 3 t)
  Φ _ := Pipeline.ΦA spec10 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (cfg10.grid.coords t) (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ (grid10.coords t) _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation10 (c : Dev nD) : BodyObligation (dat10 (F := F) V c) (defs₀ (F := F)) Variants.none () Set.univ := fun t => by
  rw [bigSep_W10, bigSep_W10]
  exact sound_body10 V c t

end Cert.KB
-- ==== Proof.KB.R11.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

theorem before11_9_of {c : Dev nD} (dat : Dat τ (Elt F) Unit ℕ (UR sig nD τ) ℕ cfg11 c) (hA : dat.A 9 = V c (Pipeline.arrRef spec11 9))
    (hafter : ∀ t, dat.after 9 t = iblk11 V c 9 t) (t : Fin cfg11.N) (d) : dat.before 9 t d = iblk11 V c 9 t :=
  (dat.before_in_eq_fetched 9 rfl (fun _ => rfl) (fun _ _ _ => rfl) (fun t => by rw [hafter]; unfold Dat.blockOf iblk11; rw [hA]; try rfl) t d).trans
    (by unfold Dat.fetched Dat.blockOf iblk11; rw [hA]; try rfl)

abbrev r11_S64x10 : Rect S64x10 := Rect.unit (s := S64x10) ![0, 0] S64x10.size inb_S64x10_S64x10_0_0
abbrev r11_S3072x10 : Rect S3072x10 := Rect.unit (s := S3072x10) ![0, 0] S3072x10.size inb_S3072x10_S3072x10_0_0
abbrev r11_S64x1 : Rect S64x1 := Rect.unit (s := S64x1) ![0, 0] S64x1.size inb_S64x1_S64x1_0_0
abbrev r11_S1x3072 : Rect S1x3072 := Rect.unit (s := S1x3072) ![0, 0] S1x3072.size inb_S1x3072_S1x3072_0_0
abbrev r11_S64x3072 : Rect S64x3072 := Rect.unit (s := S64x3072) ![0, 0] S64x3072.size inb_S64x3072_S64x3072_0_0

def out11_10 (i : grid11.Coords) (x0 : Vec F S64x10 .bf16) (x1 : Vec F S3072x10 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r11_S64x3072, k11_pay1
    (k11_pay2 (View.ld x0 r11_S64x10) (View.ld x1 r11_S3072x10))
    (k11_pay4 (View.ld x0 r11_S64x10) (View.ld x1 r11_S3072x10) (View.ld x2 r11_S64x1) (View.ld x3 r11_S1x3072))
    (k11_pay5 (View.ld x0 r11_S64x10) (View.ld x1 r11_S3072x10))
    (k11_pay6 i (View.ld x0 r11_S64x10) (View.ld x1 r11_S3072x10) (View.ld x2 r11_S64x1) (View.ld x3 r11_S1x3072) (View.ld x4 r11_S64x1))
    (View.ld x5 r11_S1x3072) (View.ld x6 r11_S64x3072) (View.ld x7 r11_S64x3072) (View.ld x8 r11_S64x3072) (View.ld x9 r11_S64x3072)⟩]

theorem cover11_10 (p0 : Vec F S64x3072 .f32) (y : S64x3072.Idx) :
    ∃ pc ∈ ([⟨r11_S64x3072, p0⟩] : List (View.Piece (Elt F) S64x3072 .f32)), y ∈ pc.1.set :=
  View.cover_of_tiled [⟨r11_S64x3072, p0⟩] S64x3072.size (by rfl) y

set_option maxHeartbeats 4000000 in
theorem sound_kernel11 (c : Dev nD) (E : Set ℕ) (i : grid11.Coords) (arg0 : Memref sig .tc .vmem S64x10 .bf16) (harg0 : arg0.IsWhole) (arg1 : Memref sig .tc .vmem S3072x10 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x10 .bf16) (x1 : Vec F S3072x10 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out11_10 i x0 x1 x2 x3 x4 x5 x6 x7 x8 x9)) -∗ K ⟨⟩))
      ⊢ wp frame (wpE (defs₀ (F := F)) Variants.none c none) E (cc11__combine_kernel i arg0 harg0 arg1 harg1 arg2 harg2 arg3 harg3 arg4 harg4 arg5 harg5 arg6 harg6 arg7 harg7 arg8 harg8 arg9 harg9 arg10 harg10) K := by
  simp only [cc11__combine_kernel_eq_skeleton]; unfold cc11__combine_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover11_10 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => iblk11 V c 9 t
    | ⟨10, _⟩ => out11_10 (grid11.coords t) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t)
  Φ _ := Pipeline.ΦA spec11 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = iblk11 V c 9 t := by dsimp only [dat11]
theorem after11_10 (c : Dev nD) (t : Fin cfg11.N) : (dat11 V c).after 10 t = out11_10 (grid11.coords t) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d
theorem before11_9 (c : Dev nD) (t : Fin cfg11.N) (d) : (dat11 V c).before 9 t d = iblk11 V c 9 t :=
  before11_9_of V (dat11 V c) (A_eq11 V c 9) (after11_9 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d))
    ∗ (∃ d, owns (c : Thread nD τ) (st11_10 t) fullShare ((dat11 V c).before 10 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t)
    ∗ owns (c : Thread nD τ) (st11_9 t) fullShare ((dat11 V c).after 9 t)
    ∗ owns (c : Thread nD τ) (st11_10 t) fullShare ((dat11 V c).after 10 t))

set_option maxHeartbeats 1000000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8, before11_9]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9, after11_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel11 c Set.univ (grid11.coords t) _ _ _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation11 (c : Dev nD) : BodyObligation (dat11 (F := F) V c) (defs₀ (F := F)) Variants.none () Set.univ := fun t => by
  rw [bigSep_W11, bigSep_W11]
  exact sound_body11 V c t

end Cert.KB

end
-- ==== Proof.KB.R12.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S128x3072 := Rect.unit (s := S128x3072) ![0, 0] S128x3072.size inb_S128x3072_S128x3072_0_0

def out12_8 (x0 : Vec F S128x3072 .f32) (x1 : Vec F S128x3072 .f32) (x2 : Vec F S128x3072 .f32) (x3 : Vec F S128x3072 .f32) (x4 : Vec F S128x3072 .f32) (x5 : Vec F S128x3072 .f32) (x6 : Vec F S128x3072 .f32) (x7 : Vec F S128x3072 .f32) : Vec F S128x3072 .f32 :=
  View.canon [⟨r12_0, k12_pay1 (View.ld x0 r12_0) (View.ld x4 r12_0) (View.ld x1 r12_0) (View.ld x5 r12_0) (View.ld x2 r12_0) (View.ld x6 r12_0) (View.ld x3 r12_0) (View.ld x7 r12_0)⟩]

theorem cover12_8 (p0 : Vec F S128x3072 .f32) (y : S128x3072.Idx) :
    ∃ pc ∈ ([⟨r12_0, p0⟩] : List (View.Piece (Elt F) S128x3072 .f32)), y ∈ pc.1.set :=
  View.cover_of_tiled [⟨r12_0, p0⟩] S128x3072.size (by rfl) y

set_option maxHeartbeats 1000000 in
theorem sound_kernel12 (c : Dev nD) (E : Set ℕ) (i : grid12.Coords)
    (arg1 : Memref sig .tc .vmem S128x3072 .f32) (harg1 : arg1.IsWhole)
    (arg2 : Memref sig .tc .vmem S128x3072 .f32) (harg2 : arg2.IsWhole)
    (arg3 : Memref sig .tc .vmem S128x3072 .f32) (harg3 : arg3.IsWhole)
    (arg4 : Memref sig .tc .vmem S128x3072 .f32) (harg4 : arg4.IsWhole)
    (arg5 : Memref sig .tc .vmem S128x3072 .f32) (harg5 : arg5.IsWhole)
    (arg6 : Memref sig .tc .vmem S128x3072 .f32) (harg6 : arg6.IsWhole)
    (arg7 : Memref sig .tc .vmem S128x3072 .f32) (harg7 : arg7.IsWhole)
    (arg8 : Memref sig .tc .vmem S128x3072 .f32) (harg8 : arg8.IsWhole)
    (arg9 : Memref sig .tc .vmem S128x3072 .f32) (harg9 : arg9.IsWhole)
    (x0 : Vec F S128x3072 .f32) (x1 : Vec F S128x3072 .f32) (x2 : Vec F S128x3072 .f32) (x3 : Vec F S128x3072 .f32) (x4 : Vec F S128x3072 .f32) (x5 : Vec F S128x3072 .f32) (x6 : Vec F S128x3072 .f32) (x7 : Vec F S128x3072 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out12_8 x0 x1 x2 x3 x4 x5 x6 x7)) -∗ K ⟨⟩))
      ⊢ wp frame (wpE (defs₀ (F := F)) Variants.none c none) E (cc12__final_combine_kernel i arg1 harg1 arg2 harg2 arg3 harg3 arg4 harg4 arg5 harg5 arg6 harg6 arg7 harg7 arg8 harg8 arg9 harg9) K := by
  simp only [cc12__final_combine_kernel_eq_skeleton]; unfold cc12__final_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover12_8 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => out12_8 (iblk12 V c 0 t) (iblk12 V c 1 t) (iblk12 V c 2 t) (iblk12 V c 3 t) (iblk12 V c 4 t) (iblk12 V c 5 t) (iblk12 V c 6 t) (iblk12 V c 7 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) :
    (dat12 V c).after 8 t = out12_8 (iblk12 V c 0 t) (iblk12 V c 1 t) (iblk12 V c 2 t) (iblk12 V c 3 t) (iblk12 V c 4 t) (iblk12 V c 5 t) (iblk12 V c 6 t) (iblk12 V c 7 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel12 c Set.univ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation12 (c : Dev nD) : BodyObligation (dat12 (F := F) V c) (defs₀ (F := F)) Variants.none () Set.univ := fun t => by
  rw [bigSep_W12, bigSep_W12]
  exact sound_body12 V c t

end Cert.KB
-- ==== Proof.KB.R13.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S256x3072 := Rect.unit (s := S256x3072) ![0, 0] S256x3072.size inb_S256x3072_S256x3072_0_0
abbrev r13_1 : Rect S3072x2000 := Rect.unit (s := S3072x2000) ![0, 0] S3072x2000.size inb_S3072x2000_S3072x2000_0_0
abbrev r13_2 : Rect S1x2000 := Rect.unit (s := S1x2000) ![0, 0] S1x2000.size inb_S1x2000_S1x2000_0_0
abbrev r13_3 : Rect S256x2000 := Rect.unit (s := S256x2000) ![0, 0] S256x2000.size inb_S256x2000_S256x2000_0_0

def out13_3 (x0 : Vec F S256x3072 .bf16) (x1 : Vec F S3072x2000 .bf16) (x2 : Vec F S1x2000 .f32) : Vec F S256x2000 .f32 :=
  View.canon [⟨r13_3, k13_pay1 (View.ld x0 r13_0) (View.ld x1 r13_1) (View.ld x2 r13_2)⟩]

theorem cover13_3 (p0 : Vec F S256x2000 .f32) (y : S256x2000.Idx) :
    ∃ pc ∈ ([⟨r13_3, p0⟩] : List (View.Piece (Elt F) S256x2000 .f32)), y ∈ pc.1.set :=
  View.cover_of_tiled [⟨r13_3, p0⟩] S256x2000.size (by rfl) y

set_option maxHeartbeats 1000000 in
theorem sound_kernel13 (c : Dev nD) (E : Set ℕ) (i : grid13.Coords)
    (arg1 : Memref sig .tc .vmem S256x3072 .bf16) (harg1 : arg1.IsWhole) (arg2 : Memref sig .tc .vmem S3072x2000 .bf16) (harg2 : arg2.IsWhole)
    (arg3 : Memref sig .tc .vmem S1x2000 .f32) (harg3 : arg3.IsWhole) (arg4 : Memref sig .tc .vmem S256x2000 .f32) (harg4 : arg4.IsWhole)
    (x0 : Vec F S256x3072 .bf16) (x1 : Vec F S3072x2000 .bf16) (x2 : Vec F S1x2000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__matmul_bias_kernel i arg1 harg1 arg2 harg2 arg3 harg3 arg4 harg4) K := by
  simp only [cc13__matmul_bias_kernel_eq_skeleton]; unfold cc13__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation13 (c : Dev nD) : BodyObligation (dat13 (F := F) V c) (defs₀ (F := F)) Variants.none () Set.univ := fun t => by
  rw [bigSep_W13, bigSep_W13]
  exact sound_body13 V c t

end Cert.KB
-- ==== Proof.KB.R14.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S256x2000 := Rect.unit (s := S256x2000) ![0, 0] S256x2000.size inb_S256x2000_S256x2000_0_0
abbrev r14_1 : Rect S2000x500 := Rect.unit (s := S2000x500) ![0, 0] S2000x500.size inb_S2000x500_S2000x500_0_0
abbrev r14_2 : Rect S1x500 := Rect.unit (s := S1x500) ![0, 0] S1x500.size inb_S1x500_S1x500_0_0
abbrev r14_3 : Rect S256x500 := Rect.unit (s := S256x500) ![0, 0] S256x500.size inb_S256x500_S256x500_0_0

def out14_3 (x0 : Vec F S256x2000 .bf16) (x1 : Vec F S2000x500 .bf16) (x2 : Vec F S1x500 .f32) : Vec F S256x500 .f32 :=
  View.canon [⟨r14_3, k14_pay1 (View.ld x0 r14_0) (View.ld x1 r14_1) (View.ld x2 r14_2)⟩]

theorem cover14_3 (p0 : Vec F S256x500 .f32) (y : S256x500.Idx) :
    ∃ pc ∈ ([⟨r14_3, p0⟩] : List (View.Piece (Elt F) S256x500 .f32)), y ∈ pc.1.set :=
  View.cover_of_tiled [⟨r14_3, p0⟩] S256x500.size (by rfl) y

set_option maxHeartbeats 1000000 in
theorem sound_kernel14 (c : Dev nD) (E : Set ℕ) (i : grid14.Coords)
    (arg1 : Memref sig .tc .vmem S256x2000 .bf16) (harg1 : arg1.IsWhole) (arg2 : Memref sig .tc .vmem S2000x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x2000 .bf16) (x1 : Vec F S2000x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out14_3 x0 x1 x2)) -∗ K ⟨⟩))
      ⊢ wp frame (wpE (defs₀ (F := F)) Variants.none c none) E (cc14__matmul_bias_kernel i arg1 harg1 arg2 harg2 arg3 harg3 arg4 harg4) K := by
  simp only [cc14__matmul_bias_kernel_eq_skeleton]; unfold cc14__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation14 (c : Dev nD) : BodyObligation (dat14 (F := F) V c) (defs₀ (F := F)) Variants.none () Set.univ := fun t => by
  rw [bigSep_W14, bigSep_W14]
  exact sound_body14 V c t

end Cert.KB
-- ==== Proof.KB.R15.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

abbrev r15_0 : Rect S256x500 := Rect.unit (s := S256x500) ![0, 0] S256x500.size inb_S256x500_S256x500_0_0
abbrev r15_1 : Rect S500x500 := Rect.unit (s := S500x500) ![0, 0] S500x500.size inb_S500x500_S500x500_0_0
abbrev r15_2 : Rect S1x500 := Rect.unit (s := S1x500) ![0, 0] S1x500.size inb_S1x500_S1x500_0_0
abbrev r15_3 : Rect S256x500 := Rect.unit (s := S256x500) ![0, 0] S256x500.size inb_S256x500_S256x500_0_0

def out15_3 (x0 : Vec F S256x500 .bf16) (x1 : Vec F S500x500 .bf16) (x2 : Vec F S1x500 .f32) : Vec F S256x500 .f32 :=
  View.canon [⟨r15_3, k15_pay1 (View.ld x0 r15_0) (View.ld x1 r15_1) (View.ld x2 r15_2)⟩]

theorem cover15_3 (p0 : Vec F S256x500 .f32) (y : S256x500.Idx) :
    ∃ pc ∈ ([⟨r15_3, p0⟩] : List (View.Piece (Elt F) S256x500 .f32)), y ∈ pc.1.set :=
  View.cover_of_tiled [⟨r15_3, p0⟩] S256x500.size (by rfl) y

set_option maxHeartbeats 1000000 in
theorem sound_kernel15 (c : Dev nD) (E : Set ℕ) (i : grid15.Coords)
    (arg1 : Memref sig .tc .vmem S256x500 .bf16) (harg1 : arg1.IsWhole) (arg2 : Memref sig .tc .vmem S500x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x500 .bf16) (x1 : Vec F S500x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out15_3 x0 x1 x2)) -∗ K ⟨⟩))
      ⊢ wp frame (wpE (defs₀ (F := F)) Variants.none c none) E (cc15__matmul_bias_kernel i arg1 harg1 arg2 harg2 arg3 harg3 arg4 harg4) K := by
  simp only [cc15__matmul_bias_kernel_eq_skeleton]; unfold cc15__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation15 (c : Dev nD) : BodyObligation (dat15 (F := F) V c) (defs₀ (F := F)) Variants.none () Set.univ := fun t => by
  rw [bigSep_W15, bigSep_W15]
  exact sound_body15 V c t

end Cert.KB
-- ==== Proof.KB.R16.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S256x500 := Rect.unit (s := S256x500) ![0, 0] S256x500.size inb_S256x500_S256x500_0_0
abbrev r16_1 : Rect S500x784 := Rect.unit (s := S500x784) ![0, 0] S500x784.size inb_S500x784_S500x784_0_0
abbrev r16_2 : Rect S1x784 := Rect.unit (s := S1x784) ![0, 0] S1x784.size inb_S1x784_S1x784_0_0
abbrev r16_3 : Rect S256x784 := Rect.unit (s := S256x784) ![0, 0] S256x784.size inb_S256x784_S256x784_0_0

def out16_3 (x0 : Vec F S256x500 .bf16) (x1 : Vec F S500x784 .bf16) (x2 : Vec F S1x784 .f32) : Vec F S256x784 .f32 :=
  View.canon [⟨r16_3, k16_pay1 (View.ld x0 r16_0) (View.ld x1 r16_1) (View.ld x2 r16_2)⟩]

theorem cover16_3 (p0 : Vec F S256x784 .f32) (y : S256x784.Idx) :
    ∃ pc ∈ ([⟨r16_3, p0⟩] : List (View.Piece (Elt F) S256x784 .f32)), y ∈ pc.1.set :=
  View.cover_of_tiled [⟨r16_3, p0⟩] S256x784.size (by rfl) y

set_option maxHeartbeats 1000000 in
theorem sound_kernel16 (c : Dev nD) (E : Set ℕ) (i : grid16.Coords)
    (arg1 : Memref sig .tc .vmem S256x500 .bf16) (harg1 : arg1.IsWhole) (arg2 : Memref sig .tc .vmem S500x784 .bf16) (harg2 : arg2.IsWhole)
    (arg3 : Memref sig .tc .vmem S1x784 .f32) (harg3 : arg3.IsWhole) (arg4 : Memref sig .tc .vmem S256x784 .f32) (harg4 : arg4.IsWhole)
    (x0 : Vec F S256x500 .bf16) (x1 : Vec F S500x784 .bf16) (x2 : Vec F S1x784 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out16_3 x0 x1 x2)) -∗ K ⟨⟩))
      ⊢ wp frame (wpE (defs₀ (F := F)) Variants.none c none) E (cc16__matmul_bias_kernel i arg1 harg1 arg2 harg2 arg3 harg3 arg4 harg4) K := by
  simp only [cc16__matmul_bias_kernel_eq_skeleton]; unfold cc16__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16_3 (iblk16 V c 0 t) (iblk16 V c 1 t) (iblk16 V c 2 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation16 (c : Dev nD) : BodyObligation (dat16 (F := F) V c) (defs₀ (F := F)) Variants.none () Set.univ := fun t => by
  rw [bigSep_W16, bigSep_W16]
  exact sound_body16 V c t

end Cert.KB
-- ==== Proof.KB.R17.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

abbrev r17_0 : Rect S64x3072 := Rect.unit (s := S64x3072) ![0, 0] S64x3072.size inb_S64x3072_S64x3072_0_0
abbrev r17_1 : Rect S10x3072 := Rect.unit (s := S10x3072) ![0, 0] S10x3072.size inb_S10x3072_S10x3072_0_0
abbrev r17_2 : Rect S64x10x3072 := Rect.unit (s := S64x10x3072) ![0, 0, 0] S64x10x3072.size inb_S64x10x3072_S64x10x3072_0_0_0

def out17_2 (x0 : Vec F S64x3072 .f32) (x1 : Vec F S10x3072 .f32) : Vec F S64x10x3072 .f32 :=
  View.canon [⟨r17_2, k17_pay1 (View.ld x0 r17_0) (View.ld x1 r17_1)⟩]

theorem cover17_2 (p0 : Vec F S64x10x3072 .f32) (y : S64x10x3072.Idx) :
    ∃ pc ∈ ([⟨r17_2, p0⟩] : List (View.Piece (Elt F) S64x10x3072 .f32)), y ∈ pc.1.set :=
  View.cover_of_tiled [⟨r17_2, p0⟩] S64x10x3072.size (by rfl) y

set_option maxHeartbeats 1000000 in
theorem sound_kernel17 (c : Dev nD) (E : Set ℕ) (i : grid17.Coords)
    (arg1 : Memref sig .tc .vmem S64x3072 .f32) (harg1 : arg1.IsWhole)
    (arg2 : Memref sig .tc .vmem S10x3072 .f32) (harg2 : arg2.IsWhole)
    (arg3 : Memref sig .tc .vmem S64x10x3072 .f32) (harg3 : arg3.IsWhole)
    (x0 : Vec F S64x3072 .f32) (x1 : Vec F S10x3072 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out17_2 x0 x1)) -∗ K ⟨⟩))
      ⊢ wp frame (wpE (defs₀ (F := F)) Variants.none c none) E (cc17__q_kernel i arg1 harg1 arg2 harg2 arg3 harg3) K := by
  simp only [cc17__q_kernel_eq_skeleton]; unfold cc17__q_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) :
    (dat17 V c).after 2 t = out17_2 (iblk17 V c 0 t) (iblk17 V c 1 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation17 (c : Dev nD) : BodyObligation (dat17 (F := F) V c) (defs₀ (F := F)) Variants.none () Set.univ := fun t => by
  rw [bigSep_W17, bigSep_W17]
  exact sound_body17 V c t

end Cert.KB
-- ==== Proof.ExitValuation.lean ====
import Idealize.ShloMosaic.Lib.Pipeline.Launch
import Idealize.ShloMosaic.Lib.StableHlo.Run

namespace Cert

open Idealize.ShloMosaic Idealize.ShloMosaic.TcCoe
open Idealize.ShloMosaic.Pipeline (Dat Cfg WinSpec arrRef)

variable {nD : ℕ} {τ : Topo} {sig : RefSig} {Val : EltTy → Type} {Λ₀ : Idealize.SL.Sem.Labels}
variable {Ix : Type} [DecidableEq Ix] {Name : Type} [DecidableEq Name] {U : Type} [Idealize.SL.RA.URA U] {Lvl : Type}
variable (W : Valuation τ sig Val) {o r : Ref sig .tc}

/-- A valuation rewritten at one reference reads as before at every other. -/
theorem update_devRef_of_ne (h : r ≠ o) (x) :
    Function.update W (Proc.devRef .tc o) x (Proc.devRef .tc r) = W (Proc.devRef .tc r) :=
  Function.update_of_ne (StableHlo.devRef_ne_of_ne h) ..

/-- Rewriting at one window's array changes nothing off the windows' arrays. -/
theorem update_arrRef_of_not_mem {n gr : ℕ} (win : Fin n → WinSpec sig gr) (k : Fin n) (x) {b : Ref sig .tc}
    (hb : b ∉ Finset.univ.image (arrRef win)) :
    Function.update W (Proc.devRef .tc (arrRef win k)) x (Proc.devRef .tc b) = W (Proc.devRef .tc b) :=
  update_devRef_of_ne W (fun e => hb (Finset.mem_image.mpr ⟨k, Finset.mem_univ _, e.symm⟩)) x

variable {cfg : Cfg sig Λ₀} {c : Dev nD} (dat : Dat τ Val Ix Name U Lvl cfg c)

/-- If every window but `k` is an input on another array and `dat.A` is `W`, then `dat.arrAt · N` is `W` rewritten at `k`'s array with `dat.arrAt k N`. -/
theorem arrAt_eq_update (k : Fin cfg.W) (hA : ∀ w, dat.A w = W (Proc.devRef .tc (arrRef cfg.spec w)))
    (hin : ∀ w, w ≠ k → (cfg.win w).isOut = false ∧ arrRef cfg.spec w ≠ arrRef cfg.spec k) (w : Fin cfg.W) :
    dat.arrAt w cfg.N
      = Function.update W (Proc.devRef .tc (arrRef cfg.spec k)) (dat.arrAt k cfg.N) (Proc.devRef .tc (arrRef cfg.spec w)) := by
  by_cases hw : w = k
  · subst hw; rw [Function.update_self]
  · rw [Dat.arrAt_in _ w (hin w hw).1, hA, update_devRef_of_ne W (hin w hw).2]

end Cert
-- ==== Proof.KB.Fold.lean ====
import proofs.«146000_j29076928594330_2_alg».proof.Proof.Gen.Kernel.Launch
import proofs.«146000_j29076928594330_2_alg».proof.Proof.Gen.Kernel.Skeleton
import proofs.«146000_j29076928594330_2_alg».proof.Proof.Gen.Kernel.Points
import proofs.«146000_j29076928594330_2_alg».proof.Proof.KB.HostFacts
import proofs.«146000_j29076928594330_2_alg».proof.Proof.KB.R00
import proofs.«146000_j29076928594330_2_alg».proof.Proof.KB.R01
import proofs.«146000_j29076928594330_2_alg».proof.Proof.KB.R02
import proofs.«146000_j29076928594330_2_alg».proof.Proof.KB.R03
import proofs.«146000_j29076928594330_2_alg».proof.Proof.KB.R04
import proofs.«146000_j29076928594330_2_alg».proof.Proof.KB.R05
import proofs.«146000_j29076928594330_2_alg».proof.Proof.KB.R06
import proofs.«146000_j29076928594330_2_alg».proof.Proof.KB.R07
import proofs.«146000_j29076928594330_2_alg».proof.Proof.KB.R08
import proofs.«146000_j29076928594330_2_alg».proof.Proof.KB.R09
import proofs.«146000_j29076928594330_2_alg».proof.Proof.KB.R10
import proofs.«146000_j29076928594330_2_alg».proof.Proof.KB.R11
import proofs.«146000_j29076928594330_2_alg».proof.Proof.KB.R12
import proofs.«146000_j29076928594330_2_alg».proof.Proof.KB.R13
import proofs.«146000_j29076928594330_2_alg».proof.Proof.KB.R14
import proofs.«146000_j29076928594330_2_alg».proof.Proof.KB.R15
import proofs.«146000_j29076928594330_2_alg».proof.Proof.KB.R16
import proofs.«146000_j29076928594330_2_alg».proof.Proof.KB.R17
import proofs.«146000_j29076928594330_2_alg».proof.Proof.ExitValuation
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (r : Ref sig .tc)

abbrev W0 (m : (ℓ : Loc nD τ sig) → Buf (Elt F) ℓ) (ρ : Dev nD → PrngReg) : Dev nD → Valuation τ sig (Elt F) := fun c b => m (c, b)
abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (h : r ∉ GenP.hostOps0_W) : W1 m ρ c (Proc.devRef .tc r) = W0 m ρ c (Proc.devRef .tc r) :=
  StableHlo.after_of_writes_sub hostOps0 _ GenP.hostOps0_writes h

def W2 : Valuation τ sig (Elt F) :=
  Function.update (W1 m ρ c) (Proc.devRef .tc main_v3) ((dat0 (V1 m ρ) c).arrAt 3 cfg0.N)
abbrev V2 : (c : Dev nD) → (b : Ref sig .tc) → Buf (Elt F) ((c : Thread nD τ).loc b) := fun c b => W2 m ρ c b
theorem V2_out : V2 m ρ c main_v3 = (dat0 (V1 m ρ) c).arrAt 3 cfg0.N := Function.update_self ..
theorem W2_of (h : r ≠ main_v3) : W2 m ρ c (Proc.devRef .tc r) = W1 m ρ c (Proc.devRef .tc r) :=
  update_devRef_of_ne _ h _
theorem hF0 (w : Fin cfg0.W) : (dat0 (V1 m ρ) c).arrAt w cfg0.N = V2 m ρ c (Pipeline.arrRef spec0 w) :=
  arrAt_eq_update _ _ 3 (A_eq0 _ c) (by decide) w
theorem hrest0 : ∀ b, b ∉ Finset.univ.image (Pipeline.arrRef spec0) → V2 m ρ c b = V1 m ρ c b :=
  fun _ => update_arrRef_of_not_mem _ spec0 3 _

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (h : r ∉ GenP.hostOps1_W) : W3 m ρ c (Proc.devRef .tc r) = W2 m ρ c (Proc.devRef .tc r) :=
  StableHlo.after_of_writes_sub hostOps1 _ GenP.hostOps1_writes h

def W4 : Valuation τ sig (Elt F) :=
  Function.update (W3 m ρ c) (Proc.devRef .tc main_v10) ((dat1 (V3 m ρ) c).arrAt 4 cfg1.N)
abbrev V4 : (c : Dev nD) → (b : Ref sig .tc) → Buf (Elt F) ((c : Thread nD τ).loc b) := fun c b => W4 m ρ c b
theorem V4_out : V4 m ρ c main_v10 = (dat1 (V3 m ρ) c).arrAt 4 cfg1.N := Function.update_self ..
theorem W4_of (h : r ≠ main_v10) : W4 m ρ c (Proc.devRef .tc r) = W3 m ρ c (Proc.devRef .tc r) :=
  update_devRef_of_ne _ h _
theorem hF1 (w : Fin cfg1.W) : (dat1 (V3 m ρ) c).arrAt w cfg1.N = V4 m ρ c (Pipeline.arrRef spec1 w) :=
  arrAt_eq_update _ _ 4 (A_eq1 _ c) (by decide) w
theorem hrest1 : ∀ b, b ∉ Finset.univ.image (Pipeline.arrRef spec1) → V4 m ρ c b = V3 m ρ c b :=
  fun _ => update_arrRef_of_not_mem _ spec1 4 _

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (h : r ∉ GenP.hostOps2_W) : W5 m ρ c (Proc.devRef .tc r) = W4 m ρ c (Proc.devRef .tc r) :=
  StableHlo.after_of_writes_sub hostOps2 _ GenP.hostOps2_writes h

def W6 : Valuation τ sig (Elt F) :=
  Function.update (W5 m ρ c) (Proc.devRef .tc main_v12) ((dat2 (V5 m ρ) c).arrAt 10 cfg2.N)
abbrev V6 : (c : Dev nD) → (b : Ref sig .tc) → Buf (Elt F) ((c : Thread nD τ).loc b) := fun c b => W6 m ρ c b
theorem V6_out : V6 m ρ c main_v12 = (dat2 (V5 m ρ) c).arrAt 10 cfg2.N := Function.update_self ..
theorem W6_of (h : r ≠ main_v12) : W6 m ρ c (Proc.devRef .tc r) = W5 m ρ c (Proc.devRef .tc r) :=
  update_devRef_of_ne _ h _
theorem hF2 (w : Fin cfg2.W) : (dat2 (V5 m ρ) c).arrAt w cfg2.N = V6 m ρ c (Pipeline.arrRef spec2 w) :=
  arrAt_eq_update _ _ 10 (A_eq2 _ c) (by decide) w
theorem hrest2 : ∀ b, b ∉ Finset.univ.image (Pipeline.arrRef spec2) → V6 m ρ c b = V5 m ρ c b :=
  fun _ => update_arrRef_of_not_mem _ spec2 10 _

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (h : r ∉ GenP.hostOps3_W) : W7 m ρ c (Proc.devRef .tc r) = W6 m ρ c (Proc.devRef .tc r) :=
  StableHlo.after_of_writes_sub hostOps3 _ GenP.hostOps3_writes h

def W8 : Valuation τ sig (Elt F) :=
  Function.update (W7 m ρ c) (Proc.devRef .tc main_v16) ((dat3 (V7 m ρ) c).arrAt 3 cfg3.N)
abbrev V8 : (c : Dev nD) → (b : Ref sig .tc) → Buf (Elt F) ((c : Thread nD τ).loc b) := fun c b => W8 m ρ c b
theorem V8_out : V8 m ρ c main_v16 = (dat3 (V7 m ρ) c).arrAt 3 cfg3.N := Function.update_self ..
theorem W8_of (h : r ≠ main_v16) : W8 m ρ c (Proc.devRef .tc r) = W7 m ρ c (Proc.devRef .tc r) :=
  update_devRef_of_ne _ h _
theorem hF3 (w : Fin cfg3.W) : (dat3 (V7 m ρ) c).arrAt w cfg3.N = V8 m ρ c (Pipeline.arrRef spec3 w) :=
  arrAt_eq_update _ _ 3 (A_eq3 _ c) (by decide) w
theorem hrest3 : ∀ b, b ∉ Finset.univ.image (Pipeline.arrRef spec3) → V8 m ρ c b = V7 m ρ c b :=
  fun _ => update_arrRef_of_not_mem _ spec3 3 _

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_of (h : r ∉ GenP.hostOps4_W) : W9 m ρ c (Proc.devRef .tc r) = W8 m ρ c (Proc.devRef .tc r) :=
  StableHlo.after_of_writes_sub hostOps4 _ GenP.hostOps4_writes h

def W10 : Valuation τ sig (Elt F) :=
  Function.update (W9 m ρ c) (Proc.devRef .tc main_v23) ((dat4 (V9 m ρ) c).arrAt 4 cfg4.N)
abbrev V10 : (c : Dev nD) → (b : Ref sig .tc) → Buf (Elt F) ((c : Thread nD τ).loc b) := fun c b => W10 m ρ c b
theorem V10_out : V10 m ρ c main_v23 = (dat4 (V9 m ρ) c).arrAt 4 cfg4.N := Function.update_self ..
theorem W10_of (h : r ≠ main_v23) : W10 m ρ c (Proc.devRef .tc r) = W9 m ρ c (Proc.devRef .tc r) :=
  update_devRef_of_ne _ h _
theorem hF4 (w : Fin cfg4.W) : (dat4 (V9 m ρ) c).arrAt w cfg4.N = V10 m ρ c (Pipeline.arrRef spec4 w) :=
  arrAt_eq_update _ _ 4 (A_eq4 _ c) (by decide) w
theorem hrest4 : ∀ b, b ∉ Finset.univ.image (Pipeline.arrRef spec4) → V10 m ρ c b = V9 m ρ c b :=
  fun _ => update_arrRef_of_not_mem _ spec4 4 _

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_of (h : r ∉ GenP.hostOps5_W) : W11 m ρ c (Proc.devRef .tc r) = W10 m ρ c (Proc.devRef .tc r) :=
  StableHlo.after_of_writes_sub hostOps5 _ GenP.hostOps5_writes h

def W12 : Valuation τ sig (Elt F) :=
  Function.update (W11 m ρ c) (Proc.devRef .tc main_v25) ((dat5 (V11 m ρ) c).arrAt 10 cfg5.N)
abbrev V12 : (c : Dev nD) → (b : Ref sig .tc) → Buf (Elt F) ((c : Thread nD τ).loc b) := fun c b => W12 m ρ c b
theorem V12_out : V12 m ρ c main_v25 = (dat5 (V11 m ρ) c).arrAt 10 cfg5.N := Function.update_self ..
theorem W12_of (h : r ≠ main_v25) : W12 m ρ c (Proc.devRef .tc r) = W11 m ρ c (Proc.devRef .tc r) :=
  update_devRef_of_ne _ h _
theorem hF5 (w : Fin cfg5.W) : (dat5 (V11 m ρ) c).arrAt w cfg5.N = V12 m ρ c (Pipeline.arrRef spec5 w) :=
  arrAt_eq_update _ _ 10 (A_eq5 _ c) (by decide) w
theorem hrest5 : ∀ b, b ∉ Finset.univ.image (Pipeline.arrRef spec5) → V12 m ρ c b = V11 m ρ c b :=
  fun _ => update_arrRef_of_not_mem _ spec5 10 _

abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
theorem W13_of (h : r ∉ GenP.hostOps6_W) : W13 m ρ c (Proc.devRef .tc r) = W12 m ρ c (Proc.devRef .tc r) :=
  StableHlo.after_of_writes_sub hostOps6 _ GenP.hostOps6_writes h

def W14 : Valuation τ sig (Elt F) :=
  Function.update (W13 m ρ c) (Proc.devRef .tc main_v29) ((dat6 (V13 m ρ) c).arrAt 3 cfg6.N)
abbrev V14 : (c : Dev nD) → (b : Ref sig .tc) → Buf (Elt F) ((c : Thread nD τ).loc b) := fun c b => W14 m ρ c b
theorem V14_out : V14 m ρ c main_v29 = (dat6 (V13 m ρ) c).arrAt 3 cfg6.N := Function.update_self ..
theorem W14_of (h : r ≠ main_v29) : W14 m ρ c (Proc.devRef .tc r) = W13 m ρ c (Proc.devRef .tc r) :=
  update_devRef_of_ne _ h _
theorem hF6 (w : Fin cfg6.W) : (dat6 (V13 m ρ) c).arrAt w cfg6.N = V14 m ρ c (Pipeline.arrRef spec6 w) :=
  arrAt_eq_update _ _ 3 (A_eq6 _ c) (by decide) w
theorem hrest6 : ∀ b, b ∉ Finset.univ.image (Pipeline.arrRef spec6) → V14 m ρ c b = V13 m ρ c b :=
  fun _ => update_arrRef_of_not_mem _ spec6 3 _

abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
theorem W15_of (h : r ∉ GenP.hostOps7_W) : W15 m ρ c (Proc.devRef .tc r) = W14 m ρ c (Proc.devRef .tc r) :=
  StableHlo.after_of_writes_sub hostOps7 _ GenP.hostOps7_writes h

def W16 : Valuation τ sig (Elt F) :=
  Function.update (W15 m ρ c) (Proc.devRef .tc main_v36) ((dat7 (V15 m ρ) c).arrAt 4 cfg7.N)
abbrev V16 : (c : Dev nD) → (b : Ref sig .tc) → Buf (Elt F) ((c : Thread nD τ).loc b) := fun c b => W16 m ρ c b
theorem V16_out : V16 m ρ c main_v36 = (dat7 (V15 m ρ) c).arrAt 4 cfg7.N := Function.update_self ..
theorem W16_of (h : r ≠ main_v36) : W16 m ρ c (Proc.devRef .tc r) = W15 m ρ c (Proc.devRef .tc r) :=
  update_devRef_of_ne _ h _
theorem hF7 (w : Fin cfg7.W) : (dat7 (V15 m ρ) c).arrAt w cfg7.N = V16 m ρ c (Pipeline.arrRef spec7 w) :=
  arrAt_eq_update _ _ 4 (A_eq7 _ c) (by decide) w
theorem hrest7 : ∀ b, b ∉ Finset.univ.image (Pipeline.arrRef spec7) → V16 m ρ c b = V15 m ρ c b :=
  fun _ => update_arrRef_of_not_mem _ spec7 4 _

abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
theorem W17_of (h : r ∉ GenP.hostOps8_W) : W17 m ρ c (Proc.devRef .tc r) = W16 m ρ c (Proc.devRef .tc r) :=
  StableHlo.after_of_writes_sub hostOps8 _ GenP.hostOps8_writes h

def W18 : Valuation τ sig (Elt F) :=
  Function.update (W17 m ρ c) (Proc.devRef .tc main_v38) ((dat8 (V17 m ρ) c).arrAt 10 cfg8.N)
abbrev V18 : (c : Dev nD) → (b : Ref sig .tc) → Buf (Elt F) ((c : Thread nD τ).loc b) := fun c b => W18 m ρ c b
theorem V18_out : V18 m ρ c main_v38 = (dat8 (V17 m ρ) c).arrAt 10 cfg8.N := Function.update_self ..
theorem W18_of (h : r ≠ main_v38) : W18 m ρ c (Proc.devRef .tc r) = W17 m ρ c (Proc.devRef .tc r) :=
  update_devRef_of_ne _ h _
theorem hF8 (w : Fin cfg8.W) : (dat8 (V17 m ρ) c).arrAt w cfg8.N = V18 m ρ c (Pipeline.arrRef spec8 w) :=
  arrAt_eq_update _ _ 10 (A_eq8 _ c) (by decide) w
theorem hrest8 : ∀ b, b ∉ Finset.univ.image (Pipeline.arrRef spec8) → V18 m ρ c b = V17 m ρ c b :=
  fun _ => update_arrRef_of_not_mem _ spec8 10 _

abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
theorem W19_of (h : r ∉ GenP.hostOps9_W) : W19 m ρ c (Proc.devRef .tc r) = W18 m ρ c (Proc.devRef .tc r) :=
  StableHlo.after_of_writes_sub hostOps9 _ GenP.hostOps9_writes h

def W20 : Valuation τ sig (Elt F) :=
  Function.update (W19 m ρ c) (Proc.devRef .tc main_v42) ((dat9 (V19 m ρ) c).arrAt 3 cfg9.N)
abbrev V20 : (c : Dev nD) → (b : Ref sig .tc) → Buf (Elt F) ((c : Thread nD τ).loc b) := fun c b => W20 m ρ c b
theorem V20_out : V20 m ρ c main_v42 = (dat9 (V19 m ρ) c).arrAt 3 cfg9.N := Function.update_self ..
theorem W20_of (h : r ≠ main_v42) : W20 m ρ c (Proc.devRef .tc r) = W19 m ρ c (Proc.devRef .tc r) :=
  update_devRef_of_ne _ h _
theorem hF9 (w : Fin cfg9.W) : (dat9 (V19 m ρ) c).arrAt w cfg9.N = V20 m ρ c (Pipeline.arrRef spec9 w) :=
  arrAt_eq_update _ _ 3 (A_eq9 _ c) (by decide) w
theorem hrest9 : ∀ b, b ∉ Finset.univ.image (Pipeline.arrRef spec9) → V20 m ρ c b = V19 m ρ c b :=
  fun _ => update_arrRef_of_not_mem _ spec9 3 _

abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
theorem W21_of (h : r ∉ GenP.hostOps10_W) : W21 m ρ c (Proc.devRef .tc r) = W20 m ρ c (Proc.devRef .tc r) :=
  StableHlo.after_of_writes_sub hostOps10 _ GenP.hostOps10_writes h

def W22 : Valuation τ sig (Elt F) :=
  Function.update (W21 m ρ c) (Proc.devRef .tc main_v49) ((dat10 (V21 m ρ) c).arrAt 4 cfg10.N)
abbrev V22 : (c : Dev nD) → (b : Ref sig .tc) → Buf (Elt F) ((c : Thread nD τ).loc b) := fun c b => W22 m ρ c b
theorem V22_out : V22 m ρ c main_v49 = (dat10 (V21 m ρ) c).arrAt 4 cfg10.N := Function.update_self ..
theorem W22_of (h : r ≠ main_v49) : W22 m ρ c (Proc.devRef .tc r) = W21 m ρ c (Proc.devRef .tc r) :=
  update_devRef_of_ne _ h _
theorem hF10 (w : Fin cfg10.W) : (dat10 (V21 m ρ) c).arrAt w cfg10.N = V22 m ρ c (Pipeline.arrRef spec10 w) :=
  arrAt_eq_update _ _ 4 (A_eq10 _ c) (by decide) w
theorem hrest10 : ∀ b, b ∉ Finset.univ.image (Pipeline.arrRef spec10) → V22 m ρ c b = V21 m ρ c b :=
  fun _ => update_arrRef_of_not_mem _ spec10 4 _

abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
theorem W23_of (h : r ∉ GenP.hostOps11_W) : W23 m ρ c (Proc.devRef .tc r) = W22 m ρ c (Proc.devRef .tc r) :=
  StableHlo.after_of_writes_sub hostOps11 _ GenP.hostOps11_writes h

def W24 : Valuation τ sig (Elt F) :=
  Function.update (W23 m ρ c) (Proc.devRef .tc main_v51) ((dat11 (V23 m ρ) c).arrAt 10 cfg11.N)
abbrev V24 : (c : Dev nD) → (b : Ref sig .tc) → Buf (Elt F) ((c : Thread nD τ).loc b) := fun c b => W24 m ρ c b
theorem V24_out : V24 m ρ c main_v51 = (dat11 (V23 m ρ) c).arrAt 10 cfg11.N := Function.update_self ..
theorem W24_of (h : r ≠ main_v51) : W24 m ρ c (Proc.devRef .tc r) = W23 m ρ c (Proc.devRef .tc r) :=
  update_devRef_of_ne _ h _
theorem hF11 (w : Fin cfg11.W) : (dat11 (V23 m ρ) c).arrAt w cfg11.N = V24 m ρ c (Pipeline.arrRef spec11 w) :=
  arrAt_eq_update _ _ 10 (A_eq11 _ c) (by decide) w
theorem hrest11 : ∀ b, b ∉ Finset.univ.image (Pipeline.arrRef spec11) → V24 m ρ c b = V23 m ρ c b :=
  fun _ => update_arrRef_of_not_mem _ spec11 10 _

def W25 : Valuation τ sig (Elt F) :=
  Function.update (W24 m ρ c) (Proc.devRef .tc main_v52) ((dat12 (V24 m ρ) c).arrAt 8 cfg12.N)
abbrev V25 : (c : Dev nD) → (b : Ref sig .tc) → Buf (Elt F) ((c : Thread nD τ).loc b) := fun c b => W25 m ρ c b
theorem V25_out : V25 m ρ c main_v52 = (dat12 (V24 m ρ) c).arrAt 8 cfg12.N := Function.update_self ..
theorem W25_of (h : r ≠ main_v52) : W25 m ρ c (Proc.devRef .tc r) = W24 m ρ c (Proc.devRef .tc r) :=
  update_devRef_of_ne _ h _
theorem hF12 (w : Fin cfg12.W) : (dat12 (V24 m ρ) c).arrAt w cfg12.N = V25 m ρ c (Pipeline.arrRef spec12 w) :=
  arrAt_eq_update _ _ 8 (A_eq12 _ c) (by decide) w
theorem hrest12 : ∀ b, b ∉ Finset.univ.image (Pipeline.arrRef spec12) → V25 m ρ c b = V24 m ρ c b :=
  fun _ => update_arrRef_of_not_mem _ spec12 8 _

abbrev W26 : Dev nD → Valuation τ sig (Elt F) := fun c => StableHlo.after hostOps13 (W25 m ρ c)
abbrev V26 : (c : Dev nD) → (b : Ref sig .tc) → Buf (Elt F) ((c : Thread nD τ).loc b) := fun c b => W26 m ρ c b
theorem W26_of (h : r ∉ GenP.hostOps13_W) : W26 m ρ c (Proc.devRef .tc r) = W25 m ρ c (Proc.devRef .tc r) :=
  StableHlo.after_of_writes_sub hostOps13 _ GenP.hostOps13_writes h

def W27 : Valuation τ sig (Elt F) :=
  Function.update (W26 m ρ c) (Proc.devRef .tc main_v56) ((dat13 (V26 m ρ) c).arrAt 3 cfg13.N)
abbrev V27 : (c : Dev nD) → (b : Ref sig .tc) → Buf (Elt F) ((c : Thread nD τ).loc b) := fun c b => W27 m ρ c b
theorem V27_out : V27 m ρ c main_v56 = (dat13 (V26 m ρ) c).arrAt 3 cfg13.N := Function.update_self ..
theorem W27_of (h : r ≠ main_v56) : W27 m ρ c (Proc.devRef .tc r) = W26 m ρ c (Proc.devRef .tc r) :=
  update_devRef_of_ne _ h _
theorem hF13 (w : Fin cfg13.W) : (dat13 (V26 m ρ) c).arrAt w cfg13.N = V27 m ρ c (Pipeline.arrRef spec13 w) :=
  arrAt_eq_update _ _ 3 (A_eq13 _ c) (by decide) w
theorem hrest13 : ∀ b, b ∉ Finset.univ.image (Pipeline.arrRef spec13) → V27 m ρ c b = V26 m ρ c b :=
  fun _ => update_arrRef_of_not_mem _ spec13 3 _

abbrev W28 : Dev nD → Valuation τ sig (Elt F) := fun c => StableHlo.after hostOps14 (W27 m ρ c)
abbrev V28 : (c : Dev nD) → (b : Ref sig .tc) → Buf (Elt F) ((c : Thread nD τ).loc b) := fun c b => W28 m ρ c b
theorem W28_of (h : r ∉ GenP.hostOps14_W) : W28 m ρ c (Proc.devRef .tc r) = W27 m ρ c (Proc.devRef .tc r) :=
  StableHlo.after_of_writes_sub hostOps14 _ GenP.hostOps14_writes h

def W29 : Valuation τ sig (Elt F) :=
  Function.update (W28 m ρ c) (Proc.devRef .tc main_v60) ((dat14 (V28 m ρ) c).arrAt 3 cfg14.N)
abbrev V29 : (c : Dev nD) → (b : Ref sig .tc) → Buf (Elt F) ((c : Thread nD τ).loc b) := fun c b => W29 m ρ c b
theorem V29_out : V29 m ρ c main_v60 = (dat14 (V28 m ρ) c).arrAt 3 cfg14.N := Function.update_self ..
theorem W29_of (h : r ≠ main_v60) : W29 m ρ c (Proc.devRef .tc r) = W28 m ρ c (Proc.devRef .tc r) :=
  update_devRef_of_ne _ h _
theorem hF14 (w : Fin cfg14.W) : (dat14 (V28 m ρ) c).arrAt w cfg14.N = V29 m ρ c (Pipeline.arrRef spec14 w) :=
  arrAt_eq_update _ _ 3 (A_eq14 _ c) (by decide) w
theorem hrest14 : ∀ b, b ∉ Finset.univ.image (Pipeline.arrRef spec14) → V29 m ρ c b = V28 m ρ c b :=
  fun _ => update_arrRef_of_not_mem _ spec14 3 _

abbrev W30 : Dev nD → Valuation τ sig (Elt F) := fun c => StableHlo.after hostOps15 (W29 m ρ c)
abbrev V30 : (c : Dev nD) → (b : Ref sig .tc) → Buf (Elt F) ((c : Thread nD τ).loc b) := fun c b => W30 m ρ c b
theorem W30_of (h : r ∉ GenP.hostOps15_W) : W30 m ρ c (Proc.devRef .tc r) = W29 m ρ c (Proc.devRef .tc r) :=
  StableHlo.after_of_writes_sub hostOps15 _ GenP.hostOps15_writes h

def W31 : Valuation τ sig (Elt F) :=
  Function.update (W30 m ρ c) (Proc.devRef .tc main_v64) ((dat15 (V30 m ρ) c).arrAt 3 cfg15.N)
abbrev V31 : (c : Dev nD) → (b : Ref sig .tc) → Buf (Elt F) ((c : Thread nD τ).loc b) := fun c b => W31 m ρ c b
theorem V31_out : V31 m ρ c main_v64 = (dat15 (V30 m ρ) c).arrAt 3 cfg15.N := Function.update_self ..
theorem W31_of (h : r ≠ main_v64) : W31 m ρ c (Proc.devRef .tc r) = W30 m ρ c (Proc.devRef .tc r) :=
  update_devRef_of_ne _ h _
theorem hF15 (w : Fin cfg15.W) : (dat15 (V30 m ρ) c).arrAt w cfg15.N = V31 m ρ c (Pipeline.arrRef spec15 w) :=
  arrAt_eq_update _ _ 3 (A_eq15 _ c) (by decide) w
theorem hrest15 : ∀ b, b ∉ Finset.univ.image (Pipeline.arrRef spec15) → V31 m ρ c b = V30 m ρ c b :=
  fun _ => update_arrRef_of_not_mem _ spec15 3 _

abbrev W32 : Dev nD → Valuation τ sig (Elt F) := fun c => StableHlo.after hostOps16 (W31 m ρ c)
abbrev V32 : (c : Dev nD) → (b : Ref sig .tc) → Buf (Elt F) ((c : Thread nD τ).loc b) := fun c b => W32 m ρ c b
theorem W32_of (h : r ∉ GenP.hostOps16_W) : W32 m ρ c (Proc.devRef .tc r) = W31 m ρ c (Proc.devRef .tc r) :=
  StableHlo.after_of_writes_sub hostOps16 _ GenP.hostOps16_writes h

def W33 : Valuation τ sig (Elt F) :=
  Function.update (W32 m ρ c) (Proc.devRef .tc main_v68) ((dat16 (V32 m ρ) c).arrAt 3 cfg16.N)
abbrev V33 : (c : Dev nD) → (b : Ref sig .tc) → Buf (Elt F) ((c : Thread nD τ).loc b) := fun c b => W33 m ρ c b
theorem V33_out : V33 m ρ c main_v68 = (dat16 (V32 m ρ) c).arrAt 3 cfg16.N := Function.update_self ..
theorem W33_of (h : r ≠ main_v68) : W33 m ρ c (Proc.devRef .tc r) = W32 m ρ c (Proc.devRef .tc r) :=
  update_devRef_of_ne _ h _
theorem hF16 (w : Fin cfg16.W) : (dat16 (V32 m ρ) c).arrAt w cfg16.N = V33 m ρ c (Pipeline.arrRef spec16 w) :=
  arrAt_eq_update _ _ 3 (A_eq16 _ c) (by decide) w
theorem hrest16 : ∀ b, b ∉ Finset.univ.image (Pipeline.arrRef spec16) → V33 m ρ c b = V32 m ρ c b :=
  fun _ => update_arrRef_of_not_mem _ spec16 3 _

def W34 : Valuation τ sig (Elt F) :=
  Function.update (W33 m ρ c) (Proc.devRef .tc main_v69) ((dat17 (V33 m ρ) c).arrAt 2 cfg17.N)
abbrev V34 : (c : Dev nD) → (b : Ref sig .tc) → Buf (Elt F) ((c : Thread nD τ).loc b) := fun c b => W34 m ρ c b
theorem V34_out : V34 m ρ c main_v69 = (dat17 (V33 m ρ) c).arrAt 2 cfg17.N := Function.update_self ..
theorem W34_of (h : r ≠ main_v69) : W34 m ρ c (Proc.devRef .tc r) = W33 m ρ c (Proc.devRef .tc r) :=
  update_devRef_of_ne _ h _
theorem hF17 (w : Fin cfg17.W) : (dat17 (V33 m ρ) c).arrAt w cfg17.N = V34 m ρ c (Pipeline.arrRef spec17 w) :=
  arrAt_eq_update _ _ 2 (A_eq17 _ c) (by decide) w
theorem hrest17 : ∀ b, b ∉ Finset.univ.image (Pipeline.arrRef spec17) → V34 m ρ c b = V33 m ρ c b :=
  fun _ => update_arrRef_of_not_mem _ spec17 2 _

abbrev adm : (p : Fin 18) → (pcfgs (F := F) p).Adm := fun p => (cfgs p).toPCfg_adm
def pdats : (p : Fin 18) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V24 m ρ) c
  | ⟨13, _⟩ => fun c => dat13 (V26 m ρ) c
  | ⟨14, _⟩ => fun c => dat14 (V28 m ρ) c
  | ⟨15, _⟩ => fun c => dat15 (V30 m ρ) c
  | ⟨16, _⟩ => fun c => dat16 (V32 m ρ) c
  | ⟨17, _⟩ => fun c => dat17 (V33 m ρ) c
  | ⟨_ + 18, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ : sProp 𝕄 := iprop(StableHlo.held (c : Thread nD τ) (Pipeline.ucRefs τ sig) (W34 m ρ c) ∗ ∃ r, prngReg c r)

def Kept : Prop :=
  r ∉ GenP.hostOps0_W ∧ r ≠ main_v3 ∧ r ∉ GenP.hostOps1_W ∧ r ≠ main_v10 ∧ r ∉ GenP.hostOps2_W ∧ r ≠ main_v12 ∧ r ∉ GenP.hostOps3_W ∧ r ≠ main_v16 ∧ r ∉ GenP.hostOps4_W ∧ r ≠ main_v23 ∧ r ∉ GenP.hostOps5_W ∧ r ≠ main_v25 ∧ r ∉ GenP.hostOps6_W ∧ r ≠ main_v29 ∧ r ∉ GenP.hostOps7_W ∧ r ≠ main_v36 ∧ r ∉ GenP.hostOps8_W ∧ r ≠ main_v38 ∧ r ∉ GenP.hostOps9_W ∧ r ≠ main_v42 ∧ r ∉ GenP.hostOps10_W ∧ r ≠ main_v49 ∧ r ∉ GenP.hostOps11_W ∧ r ≠ main_v51 ∧ r ≠ main_v52 ∧ r ∉ GenP.hostOps13_W ∧ r ≠ main_v56 ∧ r ∉ GenP.hostOps14_W ∧ r ≠ main_v60 ∧ r ∉ GenP.hostOps15_W ∧ r ≠ main_v64 ∧ r ∉ GenP.hostOps16_W ∧ r ≠ main_v68 ∧ r ≠ main_v69
set_option synthInstance.maxSize 4096 in
instance : Decidable (Kept r) := by unfold Kept; infer_instance
theorem W34_of_kept (h : Kept r) : W34 m ρ c (Proc.devRef .tc r) = m ((c : Thread nD τ).loc r) := by
  obtain ⟨_, _, _, _, _, _, _, _, _, _, _, _, _, _, _, _, _, _, _, _, _, _, _, _, _, _, _, _, _, _, _, _, _, _⟩ := h
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of, W8_of, W7_of, W6_of, W5_of, W4_of, W3_of, W2_of, W1_of] <;> assumption
theorem W34_main_arg0 : W34 m ρ c (Proc.devRef .tc main_arg0) = m ((c : Thread nD τ).loc main_arg0) := W34_of_kept m ρ c _ (by decide)
theorem W34_main_arg1 : W34 m ρ c (Proc.devRef .tc main_arg1) = m ((c : Thread nD τ).loc main_arg1) := W34_of_kept m ρ c _ (by decide)
theorem W34_main_arg2 : W34 m ρ c (Proc.devRef .tc main_arg2) = m ((c : Thread nD τ).loc main_arg2) := W34_of_kept m ρ c _ (by decide)
theorem W34_main_arg3 : W34 m ρ c (Proc.devRef .tc main_arg3) = m ((c : Thread nD τ).loc main_arg3) := W34_of_kept m ρ c _ (by decide)
theorem W34_main_arg4 : W34 m ρ c (Proc.devRef .tc main_arg4) = m ((c : Thread nD τ).loc main_arg4) := W34_of_kept m ρ c _ (by decide)
theorem W34_main_arg5 : W34 m ρ c (Proc.devRef .tc main_arg5) = m ((c : Thread nD τ).loc main_arg5) := W34_of_kept m ρ c _ (by decide)
theorem W34_main_arg6 : W34 m ρ c (Proc.devRef .tc main_arg6) = m ((c : Thread nD τ).loc main_arg6) := W34_of_kept m ρ c _ (by decide)
theorem W34_main_arg7 : W34 m ρ c (Proc.devRef .tc main_arg7) = m ((c : Thread nD τ).loc main_arg7) := W34_of_kept m ρ c _ (by decide)
theorem W34_main_arg8 : W34 m ρ c (Proc.devRef .tc main_arg8) = m ((c : Thread nD τ).loc main_arg8) := W34_of_kept m ρ c _ (by decide)
theorem W34_main_arg9 : W34 m ρ c (Proc.devRef .tc main_arg9) = m ((c : Thread nD τ).loc main_arg9) := W34_of_kept m ρ c _ (by decide)
theorem W34_main_arg10 : W34 m ρ c (Proc.devRef .tc main_arg10) = m ((c : Thread nD τ).loc main_arg10) := W34_of_kept m ρ c _ (by decide)
theorem W34_main_arg11 : W34 m ρ c (Proc.devRef .tc main_arg11) = m ((c : Thread nD τ).loc main_arg11) := W34_of_kept m ρ c _ (by decide)
theorem W34_main_arg12 : W34 m ρ c (Proc.devRef .tc main_arg12) = m ((c : Thread nD τ).loc main_arg12) := W34_of_kept m ρ c _ (by decide)
theorem W34_main_arg13 : W34 m ρ c (Proc.devRef .tc main_arg13) = m ((c : Thread nD τ).loc main_arg13) := W34_of_kept m ρ c _ (by decide)
theorem W34_main_arg14 : W34 m ρ c (Proc.devRef .tc main_arg14) = m ((c : Thread nD τ).loc main_arg14) := W34_of_kept m ρ c _ (by decide)
theorem W34_main_arg15 : W34 m ρ c (Proc.devRef .tc main_arg15) = m ((c : Thread nD τ).loc main_arg15) := W34_of_kept m ρ c _ (by decide)
theorem W34_main_arg16 : W34 m ρ c (Proc.devRef .tc main_arg16) = m ((c : Thread nD τ).loc main_arg16) := W34_of_kept m ρ c _ (by decide)
theorem W34_main_arg17 : W34 m ρ c (Proc.devRef .tc main_arg17) = m ((c : Thread nD τ).loc main_arg17) := W34_of_kept m ρ c _ (by decide)
theorem W34_main_arg18 : W34 m ρ c (Proc.devRef .tc main_arg18) = m ((c : Thread nD τ).loc main_arg18) := W34_of_kept m ρ c _ (by decide)
theorem W34_main_arg19 : W34 m ρ c (Proc.devRef .tc main_arg19) = m ((c : Thread nD τ).loc main_arg19) := W34_of_kept m ρ c _ (by decide)
theorem W34_main_arg20 : W34 m ρ c (Proc.devRef .tc main_arg20) = m ((c : Thread nD τ).loc main_arg20) := W34_of_kept m ρ c _ (by decide)
theorem W34_main_arg21 : W34 m ρ c (Proc.devRef .tc main_arg21) = m ((c : Thread nD τ).loc main_arg21) := W34_of_kept m ρ c _ (by decide)
theorem W34_main_arg22 : W34 m ρ c (Proc.devRef .tc main_arg22) = m ((c : Thread nD τ).loc main_arg22) := W34_of_kept m ρ c _ (by decide)
theorem W34_main_arg23 : W34 m ρ c (Proc.devRef .tc main_arg23) = m ((c : Thread nD τ).loc main_arg23) := W34_of_kept m ρ c _ (by decide)
theorem W34_main_arg24 : W34 m ρ c (Proc.devRef .tc main_arg24) = m ((c : Thread nD τ).loc main_arg24) := W34_of_kept m ρ c _ (by decide)
theorem W34_main_arg25 : W34 m ρ c (Proc.devRef .tc main_arg25) = m ((c : Thread nD τ).loc main_arg25) := W34_of_kept m ρ c _ (by decide)
theorem W34_main_arg26 : W34 m ρ c (Proc.devRef .tc main_arg26) = m ((c : Thread nD τ).loc main_arg26) := W34_of_kept m ρ c _ (by decide)
theorem W34_main_arg27 : W34 m ρ c (Proc.devRef .tc main_arg27) = m ((c : Thread nD τ).loc main_arg27) := W34_of_kept m ρ c _ (by decide)
theorem W34_main_arg28 : W34 m ρ c (Proc.devRef .tc main_arg28) = m ((c : Thread nD τ).loc main_arg28) := W34_of_kept m ρ c _ (by decide)
theorem W34_main_arg29 : W34 m ρ c (Proc.devRef .tc main_arg29) = m ((c : Thread nD τ).loc main_arg29) := W34_of_kept m ρ c _ (by decide)
theorem W34_main_arg30 : W34 m ρ c (Proc.devRef .tc main_arg30) = m ((c : Thread nD τ).loc main_arg30) := W34_of_kept m ρ c _ (by decide)
theorem W34_main_arg31 : W34 m ρ c (Proc.devRef .tc main_arg31) = m ((c : Thread nD τ).loc main_arg31) := W34_of_kept m ρ c _ (by decide)
theorem W34_main_arg32 : W34 m ρ c (Proc.devRef .tc main_arg32) = m ((c : Thread nD τ).loc main_arg32) := W34_of_kept m ρ c _ (by decide)
theorem W34_main_arg33 : W34 m ρ c (Proc.devRef .tc main_arg33) = m ((c : Thread nD τ).loc main_arg33) := W34_of_kept m ρ c _ (by decide)
theorem W34_main_arg34 : W34 m ρ c (Proc.devRef .tc main_arg34) = m ((c : Thread nD τ).loc main_arg34) := W34_of_kept m ρ c _ (by decide)
theorem W34_main_arg35 : W34 m ρ c (Proc.devRef .tc main_arg35) = m ((c : Thread nD τ).loc main_arg35) := W34_of_kept m ρ c _ (by decide)
theorem W34_main_arg36 : W34 m ρ c (Proc.devRef .tc main_arg36) = m ((c : Thread nD τ).loc main_arg36) := W34_of_kept m ρ c _ (by decide)
theorem W34_main_arg37 : W34 m ρ c (Proc.devRef .tc main_arg37) = m ((c : Thread nD τ).loc main_arg37) := W34_of_kept m ρ c _ (by decide)

theorem W34_main_v68 : W34 m ρ c (Proc.devRef .tc main_v68) = V33 m ρ c main_v68 := by
  rw [W34_of] <;> decide
theorem W34_main_v52 : W34 m ρ c (Proc.devRef .tc main_v52) = V25 m ρ c main_v52 := by
  rw [W34_of, W33_of, W32_of, W31_of, W30_of, W29_of, W28_of, W27_of, W26_of] <;> decide
theorem W34_main_v42 : W34 m ρ c (Proc.devRef .tc main_v42) = V20 m ρ c main_v42 := by
  rw [W34_of, W33_of, W32_of, W31_of, W30_of, W29_of, W28_of, W27_of, W26_of, W25_of, W24_of, W23_of, W22_of, W21_of] <;> decide
theorem W34_main_v3 : W34 m ρ c (Proc.devRef .tc main_v3) = V2 m ρ c main_v3 := by
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of, W8_of, W7_of, W6_of, W5_of, W4_of, W3_of] <;> decide
theorem W34_main_v16 : W34 m ρ c (Proc.devRef .tc main_v16) = V8 m ρ c main_v16 := by
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of] <;> decide
theorem W34_main_v29 : W34 m ρ c (Proc.devRef .tc main_v29) = V14 m ρ c main_v29 := by
  rw [W34_of, W33_of, W32_of, W31_of, W30_of, W29_of, W28_of, W27_of, W26_of, W25_of, W24_of, W23_of, W22_of, W21_of, W20_of, W19_of, W18_of, W17_of, W16_of, W15_of] <;> decide
theorem W34_main_v69 : W34 m ρ c (Proc.devRef .tc main_v69) = V34 m ρ c main_v69 := rfl
theorem W34_main_v60 : W34 m ρ c (Proc.devRef .tc main_v60) = V29 m ρ c main_v60 := by
  rw [W34_of, W33_of, W32_of, W31_of, W30_of] <;> decide
theorem W34_main_v64 : W34 m ρ c (Proc.devRef .tc main_v64) = V31 m ρ c main_v64 := by
  rw [W34_of, W33_of, W32_of] <;> decide
theorem W34_main_v12 : W34 m ρ c (Proc.devRef .tc main_v12) = V6 m ρ c main_v12 := by
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of, W8_of, W7_of] <;> decide
theorem W34_main_v25 : W34 m ρ c (Proc.devRef .tc main_v25) = V12 m ρ c main_v25 := by
  rw [W34_of, W33_of, W32_of, W31_of, W30_of, W29_of, W28_of, W27_of, W26_of, W25_of, W24_of, W23_of, W22_of, W21_of, W20_of, W19_of, W18_of, W17_of, W16_of, W15_of, W14_of, W13_of] <;> decide
theorem W34_main_v38 : W34 m ρ c (Proc.devRef .tc main_v38) = V18 m ρ c main_v38 := by
  rw [W34_of, W33_of, W32_of, W31_of, W30_of, W29_of, W28_of, W27_of, W26_of, W25_of, W24_of, W23_of, W22_of, W21_of, W20_of, W19_of] <;> decide
theorem W34_main_v51 : W34 m ρ c (Proc.devRef .tc main_v51) = V24 m ρ c main_v51 := by
  rw [W34_of, W33_of, W32_of, W31_of, W30_of, W29_of, W28_of, W27_of, W26_of, W25_of] <;> decide

end Cert.KB

end
-- ==== Proof.KB.Reg00.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Shared01.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg1 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg1.W) → Buf (Elt F) ((cfg1.win w).arr.view.loc (c : Thread nD τ)))
  (hA : ∀ w, A w = V (Pipeline.arrRef spec1 w))

theorem arrBufs_eq1 : (Pipeline.arrBufs spec1 c V : sProp 𝕄)
    = iprop((((c : Thread nD τ).loc (Pipeline.arrRef spec1 1)) ↦{fullShare} V (Pipeline.arrRef spec1 1))
      ∗ (((c : Thread nD τ).loc (Pipeline.arrRef spec1 2)) ↦{fullShare} V (Pipeline.arrRef spec1 2))
      ∗ (((c : Thread nD τ).loc (Pipeline.arrRef spec1 3)) ↦{fullShare} V (Pipeline.arrRef spec1 3))
      ∗ (((c : Thread nD τ).loc (Pipeline.arrRef spec1 4)) ↦{fullShare} V (Pipeline.arrRef spec1 4))) :=
  bigSep_eq_bigSepL_of_eq [Pipeline.arrRef spec1 1, Pipeline.arrRef spec1 2, Pipeline.arrRef spec1 3, Pipeline.arrRef spec1 4] (by decide) (by decide) _

def sh1 : Fin 5 → PosShare TreeShare
  | 0 => Cert.Shares.shL
  | 1 => Cert.Shares.shR
  | _ => fullShare

include hq0 hq1 hq in
theorem share1 (w : Fin 5) : dat.share w = sh1 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq1 : (dat.arrays A : sProp 𝕄)
    = bigSep Finset.univ fun w : Fin 5 => (((c : Thread nD τ).loc (Pipeline.arrRef spec1 w)) ↦{sh1 w} V (Pipeline.arrRef spec1 w) : sProp 𝕄) := by
  unfold Dat.arrays
  exact bigSep_congr fun w _ => by rw [(arr_whole1 w).set_eq_univ, share1 c dat hq0 hq1 hq w, hA w]

include hq0 hq1 hq hA in
theorem arrays_of_arrBufs1 : (Pipeline.arrBufs spec1 c V : sProp 𝕄) ⊢ dat.arrays A := by
  rw [arrays_eq1 c dat hq0 hq1 hq V A hA, bigSep_W1, arrBufs_eq1]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays1 : (dat.arrays A : sProp 𝕄) ⊢ Pipeline.arrBufs spec1 c V := by
  rw [arrays_eq1 c dat hq0 hq1 hq V A hA, bigSep_W1, arrBufs_eq1]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg1 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs1 (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs 1 winFacts₀1.arr_unscoped c V]
  exact sep_mono (arrays_of_arrBufs1 c dat hq0 hq1 hq V _ hA) .rfl

include hq0 hq1 hq in
theorem unscopedBufs_of_arrays1 (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 winFacts₀1.arr_unscoped c V']
  refine sep_mono (arrBufs_of_arrays1 c dat hq0 hq1 hq V' A hA) (Entails.of_eq ?_)
  unfold Pipeline.unscopedRest
  exact bigSep_congr fun b hb => by rw [hrest b (Finset.mem_sdiff.mp hb).2]

end

end Cert.KB
-- ==== Proof.KB.Reg01.lean ====
import proofs.«146000_j29076928594330_2_alg».proof.Proof.KB.Fold
import proofs.«146000_j29076928594330_2_alg».proof.Proof.KB.Shared01
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg1_q0 (V : (c : Dev nD) → (b : Ref sig .tc) → Buf (Elt F) ((c : Thread nD τ).loc b)) (c : Dev nD) :
    (dat1 V c).q 0 = Cert.Shares.shL := by dsimp only [dat1]
theorem reg1_q1 (V : (c : Dev nD) → (b : Ref sig .tc) → Buf (Elt F) ((c : Thread nD τ).loc b)) (c : Dev nD) :
    (dat1 V c).q 1 = Cert.Shares.shR := by dsimp only [dat1]
theorem reg1_q (V : (c : Dev nD) → (b : Ref sig .tc) → Buf (Elt F) ((c : Thread nD τ).loc b)) (c : Dev nD) :
    ∀ w : Fin 5, w ≠ 0 → w ≠ 1 → (dat1 V c).q w = fullShare
  | 0, h, _ => absurd rfl h
  | 1, _, h => absurd rfl h
  | 2, _, _ => show (dat1 V c).q 2 = fullShare by dsimp only [dat1]
  | 3, _, _ => show (dat1 V c).q 3 = fullShare by dsimp only [dat1]
  | 4, _, _ => show (dat1 V c).q 4 = fullShare by dsimp only [dat1]

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_unscopedBufs1 c (dat1 (V3 m ρ) c) (reg1_q0 _ c) (reg1_q1 _ c) (reg1_q _ c) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (dat1 (V3 m ρ) c) (reg1_q0 _ c) (reg1_q1 _ c) (reg1_q _ c)
      (V3 m ρ c) (V4 m ρ c) ((dat1 (V3 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Shared02.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg2 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg2.W) → Buf (Elt F) ((cfg2.win w).arr.view.loc (c : Thread nD τ)))
  (hA : ∀ w, A w = V (Pipeline.arrRef spec2 w))

theorem arrBufs_eq2 : (Pipeline.arrBufs spec2 c V : sProp 𝕄)
    = iprop((((c : Thread nD τ).loc (Pipeline.arrRef spec2 1)) ↦{fullShare} V (Pipeline.arrRef spec2 1))
      ∗ (((c : Thread nD τ).loc (Pipeline.arrRef spec2 2)) ↦{fullShare} V (Pipeline.arrRef spec2 2))
      ∗ (((c : Thread nD τ).loc (Pipeline.arrRef spec2 3)) ↦{fullShare} V (Pipeline.arrRef spec2 3))
      ∗ (((c : Thread nD τ).loc (Pipeline.arrRef spec2 4)) ↦{fullShare} V (Pipeline.arrRef spec2 4))
      ∗ (((c : Thread nD τ).loc (Pipeline.arrRef spec2 5)) ↦{fullShare} V (Pipeline.arrRef spec2 5))
      ∗ (((c : Thread nD τ).loc (Pipeline.arrRef spec2 6)) ↦{fullShare} V (Pipeline.arrRef spec2 6))
      ∗ (((c : Thread nD τ).loc (Pipeline.arrRef spec2 7)) ↦{fullShare} V (Pipeline.arrRef spec2 7))
      ∗ (((c : Thread nD τ).loc (Pipeline.arrRef spec2 8)) ↦{fullShare} V (Pipeline.arrRef spec2 8))
      ∗ (((c : Thread nD τ).loc (Pipeline.arrRef spec2 9)) ↦{fullShare} V (Pipeline.arrRef spec2 9))
      ∗ (((c : Thread nD τ).loc (Pipeline.arrRef spec2 10)) ↦{fullShare} V (Pipeline.arrRef spec2 10))) :=
  bigSep_eq_bigSepL_of_eq [Pipeline.arrRef spec2 1, Pipeline.arrRef spec2 2, Pipeline.arrRef spec2 3, Pipeline.arrRef spec2 4, Pipeline.arrRef spec2 5, Pipeline.arrRef spec2 6, Pipeline.arrRef spec2 7, Pipeline.arrRef spec2 8, Pipeline.arrRef spec2 9, Pipeline.arrRef spec2 10] (by decide) (by decide) _

def sh2 : Fin 11 → PosShare TreeShare
  | 0 => Cert.Shares.shL
  | 1 => Cert.Shares.shR
  | _ => fullShare

include hq0 hq1 hq in
theorem share2 (w : Fin 11) : dat.share w = sh2 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq2 : (dat.arrays A : sProp 𝕄)
    = bigSep Finset.univ fun w : Fin 11 => (((c : Thread nD τ).loc (Pipeline.arrRef spec2 w)) ↦{sh2 w} V (Pipeline.arrRef spec2 w) : sProp 𝕄) := by
  unfold Dat.arrays
  exact bigSep_congr fun w _ => by rw [(arr_whole2 w).set_eq_univ, share2 c dat hq0 hq1 hq w, hA w]

include hq0 hq1 hq hA in
theorem arrays_of_arrBufs2 : (Pipeline.arrBufs spec2 c V : sProp 𝕄) ⊢ dat.arrays A := by
  rw [arrays_eq2 c dat hq0 hq1 hq V A hA, bigSep_W2, arrBufs_eq2]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays2 : (dat.arrays A : sProp 𝕄) ⊢ Pipeline.arrBufs spec2 c V := by
  rw [arrays_eq2 c dat hq0 hq1 hq V A hA, bigSep_W2, arrBufs_eq2]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg2 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs2 (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs 2 winFacts₀2.arr_unscoped c V]
  exact sep_mono (arrays_of_arrBufs2 c dat hq0 hq1 hq V _ hA) .rfl

include hq0 hq1 hq in
theorem unscopedBufs_of_arrays2 (V V' : (b : Ref sig .tc) → Buf (Elt F) ((c : Thread nD τ).loc b))
    (A : (w : Fin cfg2.W) → Buf (Elt F) ((cfg2.win w).arr.view.loc (c : Thread nD τ)))
    (hA : ∀ w, A w = V' (Pipeline.arrRef spec2 w))
    (hrest : ∀ b, b ∉ Finset.univ.image (Pipeline.arrRef spec2) → V' b = V b) :
    iprop(dat.arrays A ∗ Pipeline.unscopedRest spec2 c V) ⊢ (unscopedBufs c V' : sProp 𝕄) := by
  rw [Pipeline.unscopedBufs_split₀ cfgs 2 winFacts₀2.arr_unscoped c V']
  refine sep_mono (arrBufs_of_arrays2 c dat hq0 hq1 hq V' A hA) (Entails.of_eq ?_)
  unfold Pipeline.unscopedRest
  exact bigSep_congr fun b hb => by rw [hrest b (Finset.mem_sdiff.mp hb).2]

end

end Cert.KB
-- ==== Proof.KB.Reg02.lean ====
import proofs.«146000_j29076928594330_2_alg».proof.Proof.KB.Fold
import proofs.«146000_j29076928594330_2_alg».proof.Proof.KB.Shared02
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg2_q0 (V : (c : Dev nD) → (b : Ref sig .tc) → Buf (Elt F) ((c : Thread nD τ).loc b)) (c : Dev nD) :
    (dat2 V c).q 0 = Cert.Shares.shL := by dsimp only [dat2]
theorem reg2_q1 (V : (c : Dev nD) → (b : Ref sig .tc) → Buf (Elt F) ((c : Thread nD τ).loc b)) (c : Dev nD) :
    (dat2 V c).q 1 = Cert.Shares.shR := by dsimp only [dat2]
theorem reg2_q (V : (c : Dev nD) → (b : Ref sig .tc) → Buf (Elt F) ((c : Thread nD τ).loc b)) (c : Dev nD) :
    ∀ w : Fin 11, w ≠ 0 → w ≠ 1 → (dat2 V c).q w = fullShare
  | 0, h, _ => absurd rfl h
  | 1, _, h => absurd rfl h
  | 2, _, _ => show (dat2 V c).q 2 = fullShare by dsimp only [dat2]
  | 3, _, _ => show (dat2 V c).q 3 = fullShare by dsimp only [dat2]
  | 4, _, _ => show (dat2 V c).q 4 = fullShare by dsimp only [dat2]
  | 5, _, _ => show (dat2 V c).q 5 = fullShare by dsimp only [dat2]
  | 6, _, _ => show (dat2 V c).q 6 = fullShare by dsimp only [dat2]
  | 7, _, _ => show (dat2 V c).q 7 = fullShare by dsimp only [dat2]
  | 8, _, _ => show (dat2 V c).q 8 = fullShare by dsimp only [dat2]
  | 9, _, _ => show (dat2 V c).q 9 = fullShare by dsimp only [dat2]
  | 10, _, _ => show (dat2 V c).q 10 = fullShare by dsimp only [dat2]

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := arrays_of_unscopedBufs2 c (dat2 (V5 m ρ) c) (reg2_q0 _ c) (reg2_q1 _ c) (reg2_q _ c) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 c (dat2 (V5 m ρ) c) (reg2_q0 _ c) (reg2_q1 _ c) (reg2_q _ c)
      (V5 m ρ c) (V6 m ρ c) ((dat2 (V5 m ρ) c).arrAt · cfg2.N) (hF2 m ρ c) (hrest2 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Reg03.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Shared04.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg4 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg4.W) → Buf (Elt F) ((cfg4.win w).arr.view.loc (c : Thread nD τ)))
  (hA : ∀ w, A w = V (Pipeline.arrRef spec4 w))

theorem arrBufs_eq4 : (Pipeline.arrBufs spec4 c V : sProp 𝕄)
    = iprop((((c : Thread nD τ).loc (Pipeline.arrRef spec4 1)) ↦{fullShare} V (Pipeline.arrRef spec4 1))
      ∗ (((c : Thread nD τ).loc (Pipeline.arrRef spec4 2)) ↦{fullShare} V (Pipeline.arrRef spec4 2))
      ∗ (((c : Thread nD τ).loc (Pipeline.arrRef spec4 3)) ↦{fullShare} V (Pipeline.arrRef spec4 3))
      ∗ (((c : Thread nD τ).loc (Pipeline.arrRef spec4 4)) ↦{fullShare} V (Pipeline.arrRef spec4 4))) :=
  bigSep_eq_bigSepL_of_eq [Pipeline.arrRef spec4 1, Pipeline.arrRef spec4 2, Pipeline.arrRef spec4 3, Pipeline.arrRef spec4 4] (by decide) (by decide) _

def sh4 : Fin 5 → PosShare TreeShare
  | 0 => Cert.Shares.shL
  | 1 => Cert.Shares.shR
  | _ => fullShare

include hq0 hq1 hq in
theorem share4 (w : Fin 5) : dat.share w = sh4 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq4 : (dat.arrays A : sProp 𝕄)
    = bigSep Finset.univ fun w : Fin 5 => (((c : Thread nD τ).loc (Pipeline.arrRef spec4 w)) ↦{sh4 w} V (Pipeline.arrRef spec4 w) : sProp 𝕄) := by
  unfold Dat.arrays
  exact bigSep_congr fun w _ => by rw [(arr_whole4 w).set_eq_univ, share4 c dat hq0 hq1 hq w, hA w]

include hq0 hq1 hq hA in
theorem arrays_of_arrBufs4 : (Pipeline.arrBufs spec4 c V : sProp 𝕄) ⊢ dat.arrays A := by
  rw [arrays_eq4 c dat hq0 hq1 hq V A hA, bigSep_W4, arrBufs_eq4]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays4 : (dat.arrays A : sProp 𝕄) ⊢ Pipeline.arrBufs spec4 c V := by
  rw [arrays_eq4 c dat hq0 hq1 hq V A hA, bigSep_W4, arrBufs_eq4]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg4 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs4 (V : (b : Ref sig .tc) → Buf (Elt F) ((c : Thread nD τ).loc b))
    (hA : ∀ w, dat.A w = V (Pipeline.arrRef spec4 w)) :
    (unscopedBufs c V : sProp 𝕄) ⊢ iprop(dat.arrays (dat.arrAt · 0) ∗ Pipeline.unscopedRest spec4 c V) := by
  rw [Pipeline.unscopedBufs_split₀ cfgs 4 winFacts₀4.arr_unscoped c V]
  exact sep_mono (arrays_of_arrBufs4 c dat hq0 hq1 hq V _ hA) .rfl

include hq0 hq1 hq in
theorem unscopedBufs_of_arrays4 (V V' : (b : Ref sig .tc) → Buf (Elt F) ((c : Thread nD τ).loc b))
    (A : (w : Fin cfg4.W) → Buf (Elt F) ((cfg4.win w).arr.view.loc (c : Thread nD τ)))
    (hA : ∀ w, A w = V' (Pipeline.arrRef spec4 w))
    (hrest : ∀ b, b ∉ Finset.univ.image (Pipeline.arrRef spec4) → V' b = V b) :
    iprop(dat.arrays A ∗ Pipeline.unscopedRest spec4 c V) ⊢ (unscopedBufs c V' : sProp 𝕄) := by
  rw [Pipeline.unscopedBufs_split₀ cfgs 4 winFacts₀4.arr_unscoped c V']
  refine sep_mono (arrBufs_of_arrays4 c dat hq0 hq1 hq V' A hA) (Entails.of_eq ?_)
  unfold Pipeline.unscopedRest
  exact bigSep_congr fun b hb => by rw [hrest b (Finset.mem_sdiff.mp hb).2]

end

end Cert.KB
-- ==== Proof.KB.Reg04.lean ====
import proofs.«146000_j29076928594330_2_alg».proof.Proof.KB.Fold
import proofs.«146000_j29076928594330_2_alg».proof.Proof.KB.Shared04
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg4_q0 (V : (c : Dev nD) → (b : Ref sig .tc) → Buf (Elt F) ((c : Thread nD τ).loc b)) (c : Dev nD) :
    (dat4 V c).q 0 = Cert.Shares.shL := by dsimp only [dat4]
theorem reg4_q1 (V : (c : Dev nD) → (b : Ref sig .tc) → Buf (Elt F) ((c : Thread nD τ).loc b)) (c : Dev nD) :
    (dat4 V c).q 1 = Cert.Shares.shR := by dsimp only [dat4]
theorem reg4_q (V : (c : Dev nD) → (b : Ref sig .tc) → Buf (Elt F) ((c : Thread nD τ).loc b)) (c : Dev nD) :
    ∀ w : Fin 5, w ≠ 0 → w ≠ 1 → (dat4 V c).q w = fullShare
  | 0, h, _ => absurd rfl h
  | 1, _, h => absurd rfl h
  | 2, _, _ => show (dat4 V c).q 2 = fullShare by dsimp only [dat4]
  | 3, _, _ => show (dat4 V c).q 3 = fullShare by dsimp only [dat4]
  | 4, _, _ => show (dat4 V c).q 4 = fullShare by dsimp only [dat4]

set_option backward.isDefEq.respectTransparency.types false in
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := arrays_of_unscopedBufs4 c (dat4 (V9 m ρ) c) (reg4_q0 _ c) (reg4_q1 _ c) (reg4_q _ c) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 c (dat4 (V9 m ρ) c) (reg4_q0 _ c) (reg4_q1 _ c) (reg4_q _ c)
      (V9 m ρ c) (V10 m ρ c) ((dat4 (V9 m ρ) c).arrAt · cfg4.N) (hF4 m ρ c) (hrest4 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Shared05.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg5 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg5.W) → Buf (Elt F) ((cfg5.win w).arr.view.loc (c : Thread nD τ)))
  (hA : ∀ w, A w = V (Pipeline.arrRef spec5 w))

theorem arrBufs_eq5 : (Pipeline.arrBufs spec5 c V : sProp 𝕄)
    = iprop((((c : Thread nD τ).loc (Pipeline.arrRef spec5 1)) ↦{fullShare} V (Pipeline.arrRef spec5 1))
      ∗ (((c : Thread nD τ).loc (Pipeline.arrRef spec5 2)) ↦{fullShare} V (Pipeline.arrRef spec5 2))
      ∗ (((c : Thread nD τ).loc (Pipeline.arrRef spec5 3)) ↦{fullShare} V (Pipeline.arrRef spec5 3))
      ∗ (((c : Thread nD τ).loc (Pipeline.arrRef spec5 4)) ↦{fullShare} V (Pipeline.arrRef spec5 4))
      ∗ (((c : Thread nD τ).loc (Pipeline.arrRef spec5 5)) ↦{fullShare} V (Pipeline.arrRef spec5 5))
      ∗ (((c : Thread nD τ).loc (Pipeline.arrRef spec5 6)) ↦{fullShare} V (Pipeline.arrRef spec5 6))
      ∗ (((c : Thread nD τ).loc (Pipeline.arrRef spec5 7)) ↦{fullShare} V (Pipeline.arrRef spec5 7))
      ∗ (((c : Thread nD τ).loc (Pipeline.arrRef spec5 8)) ↦{fullShare} V (Pipeline.arrRef spec5 8))
      ∗ (((c : Thread nD τ).loc (Pipeline.arrRef spec5 9)) ↦{fullShare} V (Pipeline.arrRef spec5 9))
      ∗ (((c : Thread nD τ).loc (Pipeline.arrRef spec5 10)) ↦{fullShare} V (Pipeline.arrRef spec5 10))) :=
  bigSep_eq_bigSepL_of_eq [Pipeline.arrRef spec5 1, Pipeline.arrRef spec5 2, Pipeline.arrRef spec5 3, Pipeline.arrRef spec5 4, Pipeline.arrRef spec5 5, Pipeline.arrRef spec5 6, Pipeline.arrRef spec5 7, Pipeline.arrRef spec5 8, Pipeline.arrRef spec5 9, Pipeline.arrRef spec5 10] (by decide) (by decide) _

def sh5 : Fin 11 → PosShare TreeShare
  | 0 => Cert.Shares.shL
  | 1 => Cert.Shares.shR
  | _ => fullShare

include hq0 hq1 hq in
theorem share5 (w : Fin 11) : dat.share w = sh5 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq5 : (dat.arrays A : sProp 𝕄)
    = bigSep Finset.univ fun w : Fin 11 => (((c : Thread nD τ).loc (Pipeline.arrRef spec5 w)) ↦{sh5 w} V (Pipeline.arrRef spec5 w) : sProp 𝕄) := by
  unfold Dat.arrays
  exact bigSep_congr fun w _ => by rw [(arr_whole5 w).set_eq_univ, share5 c dat hq0 hq1 hq w, hA w]

include hq0 hq1 hq hA in
theorem arrays_of_arrBufs5 : (Pipeline.arrBufs spec5 c V : sProp 𝕄) ⊢ dat.arrays A := by
  rw [arrays_eq5 c dat hq0 hq1 hq V A hA, bigSep_W5, arrBufs_eq5]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays5 : (dat.arrays A : sProp 𝕄) ⊢ Pipeline.arrBufs spec5 c V := by
  rw [arrays_eq5 c dat hq0 hq1 hq V A hA, bigSep_W5, arrBufs_eq5]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg5 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs5 (V : (b : Ref sig .tc) → Buf (Elt F) ((c : Thread nD τ).loc b))
    (hA : ∀ w, dat.A w = V (Pipeline.arrRef spec5 w)) :
    (unscopedBufs c V : sProp 𝕄) ⊢ iprop(dat.arrays (dat.arrAt · 0) ∗ Pipeline.unscopedRest spec5 c V) := by
  rw [Pipeline.unscopedBufs_split₀ cfgs 5 winFacts₀5.arr_unscoped c V]
  exact sep_mono (arrays_of_arrBufs5 c dat hq0 hq1 hq V _ hA) .rfl

include hq0 hq1 hq in
theorem unscopedBufs_of_arrays5 (V V' : (b : Ref sig .tc) → Buf (Elt F) ((c : Thread nD τ).loc b))
    (A : (w : Fin cfg5.W) → Buf (Elt F) ((cfg5.win w).arr.view.loc (c : Thread nD τ)))
    (hA : ∀ w, A w = V' (Pipeline.arrRef spec5 w))
    (hrest : ∀ b, b ∉ Finset.univ.image (Pipeline.arrRef spec5) → V' b = V b) :
    iprop(dat.arrays A ∗ Pipeline.unscopedRest spec5 c V) ⊢ (unscopedBufs c V' : sProp 𝕄) := by
  rw [Pipeline.unscopedBufs_split₀ cfgs 5 winFacts₀5.arr_unscoped c V']
  refine sep_mono (arrBufs_of_arrays5 c dat hq0 hq1 hq V' A hA) (Entails.of_eq ?_)
  unfold Pipeline.unscopedRest
  exact bigSep_congr fun b hb => by rw [hrest b (Finset.mem_sdiff.mp hb).2]

end

end Cert.KB
-- ==== Proof.KB.Reg05.lean ====
import proofs.«146000_j29076928594330_2_alg».proof.Proof.KB.Fold
import proofs.«146000_j29076928594330_2_alg».proof.Proof.KB.Shared05
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg5_q0 (V : (c : Dev nD) → (b : Ref sig .tc) → Buf (Elt F) ((c : Thread nD τ).loc b)) (c : Dev nD) :
    (dat5 V c).q 0 = Cert.Shares.shL := by dsimp only [dat5]
theorem reg5_q1 (V : (c : Dev nD) → (b : Ref sig .tc) → Buf (Elt F) ((c : Thread nD τ).loc b)) (c : Dev nD) :
    (dat5 V c).q 1 = Cert.Shares.shR := by dsimp only [dat5]
theorem reg5_q (V : (c : Dev nD) → (b : Ref sig .tc) → Buf (Elt F) ((c : Thread nD τ).loc b)) (c : Dev nD) :
    ∀ w : Fin 11, w ≠ 0 → w ≠ 1 → (dat5 V c).q w = fullShare
  | 0, h, _ => absurd rfl h
  | 1, _, h => absurd rfl h
  | 2, _, _ => show (dat5 V c).q 2 = fullShare by dsimp only [dat5]
  | 3, _, _ => show (dat5 V c).q 3 = fullShare by dsimp only [dat5]
  | 4, _, _ => show (dat5 V c).q 4 = fullShare by dsimp only [dat5]
  | 5, _, _ => show (dat5 V c).q 5 = fullShare by dsimp only [dat5]
  | 6, _, _ => show (dat5 V c).q 6 = fullShare by dsimp only [dat5]
  | 7, _, _ => show (dat5 V c).q 7 = fullShare by dsimp only [dat5]
  | 8, _, _ => show (dat5 V c).q 8 = fullShare by dsimp only [dat5]
  | 9, _, _ => show (dat5 V c).q 9 = fullShare by dsimp only [dat5]
  | 10, _, _ => show (dat5 V c).q 10 = fullShare by dsimp only [dat5]

set_option backward.isDefEq.respectTransparency.types false in
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := arrays_of_unscopedBufs5 c (dat5 (V11 m ρ) c) (reg5_q0 _ c) (reg5_q1 _ c) (reg5_q _ c) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 c (dat5 (V11 m ρ) c) (reg5_q0 _ c) (reg5_q1 _ c) (reg5_q _ c)
      (V11 m ρ c) (V12 m ρ c) ((dat5 (V11 m ρ) c).arrAt · cfg5.N) (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Reg06.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Shared07.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg7 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg7.W) → Buf (Elt F) ((cfg7.win w).arr.view.loc (c : Thread nD τ)))
  (hA : ∀ w, A w = V (Pipeline.arrRef spec7 w))

theorem arrBufs_eq7 : (Pipeline.arrBufs spec7 c V : sProp 𝕄)
    = iprop((((c : Thread nD τ).loc (Pipeline.arrRef spec7 1)) ↦{fullShare} V (Pipeline.arrRef spec7 1))
      ∗ (((c : Thread nD τ).loc (Pipeline.arrRef spec7 2)) ↦{fullShare} V (Pipeline.arrRef spec7 2))
      ∗ (((c : Thread nD τ).loc (Pipeline.arrRef spec7 3)) ↦{fullShare} V (Pipeline.arrRef spec7 3))
      ∗ (((c : Thread nD τ).loc (Pipeline.arrRef spec7 4)) ↦{fullShare} V (Pipeline.arrRef spec7 4))) :=
  bigSep_eq_bigSepL_of_eq [Pipeline.arrRef spec7 1, Pipeline.arrRef spec7 2, Pipeline.arrRef spec7 3, Pipeline.arrRef spec7 4] (by decide) (by decide) _

def sh7 : Fin 5 → PosShare TreeShare
  | 0 => Cert.Shares.shL
  | 1 => Cert.Shares.shR
  | _ => fullShare

include hq0 hq1 hq in
theorem share7 (w : Fin 5) : dat.share w = sh7 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq7 : (dat.arrays A : sProp 𝕄)
    = bigSep Finset.univ fun w : Fin 5 => (((c : Thread nD τ).loc (Pipeline.arrRef spec7 w)) ↦{sh7 w} V (Pipeline.arrRef spec7 w) : sProp 𝕄) := by
  unfold Dat.arrays
  exact bigSep_congr fun w _ => by rw [(arr_whole7 w).set_eq_univ, share7 c dat hq0 hq1 hq w, hA w]

include hq0 hq1 hq hA in
theorem arrays_of_arrBufs7 : (Pipeline.arrBufs spec7 c V : sProp 𝕄) ⊢ dat.arrays A := by
  rw [arrays_eq7 c dat hq0 hq1 hq V A hA, bigSep_W7, arrBufs_eq7]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays7 : (dat.arrays A : sProp 𝕄) ⊢ Pipeline.arrBufs spec7 c V := by
  rw [arrays_eq7 c dat hq0 hq1 hq V A hA, bigSep_W7, arrBufs_eq7]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg7 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs7 (V : (b : Ref sig .tc) → Buf (Elt F) ((c : Thread nD τ).loc b))
    (hA : ∀ w, dat.A w = V (Pipeline.arrRef spec7 w)) :
    (unscopedBufs c V : sProp 𝕄) ⊢ iprop(dat.arrays (dat.arrAt · 0) ∗ Pipeline.unscopedRest spec7 c V) := by
  rw [Pipeline.unscopedBufs_split₀ cfgs 7 winFacts₀7.arr_unscoped c V]
  exact sep_mono (arrays_of_arrBufs7 c dat hq0 hq1 hq V _ hA) .rfl

include hq0 hq1 hq in
theorem unscopedBufs_of_arrays7 (V V' : (b : Ref sig .tc) → Buf (Elt F) ((c : Thread nD τ).loc b))
    (A : (w : Fin cfg7.W) → Buf (Elt F) ((cfg7.win w).arr.view.loc (c : Thread nD τ)))
    (hA : ∀ w, A w = V' (Pipeline.arrRef spec7 w))
    (hrest : ∀ b, b ∉ Finset.univ.image (Pipeline.arrRef spec7) → V' b = V b) :
    iprop(dat.arrays A ∗ Pipeline.unscopedRest spec7 c V) ⊢ (unscopedBufs c V' : sProp 𝕄) := by
  rw [Pipeline.unscopedBufs_split₀ cfgs 7 winFacts₀7.arr_unscoped c V']
  refine sep_mono (arrBufs_of_arrays7 c dat hq0 hq1 hq V' A hA) (Entails.of_eq ?_)
  unfold Pipeline.unscopedRest
  exact bigSep_congr fun b hb => by rw [hrest b (Finset.mem_sdiff.mp hb).2]

end

end Cert.KB
-- ==== Proof.KB.Reg07.lean ====
import proofs.«146000_j29076928594330_2_alg».proof.Proof.KB.Fold
import proofs.«146000_j29076928594330_2_alg».proof.Proof.KB.Shared07
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg7_q0 (V : (c : Dev nD) → (b : Ref sig .tc) → Buf (Elt F) ((c : Thread nD τ).loc b)) (c : Dev nD) :
    (dat7 V c).q 0 = Cert.Shares.shL := by dsimp only [dat7]
theorem reg7_q1 (V : (c : Dev nD) → (b : Ref sig .tc) → Buf (Elt F) ((c : Thread nD τ).loc b)) (c : Dev nD) :
    (dat7 V c).q 1 = Cert.Shares.shR := by dsimp only [dat7]
theorem reg7_q (V : (c : Dev nD) → (b : Ref sig .tc) → Buf (Elt F) ((c : Thread nD τ).loc b)) (c : Dev nD) :
    ∀ w : Fin 5, w ≠ 0 → w ≠ 1 → (dat7 V c).q w = fullShare
  | 0, h, _ => absurd rfl h
  | 1, _, h => absurd rfl h
  | 2, _, _ => show (dat7 V c).q 2 = fullShare by dsimp only [dat7]
  | 3, _, _ => show (dat7 V c).q 3 = fullShare by dsimp only [dat7]
  | 4, _, _ => show (dat7 V c).q 4 = fullShare by dsimp only [dat7]

set_option backward.isDefEq.respectTransparency.types false in
def reg7 : Pipeline.RegionSeg (pcfgs (F := F)) adm (pdats m ρ) () defs₀ 𝒱₀ L lv 7 where
  win := winFacts₀7
  block_pos := block_pos7
  stage_whole := stage_whole7
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := arrays_of_unscopedBufs7 c (dat7 (V15 m ρ) c) (reg7_q0 _ c) (reg7_q1 _ c) (reg7_q _ c) (V15 m ρ c) (A_eq7 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := unscopedBufs_of_arrays7 c (dat7 (V15 m ρ) c) (reg7_q0 _ c) (reg7_q1 _ c) (reg7_q _ c)
      (V15 m ρ c) (V16 m ρ c) ((dat7 (V15 m ρ) c).arrAt · cfg7.N) (hF7 m ρ c) (hrest7 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Shared08.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg8 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg8.W) → Buf (Elt F) ((cfg8.win w).arr.view.loc (c : Thread nD τ)))
  (hA : ∀ w, A w = V (Pipeline.arrRef spec8 w))

theorem arrBufs_eq8 : (Pipeline.arrBufs spec8 c V : sProp 𝕄)
    = iprop((((c : Thread nD τ).loc (Pipeline.arrRef spec8 1)) ↦{fullShare} V (Pipeline.arrRef spec8 1))
      ∗ (((c : Thread nD τ).loc (Pipeline.arrRef spec8 2)) ↦{fullShare} V (Pipeline.arrRef spec8 2))
      ∗ (((c : Thread nD τ).loc (Pipeline.arrRef spec8 3)) ↦{fullShare} V (Pipeline.arrRef spec8 3))
      ∗ (((c : Thread nD τ).loc (Pipeline.arrRef spec8 4)) ↦{fullShare} V (Pipeline.arrRef spec8 4))
      ∗ (((c : Thread nD τ).loc (Pipeline.arrRef spec8 5)) ↦{fullShare} V (Pipeline.arrRef spec8 5))
      ∗ (((c : Thread nD τ).loc (Pipeline.arrRef spec8 6)) ↦{fullShare} V (Pipeline.arrRef spec8 6))
      ∗ (((c : Thread nD τ).loc (Pipeline.arrRef spec8 7)) ↦{fullShare} V (Pipeline.arrRef spec8 7))
      ∗ (((c : Thread nD τ).loc (Pipeline.arrRef spec8 8)) ↦{fullShare} V (Pipeline.arrRef spec8 8))
      ∗ (((c : Thread nD τ).loc (Pipeline.arrRef spec8 9)) ↦{fullShare} V (Pipeline.arrRef spec8 9))
      ∗ (((c : Thread nD τ).loc (Pipeline.arrRef spec8 10)) ↦{fullShare} V (Pipeline.arrRef spec8 10))) :=
  bigSep_eq_bigSepL_of_eq [Pipeline.arrRef spec8 1, Pipeline.arrRef spec8 2, Pipeline.arrRef spec8 3, Pipeline.arrRef spec8 4, Pipeline.arrRef spec8 5, Pipeline.arrRef spec8 6, Pipeline.arrRef spec8 7, Pipeline.arrRef spec8 8, Pipeline.arrRef spec8 9, Pipeline.arrRef spec8 10] (by decide) (by decide) _

def sh8 : Fin 11 → PosShare TreeShare
  | 0 => Cert.Shares.shL
  | 1 => Cert.Shares.shR
  | _ => fullShare

include hq0 hq1 hq in
theorem share8 (w : Fin 11) : dat.share w = sh8 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq8 : (dat.arrays A : sProp 𝕄)
    = bigSep Finset.univ fun w : Fin 11 => (((c : Thread nD τ).loc (Pipeline.arrRef spec8 w)) ↦{sh8 w} V (Pipeline.arrRef spec8 w) : sProp 𝕄) := by
  unfold Dat.arrays
  exact bigSep_congr fun w _ => by rw [(arr_whole8 w).set_eq_univ, share8 c dat hq0 hq1 hq w, hA w]

include hq0 hq1 hq hA in
theorem arrays_of_arrBufs8 : (Pipeline.arrBufs spec8 c V : sProp 𝕄) ⊢ dat.arrays A := by
  rw [arrays_eq8 c dat hq0 hq1 hq V A hA, bigSep_W8, arrBufs_eq8]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays8 : (dat.arrays A : sProp 𝕄) ⊢ Pipeline.arrBufs spec8 c V := by
  rw [arrays_eq8 c dat hq0 hq1 hq V A hA, bigSep_W8, arrBufs_eq8]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg8 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs8 (V : (b : Ref sig .tc) → Buf (Elt F) ((c : Thread nD τ).loc b))
    (hA : ∀ w, dat.A w = V (Pipeline.arrRef spec8 w)) :
    (unscopedBufs c V : sProp 𝕄) ⊢ iprop(dat.arrays (dat.arrAt · 0) ∗ Pipeline.unscopedRest spec8 c V) := by
  rw [Pipeline.unscopedBufs_split₀ cfgs 8 winFacts₀8.arr_unscoped c V]
  exact sep_mono (arrays_of_arrBufs8 c dat hq0 hq1 hq V _ hA) .rfl

include hq0 hq1 hq in
theorem unscopedBufs_of_arrays8 (V V' : (b : Ref sig .tc) → Buf (Elt F) ((c : Thread nD τ).loc b))
    (A : (w : Fin cfg8.W) → Buf (Elt F) ((cfg8.win w).arr.view.loc (c : Thread nD τ)))
    (hA : ∀ w, A w = V' (Pipeline.arrRef spec8 w))
    (hrest : ∀ b, b ∉ Finset.univ.image (Pipeline.arrRef spec8) → V' b = V b) :
    iprop(dat.arrays A ∗ Pipeline.unscopedRest spec8 c V) ⊢ (unscopedBufs c V' : sProp 𝕄) := by
  rw [Pipeline.unscopedBufs_split₀ cfgs 8 winFacts₀8.arr_unscoped c V']
  refine sep_mono (arrBufs_of_arrays8 c dat hq0 hq1 hq V' A hA) (Entails.of_eq ?_)
  unfold Pipeline.unscopedRest
  exact bigSep_congr fun b hb => by rw [hrest b (Finset.mem_sdiff.mp hb).2]

end

end Cert.KB
-- ==== Proof.KB.Reg08.lean ====
import proofs.«146000_j29076928594330_2_alg».proof.Proof.KB.Fold
import proofs.«146000_j29076928594330_2_alg».proof.Proof.KB.Shared08
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg8_q0 (V : (c : Dev nD) → (b : Ref sig .tc) → Buf (Elt F) ((c : Thread nD τ).loc b)) (c : Dev nD) :
    (dat8 V c).q 0 = Cert.Shares.shL := by dsimp only [dat8]
theorem reg8_q1 (V : (c : Dev nD) → (b : Ref sig .tc) → Buf (Elt F) ((c : Thread nD τ).loc b)) (c : Dev nD) :
    (dat8 V c).q 1 = Cert.Shares.shR := by dsimp only [dat8]
theorem reg8_q (V : (c : Dev nD) → (b : Ref sig .tc) → Buf (Elt F) ((c : Thread nD τ).loc b)) (c : Dev nD) :
    ∀ w : Fin 11, w ≠ 0 → w ≠ 1 → (dat8 V c).q w = fullShare
  | 0, h, _ => absurd rfl h
  | 1, _, h => absurd rfl h
  | 2, _, _ => show (dat8 V c).q 2 = fullShare by dsimp only [dat8]
  | 3, _, _ => show (dat8 V c).q 3 = fullShare by dsimp only [dat8]
  | 4, _, _ => show (dat8 V c).q 4 = fullShare by dsimp only [dat8]
  | 5, _, _ => show (dat8 V c).q 5 = fullShare by dsimp only [dat8]
  | 6, _, _ => show (dat8 V c).q 6 = fullShare by dsimp only [dat8]
  | 7, _, _ => show (dat8 V c).q 7 = fullShare by dsimp only [dat8]
  | 8, _, _ => show (dat8 V c).q 8 = fullShare by dsimp only [dat8]
  | 9, _, _ => show (dat8 V c).q 9 = fullShare by dsimp only [dat8]
  | 10, _, _ => show (dat8 V c).q 10 = fullShare by dsimp only [dat8]

set_option backward.isDefEq.respectTransparency.types false in
def reg8 : Pipeline.RegionSeg (pcfgs (F := F)) adm (pdats m ρ) () defs₀ 𝒱₀ L lv 8 where
  win := winFacts₀8
  block_pos := block_pos8
  stage_whole := stage_whole8
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := arrays_of_unscopedBufs8 c (dat8 (V17 m ρ) c) (reg8_q0 _ c) (reg8_q1 _ c) (reg8_q _ c) (V17 m ρ c) (A_eq8 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := unscopedBufs_of_arrays8 c (dat8 (V17 m ρ) c) (reg8_q0 _ c) (reg8_q1 _ c) (reg8_q _ c)
      (V17 m ρ c) (V18 m ρ c) ((dat8 (V17 m ρ) c).arrAt · cfg8.N) (hF8 m ρ c) (hrest8 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Reg09.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Shared10.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg10 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg10.W) → Buf (Elt F) ((cfg10.win w).arr.view.loc (c : Thread nD τ)))
  (hA : ∀ w, A w = V (Pipeline.arrRef spec10 w))

theorem arrBufs_eq10 : (Pipeline.arrBufs spec10 c V : sProp 𝕄)
    = iprop((((c : Thread nD τ).loc (Pipeline.arrRef spec10 1)) ↦{fullShare} V (Pipeline.arrRef spec10 1))
      ∗ (((c : Thread nD τ).loc (Pipeline.arrRef spec10 2)) ↦{fullShare} V (Pipeline.arrRef spec10 2))
      ∗ (((c : Thread nD τ).loc (Pipeline.arrRef spec10 3)) ↦{fullShare} V (Pipeline.arrRef spec10 3))
      ∗ (((c : Thread nD τ).loc (Pipeline.arrRef spec10 4)) ↦{fullShare} V (Pipeline.arrRef spec10 4))) :=
  bigSep_eq_bigSepL_of_eq [Pipeline.arrRef spec10 1, Pipeline.arrRef spec10 2, Pipeline.arrRef spec10 3, Pipeline.arrRef spec10 4] (by decide) (by decide) _

def sh10 : Fin 5 → PosShare TreeShare
  | 0 => Cert.Shares.shL
  | 1 => Cert.Shares.shR
  | _ => fullShare

include hq0 hq1 hq in
theorem share10 (w : Fin 5) : dat.share w = sh10 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq10 : (dat.arrays A : sProp 𝕄)
    = bigSep Finset.univ fun w : Fin 5 => (((c : Thread nD τ).loc (Pipeline.arrRef spec10 w)) ↦{sh10 w} V (Pipeline.arrRef spec10 w) : sProp 𝕄) := by
  unfold Dat.arrays
  exact bigSep_congr fun w _ => by rw [(arr_whole10 w).set_eq_univ, share10 c dat hq0 hq1 hq w, hA w]

include hq0 hq1 hq hA in
theorem arrays_of_arrBufs10 : (Pipeline.arrBufs spec10 c V : sProp 𝕄) ⊢ dat.arrays A := by
  rw [arrays_eq10 c dat hq0 hq1 hq V A hA, bigSep_W10, arrBufs_eq10]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays10 : (dat.arrays A : sProp 𝕄) ⊢ Pipeline.arrBufs spec10 c V := by
  rw [arrays_eq10 c dat hq0 hq1 hq V A hA, bigSep_W10, arrBufs_eq10]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg10 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs10 (V : (b : Ref sig .tc) → Buf (Elt F) ((c : Thread nD τ).loc b))
    (hA : ∀ w, dat.A w = V (Pipeline.arrRef spec10 w)) :
    (unscopedBufs c V : sProp 𝕄) ⊢ iprop(dat.arrays (dat.arrAt · 0) ∗ Pipeline.unscopedRest spec10 c V) := by
  rw [Pipeline.unscopedBufs_split₀ cfgs 10 winFacts₀10.arr_unscoped c V]
  exact sep_mono (arrays_of_arrBufs10 c dat hq0 hq1 hq V _ hA) .rfl

include hq0 hq1 hq in
theorem unscopedBufs_of_arrays10 (V V' : (b : Ref sig .tc) → Buf (Elt F) ((c : Thread nD τ).loc b))
    (A : (w : Fin cfg10.W) → Buf (Elt F) ((cfg10.win w).arr.view.loc (c : Thread nD τ)))
    (hA : ∀ w, A w = V' (Pipeline.arrRef spec10 w))
    (hrest : ∀ b, b ∉ Finset.univ.image (Pipeline.arrRef spec10) → V' b = V b) :
    iprop(dat.arrays A ∗ Pipeline.unscopedRest spec10 c V) ⊢ (unscopedBufs c V' : sProp 𝕄) := by
  rw [Pipeline.unscopedBufs_split₀ cfgs 10 winFacts₀10.arr_unscoped c V']
  refine sep_mono (arrBufs_of_arrays10 c dat hq0 hq1 hq V' A hA) (Entails.of_eq ?_)
  unfold Pipeline.unscopedRest
  exact bigSep_congr fun b hb => by rw [hrest b (Finset.mem_sdiff.mp hb).2]

end

end Cert.KB
-- ==== Proof.KB.Reg10.lean ====
import proofs.«146000_j29076928594330_2_alg».proof.Proof.KB.Fold
import proofs.«146000_j29076928594330_2_alg».proof.Proof.KB.Shared10
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg10_q0 (V : (c : Dev nD) → (b : Ref sig .tc) → Buf (Elt F) ((c : Thread nD τ).loc b)) (c : Dev nD) :
    (dat10 V c).q 0 = Cert.Shares.shL := by dsimp only [dat10]
theorem reg10_q1 (V : (c : Dev nD) → (b : Ref sig .tc) → Buf (Elt F) ((c : Thread nD τ).loc b)) (c : Dev nD) :
    (dat10 V c).q 1 = Cert.Shares.shR := by dsimp only [dat10]
theorem reg10_q (V : (c : Dev nD) → (b : Ref sig .tc) → Buf (Elt F) ((c : Thread nD τ).loc b)) (c : Dev nD) :
    ∀ w : Fin 5, w ≠ 0 → w ≠ 1 → (dat10 V c).q w = fullShare
  | 0, h, _ => absurd rfl h
  | 1, _, h => absurd rfl h
  | 2, _, _ => show (dat10 V c).q 2 = fullShare by dsimp only [dat10]
  | 3, _, _ => show (dat10 V c).q 3 = fullShare by dsimp only [dat10]
  | 4, _, _ => show (dat10 V c).q 4 = fullShare by dsimp only [dat10]

set_option backward.isDefEq.respectTransparency.types false in
def reg10 : Pipeline.RegionSeg (pcfgs (F := F)) adm (pdats m ρ) () defs₀ 𝒱₀ L lv 10 where
  win := winFacts₀10
  block_pos := block_pos10
  stage_whole := stage_whole10
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := arrays_of_unscopedBufs10 c (dat10 (V21 m ρ) c) (reg10_q0 _ c) (reg10_q1 _ c) (reg10_q _ c) (V21 m ρ c) (A_eq10 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := unscopedBufs_of_arrays10 c (dat10 (V21 m ρ) c) (reg10_q0 _ c) (reg10_q1 _ c) (reg10_q _ c)
      (V21 m ρ c) (V22 m ρ c) ((dat10 (V21 m ρ) c).arrAt · cfg10.N) (hF10 m ρ c) (hrest10 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Shared11.lean ====
import proofs.«146000_j29076928594330_2_alg».proof.Proof.Gen.Kernel.Launch
import proofs.«146000_j29076928594330_2_alg».proof.Proof.Shares
import Idealize.ShloMosaic.Lib.Pipeline.RegionsLoop

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg11 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg11.W) → Buf (Elt F) ((cfg11.win w).arr.view.loc (c : Thread nD τ)))
  (hA : ∀ w, A w = V (Pipeline.arrRef spec11 w))

theorem arrBufs_eq11 : (Pipeline.arrBufs spec11 c V : sProp 𝕄)
    = iprop((((c : Thread nD τ).loc (Pipeline.arrRef spec11 1)) ↦{fullShare} V (Pipeline.arrRef spec11 1))
      ∗ (((c : Thread nD τ).loc (Pipeline.arrRef spec11 2)) ↦{fullShare} V (Pipeline.arrRef spec11 2))
      ∗ (((c : Thread nD τ).loc (Pipeline.arrRef spec11 3)) ↦{fullShare} V (Pipeline.arrRef spec11 3))
      ∗ (((c : Thread nD τ).loc (Pipeline.arrRef spec11 4)) ↦{fullShare} V (Pipeline.arrRef spec11 4))
      ∗ (((c : Thread nD τ).loc (Pipeline.arrRef spec11 5)) ↦{fullShare} V (Pipeline.arrRef spec11 5))
      ∗ (((c : Thread nD τ).loc (Pipeline.arrRef spec11 6)) ↦{fullShare} V (Pipeline.arrRef spec11 6))
      ∗ (((c : Thread nD τ).loc (Pipeline.arrRef spec11 7)) ↦{fullShare} V (Pipeline.arrRef spec11 7))
      ∗ (((c : Thread nD τ).loc (Pipeline.arrRef spec11 8)) ↦{fullShare} V (Pipeline.arrRef spec11 8))
      ∗ (((c : Thread nD τ).loc (Pipeline.arrRef spec11 9)) ↦{fullShare} V (Pipeline.arrRef spec11 9))
      ∗ (((c : Thread nD τ).loc (Pipeline.arrRef spec11 10)) ↦{fullShare} V (Pipeline.arrRef spec11 10))) :=
  bigSep_eq_bigSepL_of_eq [Pipeline.arrRef spec11 1, Pipeline.arrRef spec11 2, Pipeline.arrRef spec11 3, Pipeline.arrRef spec11 4, Pipeline.arrRef spec11 5, Pipeline.arrRef spec11 6, Pipeline.arrRef spec11 7, Pipeline.arrRef spec11 8, Pipeline.arrRef spec11 9, Pipeline.arrRef spec11 10] (by decide) (by decide) _

def sh11 : Fin 11 → PosShare TreeShare
  | 0 => Cert.Shares.shL
  | 1 => Cert.Shares.shR
  | _ => fullShare

include hq0 hq1 hq in
theorem share11 (w : Fin 11) : dat.share w = sh11 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq11 : (dat.arrays A : sProp 𝕄)
    = bigSep Finset.univ fun w : Fin 11 => (((c : Thread nD τ).loc (Pipeline.arrRef spec11 w)) ↦{sh11 w} V (Pipeline.arrRef spec11 w) : sProp 𝕄) := by
  unfold Dat.arrays
  exact bigSep_congr fun w _ => by rw [(arr_whole11 w).set_eq_univ, share11 c dat hq0 hq1 hq w, hA w]

include hq0 hq1 hq hA in
theorem arrays_of_arrBufs11 : (Pipeline.arrBufs spec11 c V : sProp 𝕄) ⊢ dat.arrays A := by
  rw [arrays_eq11 c dat hq0 hq1 hq V A hA, bigSep_W11, arrBufs_eq11]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays11 : (dat.arrays A : sProp 𝕄) ⊢ Pipeline.arrBufs spec11 c V := by
  rw [arrays_eq11 c dat hq0 hq1 hq V A hA, bigSep_W11, arrBufs_eq11]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg11 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs11 (V : (b : Ref sig .tc) → Buf (Elt F) ((c : Thread nD τ).loc b))
    (hA : ∀ w, dat.A w = V (Pipeline.arrRef spec11 w)) :
    (unscopedBufs c V : sProp 𝕄) ⊢ iprop(dat.arrays (dat.arrAt · 0) ∗ Pipeline.unscopedRest spec11 c V) := by
  rw [Pipeline.unscopedBufs_split₀ cfgs 11 winFacts₀11.arr_unscoped c V]
  exact sep_mono (arrays_of_arrBufs11 c dat hq0 hq1 hq V _ hA) .rfl

include hq0 hq1 hq in
theorem unscopedBufs_of_arrays11 (V V' : (b : Ref sig .tc) → Buf (Elt F) ((c : Thread nD τ).loc b))
    (A : (w : Fin cfg11.W) → Buf (Elt F) ((cfg11.win w).arr.view.loc (c : Thread nD τ)))
    (hA : ∀ w, A w = V' (Pipeline.arrRef spec11 w))
    (hrest : ∀ b, b ∉ Finset.univ.image (Pipeline.arrRef spec11) → V' b = V b) :
    iprop(dat.arrays A ∗ Pipeline.unscopedRest spec11 c V) ⊢ (unscopedBufs c V' : sProp 𝕄) := by
  rw [Pipeline.unscopedBufs_split₀ cfgs 11 winFacts₀11.arr_unscoped c V']
  refine sep_mono (arrBufs_of_arrays11 c dat hq0 hq1 hq V' A hA) (Entails.of_eq ?_)
  unfold Pipeline.unscopedRest
  exact bigSep_congr fun b hb => by rw [hrest b (Finset.mem_sdiff.mp hb).2]

end

end Cert.KB
-- ==== Proof.KB.Reg11.lean ====
import proofs.«146000_j29076928594330_2_alg».proof.Proof.KB.Fold
import proofs.«146000_j29076928594330_2_alg».proof.Proof.KB.Shared11
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg11_q0 (V : (c : Dev nD) → (b : Ref sig .tc) → Buf (Elt F) ((c : Thread nD τ).loc b)) (c : Dev nD) :
    (dat11 V c).q 0 = Cert.Shares.shL := by dsimp only [dat11]
theorem reg11_q1 (V : (c : Dev nD) → (b : Ref sig .tc) → Buf (Elt F) ((c : Thread nD τ).loc b)) (c : Dev nD) :
    (dat11 V c).q 1 = Cert.Shares.shR := by dsimp only [dat11]
theorem reg11_q (V : (c : Dev nD) → (b : Ref sig .tc) → Buf (Elt F) ((c : Thread nD τ).loc b)) (c : Dev nD) :
    ∀ w : Fin 11, w ≠ 0 → w ≠ 1 → (dat11 V c).q w = fullShare
  | 0, h, _ => absurd rfl h
  | 1, _, h => absurd rfl h
  | 2, _, _ => show (dat11 V c).q 2 = fullShare by dsimp only [dat11]
  | 3, _, _ => show (dat11 V c).q 3 = fullShare by dsimp only [dat11]
  | 4, _, _ => show (dat11 V c).q 4 = fullShare by dsimp only [dat11]
  | 5, _, _ => show (dat11 V c).q 5 = fullShare by dsimp only [dat11]
  | 6, _, _ => show (dat11 V c).q 6 = fullShare by dsimp only [dat11]
  | 7, _, _ => show (dat11 V c).q 7 = fullShare by dsimp only [dat11]
  | 8, _, _ => show (dat11 V c).q 8 = fullShare by dsimp only [dat11]
  | 9, _, _ => show (dat11 V c).q 9 = fullShare by dsimp only [dat11]
  | 10, _, _ => show (dat11 V c).q 10 = fullShare by dsimp only [dat11]

set_option backward.isDefEq.respectTransparency.types false in
def reg11 : Pipeline.RegionSeg (pcfgs (F := F)) adm (pdats m ρ) () defs₀ 𝒱₀ L lv 11 where
  win := winFacts₀11
  block_pos := block_pos11
  stage_whole := stage_whole11
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := arrays_of_unscopedBufs11 c (dat11 (V23 m ρ) c) (reg11_q0 _ c) (reg11_q1 _ c) (reg11_q _ c) (V23 m ρ c) (A_eq11 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := unscopedBufs_of_arrays11 c (dat11 (V23 m ρ) c) (reg11_q0 _ c) (reg11_q1 _ c) (reg11_q _ c)
      (V23 m ρ c) (V24 m ρ c) ((dat11 (V23 m ρ) c).arrAt · cfg11.N) (hF11 m ρ c) (hrest11 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KB
-- ==== Proof.KB.Reg12.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V24 m ρ) c).loose
  hwaits := Pipeline.hwaits_of_owed_zero _ _ _ _ L lv 12 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec12 c (V24 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V24 m ρ c) (V25 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Reg13.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V26 m ρ) c).loose
  hwaits := Pipeline.hwaits_of_owed_zero _ _ _ _ L lv 13 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec13 c (V26 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V26 m ρ c) (V27 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Reg14.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V28 m ρ) c).loose
  hwaits := Pipeline.hwaits_of_owed_zero _ _ _ _ L lv 14 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec14 c (V28 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V28 m ρ c) (V29 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Reg15.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V30 m ρ) c).loose
  hwaits := Pipeline.hwaits_of_owed_zero _ _ _ _ L lv 15 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec15 c (V30 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V30 m ρ c) (V31 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Reg16.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V32 m ρ) c).loose
  hwaits := Pipeline.hwaits_of_owed_zero _ _ _ _ L lv 16 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec16 c (V32 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V32 m ρ c) (V33 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KB
-- ==== Proof.KB.Reg17.lean ====
import proofs.«146000_j29076928594330_2_alg».proof.Proof.KB.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V33 m ρ) c).loose
  hwaits := Pipeline.hwaits_of_owed_zero _ _ _ _ L lv 17 fun _ _ => rfl
  pre c := iprop(StableHlo.held (c : Thread nD τ) (Pipeline.ucRefs τ sig) (W33 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec17 c (V33 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V33 m ρ c) (V34 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KB
-- ==== Proof.KB.Run.lean ====
import proofs.«146000_j29076928594330_2_alg».proof.Proof.KB.Fold
import proofs.«146000_j29076928594330_2_alg».proof.Proof.KB.Reg00
import proofs.«146000_j29076928594330_2_alg».proof.Proof.KB.Reg01
import proofs.«146000_j29076928594330_2_alg».proof.Proof.KB.Reg02
import proofs.«146000_j29076928594330_2_alg».proof.Proof.KB.Reg03
import proofs.«146000_j29076928594330_2_alg».proof.Proof.KB.Reg04
import proofs.«146000_j29076928594330_2_alg».proof.Proof.KB.Reg05
import proofs.«146000_j29076928594330_2_alg».proof.Proof.KB.Reg06
import proofs.«146000_j29076928594330_2_alg».proof.Proof.KB.Reg07
import proofs.«146000_j29076928594330_2_alg».proof.Proof.KB.Reg08
import proofs.«146000_j29076928594330_2_alg».proof.Proof.KB.Reg09
import proofs.«146000_j29076928594330_2_alg».proof.Proof.KB.Reg10
import proofs.«146000_j29076928594330_2_alg».proof.Proof.KB.Reg11
import proofs.«146000_j29076928594330_2_alg».proof.Proof.KB.Reg12
import proofs.«146000_j29076928594330_2_alg».proof.Proof.KB.Reg13
import proofs.«146000_j29076928594330_2_alg».proof.Proof.KB.Reg14
import proofs.«146000_j29076928594330_2_alg».proof.Proof.KB.Reg15
import proofs.«146000_j29076928594330_2_alg».proof.Proof.KB.Reg16
import proofs.«146000_j29076928594330_2_alg».proof.Proof.KB.Reg17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub GenP.hostOps0_fresh (W0 m ρ)),
    .region (reg0 m ρ),
    .host (hseg hostOps1 hostOps1_sub GenP.hostOps1_fresh (W2 m ρ)),
    .region (reg1 m ρ),
    .host (hseg hostOps2 hostOps2_sub GenP.hostOps2_fresh (W4 m ρ)),
    .region (reg2 m ρ),
    .host (hseg hostOps3 hostOps3_sub GenP.hostOps3_fresh (W6 m ρ)),
    .region (reg3 m ρ),
    .host (hseg hostOps4 hostOps4_sub GenP.hostOps4_fresh (W8 m ρ)),
    .region (reg4 m ρ),
    .host (hseg hostOps5 hostOps5_sub GenP.hostOps5_fresh (W10 m ρ)),
    .region (reg5 m ρ),
    .host (hseg hostOps6 hostOps6_sub GenP.hostOps6_fresh (W12 m ρ)),
    .region (reg6 m ρ),
    .host (hseg hostOps7 hostOps7_sub GenP.hostOps7_fresh (W14 m ρ)),
    .region (reg7 m ρ),
    .host (hseg hostOps8 hostOps8_sub GenP.hostOps8_fresh (W16 m ρ)),
    .region (reg8 m ρ),
    .host (hseg hostOps9 hostOps9_sub GenP.hostOps9_fresh (W18 m ρ)),
    .region (reg9 m ρ),
    .host (hseg hostOps10 hostOps10_sub GenP.hostOps10_fresh (W20 m ρ)),
    .region (reg10 m ρ),
    .host (hseg hostOps11 hostOps11_sub GenP.hostOps11_fresh (W22 m ρ)),
    .region (reg11 m ρ),
    .region (reg12 m ρ),
    .host (hseg hostOps13 hostOps13_sub GenP.hostOps13_fresh (W25 m ρ)),
    .region (reg13 m ρ),
    .host (hseg hostOps14 hostOps14_sub GenP.hostOps14_fresh (W27 m ρ)),
    .region (reg14 m ρ),
    .host (hseg hostOps15 hostOps15_sub GenP.hostOps15_fresh (W29 m ρ)),
    .region (reg15 m ρ),
    .host (hseg hostOps16 hostOps16_sub GenP.hostOps16_fresh (W31 m ρ)),
    .region (reg16 m ρ),
    .region (reg17 m ρ) ]
theorem main_run (c : Dev nD) : main (F := F) c = Pipeline.Seg.run (segs m ρ) := (main_chain c).trans (by chain_rfl)

set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W34 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := hQ)

theorem run_vals : θ_run defs (onTc (τ := τ) (main (F := F))) ⟨m, fun _ => 0, ρ⟩ (fun r => ∀ c : Dev nD,
      r.2.mem ((c.tc : Thread nD τ).loc main_v68) = V33 m ρ c main_v68
      ∧ r.2.mem ((c.tc : Thread nD τ).loc main_v52) = V25 m ρ c main_v52
      ∧ r.2.mem ((c.tc : Thread nD τ).loc main_v42) = V20 m ρ c main_v42
      ∧ r.2.mem ((c.tc : Thread nD τ).loc main_v3) = V2 m ρ c main_v3
      ∧ r.2.mem ((c.tc : Thread nD τ).loc main_v16) = V8 m ρ c main_v16
      ∧ r.2.mem ((c.tc : Thread nD τ).loc main_v29) = V14 m ρ c main_v29
      ∧ r.2.mem ((c.tc : Thread nD τ).loc main_v69) = V34 m ρ c main_v69
      ∧ r.2.mem ((c.tc : Thread nD τ).loc main_v60) = V29 m ρ c main_v60
      ∧ r.2.mem ((c.tc : Thread nD τ).loc main_v64) = V31 m ρ c main_v64
      ∧ r.2.mem ((c.tc : Thread nD τ).loc main_v12) = V6 m ρ c main_v12
      ∧ r.2.mem ((c.tc : Thread nD τ).loc main_v25) = V12 m ρ c main_v25
      ∧ r.2.mem ((c.tc : Thread nD τ).loc main_v38) = V18 m ρ c main_v38
      ∧ r.2.mem ((c.tc : Thread nD τ).loc main_v51) = V24 m ρ c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)) :=
  run_post m ρ fun s h c =>
    ⟨(h c _ (mem_uc main_v68 (by decide))).trans (W34_main_v68 m ρ c),
     (h c _ (mem_uc main_v52 (by decide))).trans (W34_main_v52 m ρ c),
     (h c _ (mem_uc main_v42 (by decide))).trans (W34_main_v42 m ρ c),
     (h c _ (mem_uc main_v3 (by decide))).trans (W34_main_v3 m ρ c),
     (h c _ (mem_uc main_v16 (by decide))).trans (W34_main_v16 m ρ c),
     (h c _ (mem_uc main_v29 (by decide))).trans (W34_main_v29 m ρ c),
     (h c _ (mem_uc main_v69 (by decide))).trans (W34_main_v69 m ρ c),
     (h c _ (mem_uc main_v60 (by decide))).trans (W34_main_v60 m ρ c),
     (h c _ (mem_uc main_v64 (by decide))).trans (W34_main_v64 m ρ c),
     (h c _ (mem_uc main_v12 (by decide))).trans (W34_main_v12 m ρ c),
     (h c _ (mem_uc main_v25 (by decide))).trans (W34_main_v25 m ρ c),
     (h c _ (mem_uc main_v38 (by decide))).trans (W34_main_v38 m ρ c),
     (h c _ (mem_uc main_v51 (by decide))).trans (W34_main_v51 m ρ c),
     (h c _ (mem_uc main_arg0 (by decide))).trans (W34_main_arg0 m ρ c),
     (h c _ (mem_uc main_arg1 (by decide))).trans (W34_main_arg1 m ρ c),
     (h c _ (mem_uc main_arg2 (by decide))).trans (W34_main_arg2 m ρ c),
     (h c _ (mem_uc main_arg3 (by decide))).trans (W34_main_arg3 m ρ c),
     (h c _ (mem_uc main_arg4 (by decide))).trans (W34_main_arg4 m ρ c),
     (h c _ (mem_uc main_arg5 (by decide))).trans (W34_main_arg5 m ρ c),
     (h c _ (mem_uc main_arg6 (by decide))).trans (W34_main_arg6 m ρ c),
     (h c _ (mem_uc main_arg7 (by decide))).trans (W34_main_arg7 m ρ c),
     (h c _ (mem_uc main_arg8 (by decide))).trans (W34_main_arg8 m ρ c),
     (h c _ (mem_uc main_arg9 (by decide))).trans (W34_main_arg9 m ρ c),
     (h c _ (mem_uc main_arg10 (by decide))).trans (W34_main_arg10 m ρ c),
     (h c _ (mem_uc main_arg11 (by decide))).trans (W34_main_arg11 m ρ c),
     (h c _ (mem_uc main_arg12 (by decide))).trans (W34_main_arg12 m ρ c),
     (h c _ (mem_uc main_arg13 (by decide))).trans (W34_main_arg13 m ρ c),
     (h c _ (mem_uc main_arg14 (by decide))).trans (W34_main_arg14 m ρ c),
     (h c _ (mem_uc main_arg15 (by decide))).trans (W34_main_arg15 m ρ c),
     (h c _ (mem_uc main_arg16 (by decide))).trans (W34_main_arg16 m ρ c),
     (h c _ (mem_uc main_arg17 (by decide))).trans (W34_main_arg17 m ρ c),
     (h c _ (mem_uc main_arg18 (by decide))).trans (W34_main_arg18 m ρ c),
     (h c _ (mem_uc main_arg19 (by decide))).trans (W34_main_arg19 m ρ c),
     (h c _ (mem_uc main_arg20 (by decide))).trans (W34_main_arg20 m ρ c),
     (h c _ (mem_uc main_arg21 (by decide))).trans (W34_main_arg21 m ρ c),
     (h c _ (mem_uc main_arg22 (by decide))).trans (W34_main_arg22 m ρ c),
     (h c _ (mem_uc main_arg23 (by decide))).trans (W34_main_arg23 m ρ c),
     (h c _ (mem_uc main_arg24 (by decide))).trans (W34_main_arg24 m ρ c),
     (h c _ (mem_uc main_arg25 (by decide))).trans (W34_main_arg25 m ρ c),
     (h c _ (mem_uc main_arg26 (by decide))).trans (W34_main_arg26 m ρ c),
     (h c _ (mem_uc main_arg27 (by decide))).trans (W34_main_arg27 m ρ c),
     (h c _ (mem_uc main_arg28 (by decide))).trans (W34_main_arg28 m ρ c),
     (h c _ (mem_uc main_arg29 (by decide))).trans (W34_main_arg29 m ρ c),
     (h c _ (mem_uc main_arg30 (by decide))).trans (W34_main_arg30 m ρ c),
     (h c _ (mem_uc main_arg31 (by decide))).trans (W34_main_arg31 m ρ c),
     (h c _ (mem_uc main_arg32 (by decide))).trans (W34_main_arg32 m ρ c),
     (h c _ (mem_uc main_arg33 (by decide))).trans (W34_main_arg33 m ρ c),
     (h c _ (mem_uc main_arg34 (by decide))).trans (W34_main_arg34 m ρ c),
     (h c _ (mem_uc main_arg35 (by decide))).trans (W34_main_arg35 m ρ c),
     (h c _ (mem_uc main_arg36 (by decide))).trans (W34_main_arg36 m ρ c),
     (h c _ (mem_uc main_arg37 (by decide))).trans (W34_main_arg37 m ρ c)⟩

end Cert.KB

end
-- ==== Proof.KI.HostFacts.lean ====
import proofs.«146000_j29076928594330_2_alg».proof.Proof.Gen.KernelIdeal.Launch
import Idealize.ShloMosaic.Lib.Pipeline.Frame
import Idealize.ShloMosaic.Lib.Pipeline.Regions

set_option maxRecDepth 1676

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v4, main_v5, main_v6, main_cst, main_v7, main_v8, main_v9]
theorem hostOps1_writes : (hostOps1 : List (HloOp τ sig (Elt F))).Forall fun op => op.writes ⊆ (hostOps1_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_v11]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v13, main_v14, main_v15]
theorem hostOps3_writes : (hostOps3 : List (HloOp τ sig (Elt F))).Forall fun op => op.writes ⊆ (hostOps3_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_v17, main_v18, main_v19, main_cst_0, main_v20, main_v21, main_v22]
theorem hostOps4_writes : (hostOps4 : List (HloOp τ sig (Elt F))).Forall fun op => op.writes ⊆ (hostOps4_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor
abbrev hostOps5_W : List (Ref sig .tc) := [main_v24]
theorem hostOps5_writes : (hostOps5 : List (HloOp τ sig (Elt F))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor
abbrev hostOps6_W : List (Ref sig .tc) := [main_v26, main_v27, main_v28]
theorem hostOps6_writes : (hostOps6 : List (HloOp τ sig (Elt F))).Forall fun op => op.writes ⊆ (hostOps6_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor
abbrev hostOps7_W : List (Ref sig .tc) := [main_v30, main_v31, main_v32, main_cst_1, main_v33, main_v34, main_v35]
theorem hostOps7_writes : (hostOps7 : List (HloOp τ sig (Elt F))).Forall fun op => op.writes ⊆ (hostOps7_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor
abbrev hostOps8_W : List (Ref sig .tc) := [main_v37]
theorem hostOps8_writes : (hostOps8 : List (HloOp τ sig (Elt F))).Forall fun op => op.writes ⊆ (hostOps8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor
abbrev hostOps9_W : List (Ref sig .tc) := [main_v39, main_v40, main_v41]
theorem hostOps9_writes : (hostOps9 : List (HloOp τ sig (Elt F))).Forall fun op => op.writes ⊆ (hostOps9_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor
abbrev hostOps10_W : List (Ref sig .tc) := [main_v43, main_v44, main_v45, main_cst_2, main_v46, main_v47, main_v48]
theorem hostOps10_writes : (hostOps10 : List (HloOp τ sig (Elt F))).Forall fun op => op.writes ⊆ (hostOps10_W.map (Proc.devRef (τ := τ) .tc)).toFinset := by
  simp only [List.Forall]; refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor
abbrev hostOps11_W : List (Ref sig .tc) := [main_v50]
theorem hostOps11_writes : (hostOps11 : List (HloOp τ sig (Elt F))).Forall fun op => op.writes ⊆ (hostOps11_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor
abbrev hostOps13_W : List (Ref sig .tc) := [main_v53, main_v54, main_v55]
theorem hostOps13_writes : (hostOps13 : List (HloOp τ sig (Elt F))).Forall fun op => op.writes ⊆ (hostOps13_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor
abbrev hostOps14_W : List (Ref sig .tc) := [main_v57, main_v58, main_v59]
theorem hostOps14_writes : (hostOps14 : List (HloOp τ sig (Elt F))).Forall fun op => op.writes ⊆ (hostOps14_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor
abbrev hostOps15_W : List (Ref sig .tc) := [main_v61, main_v62, main_v63]
theorem hostOps15_writes : (hostOps15 : List (HloOp τ sig (Elt F))).Forall fun op => op.writes ⊆ (hostOps15_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor
abbrev hostOps16_W : List (Ref sig .tc) := [main_v65, main_v66, main_v67]
theorem hostOps16_writes : (hostOps16 : List (HloOp τ sig (Elt F))).Forall fun op => op.writes ⊆ (hostOps16_W.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 19 → Dev nD → sProp (MT nD τ sig Ix (Elt F) ℕ U Lvl))

end Segs

section

variable {Ix : Type} [DecidableEq Ix] {U : Type} [URA U] {Lvl : Type} [Preorder Lvl]

end

end Cert.KernelIdeal.GenP

end
-- ==== Proof.KI.R00.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x784 := Rect.unit (s := S256x784) ![0, 0] S256x784.size inb_S256x784_S256x784_0_0
abbrev r0_1 : Rect S784x500 := Rect.unit (s := S784x500) ![0, 0] S784x500.size inb_S784x500_S784x500_0_0
abbrev r0_2 : Rect S1x500 := Rect.unit (s := S1x500) ![0, 0] S1x500.size inb_S1x500_S1x500_0_0
abbrev r0_3 : Rect S256x500 := Rect.unit (s := S256x500) ![0, 0] S256x500.size inb_S256x500_S256x500_0_0

def out0_3 (x0 : Vec F S256x784 .bf16) (x1 : Vec F S784x500 .bf16) (x2 : Vec F S1x500 .f32) : Vec F S256x500 .f32 :=
  View.canon [⟨r0_3, k0_pay1 (View.ld x0 r0_0) (View.ld x1 r0_1) (View.ld x2 r0_2)⟩]

theorem cover0_3 (p0 : Vec F S256x500 .f32) (y : S256x500.Idx) :
    ∃ pc ∈ ([⟨r0_3, p0⟩] : List (View.Piece (Elt F) S256x500 .f32)), y ∈ pc.1.set :=
  View.cover_of_tiled [⟨r0_3, p0⟩] S256x500.size (by rfl) y

set_option maxHeartbeats 1000000 in
theorem sound_kernel0 (c : Dev nD) (E : Set ℕ) (i : grid0.Coords)
    (arg1 : Memref sig .tc .vmem S256x784 .bf16) (harg1 : arg1.IsWhole) (arg2 : Memref sig .tc .vmem S784x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x784 .bf16) (x1 : Vec F S784x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KI
-- ==== Proof.KI.R01.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S64x500 := Rect.unit (s := S64x500) ![0, 0] S64x500.size inb_S64x500_S64x500_0_0
abbrev r1_1 : Rect S3072x500 := Rect.unit (s := S3072x500) ![0, 0] S3072x500.size inb_S3072x500_S3072x500_0_0
abbrev r1_2 : Rect S64x1 := Rect.unit (s := S64x1) ![0, 0] S64x1.size inb_S64x1_S64x1_0_0
abbrev r1_3 : Rect S1x3072 := Rect.unit (s := S1x3072) ![0, 0] S1x3072.size inb_S1x3072_S1x3072_0_0
abbrev r1_4 : Rect S64x1 := Rect.unit (s := S64x1) ![0, 0] S64x1.size inb_S64x1_S64x1_0_0

def out1_4 (i : grid1.Coords) (x0 : Vec F S64x500 .bf16) (x1 : Vec F S3072x500 .bf16) (x2 : Vec F S64x1 .f32) (x3 : Vec F S1x3072 .f32) : Vec F S64x1 .f32 :=
  View.canon [⟨r1_4, k1_pay1 i (View.ld x0 r1_0) (View.ld x1 r1_1) (View.ld x2 r1_2) (View.ld x3 r1_3)⟩]

theorem cover1_4 (p0 : Vec F S64x1 .f32) (y : S64x1.Idx) :
    ∃ pc ∈ ([⟨r1_4, p0⟩] : List (View.Piece (Elt F) S64x1 .f32)), y ∈ pc.1.set :=
  View.cover_of_tiled [⟨r1_4, p0⟩] S64x1.size (by rfl) y

set_option maxHeartbeats 1000000 in
theorem sound_kernel1 (c : Dev nD) (E : Set ℕ) (i : grid1.Coords)
    (arg1 : Memref sig .tc .vmem S64x500 .bf16) (harg1 : arg1.IsWhole) (arg2 : Memref sig .tc .vmem S3072x500 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x500 .bf16) (x1 : Vec F S3072x500 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 i x0 x1 x2 x3)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (cfg1.grid.coords t) (iblk1 V c 0 t) (iblk1 V c 1 t) (iblk1 V c 2 t) (iblk1 V c 3 t)
  Φ _ := Pipeline.ΦA spec1 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (cfg1.grid.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KI
-- ==== Proof.KI.R02.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_S64x500 : Rect S64x500 := Rect.unit (s := S64x500) ![0, 0] S64x500.size inb_S64x500_S64x500_0_0
abbrev r2_S3072x500 : Rect S3072x500 := Rect.unit (s := S3072x500) ![0, 0] S3072x500.size inb_S3072x500_S3072x500_0_0
abbrev r2_S64x1 : Rect S64x1 := Rect.unit (s := S64x1) ![0, 0] S64x1.size inb_S64x1_S64x1_0_0
abbrev r2_S1x3072 : Rect S1x3072 := Rect.unit (s := S1x3072) ![0, 0] S1x3072.size inb_S1x3072_S1x3072_0_0
abbrev r2_S64x3072 : Rect S64x3072 := Rect.unit (s := S64x3072) ![0, 0] S64x3072.size inb_S64x3072_S64x3072_0_0

def out2_10 (i : grid2.Coords) (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r2_S64x3072, k2_pay1
    (k2_pay2 (View.ld x0 r2_S64x500) (View.ld x1 r2_S3072x500))
    (k2_pay4 (View.ld x0 r2_S64x500) (View.ld x1 r2_S3072x500) (View.ld x2 r2_S64x1) (View.ld x3 r2_S1x3072))
    (k2_pay5 (View.ld x0 r2_S64x500) (View.ld x1 r2_S3072x500))
    (k2_pay6 i (View.ld x0 r2_S64x500) (View.ld x1 r2_S3072x500) (View.ld x2 r2_S64x1) (View.ld x3 r2_S1x3072) (View.ld x4 r2_S64x1))
    (View.ld x5 r2_S1x3072) (View.ld x6 r2_S64x3072) (View.ld x7 r2_S64x3072) (View.ld x8 r2_S64x3072) (View.ld x9 r2_S64x3072)⟩]

theorem cover2_10 (p0 : Vec F S64x3072 .f32) (y : S64x3072.Idx) :
    ∃ pc ∈ ([⟨r2_S64x3072, p0⟩] : List (View.Piece (Elt F) S64x3072 .f32)), y ∈ pc.1.set :=
  View.cover_of_tiled [⟨r2_S64x3072, p0⟩] S64x3072.size (by rfl) y

set_option maxHeartbeats 4000000 in
theorem sound_kernel2 (c : Dev nD) (E : Set ℕ) (i : grid2.Coords) (arg0 : Memref sig .tc .vmem S64x500 .bf16) (harg0 : arg0.IsWhole) (arg1 : Memref sig .tc .vmem S3072x500 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out2_10 i x0 x1 x2 x3 x4 x5 x6 x7 x8 x9)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7 arg8 harg8 arg9 harg9 arg10 harg10) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation2 (c : Dev nD) : BodyObligation (dat2 (F := F) V c) (defs₀ (F := F)) Variants.none () Set.univ := fun t => by
  rw [bigSep_W2, bigSep_W2]
  exact sound_body2 V c t

end Cert.KI

end
-- ==== Proof.KI.R03.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S256x500 := Rect.unit (s := S256x500) ![0, 0] S256x500.size inb_S256x500_S256x500_0_0
abbrev r3_1 : Rect S500x500 := Rect.unit (s := S500x500) ![0, 0] S500x500.size inb_S500x500_S500x500_0_0
abbrev r3_2 : Rect S1x500 := Rect.unit (s := S1x500) ![0, 0] S1x500.size inb_S1x500_S1x500_0_0
abbrev r3_3 : Rect S256x500 := Rect.unit (s := S256x500) ![0, 0] S256x500.size inb_S256x500_S256x500_0_0

def out3_3 (x0 : Vec F S256x500 .bf16) (x1 : Vec F S500x500 .bf16) (x2 : Vec F S1x500 .f32) : Vec F S256x500 .f32 :=
  View.canon [⟨r3_3, k3_pay1 (View.ld x0 r3_0) (View.ld x1 r3_1) (View.ld x2 r3_2)⟩]

theorem cover3_3 (p0 : Vec F S256x500 .f32) (y : S256x500.Idx) :
    ∃ pc ∈ ([⟨r3_3, p0⟩] : List (View.Piece (Elt F) S256x500 .f32)), y ∈ pc.1.set :=
  View.cover_of_tiled [⟨r3_3, p0⟩] S256x500.size (by rfl) y

set_option maxHeartbeats 1000000 in
theorem sound_kernel3 (c : Dev nD) (E : Set ℕ) (i : grid3.Coords)
    (arg1 : Memref sig .tc .vmem S256x500 .bf16) (harg1 : arg1.IsWhole) (arg2 : Memref sig .tc .vmem S500x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x500 .bf16) (x1 : Vec F S500x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KI
-- ==== Proof.KI.R04.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S64x500 := Rect.unit (s := S64x500) ![0, 0] S64x500.size inb_S64x500_S64x500_0_0
abbrev r4_1 : Rect S3072x500 := Rect.unit (s := S3072x500) ![0, 0] S3072x500.size inb_S3072x500_S3072x500_0_0
abbrev r4_2 : Rect S64x1 := Rect.unit (s := S64x1) ![0, 0] S64x1.size inb_S64x1_S64x1_0_0
abbrev r4_3 : Rect S1x3072 := Rect.unit (s := S1x3072) ![0, 0] S1x3072.size inb_S1x3072_S1x3072_0_0
abbrev r4_4 : Rect S64x1 := Rect.unit (s := S64x1) ![0, 0] S64x1.size inb_S64x1_S64x1_0_0

def out4_4 (i : grid4.Coords) (x0 : Vec F S64x500 .bf16) (x1 : Vec F S3072x500 .bf16) (x2 : Vec F S64x1 .f32) (x3 : Vec F S1x3072 .f32) : Vec F S64x1 .f32 :=
  View.canon [⟨r4_4, k4_pay1 i (View.ld x0 r4_0) (View.ld x1 r4_1) (View.ld x2 r4_2) (View.ld x3 r4_3)⟩]

theorem cover4_4 (p0 : Vec F S64x1 .f32) (y : S64x1.Idx) :
    ∃ pc ∈ ([⟨r4_4, p0⟩] : List (View.Piece (Elt F) S64x1 .f32)), y ∈ pc.1.set :=
  View.cover_of_tiled [⟨r4_4, p0⟩] S64x1.size (by rfl) y

set_option maxHeartbeats 1000000 in
theorem sound_kernel4 (c : Dev nD) (E : Set ℕ) (i : grid4.Coords)
    (arg1 : Memref sig .tc .vmem S64x500 .bf16) (harg1 : arg1.IsWhole) (arg2 : Memref sig .tc .vmem S3072x500 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x500 .bf16) (x1 : Vec F S3072x500 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 i x0 x1 x2 x3)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (cfg4.grid.coords t) (iblk4 V c 0 t) (iblk4 V c 1 t) (iblk4 V c 2 t) (iblk4 V c 3 t)
  Φ _ := Pipeline.ΦA spec4 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (cfg4.grid.coords t) (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KI
-- ==== Proof.KI.R05.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

abbrev r5_S64x500 : Rect S64x500 := Rect.unit (s := S64x500) ![0, 0] S64x500.size inb_S64x500_S64x500_0_0
abbrev r5_S3072x500 : Rect S3072x500 := Rect.unit (s := S3072x500) ![0, 0] S3072x500.size inb_S3072x500_S3072x500_0_0
abbrev r5_S64x1 : Rect S64x1 := Rect.unit (s := S64x1) ![0, 0] S64x1.size inb_S64x1_S64x1_0_0
abbrev r5_S1x3072 : Rect S1x3072 := Rect.unit (s := S1x3072) ![0, 0] S1x3072.size inb_S1x3072_S1x3072_0_0
abbrev r5_S64x3072 : Rect S64x3072 := Rect.unit (s := S64x3072) ![0, 0] S64x3072.size inb_S64x3072_S64x3072_0_0

def out5_10 (i : grid5.Coords) (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r5_S64x3072, k5_pay1
    (k5_pay2 (View.ld x0 r5_S64x500) (View.ld x1 r5_S3072x500))
    (k5_pay4 (View.ld x0 r5_S64x500) (View.ld x1 r5_S3072x500) (View.ld x2 r5_S64x1) (View.ld x3 r5_S1x3072))
    (k5_pay5 (View.ld x0 r5_S64x500) (View.ld x1 r5_S3072x500))
    (k5_pay6 i (View.ld x0 r5_S64x500) (View.ld x1 r5_S3072x500) (View.ld x2 r5_S64x1) (View.ld x3 r5_S1x3072) (View.ld x4 r5_S64x1))
    (View.ld x5 r5_S1x3072) (View.ld x6 r5_S64x3072) (View.ld x7 r5_S64x3072) (View.ld x8 r5_S64x3072) (View.ld x9 r5_S64x3072)⟩]

theorem cover5_10 (p0 : Vec F S64x3072 .f32) (y : S64x3072.Idx) :
    ∃ pc ∈ ([⟨r5_S64x3072, p0⟩] : List (View.Piece (Elt F) S64x3072 .f32)), y ∈ pc.1.set :=
  View.cover_of_tiled [⟨r5_S64x3072, p0⟩] S64x3072.size (by rfl) y

set_option maxHeartbeats 4000000 in
theorem sound_kernel5 (c : Dev nD) (E : Set ℕ) (i : grid5.Coords) (arg0 : Memref sig .tc .vmem S64x500 .bf16) (harg0 : arg0.IsWhole) (arg1 : Memref sig .tc .vmem S3072x500 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x500 .bf16) (x1 : Vec F S3072x500 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out5_10 i x0 x1 x2 x3 x4 x5 x6 x7 x8 x9)) -∗ K ⟨⟩))
      ⊢ wp frame (wpE (defs₀ (F := F)) Variants.none c none) E (cc5__combine_kernel i arg0 harg0 arg1 harg1 arg2 harg2 arg3 harg3 arg4 harg4 arg5 harg5 arg6 harg6 arg7 harg7 arg8 harg8 arg9 harg9 arg10 harg10) K := by
  simp only [cc5__combine_kernel_eq_skeleton]; unfold cc5__combine_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover5_10 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (grid5.coords t) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = out5_10 (grid5.coords t) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ (grid5.coords t) _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation5 (c : Dev nD) : BodyObligation (dat5 (F := F) V c) (defs₀ (F := F)) Variants.none () Set.univ := fun t => by
  rw [bigSep_W5, bigSep_W5]
  exact sound_body5 V c t

end Cert.KI

end
-- ==== Proof.KI.R06.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S256x500 := Rect.unit (s := S256x500) ![0, 0] S256x500.size inb_S256x500_S256x500_0_0
abbrev r6_1 : Rect S500x2000 := Rect.unit (s := S500x2000) ![0, 0] S500x2000.size inb_S500x2000_S500x2000_0_0
abbrev r6_2 : Rect S1x2000 := Rect.unit (s := S1x2000) ![0, 0] S1x2000.size inb_S1x2000_S1x2000_0_0
abbrev r6_3 : Rect S256x2000 := Rect.unit (s := S256x2000) ![0, 0] S256x2000.size inb_S256x2000_S256x2000_0_0

def out6_3 (x0 : Vec F S256x500 .bf16) (x1 : Vec F S500x2000 .bf16) (x2 : Vec F S1x2000 .f32) : Vec F S256x2000 .f32 :=
  View.canon [⟨r6_3, k6_pay1 (View.ld x0 r6_0) (View.ld x1 r6_1) (View.ld x2 r6_2)⟩]

theorem cover6_3 (p0 : Vec F S256x2000 .f32) (y : S256x2000.Idx) :
    ∃ pc ∈ ([⟨r6_3, p0⟩] : List (View.Piece (Elt F) S256x2000 .f32)), y ∈ pc.1.set :=
  View.cover_of_tiled [⟨r6_3, p0⟩] S256x2000.size (by rfl) y

set_option maxHeartbeats 1000000 in
theorem sound_kernel6 (c : Dev nD) (E : Set ℕ) (i : grid6.Coords)
    (arg1 : Memref sig .tc .vmem S256x500 .bf16) (harg1 : arg1.IsWhole) (arg2 : Memref sig .tc .vmem S500x2000 .bf16) (harg2 : arg2.IsWhole)
    (arg3 : Memref sig .tc .vmem S1x2000 .f32) (harg3 : arg3.IsWhole) (arg4 : Memref sig .tc .vmem S256x2000 .f32) (harg4 : arg4.IsWhole)
    (x0 : Vec F S256x500 .bf16) (x1 : Vec F S500x2000 .bf16) (x2 : Vec F S1x2000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KI
-- ==== Proof.KI.R07.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S64x2000 := Rect.unit (s := S64x2000) ![0, 0] S64x2000.size inb_S64x2000_S64x2000_0_0
abbrev r7_1 : Rect S3072x2000 := Rect.unit (s := S3072x2000) ![0, 0] S3072x2000.size inb_S3072x2000_S3072x2000_0_0
abbrev r7_2 : Rect S64x1 := Rect.unit (s := S64x1) ![0, 0] S64x1.size inb_S64x1_S64x1_0_0
abbrev r7_3 : Rect S1x3072 := Rect.unit (s := S1x3072) ![0, 0] S1x3072.size inb_S1x3072_S1x3072_0_0
abbrev r7_4 : Rect S64x1 := Rect.unit (s := S64x1) ![0, 0] S64x1.size inb_S64x1_S64x1_0_0

def out7_4 (i : grid7.Coords) (x0 : Vec F S64x2000 .bf16) (x1 : Vec F S3072x2000 .bf16) (x2 : Vec F S64x1 .f32) (x3 : Vec F S1x3072 .f32) : Vec F S64x1 .f32 :=
  View.canon [⟨r7_4, k7_pay1 i (View.ld x0 r7_0) (View.ld x1 r7_1) (View.ld x2 r7_2) (View.ld x3 r7_3)⟩]

theorem cover7_4 (p0 : Vec F S64x1 .f32) (y : S64x1.Idx) :
    ∃ pc ∈ ([⟨r7_4, p0⟩] : List (View.Piece (Elt F) S64x1 .f32)), y ∈ pc.1.set :=
  View.cover_of_tiled [⟨r7_4, p0⟩] S64x1.size (by rfl) y

set_option maxHeartbeats 1000000 in
theorem sound_kernel7 (c : Dev nD) (E : Set ℕ) (i : grid7.Coords)
    (arg1 : Memref sig .tc .vmem S64x2000 .bf16) (harg1 : arg1.IsWhole) (arg2 : Memref sig .tc .vmem S3072x2000 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x2000 .bf16) (x1 : Vec F S3072x2000 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 i x0 x1 x2 x3)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (cfg7.grid.coords t) (iblk7 V c 0 t) (iblk7 V c 1 t) (iblk7 V c 2 t) (iblk7 V c 3 t)
  Φ _ := Pipeline.ΦA spec7 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (cfg7.grid.coords t) (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KI
-- ==== Proof.KI.R08.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

abbrev r8_S64x2000 : Rect S64x2000 := Rect.unit (s := S64x2000) ![0, 0] S64x2000.size inb_S64x2000_S64x2000_0_0
abbrev r8_S3072x2000 : Rect S3072x2000 := Rect.unit (s := S3072x2000) ![0, 0] S3072x2000.size inb_S3072x2000_S3072x2000_0_0
abbrev r8_S64x1 : Rect S64x1 := Rect.unit (s := S64x1) ![0, 0] S64x1.size inb_S64x1_S64x1_0_0
abbrev r8_S1x3072 : Rect S1x3072 := Rect.unit (s := S1x3072) ![0, 0] S1x3072.size inb_S1x3072_S1x3072_0_0
abbrev r8_S64x3072 : Rect S64x3072 := Rect.unit (s := S64x3072) ![0, 0] S64x3072.size inb_S64x3072_S64x3072_0_0

def out8_10 (i : grid8.Coords) (x0 : Vec F S64x2000 .bf16) (x1 : Vec F S3072x2000 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r8_S64x3072, k8_pay1
    (k8_pay2 (View.ld x0 r8_S64x2000) (View.ld x1 r8_S3072x2000))
    (k8_pay4 (View.ld x0 r8_S64x2000) (View.ld x1 r8_S3072x2000) (View.ld x2 r8_S64x1) (View.ld x3 r8_S1x3072))
    (k8_pay5 (View.ld x0 r8_S64x2000) (View.ld x1 r8_S3072x2000))
    (k8_pay6 i (View.ld x0 r8_S64x2000) (View.ld x1 r8_S3072x2000) (View.ld x2 r8_S64x1) (View.ld x3 r8_S1x3072) (View.ld x4 r8_S64x1))
    (View.ld x5 r8_S1x3072) (View.ld x6 r8_S64x3072) (View.ld x7 r8_S64x3072) (View.ld x8 r8_S64x3072) (View.ld x9 r8_S64x3072)⟩]

theorem cover8_10 (p0 : Vec F S64x3072 .f32) (y : S64x3072.Idx) :
    ∃ pc ∈ ([⟨r8_S64x3072, p0⟩] : List (View.Piece (Elt F) S64x3072 .f32)), y ∈ pc.1.set :=
  View.cover_of_tiled [⟨r8_S64x3072, p0⟩] S64x3072.size (by rfl) y

set_option maxHeartbeats 4000000 in
theorem sound_kernel8 (c : Dev nD) (E : Set ℕ) (i : grid8.Coords) (arg0 : Memref sig .tc .vmem S64x2000 .bf16) (harg0 : arg0.IsWhole) (arg1 : Memref sig .tc .vmem S3072x2000 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x2000 .bf16) (x1 : Vec F S3072x2000 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out8_10 i x0 x1 x2 x3 x4 x5 x6 x7 x8 x9)) -∗ K ⟨⟩))
      ⊢ wp frame (wpE (defs₀ (F := F)) Variants.none c none) E (cc8__combine_kernel i arg0 harg0 arg1 harg1 arg2 harg2 arg3 harg3 arg4 harg4 arg5 harg5 arg6 harg6 arg7 harg7 arg8 harg8 arg9 harg9 arg10 harg10) K := by
  simp only [cc8__combine_kernel_eq_skeleton]; unfold cc8__combine_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover8_10 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => out8_10 (grid8.coords t) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t)
  Φ _ := Pipeline.ΦA spec8 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = out8_10 (grid8.coords t) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t))

set_option maxHeartbeats 1000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel8 c Set.univ (grid8.coords t) _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation8 (c : Dev nD) : BodyObligation (dat8 (F := F) V c) (defs₀ (F := F)) Variants.none () Set.univ := fun t => by
  rw [bigSep_W8, bigSep_W8]
  exact sound_body8 V c t

end Cert.KI

end
-- ==== Proof.KI.R09.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S256x2000 := Rect.unit (s := S256x2000) ![0, 0] S256x2000.size inb_S256x2000_S256x2000_0_0
abbrev r9_1 : Rect S2000x10 := Rect.unit (s := S2000x10) ![0, 0] S2000x10.size inb_S2000x10_S2000x10_0_0
abbrev r9_2 : Rect S1x10 := Rect.unit (s := S1x10) ![0, 0] S1x10.size inb_S1x10_S1x10_0_0
abbrev r9_3 : Rect S256x10 := Rect.unit (s := S256x10) ![0, 0] S256x10.size inb_S256x10_S256x10_0_0

def out9_3 (x0 : Vec F S256x2000 .bf16) (x1 : Vec F S2000x10 .bf16) (x2 : Vec F S1x10 .f32) : Vec F S256x10 .f32 :=
  View.canon [⟨r9_3, k9_pay1 (View.ld x0 r9_0) (View.ld x1 r9_1) (View.ld x2 r9_2)⟩]

theorem cover9_3 (p0 : Vec F S256x10 .f32) (y : S256x10.Idx) :
    ∃ pc ∈ ([⟨r9_3, p0⟩] : List (View.Piece (Elt F) S256x10 .f32)), y ∈ pc.1.set :=
  View.cover_of_tiled [⟨r9_3, p0⟩] S256x10.size (by rfl) y

set_option maxHeartbeats 1000000 in
theorem sound_kernel9 (c : Dev nD) (E : Set ℕ) (i : grid9.Coords)
    (arg1 : Memref sig .tc .vmem S256x2000 .bf16) (harg1 : arg1.IsWhole) (arg2 : Memref sig .tc .vmem S2000x10 .bf16) (harg2 : arg2.IsWhole)
    (arg3 : Memref sig .tc .vmem S1x10 .f32) (harg3 : arg3.IsWhole) (arg4 : Memref sig .tc .vmem S256x10 .f32) (harg4 : arg4.IsWhole)
    (x0 : Vec F S256x2000 .bf16) (x1 : Vec F S2000x10 .bf16) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__matmul_bias_kernel i arg1 harg1 arg2 harg2 arg3 harg3 arg4 harg4) K := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

end Cert.KI
-- ==== Proof.KI.R10.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S64x10 := Rect.unit (s := S64x10) ![0, 0] S64x10.size inb_S64x10_S64x10_0_0
abbrev r10_1 : Rect S3072x10 := Rect.unit (s := S3072x10) ![0, 0] S3072x10.size inb_S3072x10_S3072x10_0_0
abbrev r10_2 : Rect S64x1 := Rect.unit (s := S64x1) ![0, 0] S64x1.size inb_S64x1_S64x1_0_0
abbrev r10_3 : Rect S1x3072 := Rect.unit (s := S1x3072) ![0, 0] S1x3072.size inb_S1x3072_S1x3072_0_0
abbrev r10_4 : Rect S64x1 := Rect.unit (s := S64x1) ![0, 0] S64x1.size inb_S64x1_S64x1_0_0

def out10_4 (i : grid10.Coords) (x0 : Vec F S64x10 .bf16) (x1 : Vec F S3072x10 .bf16) (x2 : Vec F S64x1 .f32) (x3 : Vec F S1x3072 .f32) : Vec F S64x1 .f32 :=
  View.canon [⟨r10_4, k10_pay1 i (View.ld x0 r10_0) (View.ld x1 r10_1) (View.ld x2 r10_2) (View.ld x3 r10_3)⟩]

theorem cover10_4 (p0 : Vec F S64x1 .f32) (y : S64x1.Idx) :
    ∃ pc ∈ ([⟨r10_4, p0⟩] : List (View.Piece (Elt F) S64x1 .f32)), y ∈ pc.1.set :=
  View.cover_of_tiled [⟨r10_4, p0⟩] S64x1.size (by rfl) y

set_option maxHeartbeats 1000000 in
theorem sound_kernel10 (c : Dev nD) (E : Set ℕ) (i : grid10.Coords)
    (arg1 : Memref sig .tc .vmem S64x10 .bf16) (harg1 : arg1.IsWhole) (arg2 : Memref sig .tc .vmem S3072x10 .bf16) (harg2 : arg2.IsWhole)
    (arg3 : Memref sig .tc .vmem S64x1 .f32) (harg3 : arg3.IsWhole) (arg4 : Memref sig .tc .vmem S1x3072 .f32) (harg4 : arg4.IsWhole)
    (arg5 : Memref sig .tc .vmem S64x1 .f32) (harg5 : arg5.IsWhole)
    (x0 : Vec F S64x10 .bf16) (x1 : Vec F S3072x10 .bf16) (x2 : Vec F S64x1 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out10_4 i x0 x1 x2 x3)) -∗ K ⟨⟩))
      ⊢ wp frame (wpE (defs₀ (F := F)) Variants.none c none) E (cc10__stats_kernel i arg1 harg1 arg2 harg2 arg3 harg3 arg4 harg4 arg5 harg5) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (cfg10.grid.coords t) (iblk10 V c 0 t) (iblk10 V c 1 t) (iblk10 V c 2 t) (iblk10 V c 3 t)
  Φ _ := Pipeline.ΦA spec10 c
  q w := match w with
    | ⟨0, _⟩ => Cert.Shares.shL
    | ⟨1, _⟩ => Cert.Shares.shR
    | ⟨2, _⟩ => fullShare
    | ⟨3, _⟩ => fullShare
    | ⟨4, _⟩ => fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (cfg10.grid.coords t) (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ (grid10.coords t) _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation10 (c : Dev nD) : BodyObligation (dat10 (F := F) V c) (defs₀ (F := F)) Variants.none () Set.univ := fun t => by
  rw [bigSep_W10, bigSep_W10]
  exact sound_body10 V c t

end Cert.KI
-- ==== Proof.KI.R11.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

theorem before11_9_of {c : Dev nD} (dat : Dat τ (Elt F) Unit ℕ (UR sig nD τ) ℕ cfg11 c) (hA : dat.A 9 = V c (Pipeline.arrRef spec11 9))
    (hafter : ∀ t, dat.after 9 t = iblk11 V c 9 t) (t : Fin cfg11.N) (d) : dat.before 9 t d = iblk11 V c 9 t :=
  (dat.before_in_eq_fetched 9 rfl (fun _ => rfl) (fun _ _ _ => rfl) (fun t => by rw [hafter]; unfold Dat.blockOf iblk11; rw [hA]; try rfl) t d).trans
    (by unfold Dat.fetched Dat.blockOf iblk11; rw [hA]; try rfl)

abbrev r11_S64x10 : Rect S64x10 := Rect.unit (s := S64x10) ![0, 0] S64x10.size inb_S64x10_S64x10_0_0
abbrev r11_S3072x10 : Rect S3072x10 := Rect.unit (s := S3072x10) ![0, 0] S3072x10.size inb_S3072x10_S3072x10_0_0
abbrev r11_S64x1 : Rect S64x1 := Rect.unit (s := S64x1) ![0, 0] S64x1.size inb_S64x1_S64x1_0_0
abbrev r11_S1x3072 : Rect S1x3072 := Rect.unit (s := S1x3072) ![0, 0] S1x3072.size inb_S1x3072_S1x3072_0_0
abbrev r11_S64x3072 : Rect S64x3072 := Rect.unit (s := S64x3072) ![0, 0] S64x3072.size inb_S64x3072_S64x3072_0_0

def out11_10 (i : grid11.Coords) (x0 : Vec F S64x10 .bf16) (x1 : Vec F S3072x10 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) : Vec F S64x3072 .f32 :=
  View.canon [⟨r11_S64x3072, k11_pay1
    (k11_pay2 (View.ld x0 r11_S64x10) (View.ld x1 r11_S3072x10))
    (k11_pay4 (View.ld x0 r11_S64x10) (View.ld x1 r11_S3072x10) (View.ld x2 r11_S64x1) (View.ld x3 r11_S1x3072))
    (k11_pay5 (View.ld x0 r11_S64x10) (View.ld x1 r11_S3072x10))
    (k11_pay6 i (View.ld x0 r11_S64x10) (View.ld x1 r11_S3072x10) (View.ld x2 r11_S64x1) (View.ld x3 r11_S1x3072) (View.ld x4 r11_S64x1))
    (View.ld x5 r11_S1x3072) (View.ld x6 r11_S64x3072) (View.ld x7 r11_S64x3072) (View.ld x8 r11_S64x3072) (View.ld x9 r11_S64x3072)⟩]

theorem cover11_10 (p0 : Vec F S64x3072 .f32) (y : S64x3072.Idx) :
    ∃ pc ∈ ([⟨r11_S64x3072, p0⟩] : List (View.Piece (Elt F) S64x3072 .f32)), y ∈ pc.1.set :=
  View.cover_of_tiled [⟨r11_S64x3072, p0⟩] S64x3072.size (by rfl) y

set_option maxHeartbeats 4000000 in
theorem sound_kernel11 (c : Dev nD) (E : Set ℕ) (i : grid11.Coords) (arg0 : Memref sig .tc .vmem S64x10 .bf16) (harg0 : arg0.IsWhole) (arg1 : Memref sig .tc .vmem S3072x10 .bf16) (harg1 : arg1.IsWhole) (arg2 : Memref sig .tc .vmem S64x1 .f32) (harg2 : arg2.IsWhole) (arg3 : Memref sig .tc .vmem S1x3072 .f32) (harg3 : arg3.IsWhole) (arg4 : Memref sig .tc .vmem S64x1 .f32) (harg4 : arg4.IsWhole) (arg5 : Memref sig .tc .vmem S1x3072 .f32) (harg5 : arg5.IsWhole) (arg6 : Memref sig .tc .vmem S64x3072 .f32) (harg6 : arg6.IsWhole) (arg7 : Memref sig .tc .vmem S64x3072 .f32) (harg7 : arg7.IsWhole) (arg8 : Memref sig .tc .vmem S64x3072 .f32) (harg8 : arg8.IsWhole) (arg9 : Memref sig .tc .vmem S64x3072 .f32) (harg9 : arg9.IsWhole) (arg10 : Memref sig .tc .vmem S64x3072 .f32) (harg10 : arg10.IsWhole)
    (x0 : Vec F S64x10 .bf16) (x1 : Vec F S3072x10 .bf16) (x2 : Vec F S64x1 .f32) (x3 : Vec F S1x3072 .f32) (x4 : Vec F S64x1 .f32) (x5 : Vec F S1x3072 .f32) (x6 : Vec F S64x3072 .f32) (x7 : Vec F S64x3072 .f32) (x8 : Vec F S64x3072 .f32) (x9 : Vec F S64x3072 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out11_10 i x0 x1 x2 x3 x4 x5 x6 x7 x8 x9)) -∗ K ⟨⟩))
      ⊢ wp frame (wpE (defs₀ (F := F)) Variants.none c none) E (cc11__combine_kernel i arg0 harg0 arg1 harg1 arg2 harg2 arg3 harg3 arg4 harg4 arg5 harg5 arg6 harg6 arg7 harg7 arg8 harg8 arg9 harg9 arg10 harg10) K := by
  simp only [cc11__combine_kernel_eq_skeleton]; unfold cc11__combine_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover11_10 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => iblk11 V c 9 t
    | ⟨10, _⟩ => out11_10 (grid11.coords t) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t)
  Φ _ := Pipeline.ΦA spec11 c
  q w := match w with
    | ⟨0, _⟩ => Cert.Shares.shL
    | ⟨1, _⟩ => Cert.Shares.shR
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = iblk11 V c 9 t := by dsimp only [dat11]
theorem after11_10 (c : Dev nD) (t : Fin cfg11.N) : (dat11 V c).after 10 t = out11_10 (grid11.coords t) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d
theorem before11_9 (c : Dev nD) (t : Fin cfg11.N) (d) : (dat11 V c).before 9 t d = iblk11 V c 9 t :=
  before11_9_of V (dat11 V c) (A_eq11 V c 9) (after11_9 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d))
    ∗ (∃ d, owns (c : Thread nD τ) (st11_10 t) fullShare ((dat11 V c).before 10 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t)
    ∗ owns (c : Thread nD τ) (st11_9 t) fullShare ((dat11 V c).after 9 t)
    ∗ owns (c : Thread nD τ) (st11_10 t) fullShare ((dat11 V c).after 10 t))

set_option maxHeartbeats 1000000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8, before11_9]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9, after11_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel11 c Set.univ (grid11.coords t) _ _ _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation11 (c : Dev nD) : BodyObligation (dat11 (F := F) V c) (defs₀ (F := F)) Variants.none () Set.univ := fun t => by
  rw [bigSep_W11, bigSep_W11]
  exact sound_body11 V c t

end Cert.KI

end
-- ==== Proof.KI.R12.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S128x3072 := Rect.unit (s := S128x3072) ![0, 0] S128x3072.size inb_S128x3072_S128x3072_0_0

def out12_8 (x0 : Vec F S128x3072 .f32) (x1 : Vec F S128x3072 .f32) (x2 : Vec F S128x3072 .f32) (x3 : Vec F S128x3072 .f32) (x4 : Vec F S128x3072 .f32) (x5 : Vec F S128x3072 .f32) (x6 : Vec F S128x3072 .f32) (x7 : Vec F S128x3072 .f32) : Vec F S128x3072 .f32 :=
  View.canon [⟨r12_0, k12_pay1 (View.ld x0 r12_0) (View.ld x4 r12_0) (View.ld x1 r12_0) (View.ld x5 r12_0) (View.ld x2 r12_0) (View.ld x6 r12_0) (View.ld x3 r12_0) (View.ld x7 r12_0)⟩]

theorem cover12_8 (p0 : Vec F S128x3072 .f32) (y : S128x3072.Idx) :
    ∃ pc ∈ ([⟨r12_0, p0⟩] : List (View.Piece (Elt F) S128x3072 .f32)), y ∈ pc.1.set :=
  View.cover_of_tiled [⟨r12_0, p0⟩] S128x3072.size (by rfl) y

set_option maxHeartbeats 1000000 in
theorem sound_kernel12 (c : Dev nD) (E : Set ℕ) (i : grid12.Coords)
    (arg1 : Memref sig .tc .vmem S128x3072 .f32) (harg1 : arg1.IsWhole)
    (arg2 : Memref sig .tc .vmem S128x3072 .f32) (harg2 : arg2.IsWhole)
    (arg3 : Memref sig .tc .vmem S128x3072 .f32) (harg3 : arg3.IsWhole)
    (arg4 : Memref sig .tc .vmem S128x3072 .f32) (harg4 : arg4.IsWhole)
    (arg5 : Memref sig .tc .vmem S128x3072 .f32) (harg5 : arg5.IsWhole)
    (arg6 : Memref sig .tc .vmem S128x3072 .f32) (harg6 : arg6.IsWhole)
    (arg7 : Memref sig .tc .vmem S128x3072 .f32) (harg7 : arg7.IsWhole)
    (arg8 : Memref sig .tc .vmem S128x3072 .f32) (harg8 : arg8.IsWhole)
    (arg9 : Memref sig .tc .vmem S128x3072 .f32) (harg9 : arg9.IsWhole)
    (x0 : Vec F S128x3072 .f32) (x1 : Vec F S128x3072 .f32) (x2 : Vec F S128x3072 .f32) (x3 : Vec F S128x3072 .f32) (x4 : Vec F S128x3072 .f32) (x5 : Vec F S128x3072 .f32) (x6 : Vec F S128x3072 .f32) (x7 : Vec F S128x3072 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out12_8 x0 x1 x2 x3 x4 x5 x6 x7)) -∗ K ⟨⟩))
      ⊢ wp frame (wpE (defs₀ (F := F)) Variants.none c none) E (cc12__final_combine_kernel i arg1 harg1 arg2 harg2 arg3 harg3 arg4 harg4 arg5 harg5 arg6 harg6 arg7 harg7 arg8 harg8 arg9 harg9) K := by
  simp only [cc12__final_combine_kernel_eq_skeleton]; unfold cc12__final_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover12_8 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => out12_8 (iblk12 V c 0 t) (iblk12 V c 1 t) (iblk12 V c 2 t) (iblk12 V c 3 t) (iblk12 V c 4 t) (iblk12 V c 5 t) (iblk12 V c 6 t) (iblk12 V c 7 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) :
    (dat12 V c).after 8 t = out12_8 (iblk12 V c 0 t) (iblk12 V c 1 t) (iblk12 V c 2 t) (iblk12 V c 3 t) (iblk12 V c 4 t) (iblk12 V c 5 t) (iblk12 V c 6 t) (iblk12 V c 7 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel12 c Set.univ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation12 (c : Dev nD) : BodyObligation (dat12 (F := F) V c) (defs₀ (F := F)) Variants.none () Set.univ := fun t => by
  rw [bigSep_W12, bigSep_W12]
  exact sound_body12 V c t

end Cert.KI
-- ==== Proof.KI.R13.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S256x3072 := Rect.unit (s := S256x3072) ![0, 0] S256x3072.size inb_S256x3072_S256x3072_0_0
abbrev r13_1 : Rect S3072x2000 := Rect.unit (s := S3072x2000) ![0, 0] S3072x2000.size inb_S3072x2000_S3072x2000_0_0
abbrev r13_2 : Rect S1x2000 := Rect.unit (s := S1x2000) ![0, 0] S1x2000.size inb_S1x2000_S1x2000_0_0
abbrev r13_3 : Rect S256x2000 := Rect.unit (s := S256x2000) ![0, 0] S256x2000.size inb_S256x2000_S256x2000_0_0

def out13_3 (x0 : Vec F S256x3072 .bf16) (x1 : Vec F S3072x2000 .bf16) (x2 : Vec F S1x2000 .f32) : Vec F S256x2000 .f32 :=
  View.canon [⟨r13_3, k13_pay1 (View.ld x0 r13_0) (View.ld x1 r13_1) (View.ld x2 r13_2)⟩]

theorem cover13_3 (p0 : Vec F S256x2000 .f32) (y : S256x2000.Idx) :
    ∃ pc ∈ ([⟨r13_3, p0⟩] : List (View.Piece (Elt F) S256x2000 .f32)), y ∈ pc.1.set :=
  View.cover_of_tiled [⟨r13_3, p0⟩] S256x2000.size (by rfl) y

set_option maxHeartbeats 1000000 in
theorem sound_kernel13 (c : Dev nD) (E : Set ℕ) (i : grid13.Coords)
    (arg1 : Memref sig .tc .vmem S256x3072 .bf16) (harg1 : arg1.IsWhole) (arg2 : Memref sig .tc .vmem S3072x2000 .bf16) (harg2 : arg2.IsWhole)
    (arg3 : Memref sig .tc .vmem S1x2000 .f32) (harg3 : arg3.IsWhole) (arg4 : Memref sig .tc .vmem S256x2000 .f32) (harg4 : arg4.IsWhole)
    (x0 : Vec F S256x3072 .bf16) (x1 : Vec F S3072x2000 .bf16) (x2 : Vec F S1x2000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__matmul_bias_kernel i arg1 harg1 arg2 harg2 arg3 harg3 arg4 harg4) K := by
  simp only [cc13__matmul_bias_kernel_eq_skeleton]; unfold cc13__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation13 (c : Dev nD) : BodyObligation (dat13 (F := F) V c) (defs₀ (F := F)) Variants.none () Set.univ := fun t => by
  rw [bigSep_W13, bigSep_W13]
  exact sound_body13 V c t

end Cert.KI
-- ==== Proof.KI.R14.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S256x2000 := Rect.unit (s := S256x2000) ![0, 0] S256x2000.size inb_S256x2000_S256x2000_0_0
abbrev r14_1 : Rect S2000x500 := Rect.unit (s := S2000x500) ![0, 0] S2000x500.size inb_S2000x500_S2000x500_0_0
abbrev r14_2 : Rect S1x500 := Rect.unit (s := S1x500) ![0, 0] S1x500.size inb_S1x500_S1x500_0_0
abbrev r14_3 : Rect S256x500 := Rect.unit (s := S256x500) ![0, 0] S256x500.size inb_S256x500_S256x500_0_0

def out14_3 (x0 : Vec F S256x2000 .bf16) (x1 : Vec F S2000x500 .bf16) (x2 : Vec F S1x500 .f32) : Vec F S256x500 .f32 :=
  View.canon [⟨r14_3, k14_pay1 (View.ld x0 r14_0) (View.ld x1 r14_1) (View.ld x2 r14_2)⟩]

theorem cover14_3 (p0 : Vec F S256x500 .f32) (y : S256x500.Idx) :
    ∃ pc ∈ ([⟨r14_3, p0⟩] : List (View.Piece (Elt F) S256x500 .f32)), y ∈ pc.1.set :=
  View.cover_of_tiled [⟨r14_3, p0⟩] S256x500.size (by rfl) y

set_option maxHeartbeats 1000000 in
theorem sound_kernel14 (c : Dev nD) (E : Set ℕ) (i : grid14.Coords)
    (arg1 : Memref sig .tc .vmem S256x2000 .bf16) (harg1 : arg1.IsWhole) (arg2 : Memref sig .tc .vmem S2000x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x2000 .bf16) (x1 : Vec F S2000x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out14_3 x0 x1 x2)) -∗ K ⟨⟩))
      ⊢ wp frame (wpE (defs₀ (F := F)) Variants.none c none) E (cc14__matmul_bias_kernel i arg1 harg1 arg2 harg2 arg3 harg3 arg4 harg4) K := by
  simp only [cc14__matmul_bias_kernel_eq_skeleton]; unfold cc14__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation14 (c : Dev nD) : BodyObligation (dat14 (F := F) V c) (defs₀ (F := F)) Variants.none () Set.univ := fun t => by
  rw [bigSep_W14, bigSep_W14]
  exact sound_body14 V c t

end Cert.KI
-- ==== Proof.KI.R15.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

abbrev r15_0 : Rect S256x500 := Rect.unit (s := S256x500) ![0, 0] S256x500.size inb_S256x500_S256x500_0_0
abbrev r15_1 : Rect S500x500 := Rect.unit (s := S500x500) ![0, 0] S500x500.size inb_S500x500_S500x500_0_0
abbrev r15_2 : Rect S1x500 := Rect.unit (s := S1x500) ![0, 0] S1x500.size inb_S1x500_S1x500_0_0
abbrev r15_3 : Rect S256x500 := Rect.unit (s := S256x500) ![0, 0] S256x500.size inb_S256x500_S256x500_0_0

def out15_3 (x0 : Vec F S256x500 .bf16) (x1 : Vec F S500x500 .bf16) (x2 : Vec F S1x500 .f32) : Vec F S256x500 .f32 :=
  View.canon [⟨r15_3, k15_pay1 (View.ld x0 r15_0) (View.ld x1 r15_1) (View.ld x2 r15_2)⟩]

theorem cover15_3 (p0 : Vec F S256x500 .f32) (y : S256x500.Idx) :
    ∃ pc ∈ ([⟨r15_3, p0⟩] : List (View.Piece (Elt F) S256x500 .f32)), y ∈ pc.1.set :=
  View.cover_of_tiled [⟨r15_3, p0⟩] S256x500.size (by rfl) y

set_option maxHeartbeats 1000000 in
theorem sound_kernel15 (c : Dev nD) (E : Set ℕ) (i : grid15.Coords)
    (arg1 : Memref sig .tc .vmem S256x500 .bf16) (harg1 : arg1.IsWhole) (arg2 : Memref sig .tc .vmem S500x500 .bf16) (harg2 : arg2.IsWhole)
    (arg3 : Memref sig .tc .vmem S1x500 .f32) (harg3 : arg3.IsWhole) (arg4 : Memref sig .tc .vmem S256x500 .f32) (harg4 : arg4.IsWhole)
    (x0 : Vec F S256x500 .bf16) (x1 : Vec F S500x500 .bf16) (x2 : Vec F S1x500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out15_3 x0 x1 x2)) -∗ K ⟨⟩))
      ⊢ wp frame (wpE (defs₀ (F := F)) Variants.none c none) E (cc15__matmul_bias_kernel i arg1 harg1 arg2 harg2 arg3 harg3 arg4 harg4) K := by
  simp only [cc15__matmul_bias_kernel_eq_skeleton]; unfold cc15__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation15 (c : Dev nD) : BodyObligation (dat15 (F := F) V c) (defs₀ (F := F)) Variants.none () Set.univ := fun t => by
  rw [bigSep_W15, bigSep_W15]
  exact sound_body15 V c t

end Cert.KI
-- ==== Proof.KI.R16.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S256x500 := Rect.unit (s := S256x500) ![0, 0] S256x500.size inb_S256x500_S256x500_0_0
abbrev r16_1 : Rect S500x784 := Rect.unit (s := S500x784) ![0, 0] S500x784.size inb_S500x784_S500x784_0_0
abbrev r16_2 : Rect S1x784 := Rect.unit (s := S1x784) ![0, 0] S1x784.size inb_S1x784_S1x784_0_0
abbrev r16_3 : Rect S256x784 := Rect.unit (s := S256x784) ![0, 0] S256x784.size inb_S256x784_S256x784_0_0

def out16_3 (x0 : Vec F S256x500 .bf16) (x1 : Vec F S500x784 .bf16) (x2 : Vec F S1x784 .f32) : Vec F S256x784 .f32 :=
  View.canon [⟨r16_3, k16_pay1 (View.ld x0 r16_0) (View.ld x1 r16_1) (View.ld x2 r16_2)⟩]

theorem cover16_3 (p0 : Vec F S256x784 .f32) (y : S256x784.Idx) :
    ∃ pc ∈ ([⟨r16_3, p0⟩] : List (View.Piece (Elt F) S256x784 .f32)), y ∈ pc.1.set :=
  View.cover_of_tiled [⟨r16_3, p0⟩] S256x784.size (by rfl) y

set_option maxHeartbeats 1000000 in
theorem sound_kernel16 (c : Dev nD) (E : Set ℕ) (i : grid16.Coords)
    (arg1 : Memref sig .tc .vmem S256x500 .bf16) (harg1 : arg1.IsWhole) (arg2 : Memref sig .tc .vmem S500x784 .bf16) (harg2 : arg2.IsWhole)
    (arg3 : Memref sig .tc .vmem S1x784 .f32) (harg3 : arg3.IsWhole) (arg4 : Memref sig .tc .vmem S256x784 .f32) (harg4 : arg4.IsWhole)
    (x0 : Vec F S256x500 .bf16) (x1 : Vec F S500x784 .bf16) (x2 : Vec F S1x784 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out16_3 x0 x1 x2)) -∗ K ⟨⟩))
      ⊢ wp frame (wpE (defs₀ (F := F)) Variants.none c none) E (cc16__matmul_bias_kernel i arg1 harg1 arg2 harg2 arg3 harg3 arg4 harg4) K := by
  simp only [cc16__matmul_bias_kernel_eq_skeleton]; unfold cc16__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16_3 (iblk16 V c 0 t) (iblk16 V c 1 t) (iblk16 V c 2 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation16 (c : Dev nD) : BodyObligation (dat16 (F := F) V c) (defs₀ (F := F)) Variants.none () Set.univ := fun t => by
  rw [bigSep_W16, bigSep_W16]
  exact sound_body16 V c t

end Cert.KI
-- ==== Proof.KI.R17.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

abbrev r17_0 : Rect S64x3072 := Rect.unit (s := S64x3072) ![0, 0] S64x3072.size inb_S64x3072_S64x3072_0_0
abbrev r17_1 : Rect S10x3072 := Rect.unit (s := S10x3072) ![0, 0] S10x3072.size inb_S10x3072_S10x3072_0_0
abbrev r17_2 : Rect S64x10x3072 := Rect.unit (s := S64x10x3072) ![0, 0, 0] S64x10x3072.size inb_S64x10x3072_S64x10x3072_0_0_0

def out17_2 (x0 : Vec F S64x3072 .f32) (x1 : Vec F S10x3072 .f32) : Vec F S64x10x3072 .f32 :=
  View.canon [⟨r17_2, k17_pay1 (View.ld x0 r17_0) (View.ld x1 r17_1)⟩]

theorem cover17_2 (p0 : Vec F S64x10x3072 .f32) (y : S64x10x3072.Idx) :
    ∃ pc ∈ ([⟨r17_2, p0⟩] : List (View.Piece (Elt F) S64x10x3072 .f32)), y ∈ pc.1.set :=
  View.cover_of_tiled [⟨r17_2, p0⟩] S64x10x3072.size (by rfl) y

set_option maxHeartbeats 1000000 in
theorem sound_kernel17 (c : Dev nD) (E : Set ℕ) (i : grid17.Coords)
    (arg1 : Memref sig .tc .vmem S64x3072 .f32) (harg1 : arg1.IsWhole)
    (arg2 : Memref sig .tc .vmem S10x3072 .f32) (harg2 : arg2.IsWhole)
    (arg3 : Memref sig .tc .vmem S64x10x3072 .f32) (harg3 : arg3.IsWhole)
    (x0 : Vec F S64x3072 .f32) (x1 : Vec F S10x3072 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out17_2 x0 x1)) -∗ K ⟨⟩))
      ⊢ wp frame (wpE (defs₀ (F := F)) Variants.none c none) E (cc17__q_kernel i arg1 harg1 arg2 harg2 arg3 harg3) K := by
  simp only [cc17__q_kernel_eq_skeleton]; unfold cc17__q_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) :
    (dat17 V c).after 2 t = out17_2 (iblk17 V c 0 t) (iblk17 V c 1 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation17 (c : Dev nD) : BodyObligation (dat17 (F := F) V c) (defs₀ (F := F)) Variants.none () Set.univ := fun t => by
  rw [bigSep_W17, bigSep_W17]
  exact sound_body17 V c t

end Cert.KI
-- ==== Proof.KI.Fold.lean ====
import proofs.«146000_j29076928594330_2_alg».proof.Proof.Gen.KernelIdeal.Launch
import proofs.«146000_j29076928594330_2_alg».proof.Proof.Gen.KernelIdeal.Skeleton
import proofs.«146000_j29076928594330_2_alg».proof.Proof.Gen.KernelIdeal.Points
import proofs.«146000_j29076928594330_2_alg».proof.Proof.KI.HostFacts
import proofs.«146000_j29076928594330_2_alg».proof.Proof.KI.R00
import proofs.«146000_j29076928594330_2_alg».proof.Proof.KI.R01
import proofs.«146000_j29076928594330_2_alg».proof.Proof.KI.R02
import proofs.«146000_j29076928594330_2_alg».proof.Proof.KI.R03
import proofs.«146000_j29076928594330_2_alg».proof.Proof.KI.R04
import proofs.«146000_j29076928594330_2_alg».proof.Proof.KI.R05
import proofs.«146000_j29076928594330_2_alg».proof.Proof.KI.R06
import proofs.«146000_j29076928594330_2_alg».proof.Proof.KI.R07
import proofs.«146000_j29076928594330_2_alg».proof.Proof.KI.R08
import proofs.«146000_j29076928594330_2_alg».proof.Proof.KI.R09
import proofs.«146000_j29076928594330_2_alg».proof.Proof.KI.R10
import proofs.«146000_j29076928594330_2_alg».proof.Proof.KI.R11
import proofs.«146000_j29076928594330_2_alg».proof.Proof.KI.R12
import proofs.«146000_j29076928594330_2_alg».proof.Proof.KI.R13
import proofs.«146000_j29076928594330_2_alg».proof.Proof.KI.R14
import proofs.«146000_j29076928594330_2_alg».proof.Proof.KI.R15
import proofs.«146000_j29076928594330_2_alg».proof.Proof.KI.R16
import proofs.«146000_j29076928594330_2_alg».proof.Proof.KI.R17
import proofs.«146000_j29076928594330_2_alg».proof.Proof.ExitValuation
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (r : Ref sig .tc)

abbrev W0 (m : (ℓ : Loc nD τ sig) → Buf (Elt F) ℓ) (ρ : Dev nD → PrngReg) : Dev nD → Valuation τ sig (Elt F) := fun c b => m (c, b)
abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (h : r ∉ GenP.hostOps0_W) : W1 m ρ c (Proc.devRef .tc r) = W0 m ρ c (Proc.devRef .tc r) :=
  StableHlo.after_of_writes_sub hostOps0 _ GenP.hostOps0_writes h

def W2 : Valuation τ sig (Elt F) :=
  Function.update (W1 m ρ c) (Proc.devRef .tc main_v3) ((dat0 (V1 m ρ) c).arrAt 3 cfg0.N)
abbrev V2 : (c : Dev nD) → (b : Ref sig .tc) → Buf (Elt F) ((c : Thread nD τ).loc b) := fun c b => W2 m ρ c b
theorem V2_out : V2 m ρ c main_v3 = (dat0 (V1 m ρ) c).arrAt 3 cfg0.N := Function.update_self ..
theorem W2_of (h : r ≠ main_v3) : W2 m ρ c (Proc.devRef .tc r) = W1 m ρ c (Proc.devRef .tc r) :=
  update_devRef_of_ne _ h _
theorem hF0 (w : Fin cfg0.W) : (dat0 (V1 m ρ) c).arrAt w cfg0.N = V2 m ρ c (Pipeline.arrRef spec0 w) :=
  arrAt_eq_update _ _ 3 (A_eq0 _ c) (by decide) w
theorem hrest0 : ∀ b, b ∉ Finset.univ.image (Pipeline.arrRef spec0) → V2 m ρ c b = V1 m ρ c b :=
  fun _ => update_arrRef_of_not_mem _ spec0 3 _

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (h : r ∉ GenP.hostOps1_W) : W3 m ρ c (Proc.devRef .tc r) = W2 m ρ c (Proc.devRef .tc r) :=
  StableHlo.after_of_writes_sub hostOps1 _ GenP.hostOps1_writes h

def W4 : Valuation τ sig (Elt F) :=
  Function.update (W3 m ρ c) (Proc.devRef .tc main_v10) ((dat1 (V3 m ρ) c).arrAt 4 cfg1.N)
abbrev V4 : (c : Dev nD) → (b : Ref sig .tc) → Buf (Elt F) ((c : Thread nD τ).loc b) := fun c b => W4 m ρ c b
theorem V4_out : V4 m ρ c main_v10 = (dat1 (V3 m ρ) c).arrAt 4 cfg1.N := Function.update_self ..
theorem W4_of (h : r ≠ main_v10) : W4 m ρ c (Proc.devRef .tc r) = W3 m ρ c (Proc.devRef .tc r) :=
  update_devRef_of_ne _ h _
theorem hF1 (w : Fin cfg1.W) : (dat1 (V3 m ρ) c).arrAt w cfg1.N = V4 m ρ c (Pipeline.arrRef spec1 w) :=
  arrAt_eq_update _ _ 4 (A_eq1 _ c) (by decide) w
theorem hrest1 : ∀ b, b ∉ Finset.univ.image (Pipeline.arrRef spec1) → V4 m ρ c b = V3 m ρ c b :=
  fun _ => update_arrRef_of_not_mem _ spec1 4 _

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (h : r ∉ GenP.hostOps2_W) : W5 m ρ c (Proc.devRef .tc r) = W4 m ρ c (Proc.devRef .tc r) :=
  StableHlo.after_of_writes_sub hostOps2 _ GenP.hostOps2_writes h

def W6 : Valuation τ sig (Elt F) :=
  Function.update (W5 m ρ c) (Proc.devRef .tc main_v12) ((dat2 (V5 m ρ) c).arrAt 10 cfg2.N)
abbrev V6 : (c : Dev nD) → (b : Ref sig .tc) → Buf (Elt F) ((c : Thread nD τ).loc b) := fun c b => W6 m ρ c b
theorem V6_out : V6 m ρ c main_v12 = (dat2 (V5 m ρ) c).arrAt 10 cfg2.N := Function.update_self ..
theorem W6_of (h : r ≠ main_v12) : W6 m ρ c (Proc.devRef .tc r) = W5 m ρ c (Proc.devRef .tc r) :=
  update_devRef_of_ne _ h _
theorem hF2 (w : Fin cfg2.W) : (dat2 (V5 m ρ) c).arrAt w cfg2.N = V6 m ρ c (Pipeline.arrRef spec2 w) :=
  arrAt_eq_update _ _ 10 (A_eq2 _ c) (by decide) w
theorem hrest2 : ∀ b, b ∉ Finset.univ.image (Pipeline.arrRef spec2) → V6 m ρ c b = V5 m ρ c b :=
  fun _ => update_arrRef_of_not_mem _ spec2 10 _

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (h : r ∉ GenP.hostOps3_W) : W7 m ρ c (Proc.devRef .tc r) = W6 m ρ c (Proc.devRef .tc r) :=
  StableHlo.after_of_writes_sub hostOps3 _ GenP.hostOps3_writes h

def W8 : Valuation τ sig (Elt F) :=
  Function.update (W7 m ρ c) (Proc.devRef .tc main_v16) ((dat3 (V7 m ρ) c).arrAt 3 cfg3.N)
abbrev V8 : (c : Dev nD) → (b : Ref sig .tc) → Buf (Elt F) ((c : Thread nD τ).loc b) := fun c b => W8 m ρ c b
theorem V8_out : V8 m ρ c main_v16 = (dat3 (V7 m ρ) c).arrAt 3 cfg3.N := Function.update_self ..
theorem W8_of (h : r ≠ main_v16) : W8 m ρ c (Proc.devRef .tc r) = W7 m ρ c (Proc.devRef .tc r) :=
  update_devRef_of_ne _ h _
theorem hF3 (w : Fin cfg3.W) : (dat3 (V7 m ρ) c).arrAt w cfg3.N = V8 m ρ c (Pipeline.arrRef spec3 w) :=
  arrAt_eq_update _ _ 3 (A_eq3 _ c) (by decide) w
theorem hrest3 : ∀ b, b ∉ Finset.univ.image (Pipeline.arrRef spec3) → V8 m ρ c b = V7 m ρ c b :=
  fun _ => update_arrRef_of_not_mem _ spec3 3 _

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_of (h : r ∉ GenP.hostOps4_W) : W9 m ρ c (Proc.devRef .tc r) = W8 m ρ c (Proc.devRef .tc r) :=
  StableHlo.after_of_writes_sub hostOps4 _ GenP.hostOps4_writes h

def W10 : Valuation τ sig (Elt F) :=
  Function.update (W9 m ρ c) (Proc.devRef .tc main_v23) ((dat4 (V9 m ρ) c).arrAt 4 cfg4.N)
abbrev V10 : (c : Dev nD) → (b : Ref sig .tc) → Buf (Elt F) ((c : Thread nD τ).loc b) := fun c b => W10 m ρ c b
theorem V10_out : V10 m ρ c main_v23 = (dat4 (V9 m ρ) c).arrAt 4 cfg4.N := Function.update_self ..
theorem W10_of (h : r ≠ main_v23) : W10 m ρ c (Proc.devRef .tc r) = W9 m ρ c (Proc.devRef .tc r) :=
  update_devRef_of_ne _ h _
theorem hF4 (w : Fin cfg4.W) : (dat4 (V9 m ρ) c).arrAt w cfg4.N = V10 m ρ c (Pipeline.arrRef spec4 w) :=
  arrAt_eq_update _ _ 4 (A_eq4 _ c) (by decide) w
theorem hrest4 : ∀ b, b ∉ Finset.univ.image (Pipeline.arrRef spec4) → V10 m ρ c b = V9 m ρ c b :=
  fun _ => update_arrRef_of_not_mem _ spec4 4 _

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_of (h : r ∉ GenP.hostOps5_W) : W11 m ρ c (Proc.devRef .tc r) = W10 m ρ c (Proc.devRef .tc r) :=
  StableHlo.after_of_writes_sub hostOps5 _ GenP.hostOps5_writes h

def W12 : Valuation τ sig (Elt F) :=
  Function.update (W11 m ρ c) (Proc.devRef .tc main_v25) ((dat5 (V11 m ρ) c).arrAt 10 cfg5.N)
abbrev V12 : (c : Dev nD) → (b : Ref sig .tc) → Buf (Elt F) ((c : Thread nD τ).loc b) := fun c b => W12 m ρ c b
theorem V12_out : V12 m ρ c main_v25 = (dat5 (V11 m ρ) c).arrAt 10 cfg5.N := Function.update_self ..
theorem W12_of (h : r ≠ main_v25) : W12 m ρ c (Proc.devRef .tc r) = W11 m ρ c (Proc.devRef .tc r) :=
  update_devRef_of_ne _ h _
theorem hF5 (w : Fin cfg5.W) : (dat5 (V11 m ρ) c).arrAt w cfg5.N = V12 m ρ c (Pipeline.arrRef spec5 w) :=
  arrAt_eq_update _ _ 10 (A_eq5 _ c) (by decide) w
theorem hrest5 : ∀ b, b ∉ Finset.univ.image (Pipeline.arrRef spec5) → V12 m ρ c b = V11 m ρ c b :=
  fun _ => update_arrRef_of_not_mem _ spec5 10 _

abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
theorem W13_of (h : r ∉ GenP.hostOps6_W) : W13 m ρ c (Proc.devRef .tc r) = W12 m ρ c (Proc.devRef .tc r) :=
  StableHlo.after_of_writes_sub hostOps6 _ GenP.hostOps6_writes h

def W14 : Valuation τ sig (Elt F) :=
  Function.update (W13 m ρ c) (Proc.devRef .tc main_v29) ((dat6 (V13 m ρ) c).arrAt 3 cfg6.N)
abbrev V14 : (c : Dev nD) → (b : Ref sig .tc) → Buf (Elt F) ((c : Thread nD τ).loc b) := fun c b => W14 m ρ c b
theorem V14_out : V14 m ρ c main_v29 = (dat6 (V13 m ρ) c).arrAt 3 cfg6.N := Function.update_self ..
theorem W14_of (h : r ≠ main_v29) : W14 m ρ c (Proc.devRef .tc r) = W13 m ρ c (Proc.devRef .tc r) :=
  update_devRef_of_ne _ h _
theorem hF6 (w : Fin cfg6.W) : (dat6 (V13 m ρ) c).arrAt w cfg6.N = V14 m ρ c (Pipeline.arrRef spec6 w) :=
  arrAt_eq_update _ _ 3 (A_eq6 _ c) (by decide) w
theorem hrest6 : ∀ b, b ∉ Finset.univ.image (Pipeline.arrRef spec6) → V14 m ρ c b = V13 m ρ c b :=
  fun _ => update_arrRef_of_not_mem _ spec6 3 _

abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
theorem W15_of (h : r ∉ GenP.hostOps7_W) : W15 m ρ c (Proc.devRef .tc r) = W14 m ρ c (Proc.devRef .tc r) :=
  StableHlo.after_of_writes_sub hostOps7 _ GenP.hostOps7_writes h

def W16 : Valuation τ sig (Elt F) :=
  Function.update (W15 m ρ c) (Proc.devRef .tc main_v36) ((dat7 (V15 m ρ) c).arrAt 4 cfg7.N)
abbrev V16 : (c : Dev nD) → (b : Ref sig .tc) → Buf (Elt F) ((c : Thread nD τ).loc b) := fun c b => W16 m ρ c b
theorem V16_out : V16 m ρ c main_v36 = (dat7 (V15 m ρ) c).arrAt 4 cfg7.N := Function.update_self ..
theorem W16_of (h : r ≠ main_v36) : W16 m ρ c (Proc.devRef .tc r) = W15 m ρ c (Proc.devRef .tc r) :=
  update_devRef_of_ne _ h _
theorem hF7 (w : Fin cfg7.W) : (dat7 (V15 m ρ) c).arrAt w cfg7.N = V16 m ρ c (Pipeline.arrRef spec7 w) :=
  arrAt_eq_update _ _ 4 (A_eq7 _ c) (by decide) w
theorem hrest7 : ∀ b, b ∉ Finset.univ.image (Pipeline.arrRef spec7) → V16 m ρ c b = V15 m ρ c b :=
  fun _ => update_arrRef_of_not_mem _ spec7 4 _

abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
theorem W17_of (h : r ∉ GenP.hostOps8_W) : W17 m ρ c (Proc.devRef .tc r) = W16 m ρ c (Proc.devRef .tc r) :=
  StableHlo.after_of_writes_sub hostOps8 _ GenP.hostOps8_writes h

def W18 : Valuation τ sig (Elt F) :=
  Function.update (W17 m ρ c) (Proc.devRef .tc main_v38) ((dat8 (V17 m ρ) c).arrAt 10 cfg8.N)
abbrev V18 : (c : Dev nD) → (b : Ref sig .tc) → Buf (Elt F) ((c : Thread nD τ).loc b) := fun c b => W18 m ρ c b
theorem V18_out : V18 m ρ c main_v38 = (dat8 (V17 m ρ) c).arrAt 10 cfg8.N := Function.update_self ..
theorem W18_of (h : r ≠ main_v38) : W18 m ρ c (Proc.devRef .tc r) = W17 m ρ c (Proc.devRef .tc r) :=
  update_devRef_of_ne _ h _
theorem hF8 (w : Fin cfg8.W) : (dat8 (V17 m ρ) c).arrAt w cfg8.N = V18 m ρ c (Pipeline.arrRef spec8 w) :=
  arrAt_eq_update _ _ 10 (A_eq8 _ c) (by decide) w
theorem hrest8 : ∀ b, b ∉ Finset.univ.image (Pipeline.arrRef spec8) → V18 m ρ c b = V17 m ρ c b :=
  fun _ => update_arrRef_of_not_mem _ spec8 10 _

abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
theorem W19_of (h : r ∉ GenP.hostOps9_W) : W19 m ρ c (Proc.devRef .tc r) = W18 m ρ c (Proc.devRef .tc r) :=
  StableHlo.after_of_writes_sub hostOps9 _ GenP.hostOps9_writes h

def W20 : Valuation τ sig (Elt F) :=
  Function.update (W19 m ρ c) (Proc.devRef .tc main_v42) ((dat9 (V19 m ρ) c).arrAt 3 cfg9.N)
abbrev V20 : (c : Dev nD) → (b : Ref sig .tc) → Buf (Elt F) ((c : Thread nD τ).loc b) := fun c b => W20 m ρ c b
theorem V20_out : V20 m ρ c main_v42 = (dat9 (V19 m ρ) c).arrAt 3 cfg9.N := Function.update_self ..
theorem W20_of (h : r ≠ main_v42) : W20 m ρ c (Proc.devRef .tc r) = W19 m ρ c (Proc.devRef .tc r) :=
  update_devRef_of_ne _ h _
theorem hF9 (w : Fin cfg9.W) : (dat9 (V19 m ρ) c).arrAt w cfg9.N = V20 m ρ c (Pipeline.arrRef spec9 w) :=
  arrAt_eq_update _ _ 3 (A_eq9 _ c) (by decide) w
theorem hrest9 : ∀ b, b ∉ Finset.univ.image (Pipeline.arrRef spec9) → V20 m ρ c b = V19 m ρ c b :=
  fun _ => update_arrRef_of_not_mem _ spec9 3 _

abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
theorem W21_of (h : r ∉ GenP.hostOps10_W) : W21 m ρ c (Proc.devRef .tc r) = W20 m ρ c (Proc.devRef .tc r) :=
  StableHlo.after_of_writes_sub hostOps10 _ GenP.hostOps10_writes h

def W22 : Valuation τ sig (Elt F) :=
  Function.update (W21 m ρ c) (Proc.devRef .tc main_v49) ((dat10 (V21 m ρ) c).arrAt 4 cfg10.N)
abbrev V22 : (c : Dev nD) → (b : Ref sig .tc) → Buf (Elt F) ((c : Thread nD τ).loc b) := fun c b => W22 m ρ c b
theorem V22_out : V22 m ρ c main_v49 = (dat10 (V21 m ρ) c).arrAt 4 cfg10.N := Function.update_self ..
theorem W22_of (h : r ≠ main_v49) : W22 m ρ c (Proc.devRef .tc r) = W21 m ρ c (Proc.devRef .tc r) :=
  update_devRef_of_ne _ h _
theorem hF10 (w : Fin cfg10.W) : (dat10 (V21 m ρ) c).arrAt w cfg10.N = V22 m ρ c (Pipeline.arrRef spec10 w) :=
  arrAt_eq_update _ _ 4 (A_eq10 _ c) (by decide) w
theorem hrest10 : ∀ b, b ∉ Finset.univ.image (Pipeline.arrRef spec10) → V22 m ρ c b = V21 m ρ c b :=
  fun _ => update_arrRef_of_not_mem _ spec10 4 _

abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
theorem W23_of (h : r ∉ GenP.hostOps11_W) : W23 m ρ c (Proc.devRef .tc r) = W22 m ρ c (Proc.devRef .tc r) :=
  StableHlo.after_of_writes_sub hostOps11 _ GenP.hostOps11_writes h

def W24 : Valuation τ sig (Elt F) :=
  Function.update (W23 m ρ c) (Proc.devRef .tc main_v51) ((dat11 (V23 m ρ) c).arrAt 10 cfg11.N)
abbrev V24 : (c : Dev nD) → (b : Ref sig .tc) → Buf (Elt F) ((c : Thread nD τ).loc b) := fun c b => W24 m ρ c b
theorem V24_out : V24 m ρ c main_v51 = (dat11 (V23 m ρ) c).arrAt 10 cfg11.N := Function.update_self ..
theorem W24_of (h : r ≠ main_v51) : W24 m ρ c (Proc.devRef .tc r) = W23 m ρ c (Proc.devRef .tc r) :=
  update_devRef_of_ne _ h _
theorem hF11 (w : Fin cfg11.W) : (dat11 (V23 m ρ) c).arrAt w cfg11.N = V24 m ρ c (Pipeline.arrRef spec11 w) :=
  arrAt_eq_update _ _ 10 (A_eq11 _ c) (by decide) w
theorem hrest11 : ∀ b, b ∉ Finset.univ.image (Pipeline.arrRef spec11) → V24 m ρ c b = V23 m ρ c b :=
  fun _ => update_arrRef_of_not_mem _ spec11 10 _

def W25 : Valuation τ sig (Elt F) :=
  Function.update (W24 m ρ c) (Proc.devRef .tc main_v52) ((dat12 (V24 m ρ) c).arrAt 8 cfg12.N)
abbrev V25 : (c : Dev nD) → (b : Ref sig .tc) → Buf (Elt F) ((c : Thread nD τ).loc b) := fun c b => W25 m ρ c b
theorem V25_out : V25 m ρ c main_v52 = (dat12 (V24 m ρ) c).arrAt 8 cfg12.N := Function.update_self ..
theorem W25_of (h : r ≠ main_v52) : W25 m ρ c (Proc.devRef .tc r) = W24 m ρ c (Proc.devRef .tc r) :=
  update_devRef_of_ne _ h _
theorem hF12 (w : Fin cfg12.W) : (dat12 (V24 m ρ) c).arrAt w cfg12.N = V25 m ρ c (Pipeline.arrRef spec12 w) :=
  arrAt_eq_update _ _ 8 (A_eq12 _ c) (by decide) w
theorem hrest12 : ∀ b, b ∉ Finset.univ.image (Pipeline.arrRef spec12) → V25 m ρ c b = V24 m ρ c b :=
  fun _ => update_arrRef_of_not_mem _ spec12 8 _

abbrev W26 : Dev nD → Valuation τ sig (Elt F) := fun c => StableHlo.after hostOps13 (W25 m ρ c)
abbrev V26 : (c : Dev nD) → (b : Ref sig .tc) → Buf (Elt F) ((c : Thread nD τ).loc b) := fun c b => W26 m ρ c b
theorem W26_of (h : r ∉ GenP.hostOps13_W) : W26 m ρ c (Proc.devRef .tc r) = W25 m ρ c (Proc.devRef .tc r) :=
  StableHlo.after_of_writes_sub hostOps13 _ GenP.hostOps13_writes h

def W27 : Valuation τ sig (Elt F) :=
  Function.update (W26 m ρ c) (Proc.devRef .tc main_v56) ((dat13 (V26 m ρ) c).arrAt 3 cfg13.N)
abbrev V27 : (c : Dev nD) → (b : Ref sig .tc) → Buf (Elt F) ((c : Thread nD τ).loc b) := fun c b => W27 m ρ c b
theorem V27_out : V27 m ρ c main_v56 = (dat13 (V26 m ρ) c).arrAt 3 cfg13.N := Function.update_self ..
theorem W27_of (h : r ≠ main_v56) : W27 m ρ c (Proc.devRef .tc r) = W26 m ρ c (Proc.devRef .tc r) :=
  update_devRef_of_ne _ h _
theorem hF13 (w : Fin cfg13.W) : (dat13 (V26 m ρ) c).arrAt w cfg13.N = V27 m ρ c (Pipeline.arrRef spec13 w) :=
  arrAt_eq_update _ _ 3 (A_eq13 _ c) (by decide) w
theorem hrest13 : ∀ b, b ∉ Finset.univ.image (Pipeline.arrRef spec13) → V27 m ρ c b = V26 m ρ c b :=
  fun _ => update_arrRef_of_not_mem _ spec13 3 _

abbrev W28 : Dev nD → Valuation τ sig (Elt F) := fun c => StableHlo.after hostOps14 (W27 m ρ c)
abbrev V28 : (c : Dev nD) → (b : Ref sig .tc) → Buf (Elt F) ((c : Thread nD τ).loc b) := fun c b => W28 m ρ c b
theorem W28_of (h : r ∉ GenP.hostOps14_W) : W28 m ρ c (Proc.devRef .tc r) = W27 m ρ c (Proc.devRef .tc r) :=
  StableHlo.after_of_writes_sub hostOps14 _ GenP.hostOps14_writes h

def W29 : Valuation τ sig (Elt F) :=
  Function.update (W28 m ρ c) (Proc.devRef .tc main_v60) ((dat14 (V28 m ρ) c).arrAt 3 cfg14.N)
abbrev V29 : (c : Dev nD) → (b : Ref sig .tc) → Buf (Elt F) ((c : Thread nD τ).loc b) := fun c b => W29 m ρ c b
theorem V29_out : V29 m ρ c main_v60 = (dat14 (V28 m ρ) c).arrAt 3 cfg14.N := Function.update_self ..
theorem W29_of (h : r ≠ main_v60) : W29 m ρ c (Proc.devRef .tc r) = W28 m ρ c (Proc.devRef .tc r) :=
  update_devRef_of_ne _ h _
theorem hF14 (w : Fin cfg14.W) : (dat14 (V28 m ρ) c).arrAt w cfg14.N = V29 m ρ c (Pipeline.arrRef spec14 w) :=
  arrAt_eq_update _ _ 3 (A_eq14 _ c) (by decide) w
theorem hrest14 : ∀ b, b ∉ Finset.univ.image (Pipeline.arrRef spec14) → V29 m ρ c b = V28 m ρ c b :=
  fun _ => update_arrRef_of_not_mem _ spec14 3 _

abbrev W30 : Dev nD → Valuation τ sig (Elt F) := fun c => StableHlo.after hostOps15 (W29 m ρ c)
abbrev V30 : (c : Dev nD) → (b : Ref sig .tc) → Buf (Elt F) ((c : Thread nD τ).loc b) := fun c b => W30 m ρ c b
theorem W30_of (h : r ∉ GenP.hostOps15_W) : W30 m ρ c (Proc.devRef .tc r) = W29 m ρ c (Proc.devRef .tc r) :=
  StableHlo.after_of_writes_sub hostOps15 _ GenP.hostOps15_writes h

def W31 : Valuation τ sig (Elt F) :=
  Function.update (W30 m ρ c) (Proc.devRef .tc main_v64) ((dat15 (V30 m ρ) c).arrAt 3 cfg15.N)
abbrev V31 : (c : Dev nD) → (b : Ref sig .tc) → Buf (Elt F) ((c : Thread nD τ).loc b) := fun c b => W31 m ρ c b
theorem V31_out : V31 m ρ c main_v64 = (dat15 (V30 m ρ) c).arrAt 3 cfg15.N := Function.update_self ..
theorem W31_of (h : r ≠ main_v64) : W31 m ρ c (Proc.devRef .tc r) = W30 m ρ c (Proc.devRef .tc r) :=
  update_devRef_of_ne _ h _
theorem hF15 (w : Fin cfg15.W) : (dat15 (V30 m ρ) c).arrAt w cfg15.N = V31 m ρ c (Pipeline.arrRef spec15 w) :=
  arrAt_eq_update _ _ 3 (A_eq15 _ c) (by decide) w
theorem hrest15 : ∀ b, b ∉ Finset.univ.image (Pipeline.arrRef spec15) → V31 m ρ c b = V30 m ρ c b :=
  fun _ => update_arrRef_of_not_mem _ spec15 3 _

abbrev W32 : Dev nD → Valuation τ sig (Elt F) := fun c => StableHlo.after hostOps16 (W31 m ρ c)
abbrev V32 : (c : Dev nD) → (b : Ref sig .tc) → Buf (Elt F) ((c : Thread nD τ).loc b) := fun c b => W32 m ρ c b
theorem W32_of (h : r ∉ GenP.hostOps16_W) : W32 m ρ c (Proc.devRef .tc r) = W31 m ρ c (Proc.devRef .tc r) :=
  StableHlo.after_of_writes_sub hostOps16 _ GenP.hostOps16_writes h

def W33 : Valuation τ sig (Elt F) :=
  Function.update (W32 m ρ c) (Proc.devRef .tc main_v68) ((dat16 (V32 m ρ) c).arrAt 3 cfg16.N)
abbrev V33 : (c : Dev nD) → (b : Ref sig .tc) → Buf (Elt F) ((c : Thread nD τ).loc b) := fun c b => W33 m ρ c b
theorem V33_out : V33 m ρ c main_v68 = (dat16 (V32 m ρ) c).arrAt 3 cfg16.N := Function.update_self ..
theorem W33_of (h : r ≠ main_v68) : W33 m ρ c (Proc.devRef .tc r) = W32 m ρ c (Proc.devRef .tc r) :=
  update_devRef_of_ne _ h _
theorem hF16 (w : Fin cfg16.W) : (dat16 (V32 m ρ) c).arrAt w cfg16.N = V33 m ρ c (Pipeline.arrRef spec16 w) :=
  arrAt_eq_update _ _ 3 (A_eq16 _ c) (by decide) w
theorem hrest16 : ∀ b, b ∉ Finset.univ.image (Pipeline.arrRef spec16) → V33 m ρ c b = V32 m ρ c b :=
  fun _ => update_arrRef_of_not_mem _ spec16 3 _

def W34 : Valuation τ sig (Elt F) :=
  Function.update (W33 m ρ c) (Proc.devRef .tc main_v69) ((dat17 (V33 m ρ) c).arrAt 2 cfg17.N)
abbrev V34 : (c : Dev nD) → (b : Ref sig .tc) → Buf (Elt F) ((c : Thread nD τ).loc b) := fun c b => W34 m ρ c b
theorem V34_out : V34 m ρ c main_v69 = (dat17 (V33 m ρ) c).arrAt 2 cfg17.N := Function.update_self ..
theorem W34_of (h : r ≠ main_v69) : W34 m ρ c (Proc.devRef .tc r) = W33 m ρ c (Proc.devRef .tc r) :=
  update_devRef_of_ne _ h _
theorem hF17 (w : Fin cfg17.W) : (dat17 (V33 m ρ) c).arrAt w cfg17.N = V34 m ρ c (Pipeline.arrRef spec17 w) :=
  arrAt_eq_update _ _ 2 (A_eq17 _ c) (by decide) w
theorem hrest17 : ∀ b, b ∉ Finset.univ.image (Pipeline.arrRef spec17) → V34 m ρ c b = V33 m ρ c b :=
  fun _ => update_arrRef_of_not_mem _ spec17 2 _

abbrev adm : (p : Fin 18) → (pcfgs (F := F) p).Adm := fun p => (cfgs p).toPCfg_adm
def pdats : (p : Fin 18) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V24 m ρ) c
  | ⟨13, _⟩ => fun c => dat13 (V26 m ρ) c
  | ⟨14, _⟩ => fun c => dat14 (V28 m ρ) c
  | ⟨15, _⟩ => fun c => dat15 (V30 m ρ) c
  | ⟨16, _⟩ => fun c => dat16 (V32 m ρ) c
  | ⟨17, _⟩ => fun c => dat17 (V33 m ρ) c
  | ⟨_ + 18, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ : sProp 𝕄 := iprop(StableHlo.held (c : Thread nD τ) (Pipeline.ucRefs τ sig) (W34 m ρ c) ∗ ∃ r, prngReg c r)

def Kept : Prop :=
  r ∉ GenP.hostOps0_W ∧ r ≠ main_v3 ∧ r ∉ GenP.hostOps1_W ∧ r ≠ main_v10 ∧ r ∉ GenP.hostOps2_W ∧ r ≠ main_v12 ∧ r ∉ GenP.hostOps3_W ∧ r ≠ main_v16 ∧ r ∉ GenP.hostOps4_W ∧ r ≠ main_v23 ∧ r ∉ GenP.hostOps5_W ∧ r ≠ main_v25 ∧ r ∉ GenP.hostOps6_W ∧ r ≠ main_v29 ∧ r ∉ GenP.hostOps7_W ∧ r ≠ main_v36 ∧ r ∉ GenP.hostOps8_W ∧ r ≠ main_v38 ∧ r ∉ GenP.hostOps9_W ∧ r ≠ main_v42 ∧ r ∉ GenP.hostOps10_W ∧ r ≠ main_v49 ∧ r ∉ GenP.hostOps11_W ∧ r ≠ main_v51 ∧ r ≠ main_v52 ∧ r ∉ GenP.hostOps13_W ∧ r ≠ main_v56 ∧ r ∉ GenP.hostOps14_W ∧ r ≠ main_v60 ∧ r ∉ GenP.hostOps15_W ∧ r ≠ main_v64 ∧ r ∉ GenP.hostOps16_W ∧ r ≠ main_v68 ∧ r ≠ main_v69
set_option synthInstance.maxSize 4096 in
instance : Decidable (Kept r) := by unfold Kept; infer_instance
theorem W34_of_kept (h : Kept r) : W34 m ρ c (Proc.devRef .tc r) = m ((c : Thread nD τ).loc r) := by
  obtain ⟨_, _, _, _, _, _, _, _, _, _, _, _, _, _, _, _, _, _, _, _, _, _, _, _, _, _, _, _, _, _, _, _, _, _⟩ := h
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of, W8_of, W7_of, W6_of, W5_of, W4_of, W3_of, W2_of, W1_of] <;> assumption
theorem W34_main_arg0 : W34 m ρ c (Proc.devRef .tc main_arg0) = m ((c : Thread nD τ).loc main_arg0) := W34_of_kept m ρ c _ (by decide)
theorem W34_main_arg1 : W34 m ρ c (Proc.devRef .tc main_arg1) = m ((c : Thread nD τ).loc main_arg1) := W34_of_kept m ρ c _ (by decide)
theorem W34_main_arg2 : W34 m ρ c (Proc.devRef .tc main_arg2) = m ((c : Thread nD τ).loc main_arg2) := W34_of_kept m ρ c _ (by decide)
theorem W34_main_arg3 : W34 m ρ c (Proc.devRef .tc main_arg3) = m ((c : Thread nD τ).loc main_arg3) := W34_of_kept m ρ c _ (by decide)
theorem W34_main_arg4 : W34 m ρ c (Proc.devRef .tc main_arg4) = m ((c : Thread nD τ).loc main_arg4) := W34_of_kept m ρ c _ (by decide)
theorem W34_main_arg5 : W34 m ρ c (Proc.devRef .tc main_arg5) = m ((c : Thread nD τ).loc main_arg5) := W34_of_kept m ρ c _ (by decide)
theorem W34_main_arg6 : W34 m ρ c (Proc.devRef .tc main_arg6) = m ((c : Thread nD τ).loc main_arg6) := W34_of_kept m ρ c _ (by decide)
theorem W34_main_arg7 : W34 m ρ c (Proc.devRef .tc main_arg7) = m ((c : Thread nD τ).loc main_arg7) := W34_of_kept m ρ c _ (by decide)
theorem W34_main_arg8 : W34 m ρ c (Proc.devRef .tc main_arg8) = m ((c : Thread nD τ).loc main_arg8) := W34_of_kept m ρ c _ (by decide)
theorem W34_main_arg9 : W34 m ρ c (Proc.devRef .tc main_arg9) = m ((c : Thread nD τ).loc main_arg9) := W34_of_kept m ρ c _ (by decide)
theorem W34_main_arg10 : W34 m ρ c (Proc.devRef .tc main_arg10) = m ((c : Thread nD τ).loc main_arg10) := W34_of_kept m ρ c _ (by decide)
theorem W34_main_arg11 : W34 m ρ c (Proc.devRef .tc main_arg11) = m ((c : Thread nD τ).loc main_arg11) := W34_of_kept m ρ c _ (by decide)
theorem W34_main_arg12 : W34 m ρ c (Proc.devRef .tc main_arg12) = m ((c : Thread nD τ).loc main_arg12) := W34_of_kept m ρ c _ (by decide)
theorem W34_main_arg13 : W34 m ρ c (Proc.devRef .tc main_arg13) = m ((c : Thread nD τ).loc main_arg13) := W34_of_kept m ρ c _ (by decide)
theorem W34_main_arg14 : W34 m ρ c (Proc.devRef .tc main_arg14) = m ((c : Thread nD τ).loc main_arg14) := W34_of_kept m ρ c _ (by decide)
theorem W34_main_arg15 : W34 m ρ c (Proc.devRef .tc main_arg15) = m ((c : Thread nD τ).loc main_arg15) := W34_of_kept m ρ c _ (by decide)
theorem W34_main_arg16 : W34 m ρ c (Proc.devRef .tc main_arg16) = m ((c : Thread nD τ).loc main_arg16) := W34_of_kept m ρ c _ (by decide)
theorem W34_main_arg17 : W34 m ρ c (Proc.devRef .tc main_arg17) = m ((c : Thread nD τ).loc main_arg17) := W34_of_kept m ρ c _ (by decide)
theorem W34_main_arg18 : W34 m ρ c (Proc.devRef .tc main_arg18) = m ((c : Thread nD τ).loc main_arg18) := W34_of_kept m ρ c _ (by decide)
theorem W34_main_arg19 : W34 m ρ c (Proc.devRef .tc main_arg19) = m ((c : Thread nD τ).loc main_arg19) := W34_of_kept m ρ c _ (by decide)
theorem W34_main_arg20 : W34 m ρ c (Proc.devRef .tc main_arg20) = m ((c : Thread nD τ).loc main_arg20) := W34_of_kept m ρ c _ (by decide)
theorem W34_main_arg21 : W34 m ρ c (Proc.devRef .tc main_arg21) = m ((c : Thread nD τ).loc main_arg21) := W34_of_kept m ρ c _ (by decide)
theorem W34_main_arg22 : W34 m ρ c (Proc.devRef .tc main_arg22) = m ((c : Thread nD τ).loc main_arg22) := W34_of_kept m ρ c _ (by decide)
theorem W34_main_arg23 : W34 m ρ c (Proc.devRef .tc main_arg23) = m ((c : Thread nD τ).loc main_arg23) := W34_of_kept m ρ c _ (by decide)
theorem W34_main_arg24 : W34 m ρ c (Proc.devRef .tc main_arg24) = m ((c : Thread nD τ).loc main_arg24) := W34_of_kept m ρ c _ (by decide)
theorem W34_main_arg25 : W34 m ρ c (Proc.devRef .tc main_arg25) = m ((c : Thread nD τ).loc main_arg25) := W34_of_kept m ρ c _ (by decide)
theorem W34_main_arg26 : W34 m ρ c (Proc.devRef .tc main_arg26) = m ((c : Thread nD τ).loc main_arg26) := W34_of_kept m ρ c _ (by decide)
theorem W34_main_arg27 : W34 m ρ c (Proc.devRef .tc main_arg27) = m ((c : Thread nD τ).loc main_arg27) := W34_of_kept m ρ c _ (by decide)
theorem W34_main_arg28 : W34 m ρ c (Proc.devRef .tc main_arg28) = m ((c : Thread nD τ).loc main_arg28) := W34_of_kept m ρ c _ (by decide)
theorem W34_main_arg29 : W34 m ρ c (Proc.devRef .tc main_arg29) = m ((c : Thread nD τ).loc main_arg29) := W34_of_kept m ρ c _ (by decide)
theorem W34_main_arg30 : W34 m ρ c (Proc.devRef .tc main_arg30) = m ((c : Thread nD τ).loc main_arg30) := W34_of_kept m ρ c _ (by decide)
theorem W34_main_arg31 : W34 m ρ c (Proc.devRef .tc main_arg31) = m ((c : Thread nD τ).loc main_arg31) := W34_of_kept m ρ c _ (by decide)
theorem W34_main_arg32 : W34 m ρ c (Proc.devRef .tc main_arg32) = m ((c : Thread nD τ).loc main_arg32) := W34_of_kept m ρ c _ (by decide)
theorem W34_main_arg33 : W34 m ρ c (Proc.devRef .tc main_arg33) = m ((c : Thread nD τ).loc main_arg33) := W34_of_kept m ρ c _ (by decide)
theorem W34_main_arg34 : W34 m ρ c (Proc.devRef .tc main_arg34) = m ((c : Thread nD τ).loc main_arg34) := W34_of_kept m ρ c _ (by decide)
theorem W34_main_arg35 : W34 m ρ c (Proc.devRef .tc main_arg35) = m ((c : Thread nD τ).loc main_arg35) := W34_of_kept m ρ c _ (by decide)
theorem W34_main_arg36 : W34 m ρ c (Proc.devRef .tc main_arg36) = m ((c : Thread nD τ).loc main_arg36) := W34_of_kept m ρ c _ (by decide)
theorem W34_main_arg37 : W34 m ρ c (Proc.devRef .tc main_arg37) = m ((c : Thread nD τ).loc main_arg37) := W34_of_kept m ρ c _ (by decide)

theorem W34_main_v68 : W34 m ρ c (Proc.devRef .tc main_v68) = V33 m ρ c main_v68 := by
  rw [W34_of] <;> decide
theorem W34_main_v52 : W34 m ρ c (Proc.devRef .tc main_v52) = V25 m ρ c main_v52 := by
  rw [W34_of, W33_of, W32_of, W31_of, W30_of, W29_of, W28_of, W27_of, W26_of] <;> decide
theorem W34_main_v42 : W34 m ρ c (Proc.devRef .tc main_v42) = V20 m ρ c main_v42 := by
  rw [W34_of, W33_of, W32_of, W31_of, W30_of, W29_of, W28_of, W27_of, W26_of, W25_of, W24_of, W23_of, W22_of, W21_of] <;> decide
theorem W34_main_v3 : W34 m ρ c (Proc.devRef .tc main_v3) = V2 m ρ c main_v3 := by
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of, W8_of, W7_of, W6_of, W5_of, W4_of, W3_of] <;> decide
theorem W34_main_v16 : W34 m ρ c (Proc.devRef .tc main_v16) = V8 m ρ c main_v16 := by
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of] <;> decide
theorem W34_main_v29 : W34 m ρ c (Proc.devRef .tc main_v29) = V14 m ρ c main_v29 := by
  rw [W34_of, W33_of, W32_of, W31_of, W30_of, W29_of, W28_of, W27_of, W26_of, W25_of, W24_of, W23_of, W22_of, W21_of, W20_of, W19_of, W18_of, W17_of, W16_of, W15_of] <;> decide
theorem W34_main_v69 : W34 m ρ c (Proc.devRef .tc main_v69) = V34 m ρ c main_v69 := rfl
theorem W34_main_v60 : W34 m ρ c (Proc.devRef .tc main_v60) = V29 m ρ c main_v60 := by
  rw [W34_of, W33_of, W32_of, W31_of, W30_of] <;> decide
theorem W34_main_v64 : W34 m ρ c (Proc.devRef .tc main_v64) = V31 m ρ c main_v64 := by
  rw [W34_of, W33_of, W32_of] <;> decide
theorem W34_main_v12 : W34 m ρ c (Proc.devRef .tc main_v12) = V6 m ρ c main_v12 := by
  rw [W34_of, W33_of, W32_of, W31_of, W30_of, W29_of, W28_of, W27_of, W26_of, W25_of, W24_of, W23_of, W22_of, W21_of, W20_of, W19_of, W18_of, W17_of, W16_of, W15_of, W14_of, W13_of, W12_of, W11_of, W10_of, W9_of, W8_of, W7_of] <;> decide
theorem W34_main_v25 : W34 m ρ c (Proc.devRef .tc main_v25) = V12 m ρ c main_v25 := by
  rw [W34_of, W33_of, W32_of, W31_of, W30_of, W29_of, W28_of, W27_of, W26_of, W25_of, W24_of, W23_of, W22_of, W21_of, W20_of, W19_of, W18_of, W17_of, W16_of, W15_of, W14_of, W13_of] <;> decide
theorem W34_main_v38 : W34 m ρ c (Proc.devRef .tc main_v38) = V18 m ρ c main_v38 := by
  rw [W34_of, W33_of, W32_of, W31_of, W30_of, W29_of, W28_of, W27_of, W26_of, W25_of, W24_of, W23_of, W22_of, W21_of, W20_of, W19_of] <;> decide
theorem W34_main_v51 : W34 m ρ c (Proc.devRef .tc main_v51) = V24 m ρ c main_v51 := by
  rw [W34_of, W33_of, W32_of, W31_of, W30_of, W29_of, W28_of, W27_of, W26_of, W25_of] <;> decide

end Cert.KI

end
-- ==== Proof.KI.Reg00.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Shared01.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg1 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg1.W) → Buf (Elt F) ((cfg1.win w).arr.view.loc (c : Thread nD τ)))
  (hA : ∀ w, A w = V (Pipeline.arrRef spec1 w))

theorem arrBufs_eq1 : (Pipeline.arrBufs spec1 c V : sProp 𝕄)
    = iprop((((c : Thread nD τ).loc (Pipeline.arrRef spec1 1)) ↦{fullShare} V (Pipeline.arrRef spec1 1))
      ∗ (((c : Thread nD τ).loc (Pipeline.arrRef spec1 2)) ↦{fullShare} V (Pipeline.arrRef spec1 2))
      ∗ (((c : Thread nD τ).loc (Pipeline.arrRef spec1 3)) ↦{fullShare} V (Pipeline.arrRef spec1 3))
      ∗ (((c : Thread nD τ).loc (Pipeline.arrRef spec1 4)) ↦{fullShare} V (Pipeline.arrRef spec1 4))) :=
  bigSep_eq_bigSepL_of_eq [Pipeline.arrRef spec1 1, Pipeline.arrRef spec1 2, Pipeline.arrRef spec1 3, Pipeline.arrRef spec1 4] (by decide) (by decide) _

def sh1 : Fin 5 → PosShare TreeShare
  | 0 => Cert.Shares.shL
  | 1 => Cert.Shares.shR
  | _ => fullShare

include hq0 hq1 hq in
theorem share1 (w : Fin 5) : dat.share w = sh1 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq1 : (dat.arrays A : sProp 𝕄)
    = bigSep Finset.univ fun w : Fin 5 => (((c : Thread nD τ).loc (Pipeline.arrRef spec1 w)) ↦{sh1 w} V (Pipeline.arrRef spec1 w) : sProp 𝕄) := by
  unfold Dat.arrays
  exact bigSep_congr fun w _ => by rw [(arr_whole1 w).set_eq_univ, share1 c dat hq0 hq1 hq w, hA w]

include hq0 hq1 hq hA in
theorem arrays_of_arrBufs1 : (Pipeline.arrBufs spec1 c V : sProp 𝕄) ⊢ dat.arrays A := by
  rw [arrays_eq1 c dat hq0 hq1 hq V A hA, bigSep_W1, arrBufs_eq1]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays1 : (dat.arrays A : sProp 𝕄) ⊢ Pipeline.arrBufs spec1 c V := by
  rw [arrays_eq1 c dat hq0 hq1 hq V A hA, bigSep_W1, arrBufs_eq1]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg1 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs1 (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs 1 winFacts₀1.arr_unscoped c V]
  exact sep_mono (arrays_of_arrBufs1 c dat hq0 hq1 hq V _ hA) .rfl

include hq0 hq1 hq in
theorem unscopedBufs_of_arrays1 (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 winFacts₀1.arr_unscoped c V']
  refine sep_mono (arrBufs_of_arrays1 c dat hq0 hq1 hq V' A hA) (Entails.of_eq ?_)
  unfold Pipeline.unscopedRest
  exact bigSep_congr fun b hb => by rw [hrest b (Finset.mem_sdiff.mp hb).2]

end

end Cert.KI
-- ==== Proof.KI.Reg01.lean ====
import proofs.«146000_j29076928594330_2_alg».proof.Proof.KI.Fold
import proofs.«146000_j29076928594330_2_alg».proof.Proof.KI.Shared01
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg1_q0 (V : (c : Dev nD) → (b : Ref sig .tc) → Buf (Elt F) ((c : Thread nD τ).loc b)) (c : Dev nD) :
    (dat1 V c).q 0 = Cert.Shares.shL := by dsimp only [dat1]
theorem reg1_q1 (V : (c : Dev nD) → (b : Ref sig .tc) → Buf (Elt F) ((c : Thread nD τ).loc b)) (c : Dev nD) :
    (dat1 V c).q 1 = Cert.Shares.shR := by dsimp only [dat1]
theorem reg1_q (V : (c : Dev nD) → (b : Ref sig .tc) → Buf (Elt F) ((c : Thread nD τ).loc b)) (c : Dev nD) :
    ∀ w : Fin 5, w ≠ 0 → w ≠ 1 → (dat1 V c).q w = fullShare
  | 0, h, _ => absurd rfl h
  | 1, _, h => absurd rfl h
  | 2, _, _ => show (dat1 V c).q 2 = fullShare by dsimp only [dat1]
  | 3, _, _ => show (dat1 V c).q 3 = fullShare by dsimp only [dat1]
  | 4, _, _ => show (dat1 V c).q 4 = fullShare by dsimp only [dat1]

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_unscopedBufs1 c (dat1 (V3 m ρ) c) (reg1_q0 _ c) (reg1_q1 _ c) (reg1_q _ c) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (dat1 (V3 m ρ) c) (reg1_q0 _ c) (reg1_q1 _ c) (reg1_q _ c)
      (V3 m ρ c) (V4 m ρ c) ((dat1 (V3 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Shared02.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg2 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg2.W) → Buf (Elt F) ((cfg2.win w).arr.view.loc (c : Thread nD τ)))
  (hA : ∀ w, A w = V (Pipeline.arrRef spec2 w))

theorem arrBufs_eq2 : (Pipeline.arrBufs spec2 c V : sProp 𝕄)
    = iprop((((c : Thread nD τ).loc (Pipeline.arrRef spec2 1)) ↦{fullShare} V (Pipeline.arrRef spec2 1))
      ∗ (((c : Thread nD τ).loc (Pipeline.arrRef spec2 2)) ↦{fullShare} V (Pipeline.arrRef spec2 2))
      ∗ (((c : Thread nD τ).loc (Pipeline.arrRef spec2 3)) ↦{fullShare} V (Pipeline.arrRef spec2 3))
      ∗ (((c : Thread nD τ).loc (Pipeline.arrRef spec2 4)) ↦{fullShare} V (Pipeline.arrRef spec2 4))
      ∗ (((c : Thread nD τ).loc (Pipeline.arrRef spec2 5)) ↦{fullShare} V (Pipeline.arrRef spec2 5))
      ∗ (((c : Thread nD τ).loc (Pipeline.arrRef spec2 6)) ↦{fullShare} V (Pipeline.arrRef spec2 6))
      ∗ (((c : Thread nD τ).loc (Pipeline.arrRef spec2 7)) ↦{fullShare} V (Pipeline.arrRef spec2 7))
      ∗ (((c : Thread nD τ).loc (Pipeline.arrRef spec2 8)) ↦{fullShare} V (Pipeline.arrRef spec2 8))
      ∗ (((c : Thread nD τ).loc (Pipeline.arrRef spec2 9)) ↦{fullShare} V (Pipeline.arrRef spec2 9))
      ∗ (((c : Thread nD τ).loc (Pipeline.arrRef spec2 10)) ↦{fullShare} V (Pipeline.arrRef spec2 10))) :=
  bigSep_eq_bigSepL_of_eq [Pipeline.arrRef spec2 1, Pipeline.arrRef spec2 2, Pipeline.arrRef spec2 3, Pipeline.arrRef spec2 4, Pipeline.arrRef spec2 5, Pipeline.arrRef spec2 6, Pipeline.arrRef spec2 7, Pipeline.arrRef spec2 8, Pipeline.arrRef spec2 9, Pipeline.arrRef spec2 10] (by decide) (by decide) _

def sh2 : Fin 11 → PosShare TreeShare
  | 0 => Cert.Shares.shL
  | 1 => Cert.Shares.shR
  | _ => fullShare

include hq0 hq1 hq in
theorem share2 (w : Fin 11) : dat.share w = sh2 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq2 : (dat.arrays A : sProp 𝕄)
    = bigSep Finset.univ fun w : Fin 11 => (((c : Thread nD τ).loc (Pipeline.arrRef spec2 w)) ↦{sh2 w} V (Pipeline.arrRef spec2 w) : sProp 𝕄) := by
  unfold Dat.arrays
  exact bigSep_congr fun w _ => by rw [(arr_whole2 w).set_eq_univ, share2 c dat hq0 hq1 hq w, hA w]

include hq0 hq1 hq hA in
theorem arrays_of_arrBufs2 : (Pipeline.arrBufs spec2 c V : sProp 𝕄) ⊢ dat.arrays A := by
  rw [arrays_eq2 c dat hq0 hq1 hq V A hA, bigSep_W2, arrBufs_eq2]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays2 : (dat.arrays A : sProp 𝕄) ⊢ Pipeline.arrBufs spec2 c V := by
  rw [arrays_eq2 c dat hq0 hq1 hq V A hA, bigSep_W2, arrBufs_eq2]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg2 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs2 (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs 2 winFacts₀2.arr_unscoped c V]
  exact sep_mono (arrays_of_arrBufs2 c dat hq0 hq1 hq V _ hA) .rfl

include hq0 hq1 hq in
theorem unscopedBufs_of_arrays2 (V V' : (b : Ref sig .tc) → Buf (Elt F) ((c : Thread nD τ).loc b))
    (A : (w : Fin cfg2.W) → Buf (Elt F) ((cfg2.win w).arr.view.loc (c : Thread nD τ)))
    (hA : ∀ w, A w = V' (Pipeline.arrRef spec2 w))
    (hrest : ∀ b, b ∉ Finset.univ.image (Pipeline.arrRef spec2) → V' b = V b) :
    iprop(dat.arrays A ∗ Pipeline.unscopedRest spec2 c V) ⊢ (unscopedBufs c V' : sProp 𝕄) := by
  rw [Pipeline.unscopedBufs_split₀ cfgs 2 winFacts₀2.arr_unscoped c V']
  refine sep_mono (arrBufs_of_arrays2 c dat hq0 hq1 hq V' A hA) (Entails.of_eq ?_)
  unfold Pipeline.unscopedRest
  exact bigSep_congr fun b hb => by rw [hrest b (Finset.mem_sdiff.mp hb).2]

end

end Cert.KI
-- ==== Proof.KI.Reg02.lean ====
import proofs.«146000_j29076928594330_2_alg».proof.Proof.KI.Fold
import proofs.«146000_j29076928594330_2_alg».proof.Proof.KI.Shared02
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg2_q0 (V : (c : Dev nD) → (b : Ref sig .tc) → Buf (Elt F) ((c : Thread nD τ).loc b)) (c : Dev nD) :
    (dat2 V c).q 0 = Cert.Shares.shL := by dsimp only [dat2]
theorem reg2_q1 (V : (c : Dev nD) → (b : Ref sig .tc) → Buf (Elt F) ((c : Thread nD τ).loc b)) (c : Dev nD) :
    (dat2 V c).q 1 = Cert.Shares.shR := by dsimp only [dat2]
theorem reg2_q (V : (c : Dev nD) → (b : Ref sig .tc) → Buf (Elt F) ((c : Thread nD τ).loc b)) (c : Dev nD) :
    ∀ w : Fin 11, w ≠ 0 → w ≠ 1 → (dat2 V c).q w = fullShare
  | 0, h, _ => absurd rfl h
  | 1, _, h => absurd rfl h
  | 2, _, _ => show (dat2 V c).q 2 = fullShare by dsimp only [dat2]
  | 3, _, _ => show (dat2 V c).q 3 = fullShare by dsimp only [dat2]
  | 4, _, _ => show (dat2 V c).q 4 = fullShare by dsimp only [dat2]
  | 5, _, _ => show (dat2 V c).q 5 = fullShare by dsimp only [dat2]
  | 6, _, _ => show (dat2 V c).q 6 = fullShare by dsimp only [dat2]
  | 7, _, _ => show (dat2 V c).q 7 = fullShare by dsimp only [dat2]
  | 8, _, _ => show (dat2 V c).q 8 = fullShare by dsimp only [dat2]
  | 9, _, _ => show (dat2 V c).q 9 = fullShare by dsimp only [dat2]
  | 10, _, _ => show (dat2 V c).q 10 = fullShare by dsimp only [dat2]

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := arrays_of_unscopedBufs2 c (dat2 (V5 m ρ) c) (reg2_q0 _ c) (reg2_q1 _ c) (reg2_q _ c) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 c (dat2 (V5 m ρ) c) (reg2_q0 _ c) (reg2_q1 _ c) (reg2_q _ c)
      (V5 m ρ c) (V6 m ρ c) ((dat2 (V5 m ρ) c).arrAt · cfg2.N) (hF2 m ρ c) (hrest2 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Reg03.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Shared04.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg4 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg4.W) → Buf (Elt F) ((cfg4.win w).arr.view.loc (c : Thread nD τ)))
  (hA : ∀ w, A w = V (Pipeline.arrRef spec4 w))

theorem arrBufs_eq4 : (Pipeline.arrBufs spec4 c V : sProp 𝕄)
    = iprop((((c : Thread nD τ).loc (Pipeline.arrRef spec4 1)) ↦{fullShare} V (Pipeline.arrRef spec4 1))
      ∗ (((c : Thread nD τ).loc (Pipeline.arrRef spec4 2)) ↦{fullShare} V (Pipeline.arrRef spec4 2))
      ∗ (((c : Thread nD τ).loc (Pipeline.arrRef spec4 3)) ↦{fullShare} V (Pipeline.arrRef spec4 3))
      ∗ (((c : Thread nD τ).loc (Pipeline.arrRef spec4 4)) ↦{fullShare} V (Pipeline.arrRef spec4 4))) :=
  bigSep_eq_bigSepL_of_eq [Pipeline.arrRef spec4 1, Pipeline.arrRef spec4 2, Pipeline.arrRef spec4 3, Pipeline.arrRef spec4 4] (by decide) (by decide) _

def sh4 : Fin 5 → PosShare TreeShare
  | 0 => Cert.Shares.shL
  | 1 => Cert.Shares.shR
  | _ => fullShare

include hq0 hq1 hq in
theorem share4 (w : Fin 5) : dat.share w = sh4 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq4 : (dat.arrays A : sProp 𝕄)
    = bigSep Finset.univ fun w : Fin 5 => (((c : Thread nD τ).loc (Pipeline.arrRef spec4 w)) ↦{sh4 w} V (Pipeline.arrRef spec4 w) : sProp 𝕄) := by
  unfold Dat.arrays
  exact bigSep_congr fun w _ => by rw [(arr_whole4 w).set_eq_univ, share4 c dat hq0 hq1 hq w, hA w]

include hq0 hq1 hq hA in
theorem arrays_of_arrBufs4 : (Pipeline.arrBufs spec4 c V : sProp 𝕄) ⊢ dat.arrays A := by
  rw [arrays_eq4 c dat hq0 hq1 hq V A hA, bigSep_W4, arrBufs_eq4]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays4 : (dat.arrays A : sProp 𝕄) ⊢ Pipeline.arrBufs spec4 c V := by
  rw [arrays_eq4 c dat hq0 hq1 hq V A hA, bigSep_W4, arrBufs_eq4]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg4 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs4 (V : (b : Ref sig .tc) → Buf (Elt F) ((c : Thread nD τ).loc b))
    (hA : ∀ w, dat.A w = V (Pipeline.arrRef spec4 w)) :
    (unscopedBufs c V : sProp 𝕄) ⊢ iprop(dat.arrays (dat.arrAt · 0) ∗ Pipeline.unscopedRest spec4 c V) := by
  rw [Pipeline.unscopedBufs_split₀ cfgs 4 winFacts₀4.arr_unscoped c V]
  exact sep_mono (arrays_of_arrBufs4 c dat hq0 hq1 hq V _ hA) .rfl

include hq0 hq1 hq in
theorem unscopedBufs_of_arrays4 (V V' : (b : Ref sig .tc) → Buf (Elt F) ((c : Thread nD τ).loc b))
    (A : (w : Fin cfg4.W) → Buf (Elt F) ((cfg4.win w).arr.view.loc (c : Thread nD τ)))
    (hA : ∀ w, A w = V' (Pipeline.arrRef spec4 w))
    (hrest : ∀ b, b ∉ Finset.univ.image (Pipeline.arrRef spec4) → V' b = V b) :
    iprop(dat.arrays A ∗ Pipeline.unscopedRest spec4 c V) ⊢ (unscopedBufs c V' : sProp 𝕄) := by
  rw [Pipeline.unscopedBufs_split₀ cfgs 4 winFacts₀4.arr_unscoped c V']
  refine sep_mono (arrBufs_of_arrays4 c dat hq0 hq1 hq V' A hA) (Entails.of_eq ?_)
  unfold Pipeline.unscopedRest
  exact bigSep_congr fun b hb => by rw [hrest b (Finset.mem_sdiff.mp hb).2]

end

end Cert.KI
-- ==== Proof.KI.Reg04.lean ====
import proofs.«146000_j29076928594330_2_alg».proof.Proof.KI.Fold
import proofs.«146000_j29076928594330_2_alg».proof.Proof.KI.Shared04
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg4_q0 (V : (c : Dev nD) → (b : Ref sig .tc) → Buf (Elt F) ((c : Thread nD τ).loc b)) (c : Dev nD) :
    (dat4 V c).q 0 = Cert.Shares.shL := by dsimp only [dat4]
theorem reg4_q1 (V : (c : Dev nD) → (b : Ref sig .tc) → Buf (Elt F) ((c : Thread nD τ).loc b)) (c : Dev nD) :
    (dat4 V c).q 1 = Cert.Shares.shR := by dsimp only [dat4]
theorem reg4_q (V : (c : Dev nD) → (b : Ref sig .tc) → Buf (Elt F) ((c : Thread nD τ).loc b)) (c : Dev nD) :
    ∀ w : Fin 5, w ≠ 0 → w ≠ 1 → (dat4 V c).q w = fullShare
  | 0, h, _ => absurd rfl h
  | 1, _, h => absurd rfl h
  | 2, _, _ => show (dat4 V c).q 2 = fullShare by dsimp only [dat4]
  | 3, _, _ => show (dat4 V c).q 3 = fullShare by dsimp only [dat4]
  | 4, _, _ => show (dat4 V c).q 4 = fullShare by dsimp only [dat4]

set_option backward.isDefEq.respectTransparency.types false in
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := arrays_of_unscopedBufs4 c (dat4 (V9 m ρ) c) (reg4_q0 _ c) (reg4_q1 _ c) (reg4_q _ c) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 c (dat4 (V9 m ρ) c) (reg4_q0 _ c) (reg4_q1 _ c) (reg4_q _ c)
      (V9 m ρ c) (V10 m ρ c) ((dat4 (V9 m ρ) c).arrAt · cfg4.N) (hF4 m ρ c) (hrest4 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Shared05.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg5 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg5.W) → Buf (Elt F) ((cfg5.win w).arr.view.loc (c : Thread nD τ)))
  (hA : ∀ w, A w = V (Pipeline.arrRef spec5 w))

theorem arrBufs_eq5 : (Pipeline.arrBufs spec5 c V : sProp 𝕄)
    = iprop((((c : Thread nD τ).loc (Pipeline.arrRef spec5 1)) ↦{fullShare} V (Pipeline.arrRef spec5 1))
      ∗ (((c : Thread nD τ).loc (Pipeline.arrRef spec5 2)) ↦{fullShare} V (Pipeline.arrRef spec5 2))
      ∗ (((c : Thread nD τ).loc (Pipeline.arrRef spec5 3)) ↦{fullShare} V (Pipeline.arrRef spec5 3))
      ∗ (((c : Thread nD τ).loc (Pipeline.arrRef spec5 4)) ↦{fullShare} V (Pipeline.arrRef spec5 4))
      ∗ (((c : Thread nD τ).loc (Pipeline.arrRef spec5 5)) ↦{fullShare} V (Pipeline.arrRef spec5 5))
      ∗ (((c : Thread nD τ).loc (Pipeline.arrRef spec5 6)) ↦{fullShare} V (Pipeline.arrRef spec5 6))
      ∗ (((c : Thread nD τ).loc (Pipeline.arrRef spec5 7)) ↦{fullShare} V (Pipeline.arrRef spec5 7))
      ∗ (((c : Thread nD τ).loc (Pipeline.arrRef spec5 8)) ↦{fullShare} V (Pipeline.arrRef spec5 8))
      ∗ (((c : Thread nD τ).loc (Pipeline.arrRef spec5 9)) ↦{fullShare} V (Pipeline.arrRef spec5 9))
      ∗ (((c : Thread nD τ).loc (Pipeline.arrRef spec5 10)) ↦{fullShare} V (Pipeline.arrRef spec5 10))) :=
  bigSep_eq_bigSepL_of_eq [Pipeline.arrRef spec5 1, Pipeline.arrRef spec5 2, Pipeline.arrRef spec5 3, Pipeline.arrRef spec5 4, Pipeline.arrRef spec5 5, Pipeline.arrRef spec5 6, Pipeline.arrRef spec5 7, Pipeline.arrRef spec5 8, Pipeline.arrRef spec5 9, Pipeline.arrRef spec5 10] (by decide) (by decide) _

def sh5 : Fin 11 → PosShare TreeShare
  | 0 => Cert.Shares.shL
  | 1 => Cert.Shares.shR
  | _ => fullShare

include hq0 hq1 hq in
theorem share5 (w : Fin 11) : dat.share w = sh5 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq5 : (dat.arrays A : sProp 𝕄)
    = bigSep Finset.univ fun w : Fin 11 => (((c : Thread nD τ).loc (Pipeline.arrRef spec5 w)) ↦{sh5 w} V (Pipeline.arrRef spec5 w) : sProp 𝕄) := by
  unfold Dat.arrays
  exact bigSep_congr fun w _ => by rw [(arr_whole5 w).set_eq_univ, share5 c dat hq0 hq1 hq w, hA w]

include hq0 hq1 hq hA in
theorem arrays_of_arrBufs5 : (Pipeline.arrBufs spec5 c V : sProp 𝕄) ⊢ dat.arrays A := by
  rw [arrays_eq5 c dat hq0 hq1 hq V A hA, bigSep_W5, arrBufs_eq5]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays5 : (dat.arrays A : sProp 𝕄) ⊢ Pipeline.arrBufs spec5 c V := by
  rw [arrays_eq5 c dat hq0 hq1 hq V A hA, bigSep_W5, arrBufs_eq5]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg5 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs5 (V : (b : Ref sig .tc) → Buf (Elt F) ((c : Thread nD τ).loc b))
    (hA : ∀ w, dat.A w = V (Pipeline.arrRef spec5 w)) :
    (unscopedBufs c V : sProp 𝕄) ⊢ iprop(dat.arrays (dat.arrAt · 0) ∗ Pipeline.unscopedRest spec5 c V) := by
  rw [Pipeline.unscopedBufs_split₀ cfgs 5 winFacts₀5.arr_unscoped c V]
  exact sep_mono (arrays_of_arrBufs5 c dat hq0 hq1 hq V _ hA) .rfl

include hq0 hq1 hq in
theorem unscopedBufs_of_arrays5 (V V' : (b : Ref sig .tc) → Buf (Elt F) ((c : Thread nD τ).loc b))
    (A : (w : Fin cfg5.W) → Buf (Elt F) ((cfg5.win w).arr.view.loc (c : Thread nD τ)))
    (hA : ∀ w, A w = V' (Pipeline.arrRef spec5 w))
    (hrest : ∀ b, b ∉ Finset.univ.image (Pipeline.arrRef spec5) → V' b = V b) :
    iprop(dat.arrays A ∗ Pipeline.unscopedRest spec5 c V) ⊢ (unscopedBufs c V' : sProp 𝕄) := by
  rw [Pipeline.unscopedBufs_split₀ cfgs 5 winFacts₀5.arr_unscoped c V']
  refine sep_mono (arrBufs_of_arrays5 c dat hq0 hq1 hq V' A hA) (Entails.of_eq ?_)
  unfold Pipeline.unscopedRest
  exact bigSep_congr fun b hb => by rw [hrest b (Finset.mem_sdiff.mp hb).2]

end

end Cert.KI
-- ==== Proof.KI.Reg05.lean ====
import proofs.«146000_j29076928594330_2_alg».proof.Proof.KI.Fold
import proofs.«146000_j29076928594330_2_alg».proof.Proof.KI.Shared05
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg5_q0 (V : (c : Dev nD) → (b : Ref sig .tc) → Buf (Elt F) ((c : Thread nD τ).loc b)) (c : Dev nD) :
    (dat5 V c).q 0 = Cert.Shares.shL := by dsimp only [dat5]
theorem reg5_q1 (V : (c : Dev nD) → (b : Ref sig .tc) → Buf (Elt F) ((c : Thread nD τ).loc b)) (c : Dev nD) :
    (dat5 V c).q 1 = Cert.Shares.shR := by dsimp only [dat5]
theorem reg5_q (V : (c : Dev nD) → (b : Ref sig .tc) → Buf (Elt F) ((c : Thread nD τ).loc b)) (c : Dev nD) :
    ∀ w : Fin 11, w ≠ 0 → w ≠ 1 → (dat5 V c).q w = fullShare
  | 0, h, _ => absurd rfl h
  | 1, _, h => absurd rfl h
  | 2, _, _ => show (dat5 V c).q 2 = fullShare by dsimp only [dat5]
  | 3, _, _ => show (dat5 V c).q 3 = fullShare by dsimp only [dat5]
  | 4, _, _ => show (dat5 V c).q 4 = fullShare by dsimp only [dat5]
  | 5, _, _ => show (dat5 V c).q 5 = fullShare by dsimp only [dat5]
  | 6, _, _ => show (dat5 V c).q 6 = fullShare by dsimp only [dat5]
  | 7, _, _ => show (dat5 V c).q 7 = fullShare by dsimp only [dat5]
  | 8, _, _ => show (dat5 V c).q 8 = fullShare by dsimp only [dat5]
  | 9, _, _ => show (dat5 V c).q 9 = fullShare by dsimp only [dat5]
  | 10, _, _ => show (dat5 V c).q 10 = fullShare by dsimp only [dat5]

set_option backward.isDefEq.respectTransparency.types false in
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := arrays_of_unscopedBufs5 c (dat5 (V11 m ρ) c) (reg5_q0 _ c) (reg5_q1 _ c) (reg5_q _ c) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 c (dat5 (V11 m ρ) c) (reg5_q0 _ c) (reg5_q1 _ c) (reg5_q _ c)
      (V11 m ρ c) (V12 m ρ c) ((dat5 (V11 m ρ) c).arrAt · cfg5.N) (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Reg06.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Shared07.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg7 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg7.W) → Buf (Elt F) ((cfg7.win w).arr.view.loc (c : Thread nD τ)))
  (hA : ∀ w, A w = V (Pipeline.arrRef spec7 w))

theorem arrBufs_eq7 : (Pipeline.arrBufs spec7 c V : sProp 𝕄)
    = iprop((((c : Thread nD τ).loc (Pipeline.arrRef spec7 1)) ↦{fullShare} V (Pipeline.arrRef spec7 1))
      ∗ (((c : Thread nD τ).loc (Pipeline.arrRef spec7 2)) ↦{fullShare} V (Pipeline.arrRef spec7 2))
      ∗ (((c : Thread nD τ).loc (Pipeline.arrRef spec7 3)) ↦{fullShare} V (Pipeline.arrRef spec7 3))
      ∗ (((c : Thread nD τ).loc (Pipeline.arrRef spec7 4)) ↦{fullShare} V (Pipeline.arrRef spec7 4))) :=
  bigSep_eq_bigSepL_of_eq [Pipeline.arrRef spec7 1, Pipeline.arrRef spec7 2, Pipeline.arrRef spec7 3, Pipeline.arrRef spec7 4] (by decide) (by decide) _

def sh7 : Fin 5 → PosShare TreeShare
  | 0 => Cert.Shares.shL
  | 1 => Cert.Shares.shR
  | _ => fullShare

include hq0 hq1 hq in
theorem share7 (w : Fin 5) : dat.share w = sh7 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq7 : (dat.arrays A : sProp 𝕄)
    = bigSep Finset.univ fun w : Fin 5 => (((c : Thread nD τ).loc (Pipeline.arrRef spec7 w)) ↦{sh7 w} V (Pipeline.arrRef spec7 w) : sProp 𝕄) := by
  unfold Dat.arrays
  exact bigSep_congr fun w _ => by rw [(arr_whole7 w).set_eq_univ, share7 c dat hq0 hq1 hq w, hA w]

include hq0 hq1 hq hA in
theorem arrays_of_arrBufs7 : (Pipeline.arrBufs spec7 c V : sProp 𝕄) ⊢ dat.arrays A := by
  rw [arrays_eq7 c dat hq0 hq1 hq V A hA, bigSep_W7, arrBufs_eq7]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays7 : (dat.arrays A : sProp 𝕄) ⊢ Pipeline.arrBufs spec7 c V := by
  rw [arrays_eq7 c dat hq0 hq1 hq V A hA, bigSep_W7, arrBufs_eq7]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg7 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs7 (V : (b : Ref sig .tc) → Buf (Elt F) ((c : Thread nD τ).loc b))
    (hA : ∀ w, dat.A w = V (Pipeline.arrRef spec7 w)) :
    (unscopedBufs c V : sProp 𝕄) ⊢ iprop(dat.arrays (dat.arrAt · 0) ∗ Pipeline.unscopedRest spec7 c V) := by
  rw [Pipeline.unscopedBufs_split₀ cfgs 7 winFacts₀7.arr_unscoped c V]
  exact sep_mono (arrays_of_arrBufs7 c dat hq0 hq1 hq V _ hA) .rfl

include hq0 hq1 hq in
theorem unscopedBufs_of_arrays7 (V V' : (b : Ref sig .tc) → Buf (Elt F) ((c : Thread nD τ).loc b))
    (A : (w : Fin cfg7.W) → Buf (Elt F) ((cfg7.win w).arr.view.loc (c : Thread nD τ)))
    (hA : ∀ w, A w = V' (Pipeline.arrRef spec7 w))
    (hrest : ∀ b, b ∉ Finset.univ.image (Pipeline.arrRef spec7) → V' b = V b) :
    iprop(dat.arrays A ∗ Pipeline.unscopedRest spec7 c V) ⊢ (unscopedBufs c V' : sProp 𝕄) := by
  rw [Pipeline.unscopedBufs_split₀ cfgs 7 winFacts₀7.arr_unscoped c V']
  refine sep_mono (arrBufs_of_arrays7 c dat hq0 hq1 hq V' A hA) (Entails.of_eq ?_)
  unfold Pipeline.unscopedRest
  exact bigSep_congr fun b hb => by rw [hrest b (Finset.mem_sdiff.mp hb).2]

end

end Cert.KI
-- ==== Proof.KI.Reg07.lean ====
import proofs.«146000_j29076928594330_2_alg».proof.Proof.KI.Fold
import proofs.«146000_j29076928594330_2_alg».proof.Proof.KI.Shared07
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg7_q0 (V : (c : Dev nD) → (b : Ref sig .tc) → Buf (Elt F) ((c : Thread nD τ).loc b)) (c : Dev nD) :
    (dat7 V c).q 0 = Cert.Shares.shL := by dsimp only [dat7]
theorem reg7_q1 (V : (c : Dev nD) → (b : Ref sig .tc) → Buf (Elt F) ((c : Thread nD τ).loc b)) (c : Dev nD) :
    (dat7 V c).q 1 = Cert.Shares.shR := by dsimp only [dat7]
theorem reg7_q (V : (c : Dev nD) → (b : Ref sig .tc) → Buf (Elt F) ((c : Thread nD τ).loc b)) (c : Dev nD) :
    ∀ w : Fin 5, w ≠ 0 → w ≠ 1 → (dat7 V c).q w = fullShare
  | 0, h, _ => absurd rfl h
  | 1, _, h => absurd rfl h
  | 2, _, _ => show (dat7 V c).q 2 = fullShare by dsimp only [dat7]
  | 3, _, _ => show (dat7 V c).q 3 = fullShare by dsimp only [dat7]
  | 4, _, _ => show (dat7 V c).q 4 = fullShare by dsimp only [dat7]

set_option backward.isDefEq.respectTransparency.types false in
def reg7 : Pipeline.RegionSeg (pcfgs (F := F)) adm (pdats m ρ) () defs₀ 𝒱₀ L lv 7 where
  win := winFacts₀7
  block_pos := block_pos7
  stage_whole := stage_whole7
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := arrays_of_unscopedBufs7 c (dat7 (V15 m ρ) c) (reg7_q0 _ c) (reg7_q1 _ c) (reg7_q _ c) (V15 m ρ c) (A_eq7 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := unscopedBufs_of_arrays7 c (dat7 (V15 m ρ) c) (reg7_q0 _ c) (reg7_q1 _ c) (reg7_q _ c)
      (V15 m ρ c) (V16 m ρ c) ((dat7 (V15 m ρ) c).arrAt · cfg7.N) (hF7 m ρ c) (hrest7 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Shared08.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg8 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg8.W) → Buf (Elt F) ((cfg8.win w).arr.view.loc (c : Thread nD τ)))
  (hA : ∀ w, A w = V (Pipeline.arrRef spec8 w))

theorem arrBufs_eq8 : (Pipeline.arrBufs spec8 c V : sProp 𝕄)
    = iprop((((c : Thread nD τ).loc (Pipeline.arrRef spec8 1)) ↦{fullShare} V (Pipeline.arrRef spec8 1))
      ∗ (((c : Thread nD τ).loc (Pipeline.arrRef spec8 2)) ↦{fullShare} V (Pipeline.arrRef spec8 2))
      ∗ (((c : Thread nD τ).loc (Pipeline.arrRef spec8 3)) ↦{fullShare} V (Pipeline.arrRef spec8 3))
      ∗ (((c : Thread nD τ).loc (Pipeline.arrRef spec8 4)) ↦{fullShare} V (Pipeline.arrRef spec8 4))
      ∗ (((c : Thread nD τ).loc (Pipeline.arrRef spec8 5)) ↦{fullShare} V (Pipeline.arrRef spec8 5))
      ∗ (((c : Thread nD τ).loc (Pipeline.arrRef spec8 6)) ↦{fullShare} V (Pipeline.arrRef spec8 6))
      ∗ (((c : Thread nD τ).loc (Pipeline.arrRef spec8 7)) ↦{fullShare} V (Pipeline.arrRef spec8 7))
      ∗ (((c : Thread nD τ).loc (Pipeline.arrRef spec8 8)) ↦{fullShare} V (Pipeline.arrRef spec8 8))
      ∗ (((c : Thread nD τ).loc (Pipeline.arrRef spec8 9)) ↦{fullShare} V (Pipeline.arrRef spec8 9))
      ∗ (((c : Thread nD τ).loc (Pipeline.arrRef spec8 10)) ↦{fullShare} V (Pipeline.arrRef spec8 10))) :=
  bigSep_eq_bigSepL_of_eq [Pipeline.arrRef spec8 1, Pipeline.arrRef spec8 2, Pipeline.arrRef spec8 3, Pipeline.arrRef spec8 4, Pipeline.arrRef spec8 5, Pipeline.arrRef spec8 6, Pipeline.arrRef spec8 7, Pipeline.arrRef spec8 8, Pipeline.arrRef spec8 9, Pipeline.arrRef spec8 10] (by decide) (by decide) _

def sh8 : Fin 11 → PosShare TreeShare
  | 0 => Cert.Shares.shL
  | 1 => Cert.Shares.shR
  | _ => fullShare

include hq0 hq1 hq in
theorem share8 (w : Fin 11) : dat.share w = sh8 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq8 : (dat.arrays A : sProp 𝕄)
    = bigSep Finset.univ fun w : Fin 11 => (((c : Thread nD τ).loc (Pipeline.arrRef spec8 w)) ↦{sh8 w} V (Pipeline.arrRef spec8 w) : sProp 𝕄) := by
  unfold Dat.arrays
  exact bigSep_congr fun w _ => by rw [(arr_whole8 w).set_eq_univ, share8 c dat hq0 hq1 hq w, hA w]

include hq0 hq1 hq hA in
theorem arrays_of_arrBufs8 : (Pipeline.arrBufs spec8 c V : sProp 𝕄) ⊢ dat.arrays A := by
  rw [arrays_eq8 c dat hq0 hq1 hq V A hA, bigSep_W8, arrBufs_eq8]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays8 : (dat.arrays A : sProp 𝕄) ⊢ Pipeline.arrBufs spec8 c V := by
  rw [arrays_eq8 c dat hq0 hq1 hq V A hA, bigSep_W8, arrBufs_eq8]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg8 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs8 (V : (b : Ref sig .tc) → Buf (Elt F) ((c : Thread nD τ).loc b))
    (hA : ∀ w, dat.A w = V (Pipeline.arrRef spec8 w)) :
    (unscopedBufs c V : sProp 𝕄) ⊢ iprop(dat.arrays (dat.arrAt · 0) ∗ Pipeline.unscopedRest spec8 c V) := by
  rw [Pipeline.unscopedBufs_split₀ cfgs 8 winFacts₀8.arr_unscoped c V]
  exact sep_mono (arrays_of_arrBufs8 c dat hq0 hq1 hq V _ hA) .rfl

include hq0 hq1 hq in
theorem unscopedBufs_of_arrays8 (V V' : (b : Ref sig .tc) → Buf (Elt F) ((c : Thread nD τ).loc b))
    (A : (w : Fin cfg8.W) → Buf (Elt F) ((cfg8.win w).arr.view.loc (c : Thread nD τ)))
    (hA : ∀ w, A w = V' (Pipeline.arrRef spec8 w))
    (hrest : ∀ b, b ∉ Finset.univ.image (Pipeline.arrRef spec8) → V' b = V b) :
    iprop(dat.arrays A ∗ Pipeline.unscopedRest spec8 c V) ⊢ (unscopedBufs c V' : sProp 𝕄) := by
  rw [Pipeline.unscopedBufs_split₀ cfgs 8 winFacts₀8.arr_unscoped c V']
  refine sep_mono (arrBufs_of_arrays8 c dat hq0 hq1 hq V' A hA) (Entails.of_eq ?_)
  unfold Pipeline.unscopedRest
  exact bigSep_congr fun b hb => by rw [hrest b (Finset.mem_sdiff.mp hb).2]

end

end Cert.KI
-- ==== Proof.KI.Reg08.lean ====
import proofs.«146000_j29076928594330_2_alg».proof.Proof.KI.Fold
import proofs.«146000_j29076928594330_2_alg».proof.Proof.KI.Shared08
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg8_q0 (V : (c : Dev nD) → (b : Ref sig .tc) → Buf (Elt F) ((c : Thread nD τ).loc b)) (c : Dev nD) :
    (dat8 V c).q 0 = Cert.Shares.shL := by dsimp only [dat8]
theorem reg8_q1 (V : (c : Dev nD) → (b : Ref sig .tc) → Buf (Elt F) ((c : Thread nD τ).loc b)) (c : Dev nD) :
    (dat8 V c).q 1 = Cert.Shares.shR := by dsimp only [dat8]
theorem reg8_q (V : (c : Dev nD) → (b : Ref sig .tc) → Buf (Elt F) ((c : Thread nD τ).loc b)) (c : Dev nD) :
    ∀ w : Fin 11, w ≠ 0 → w ≠ 1 → (dat8 V c).q w = fullShare
  | 0, h, _ => absurd rfl h
  | 1, _, h => absurd rfl h
  | 2, _, _ => show (dat8 V c).q 2 = fullShare by dsimp only [dat8]
  | 3, _, _ => show (dat8 V c).q 3 = fullShare by dsimp only [dat8]
  | 4, _, _ => show (dat8 V c).q 4 = fullShare by dsimp only [dat8]
  | 5, _, _ => show (dat8 V c).q 5 = fullShare by dsimp only [dat8]
  | 6, _, _ => show (dat8 V c).q 6 = fullShare by dsimp only [dat8]
  | 7, _, _ => show (dat8 V c).q 7 = fullShare by dsimp only [dat8]
  | 8, _, _ => show (dat8 V c).q 8 = fullShare by dsimp only [dat8]
  | 9, _, _ => show (dat8 V c).q 9 = fullShare by dsimp only [dat8]
  | 10, _, _ => show (dat8 V c).q 10 = fullShare by dsimp only [dat8]

set_option backward.isDefEq.respectTransparency.types false in
def reg8 : Pipeline.RegionSeg (pcfgs (F := F)) adm (pdats m ρ) () defs₀ 𝒱₀ L lv 8 where
  win := winFacts₀8
  block_pos := block_pos8
  stage_whole := stage_whole8
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := arrays_of_unscopedBufs8 c (dat8 (V17 m ρ) c) (reg8_q0 _ c) (reg8_q1 _ c) (reg8_q _ c) (V17 m ρ c) (A_eq8 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := unscopedBufs_of_arrays8 c (dat8 (V17 m ρ) c) (reg8_q0 _ c) (reg8_q1 _ c) (reg8_q _ c)
      (V17 m ρ c) (V18 m ρ c) ((dat8 (V17 m ρ) c).arrAt · cfg8.N) (hF8 m ρ c) (hrest8 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Reg09.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Shared10.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg10 c)
  (hq0 : dat.q 0 = Cert.Shares.shL) (hq1 : dat.q 1 = Cert.Shares.shR) (hq : ∀ w : Fin 5, w ≠ 0 → w ≠ 1 → dat.q w = fullShare)
  (V : (b : Ref sig .tc) → Buf (Elt F) ((c : Thread nD τ).loc b))
  (A : (w : Fin cfg10.W) → Buf (Elt F) ((cfg10.win w).arr.view.loc (c : Thread nD τ)))
  (hA : ∀ w, A w = V (Pipeline.arrRef spec10 w))

theorem arrBufs_eq10 : (Pipeline.arrBufs spec10 c V : sProp 𝕄)
    = iprop((((c : Thread nD τ).loc (Pipeline.arrRef spec10 1)) ↦{fullShare} V (Pipeline.arrRef spec10 1))
      ∗ (((c : Thread nD τ).loc (Pipeline.arrRef spec10 2)) ↦{fullShare} V (Pipeline.arrRef spec10 2))
      ∗ (((c : Thread nD τ).loc (Pipeline.arrRef spec10 3)) ↦{fullShare} V (Pipeline.arrRef spec10 3))
      ∗ (((c : Thread nD τ).loc (Pipeline.arrRef spec10 4)) ↦{fullShare} V (Pipeline.arrRef spec10 4))) :=
  bigSep_eq_bigSepL_of_eq [Pipeline.arrRef spec10 1, Pipeline.arrRef spec10 2, Pipeline.arrRef spec10 3, Pipeline.arrRef spec10 4] (by decide) (by decide) _

def sh10 : Fin 5 → PosShare TreeShare
  | 0 => Cert.Shares.shL
  | 1 => Cert.Shares.shR
  | _ => fullShare

include hq0 hq1 hq in
theorem share10 (w : Fin 5) : dat.share w = sh10 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => rfl

include hq0 hq1 hq hA in
theorem arrays_eq10 : (dat.arrays A : sProp 𝕄)
    = bigSep Finset.univ fun w : Fin 5 => (((c : Thread nD τ).loc (Pipeline.arrRef spec10 w)) ↦{sh10 w} V (Pipeline.arrRef spec10 w) : sProp 𝕄) := by
  unfold Dat.arrays
  exact bigSep_congr fun w _ => by rw [(arr_whole10 w).set_eq_univ, share10 c dat hq0 hq1 hq w, hA w]

include hq0 hq1 hq hA in
theorem arrays_of_arrBufs10 : (Pipeline.arrBufs spec10 c V : sProp 𝕄) ⊢ dat.arrays A := by
  rw [arrays_eq10 c dat hq0 hq1 hq V A hA, bigSep_W10, arrBufs_eq10]
  iintro ⟨H1, H2, H3, H4⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  iexact H4

include hq0 hq1 hq hA in
theorem arrBufs_of_arrays10 : (dat.arrays A : sProp 𝕄) ⊢ Pipeline.arrBufs spec10 c V := by
  rw [arrays_eq10 c dat hq0 hq1 hq V A hA, bigSep_W10, arrBufs_eq10]
  iintro ⟨HL, HR, H2, H3, H4⟩
  isplitl [HL HR]
  · iapply (pointsTo_share Cert.Shares.full_mem).2
    isplitl [HL]; · iexact HL
    iexact HR
  isplitl [H2]; · iexact H2
  isplitl [H3]; · iexact H3
  iexact H4

end

section
variable (c : Dev nD) (dat : Dat τ (Elt F) Unit ℕ (UR sig nD τ) ℕ cfg10 c)
  (hq0 : dat.q 0 = Cert.Shares.shL) (hq1 : dat.q 1 = Cert.Shares.shR) (hq : ∀ w : Fin 5, w ≠ 0 → w ≠ 1 → dat.q w = fullShare)

include hq0 hq1 hq in
theorem arrays_of_unscopedBufs10 (V : (b : Ref sig .tc) → Buf (Elt F) ((c : Thread nD τ).loc b))
    (hA : ∀ w, dat.A w = V (Pipeline.arrRef spec10 w)) :
    (unscopedBufs c V : sProp 𝕄) ⊢ iprop(dat.arrays (dat.arrAt · 0) ∗ Pipeline.unscopedRest spec10 c V) := by
  rw [Pipeline.unscopedBufs_split₀ cfgs 10 winFacts₀10.arr_unscoped c V]
  exact sep_mono (arrays_of_arrBufs10 c dat hq0 hq1 hq V _ hA) .rfl

include hq0 hq1 hq in
theorem unscopedBufs_of_arrays10 (V V' : (b : Ref sig .tc) → Buf (Elt F) ((c : Thread nD τ).loc b))
    (A : (w : Fin cfg10.W) → Buf (Elt F) ((cfg10.win w).arr.view.loc (c : Thread nD τ)))
    (hA : ∀ w, A w = V' (Pipeline.arrRef spec10 w))
    (hrest : ∀ b, b ∉ Finset.univ.image (Pipeline.arrRef spec10) → V' b = V b) :
    iprop(dat.arrays A ∗ Pipeline.unscopedRest spec10 c V) ⊢ (unscopedBufs c V' : sProp 𝕄) := by
  rw [Pipeline.unscopedBufs_split₀ cfgs 10 winFacts₀10.arr_unscoped c V']
  refine sep_mono (arrBufs_of_arrays10 c dat hq0 hq1 hq V' A hA) (Entails.of_eq ?_)
  unfold Pipeline.unscopedRest
  exact bigSep_congr fun b hb => by rw [hrest b (Finset.mem_sdiff.mp hb).2]

end

end Cert.KI
-- ==== Proof.KI.Reg10.lean ====
import proofs.«146000_j29076928594330_2_alg».proof.Proof.KI.Fold
import proofs.«146000_j29076928594330_2_alg».proof.Proof.KI.Shared10
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg10_q0 (V : (c : Dev nD) → (b : Ref sig .tc) → Buf (Elt F) ((c : Thread nD τ).loc b)) (c : Dev nD) :
    (dat10 V c).q 0 = Cert.Shares.shL := by dsimp only [dat10]
theorem reg10_q1 (V : (c : Dev nD) → (b : Ref sig .tc) → Buf (Elt F) ((c : Thread nD τ).loc b)) (c : Dev nD) :
    (dat10 V c).q 1 = Cert.Shares.shR := by dsimp only [dat10]
theorem reg10_q (V : (c : Dev nD) → (b : Ref sig .tc) → Buf (Elt F) ((c : Thread nD τ).loc b)) (c : Dev nD) :
    ∀ w : Fin 5, w ≠ 0 → w ≠ 1 → (dat10 V c).q w = fullShare
  | 0, h, _ => absurd rfl h
  | 1, _, h => absurd rfl h
  | 2, _, _ => show (dat10 V c).q 2 = fullShare by dsimp only [dat10]
  | 3, _, _ => show (dat10 V c).q 3 = fullShare by dsimp only [dat10]
  | 4, _, _ => show (dat10 V c).q 4 = fullShare by dsimp only [dat10]

set_option backward.isDefEq.respectTransparency.types false in
def reg10 : Pipeline.RegionSeg (pcfgs (F := F)) adm (pdats m ρ) () defs₀ 𝒱₀ L lv 10 where
  win := winFacts₀10
  block_pos := block_pos10
  stage_whole := stage_whole10
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := arrays_of_unscopedBufs10 c (dat10 (V21 m ρ) c) (reg10_q0 _ c) (reg10_q1 _ c) (reg10_q _ c) (V21 m ρ c) (A_eq10 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := unscopedBufs_of_arrays10 c (dat10 (V21 m ρ) c) (reg10_q0 _ c) (reg10_q1 _ c) (reg10_q _ c)
      (V21 m ρ c) (V22 m ρ c) ((dat10 (V21 m ρ) c).arrAt · cfg10.N) (hF10 m ρ c) (hrest10 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Shared11.lean ====
import proofs.«146000_j29076928594330_2_alg».proof.Proof.Gen.KernelIdeal.Launch
import proofs.«146000_j29076928594330_2_alg».proof.Proof.Shares
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

section
variable (c : Dev nD) (dat : Dat τ (Elt F) Unit ℕ (UR sig nD τ) ℕ cfg11 c)
  (hq0 : dat.q 0 = Cert.Shares.shL) (hq1 : dat.q 1 = Cert.Shares.shR) (hq : ∀ w : Fin 11, w ≠ 0 → w ≠ 1 → dat.q w = fullShare)
  (V : (b : Ref sig .tc) → Buf (Elt F) ((c : Thread nD τ).loc b))
  (A : (w : Fin cfg11.W) → Buf (Elt F) ((cfg11.win w).arr.view.loc (c : Thread nD τ)))
  (hA : ∀ w, A w = V (Pipeline.arrRef spec11 w))

theorem arrBufs_eq11 : (Pipeline.arrBufs spec11 c V : sProp 𝕄)
    = iprop((((c : Thread nD τ).loc (Pipeline.arrRef spec11 1)) ↦{fullShare} V (Pipeline.arrRef spec11 1))
      ∗ (((c : Thread nD τ).loc (Pipeline.arrRef spec11 2)) ↦{fullShare} V (Pipeline.arrRef spec11 2))
      ∗ (((c : Thread nD τ).loc (Pipeline.arrRef spec11 3)) ↦{fullShare} V (Pipeline.arrRef spec11 3))
      ∗ (((c : Thread nD τ).loc (Pipeline.arrRef spec11 4)) ↦{fullShare} V (Pipeline.arrRef spec11 4))
      ∗ (((c : Thread nD τ).loc (Pipeline.arrRef spec11 5)) ↦{fullShare} V (Pipeline.arrRef spec11 5))
      ∗ (((c : Thread nD τ).loc (Pipeline.arrRef spec11 6)) ↦{fullShare} V (Pipeline.arrRef spec11 6))
      ∗ (((c : Thread nD τ).loc (Pipeline.arrRef spec11 7)) ↦{fullShare} V (Pipeline.arrRef spec11 7))
      ∗ (((c : Thread nD τ).loc (Pipeline.arrRef spec11 8)) ↦{fullShare} V (Pipeline.arrRef spec11 8))
      ∗ (((c : Thread nD τ).loc (Pipeline.arrRef spec11 9)) ↦{fullShare} V (Pipeline.arrRef spec11 9))
      ∗ (((c : Thread nD τ).loc (Pipeline.arrRef spec11 10)) ↦{fullShare} V (Pipeline.arrRef spec11 10))) :=
  bigSep_eq_bigSepL_of_eq [Pipeline.arrRef spec11 1, Pipeline.arrRef spec11 2, Pipeline.arrRef spec11 3, Pipeline.arrRef spec11 4, Pipeline.arrRef spec11 5, Pipeline.arrRef spec11 6, Pipeline.arrRef spec11 7, Pipeline.arrRef spec11 8, Pipeline.arrRef spec11 9, Pipeline.arrRef spec11 10] (by decide) (by decide) _

def sh11 : Fin 11 → PosShare TreeShare
  | 0 => Cert.Shares.shL
  | 1 => Cert.Shares.shR
  | _ => fullShare

include hq0 hq1 hq in
theorem share11 (w : Fin 11) : dat.share w = sh11 w :=
  match w with
  | 0 => (show dat.share 0 = dat.q 0 from rfl).trans hq0
  | 1 => (show dat.share 1 = dat.q 1 from rfl).trans hq1
  | 2 => (show dat.share 2 = dat.q 2 from rfl).trans (hq 2 (by decide) (by decide))
  | 3 => (show dat.share 3 = dat.q 3 from rfl).trans (hq 3 (by decide) (by decide))
  | 4 => (show dat.share 4 = dat.q 4 from rfl).trans (hq 4 (by decide) (by decide))
  | 5 => (show dat.share 5 = dat.q 5 from rfl).trans (hq 5 (by decide) (by decide))
  | 6 => (show dat.share 6 = dat.q 6 from rfl).trans (hq 6 (by decide) (by decide))
  | 7 => (show dat.share 7 = dat.q 7 from rfl).trans (hq 7 (by decide) (by decide))
  | 8 => (show dat.share 8 = dat.q 8 from rfl).trans (hq 8 (by decide) (by decide))
  | 9 => (show dat.share 9 = dat.q 9 from rfl).trans (hq 9 (by decide) (by decide))
  | 10 => rfl

include hq0 hq1 hq hA in
theorem arrays_eq11 : (dat.arrays A : sProp 𝕄)
    = bigSep Finset.univ fun w : Fin 11 => (((c : Thread nD τ).loc (Pipeline.arrRef spec11 w)) ↦{sh11 w} V (Pipeline.arrRef spec11 w) : sProp 𝕄) := by
  unfold Dat.arrays
  exact bigSep_congr fun w _ => by rw [(arr_whole11 w).set_eq_univ, share11 c dat hq0 hq1 hq w, hA w]

include hq0 hq1 hq hA in
theorem arrays_of_arrBufs11 : (Pipeline.arrBufs spec11 c V : sProp 𝕄) ⊢ dat.arrays A := by
  rw [arrays_eq11 c dat hq0 hq1 hq V A hA, bigSep_W11, arrBufs_eq11]
  iintro ⟨H1, H2, H3, H4, H5, H6, H7, H8, H9, H10⟩
  ihave H1' := (pointsTo_share Cert.Shares.full_mem).1 $$ H1
  icases H1' with ⟨HL, HR⟩
  isplitl [HL]; · iexact HL
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hq0 hq1 hq hA in
theorem arrBufs_of_arrays11 : (dat.arrays A : sProp 𝕄) ⊢ Pipeline.arrBufs spec11 c V := by
  rw [arrays_eq11 c dat hq0 hq1 hq V A hA, bigSep_W11, arrBufs_eq11]
  iintro ⟨HL, HR, H2, H3, H4, H5, H6, H7, H8, H9, H10⟩
  isplitl [HL HR]
  · iapply (pointsTo_share Cert.Shares.full_mem).2
    isplitl [HL]; · iexact HL
    iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

section
variable (c : Dev nD) (dat : Dat τ (Elt F) Unit ℕ (UR sig nD τ) ℕ cfg11 c)
  (hq0 : dat.q 0 = Cert.Shares.shL) (hq1 : dat.q 1 = Cert.Shares.shR) (hq : ∀ w : Fin 11, w ≠ 0 → w ≠ 1 → dat.q w = fullShare)

include hq0 hq1 hq in
theorem arrays_of_unscopedBufs11 (V : (b : Ref sig .tc) → Buf (Elt F) ((c : Thread nD τ).loc b))
    (hA : ∀ w, dat.A w = V (Pipeline.arrRef spec11 w)) :
    (unscopedBufs c V : sProp 𝕄) ⊢ iprop(dat.arrays (dat.arrAt · 0) ∗ Pipeline.unscopedRest spec11 c V) := by
  rw [Pipeline.unscopedBufs_split₀ cfgs 11 winFacts₀11.arr_unscoped c V]
  exact sep_mono (arrays_of_arrBufs11 c dat hq0 hq1 hq V _ hA) .rfl

include hq0 hq1 hq in
theorem unscopedBufs_of_arrays11 (V V' : (b : Ref sig .tc) → Buf (Elt F) ((c : Thread nD τ).loc b))
    (A : (w : Fin cfg11.W) → Buf (Elt F) ((cfg11.win w).arr.view.loc (c : Thread nD τ)))
    (hA : ∀ w, A w = V' (Pipeline.arrRef spec11 w))
    (hrest : ∀ b, b ∉ Finset.univ.image (Pipeline.arrRef spec11) → V' b = V b) :
    iprop(dat.arrays A ∗ Pipeline.unscopedRest spec11 c V) ⊢ (unscopedBufs c V' : sProp 𝕄) := by
  rw [Pipeline.unscopedBufs_split₀ cfgs 11 winFacts₀11.arr_unscoped c V']
  refine sep_mono (arrBufs_of_arrays11 c dat hq0 hq1 hq V' A hA) (Entails.of_eq ?_)
  unfold Pipeline.unscopedRest
  exact bigSep_congr fun b hb => by rw [hrest b (Finset.mem_sdiff.mp hb).2]

end

end Cert.KI
-- ==== Proof.KI.Reg11.lean ====
import proofs.«146000_j29076928594330_2_alg».proof.Proof.KI.Fold
import proofs.«146000_j29076928594330_2_alg».proof.Proof.KI.Shared11
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem reg11_q0 (V : (c : Dev nD) → (b : Ref sig .tc) → Buf (Elt F) ((c : Thread nD τ).loc b)) (c : Dev nD) :
    (dat11 V c).q 0 = Cert.Shares.shL := by dsimp only [dat11]
theorem reg11_q1 (V : (c : Dev nD) → (b : Ref sig .tc) → Buf (Elt F) ((c : Thread nD τ).loc b)) (c : Dev nD) :
    (dat11 V c).q 1 = Cert.Shares.shR := by dsimp only [dat11]
theorem reg11_q (V : (c : Dev nD) → (b : Ref sig .tc) → Buf (Elt F) ((c : Thread nD τ).loc b)) (c : Dev nD) :
    ∀ w : Fin 11, w ≠ 0 → w ≠ 1 → (dat11 V c).q w = fullShare
  | 0, h, _ => absurd rfl h
  | 1, _, h => absurd rfl h
  | 2, _, _ => show (dat11 V c).q 2 = fullShare by dsimp only [dat11]
  | 3, _, _ => show (dat11 V c).q 3 = fullShare by dsimp only [dat11]
  | 4, _, _ => show (dat11 V c).q 4 = fullShare by dsimp only [dat11]
  | 5, _, _ => show (dat11 V c).q 5 = fullShare by dsimp only [dat11]
  | 6, _, _ => show (dat11 V c).q 6 = fullShare by dsimp only [dat11]
  | 7, _, _ => show (dat11 V c).q 7 = fullShare by dsimp only [dat11]
  | 8, _, _ => show (dat11 V c).q 8 = fullShare by dsimp only [dat11]
  | 9, _, _ => show (dat11 V c).q 9 = fullShare by dsimp only [dat11]
  | 10, _, _ => show (dat11 V c).q 10 = fullShare by dsimp only [dat11]

set_option backward.isDefEq.respectTransparency.types false in
def reg11 : Pipeline.RegionSeg (pcfgs (F := F)) adm (pdats m ρ) () defs₀ 𝒱₀ L lv 11 where
  win := winFacts₀11
  block_pos := block_pos11
  stage_whole := stage_whole11
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := arrays_of_unscopedBufs11 c (dat11 (V23 m ρ) c) (reg11_q0 _ c) (reg11_q1 _ c) (reg11_q _ c) (V23 m ρ c) (A_eq11 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := unscopedBufs_of_arrays11 c (dat11 (V23 m ρ) c) (reg11_q0 _ c) (reg11_q1 _ c) (reg11_q _ c)
      (V23 m ρ c) (V24 m ρ c) ((dat11 (V23 m ρ) c).arrAt · cfg11.N) (hF11 m ρ c) (hrest11 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KI
-- ==== Proof.KI.Reg12.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V24 m ρ) c).loose
  hwaits := Pipeline.hwaits_of_owed_zero _ _ _ _ L lv 12 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec12 c (V24 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V24 m ρ c) (V25 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Reg13.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V26 m ρ) c).loose
  hwaits := Pipeline.hwaits_of_owed_zero _ _ _ _ L lv 13 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec13 c (V26 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V26 m ρ c) (V27 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Reg14.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V28 m ρ) c).loose
  hwaits := Pipeline.hwaits_of_owed_zero _ _ _ _ L lv 14 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec14 c (V28 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V28 m ρ c) (V29 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Reg15.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V30 m ρ) c).loose
  hwaits := Pipeline.hwaits_of_owed_zero _ _ _ _ L lv 15 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec15 c (V30 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V30 m ρ c) (V31 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Reg16.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V32 m ρ) c).loose
  hwaits := Pipeline.hwaits_of_owed_zero _ _ _ _ L lv 16 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec16 c (V32 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V32 m ρ c) (V33 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KI
-- ==== Proof.KI.Reg17.lean ====
import proofs.«146000_j29076928594330_2_alg».proof.Proof.KI.Fold
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V33 m ρ) c).loose
  hwaits := Pipeline.hwaits_of_owed_zero _ _ _ _ L lv 17 fun _ _ => rfl
  pre c := iprop(StableHlo.held (c : Thread nD τ) (Pipeline.ucRefs τ sig) (W33 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec17 c (V33 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V33 m ρ c) (V34 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KI
-- ==== Proof.KI.Run.lean ====
import proofs.«146000_j29076928594330_2_alg».proof.Proof.KI.Fold
import proofs.«146000_j29076928594330_2_alg».proof.Proof.KI.Reg00
import proofs.«146000_j29076928594330_2_alg».proof.Proof.KI.Reg01
import proofs.«146000_j29076928594330_2_alg».proof.Proof.KI.Reg02
import proofs.«146000_j29076928594330_2_alg».proof.Proof.KI.Reg03
import proofs.«146000_j29076928594330_2_alg».proof.Proof.KI.Reg04
import proofs.«146000_j29076928594330_2_alg».proof.Proof.KI.Reg05
import proofs.«146000_j29076928594330_2_alg».proof.Proof.KI.Reg06
import proofs.«146000_j29076928594330_2_alg».proof.Proof.KI.Reg07
import proofs.«146000_j29076928594330_2_alg».proof.Proof.KI.Reg08
import proofs.«146000_j29076928594330_2_alg».proof.Proof.KI.Reg09
import proofs.«146000_j29076928594330_2_alg».proof.Proof.KI.Reg10
import proofs.«146000_j29076928594330_2_alg».proof.Proof.KI.Reg11
import proofs.«146000_j29076928594330_2_alg».proof.Proof.KI.Reg12
import proofs.«146000_j29076928594330_2_alg».proof.Proof.KI.Reg13
import proofs.«146000_j29076928594330_2_alg».proof.Proof.KI.Reg14
import proofs.«146000_j29076928594330_2_alg».proof.Proof.KI.Reg15
import proofs.«146000_j29076928594330_2_alg».proof.Proof.KI.Reg16
import proofs.«146000_j29076928594330_2_alg».proof.Proof.KI.Reg17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub GenP.hostOps0_fresh (W0 m ρ)),
    .region (reg0 m ρ),
    .host (hseg hostOps1 hostOps1_sub GenP.hostOps1_fresh (W2 m ρ)),
    .region (reg1 m ρ),
    .host (hseg hostOps2 hostOps2_sub GenP.hostOps2_fresh (W4 m ρ)),
    .region (reg2 m ρ),
    .host (hseg hostOps3 hostOps3_sub GenP.hostOps3_fresh (W6 m ρ)),
    .region (reg3 m ρ),
    .host (hseg hostOps4 hostOps4_sub GenP.hostOps4_fresh (W8 m ρ)),
    .region (reg4 m ρ),
    .host (hseg hostOps5 hostOps5_sub GenP.hostOps5_fresh (W10 m ρ)),
    .region (reg5 m ρ),
    .host (hseg hostOps6 hostOps6_sub GenP.hostOps6_fresh (W12 m ρ)),
    .region (reg6 m ρ),
    .host (hseg hostOps7 hostOps7_sub GenP.hostOps7_fresh (W14 m ρ)),
    .region (reg7 m ρ),
    .host (hseg hostOps8 hostOps8_sub GenP.hostOps8_fresh (W16 m ρ)),
    .region (reg8 m ρ),
    .host (hseg hostOps9 hostOps9_sub GenP.hostOps9_fresh (W18 m ρ)),
    .region (reg9 m ρ),
    .host (hseg hostOps10 hostOps10_sub GenP.hostOps10_fresh (W20 m ρ)),
    .region (reg10 m ρ),
    .host (hseg hostOps11 hostOps11_sub GenP.hostOps11_fresh (W22 m ρ)),
    .region (reg11 m ρ),
    .region (reg12 m ρ),
    .host (hseg hostOps13 hostOps13_sub GenP.hostOps13_fresh (W25 m ρ)),
    .region (reg13 m ρ),
    .host (hseg hostOps14 hostOps14_sub GenP.hostOps14_fresh (W27 m ρ)),
    .region (reg14 m ρ),
    .host (hseg hostOps15 hostOps15_sub GenP.hostOps15_fresh (W29 m ρ)),
    .region (reg15 m ρ),
    .host (hseg hostOps16 hostOps16_sub GenP.hostOps16_fresh (W31 m ρ)),
    .region (reg16 m ρ),
    .region (reg17 m ρ) ]
theorem main_run (c : Dev nD) : main (F := F) c = Pipeline.Seg.run (segs m ρ) := (main_chain c).trans (by chain_rfl)

set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W34 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := hQ)

theorem run_vals : θ_run defs (onTc (τ := τ) (main (F := F))) ⟨m, fun _ => 0, ρ⟩ (fun r => ∀ c : Dev nD,
      r.2.mem ((c.tc : Thread nD τ).loc main_v68) = V33 m ρ c main_v68
      ∧ r.2.mem ((c.tc : Thread nD τ).loc main_v52) = V25 m ρ c main_v52
      ∧ r.2.mem ((c.tc : Thread nD τ).loc main_v42) = V20 m ρ c main_v42
      ∧ r.2.mem ((c.tc : Thread nD τ).loc main_v3) = V2 m ρ c main_v3
      ∧ r.2.mem ((c.tc : Thread nD τ).loc main_v16) = V8 m ρ c main_v16
      ∧ r.2.mem ((c.tc : Thread nD τ).loc main_v29) = V14 m ρ c main_v29
      ∧ r.2.mem ((c.tc : Thread nD τ).loc main_v69) = V34 m ρ c main_v69
      ∧ r.2.mem ((c.tc : Thread nD τ).loc main_v60) = V29 m ρ c main_v60
      ∧ r.2.mem ((c.tc : Thread nD τ).loc main_v64) = V31 m ρ c main_v64
      ∧ r.2.mem ((c.tc : Thread nD τ).loc main_v12) = V6 m ρ c main_v12
      ∧ r.2.mem ((c.tc : Thread nD τ).loc main_v25) = V12 m ρ c main_v25
      ∧ r.2.mem ((c.tc : Thread nD τ).loc main_v38) = V18 m ρ c main_v38
      ∧ r.2.mem ((c.tc : Thread nD τ).loc main_v51) = V24 m ρ c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)) :=
  run_post m ρ fun s h c =>
    ⟨(h c _ (mem_uc main_v68 (by decide))).trans (W34_main_v68 m ρ c),
     (h c _ (mem_uc main_v52 (by decide))).trans (W34_main_v52 m ρ c),
     (h c _ (mem_uc main_v42 (by decide))).trans (W34_main_v42 m ρ c),
     (h c _ (mem_uc main_v3 (by decide))).trans (W34_main_v3 m ρ c),
     (h c _ (mem_uc main_v16 (by decide))).trans (W34_main_v16 m ρ c),
     (h c _ (mem_uc main_v29 (by decide))).trans (W34_main_v29 m ρ c),
     (h c _ (mem_uc main_v69 (by decide))).trans (W34_main_v69 m ρ c),
     (h c _ (mem_uc main_v60 (by decide))).trans (W34_main_v60 m ρ c),
     (h c _ (mem_uc main_v64 (by decide))).trans (W34_main_v64 m ρ c),
     (h c _ (mem_uc main_v12 (by decide))).trans (W34_main_v12 m ρ c),
     (h c _ (mem_uc main_v25 (by decide))).trans (W34_main_v25 m ρ c),
     (h c _ (mem_uc main_v38 (by decide))).trans (W34_main_v38 m ρ c),
     (h c _ (mem_uc main_v51 (by decide))).trans (W34_main_v51 m ρ c),
     (h c _ (mem_uc main_arg0 (by decide))).trans (W34_main_arg0 m ρ c),
     (h c _ (mem_uc main_arg1 (by decide))).trans (W34_main_arg1 m ρ c),
     (h c _ (mem_uc main_arg2 (by decide))).trans (W34_main_arg2 m ρ c),
     (h c _ (mem_uc main_arg3 (by decide))).trans (W34_main_arg3 m ρ c),
     (h c _ (mem_uc main_arg4 (by decide))).trans (W34_main_arg4 m ρ c),
     (h c _ (mem_uc main_arg5 (by decide))).trans (W34_main_arg5 m ρ c),
     (h c _ (mem_uc main_arg6 (by decide))).trans (W34_main_arg6 m ρ c),
     (h c _ (mem_uc main_arg7 (by decide))).trans (W34_main_arg7 m ρ c),
     (h c _ (mem_uc main_arg8 (by decide))).trans (W34_main_arg8 m ρ c),
     (h c _ (mem_uc main_arg9 (by decide))).trans (W34_main_arg9 m ρ c),
     (h c _ (mem_uc main_arg10 (by decide))).trans (W34_main_arg10 m ρ c),
     (h c _ (mem_uc main_arg11 (by decide))).trans (W34_main_arg11 m ρ c),
     (h c _ (mem_uc main_arg12 (by decide))).trans (W34_main_arg12 m ρ c),
     (h c _ (mem_uc main_arg13 (by decide))).trans (W34_main_arg13 m ρ c),
     (h c _ (mem_uc main_arg14 (by decide))).trans (W34_main_arg14 m ρ c),
     (h c _ (mem_uc main_arg15 (by decide))).trans (W34_main_arg15 m ρ c),
     (h c _ (mem_uc main_arg16 (by decide))).trans (W34_main_arg16 m ρ c),
     (h c _ (mem_uc main_arg17 (by decide))).trans (W34_main_arg17 m ρ c),
     (h c _ (mem_uc main_arg18 (by decide))).trans (W34_main_arg18 m ρ c),
     (h c _ (mem_uc main_arg19 (by decide))).trans (W34_main_arg19 m ρ c),
     (h c _ (mem_uc main_arg20 (by decide))).trans (W34_main_arg20 m ρ c),
     (h c _ (mem_uc main_arg21 (by decide))).trans (W34_main_arg21 m ρ c),
     (h c _ (mem_uc main_arg22 (by decide))).trans (W34_main_arg22 m ρ c),
     (h c _ (mem_uc main_arg23 (by decide))).trans (W34_main_arg23 m ρ c),
     (h c _ (mem_uc main_arg24 (by decide))).trans (W34_main_arg24 m ρ c),
     (h c _ (mem_uc main_arg25 (by decide))).trans (W34_main_arg25 m ρ c),
     (h c _ (mem_uc main_arg26 (by decide))).trans (W34_main_arg26 m ρ c),
     (h c _ (mem_uc main_arg27 (by decide))).trans (W34_main_arg27 m ρ c),
     (h c _ (mem_uc main_arg28 (by decide))).trans (W34_main_arg28 m ρ c),
     (h c _ (mem_uc main_arg29 (by decide))).trans (W34_main_arg29 m ρ c),
     (h c _ (mem_uc main_arg30 (by decide))).trans (W34_main_arg30 m ρ c),
     (h c _ (mem_uc main_arg31 (by decide))).trans (W34_main_arg31 m ρ c),
     (h c _ (mem_uc main_arg32 (by decide))).trans (W34_main_arg32 m ρ c),
     (h c _ (mem_uc main_arg33 (by decide))).trans (W34_main_arg33 m ρ c),
     (h c _ (mem_uc main_arg34 (by decide))).trans (W34_main_arg34 m ρ c),
     (h c _ (mem_uc main_arg35 (by decide))).trans (W34_main_arg35 m ρ c),
     (h c _ (mem_uc main_arg36 (by decide))).trans (W34_main_arg36 m ρ c),
     (h c _ (mem_uc main_arg37 (by decide))).trans (W34_main_arg37 m ρ c)⟩

end Cert.KI

end
-- ==== Proof.Spec.lean ====
import Idealize.ShloMosaic.PureOps.Ideal

noncomputable section

open scoped BigOperators

namespace Cert.Spec

open Idealize.ShloMosaic

abbrev c2 : EReal := Ideal.ofBits .f32 0x40000000#32
abbrev c1 : EReal := Ideal.ofBits .f32 0x3F800000#32
abbrev cmh : EReal := Ideal.ofBits .f32 0xBF000000#32
abbrev c0 : EReal := Ideal.ofBits .f32 0x00000000#32
abbrev ceps : EReal := Ideal.ofBits .f32 0x2B8CBCCC#32

variable {M K N : Nat}

def lin (a : Fin M → Fin K → EReal) (w : Fin K → Fin N → EReal) (b : Fin N → EReal) : Fin M → Fin N → EReal :=
  fun i j => (∑ k, a i k * w k j) + b j

def gram (h : Fin M → Fin K → EReal) : Fin M → Fin M → EReal := fun i j => ∑ k, h i k * h j k

def svec (h : Fin M → Fin K → EReal) : Fin M → EReal := fun i => ∑ k, h i k * h i k

def sq (h : Fin M → Fin K → EReal) : Fin M → Fin M → EReal :=
  fun i j => max (svec h i + svec h j - c2 * gram h i j) c0

def offdiag : Fin M → Fin M → EReal := fun i j => if i = j then 0 else 1

def amat (h : Fin M → Fin K → EReal) : Fin M → Fin M → EReal :=
  fun i j => Ideal.exp (cmh * sq h i j) * offdiag i j

def deg (h : Fin M → Fin K → EReal) : Fin M → EReal := fun i => (∑ j, amat h i j) + ceps

def dinv (h : Fin M → Fin K → EReal) : Fin M → EReal := fun i => Ideal.rsqrt (deg h i)

def kh (h : Fin M → Fin K → EReal) (e f g hh : Fin M → Fin M → EReal) : Fin M → Fin M → EReal :=
  fun i j => e i j * gram h i j + f i j * Ideal.div c1 (c1 + sq h i j)
    + g i j * ((gram h i j + c1) * (gram h i j + c1)) + hh i j * (amat h i j * dinv h i * dinv h j)

def kfin (a b c d k1 k2 k3 kz : Fin M → Fin M → EReal) : Fin M → Fin M → EReal :=
  fun i j => a i j * k1 i j + b i j * k2 i j + c i j * k3 i j + d i j * kz i j

def qsub (k : Fin M → Fin M → EReal) (cl : Fin N → Fin M → EReal) : Fin M → Fin N → Fin M → EReal :=
  fun i n j => k i j - cl n j

end Cert.Spec

end
-- ==== Proof.Net.lean ====
import proofs.«146000_j29076928594330_2_alg».proof.Proof.Spec

noncomputable section

namespace Cert.Net

open Cert.Spec

structure Args where
  x : Fin 3072 → Fin 784 → EReal
  w1 : Fin 784 → Fin 500 → EReal
  b1 : Fin 500 → EReal
  w2 : Fin 500 → Fin 500 → EReal
  b2 : Fin 500 → EReal
  w3 : Fin 500 → Fin 2000 → EReal
  b3 : Fin 2000 → EReal
  wz : Fin 2000 → Fin 10 → EReal
  bz : Fin 10 → EReal
  wk1 : Fin 3072 → Fin 2000 → EReal
  bk1 : Fin 2000 → EReal
  wk2 : Fin 2000 → Fin 500 → EReal
  bk2 : Fin 500 → EReal
  wk3 : Fin 500 → Fin 500 → EReal
  bk3 : Fin 500 → EReal
  wk4 : Fin 500 → Fin 784 → EReal
  bk4 : Fin 784 → EReal
  a : Fin 3072 → Fin 3072 → EReal
  b : Fin 3072 → Fin 3072 → EReal
  c : Fin 3072 → Fin 3072 → EReal
  d : Fin 3072 → Fin 3072 → EReal
  e : Fin 3072 → Fin 3072 → EReal
  f : Fin 3072 → Fin 3072 → EReal
  g : Fin 3072 → Fin 3072 → EReal
  h : Fin 3072 → Fin 3072 → EReal
  e1 : Fin 3072 → Fin 3072 → EReal
  f1 : Fin 3072 → Fin 3072 → EReal
  g1 : Fin 3072 → Fin 3072 → EReal
  h1 : Fin 3072 → Fin 3072 → EReal
  e2 : Fin 3072 → Fin 3072 → EReal
  f2 : Fin 3072 → Fin 3072 → EReal
  g2 : Fin 3072 → Fin 3072 → EReal
  h2 : Fin 3072 → Fin 3072 → EReal
  e3 : Fin 3072 → Fin 3072 → EReal
  f3 : Fin 3072 → Fin 3072 → EReal
  g3 : Fin 3072 → Fin 3072 → EReal
  h3 : Fin 3072 → Fin 3072 → EReal
  cl : Fin 10 → Fin 3072 → EReal

variable (A : Args)

def enc1 : Fin 3072 → Fin 500 → EReal := lin A.x A.w1 A.b1
def enc2 : Fin 3072 → Fin 500 → EReal := lin (enc1 A) A.w2 A.b2
def enc3 : Fin 3072 → Fin 2000 → EReal := lin (enc2 A) A.w3 A.b3
def lat : Fin 3072 → Fin 10 → EReal := lin (enc3 A) A.wz A.bz

def kh1 : Fin 3072 → Fin 3072 → EReal := kh (enc1 A) A.e1 A.f1 A.g1 A.h1
def kh2 : Fin 3072 → Fin 3072 → EReal := kh (enc2 A) A.e2 A.f2 A.g2 A.h2
def kh3 : Fin 3072 → Fin 3072 → EReal := kh (enc3 A) A.e3 A.f3 A.g3 A.h3
def khz : Fin 3072 → Fin 3072 → EReal := kh (lat A) A.e A.f A.g A.h

def ker : Fin 3072 → Fin 3072 → EReal := kfin A.a A.b A.c A.d (kh1 A) (kh2 A) (kh3 A) (khz A)

def dec1 : Fin 3072 → Fin 2000 → EReal := lin (ker A) A.wk1 A.bk1
def dec2 : Fin 3072 → Fin 500 → EReal := lin (dec1 A) A.wk2 A.bk2
def dec3 : Fin 3072 → Fin 500 → EReal := lin (dec2 A) A.wk3 A.bk3
def xbar : Fin 3072 → Fin 784 → EReal := lin (dec3 A) A.wk4 A.bk4

def qq : Fin 3072 → Fin 10 → Fin 3072 → EReal := qsub (ker A) A.cl

end Cert.Net

end
-- ==== Proof.KI.ArgsK.lean ====
import proofs.«146000_j29076928594330_2_alg».proof.Proof.Gen.KernelIdeal.Launch
import proofs.«146000_j29076928594330_2_alg».proof.Proof.Net
import Idealize.ShloMosaic.Lib.ValueIdx

noncomputable section

namespace Cert.KI

open Cert.KernelIdeal Cert.KernelIdeal.Gen
open Idealize.ShloMosaic Idealize.ShloMosaic.TcCoe Idealize.ShloMosaic.ValueIdx
open Idealize.SL.Sem

def argsK (m : (ℓ : Loc nD τ sig) → Buf (Elt Ideal) ℓ) (c : Dev nD) : Cert.Net.Args where
  x := fun i k => m ((c : Thread nD τ).loc main_arg0) (ix2 i k)
  w1 := fun k j => m ((c : Thread nD τ).loc main_arg1) (ix2 k j)
  b1 := fun j => m ((c : Thread nD τ).loc main_arg2) (ix1 j)
  w2 := fun k j => m ((c : Thread nD τ).loc main_arg3) (ix2 k j)
  b2 := fun j => m ((c : Thread nD τ).loc main_arg4) (ix1 j)
  w3 := fun k j => m ((c : Thread nD τ).loc main_arg5) (ix2 k j)
  b3 := fun j => m ((c : Thread nD τ).loc main_arg6) (ix1 j)
  wz := fun k j => m ((c : Thread nD τ).loc main_arg7) (ix2 k j)
  bz := fun j => m ((c : Thread nD τ).loc main_arg8) (ix1 j)
  wk1 := fun k j => m ((c : Thread nD τ).loc main_arg9) (ix2 k j)
  bk1 := fun j => m ((c : Thread nD τ).loc main_arg10) (ix1 j)
  wk2 := fun k j => m ((c : Thread nD τ).loc main_arg11) (ix2 k j)
  bk2 := fun j => m ((c : Thread nD τ).loc main_arg12) (ix1 j)
  wk3 := fun k j => m ((c : Thread nD τ).loc main_arg13) (ix2 k j)
  bk3 := fun j => m ((c : Thread nD τ).loc main_arg14) (ix1 j)
  wk4 := fun k j => m ((c : Thread nD τ).loc main_arg15) (ix2 k j)
  bk4 := fun j => m ((c : Thread nD τ).loc main_arg16) (ix1 j)
  a := fun i j => m ((c : Thread nD τ).loc main_arg17) (ix2 i j)
  b := fun i j => m ((c : Thread nD τ).loc main_arg18) (ix2 i j)
  c := fun i j => m ((c : Thread nD τ).loc main_arg19) (ix2 i j)
  d := fun i j => m ((c : Thread nD τ).loc main_arg20) (ix2 i j)
  e := fun i j => m ((c : Thread nD τ).loc main_arg21) (ix2 i j)
  f := fun i j => m ((c : Thread nD τ).loc main_arg22) (ix2 i j)
  g := fun i j => m ((c : Thread nD τ).loc main_arg23) (ix2 i j)
  h := fun i j => m ((c : Thread nD τ).loc main_arg24) (ix2 i j)
  e1 := fun i j => m ((c : Thread nD τ).loc main_arg25) (ix2 i j)
  f1 := fun i j => m ((c : Thread nD τ).loc main_arg26) (ix2 i j)
  g1 := fun i j => m ((c : Thread nD τ).loc main_arg27) (ix2 i j)
  h1 := fun i j => m ((c : Thread nD τ).loc main_arg28) (ix2 i j)
  e2 := fun i j => m ((c : Thread nD τ).loc main_arg29) (ix2 i j)
  f2 := fun i j => m ((c : Thread nD τ).loc main_arg30) (ix2 i j)
  g2 := fun i j => m ((c : Thread nD τ).loc main_arg31) (ix2 i j)
  h2 := fun i j => m ((c : Thread nD τ).loc main_arg32) (ix2 i j)
  e3 := fun i j => m ((c : Thread nD τ).loc main_arg33) (ix2 i j)
  f3 := fun i j => m ((c : Thread nD τ).loc main_arg34) (ix2 i j)
  g3 := fun i j => m ((c : Thread nD τ).loc main_arg35) (ix2 i j)
  h3 := fun i j => m ((c : Thread nD τ).loc main_arg36) (ix2 i j)
  cl := fun n j => m ((c : Thread nD τ).loc main_arg37) (ix2 n j)

end Cert.KI

end
-- ==== Proof.KI.FinLin.lean ====
import proofs.«146000_j29076928594330_2_alg».proof.Proof.KI.R00
import proofs.«146000_j29076928594330_2_alg».proof.Proof.KI.R03
import proofs.«146000_j29076928594330_2_alg».proof.Proof.KI.R06
import proofs.«146000_j29076928594330_2_alg».proof.Proof.KI.R09
import proofs.«146000_j29076928594330_2_alg».proof.Proof.KI.R13
import proofs.«146000_j29076928594330_2_alg».proof.Proof.KI.R14
import proofs.«146000_j29076928594330_2_alg».proof.Proof.KI.R15
import proofs.«146000_j29076928594330_2_alg».proof.Proof.KI.R16
import proofs.«146000_j29076928594330_2_alg».proof.Proof.Spec
import Idealize.ShloMosaic.Lib.Pipeline.Value
import Idealize.ShloMosaic.Lib.StackMember
import Idealize.ShloMosaic.Lib.ValueLayout

noncomputable section

open scoped BigOperators

namespace Cert.KI

open Cert.KernelIdeal Cert.KernelIdeal.Gen
open Idealize.ShloMosaic Idealize.ShloMosaic.TcCoe Idealize.ShloMosaic.ValueIdx
open Idealize.SL.Sem
open Idealize.ShloMosaic.Pipeline (Dat)

variable {R M K N : Nat}

/-- A dense layer on arrays: entry (i, j) is row i of x times column j of w, plus bias j. -/
def linArr (x : FVec Ideal ⟨2, ![M, K]⟩ .bf16) (w : FVec Ideal ⟨2, ![K, N]⟩ .bf16) (b : FVec Ideal ⟨2, ![1, N]⟩ .f32) :
    FVec Ideal ⟨2, ![M, N]⟩ .f32 :=
  fun y => Cert.Spec.lin (fun i k => x (ix2 i k)) (fun k j => w (ix2 k j)) (fun j => b (ix2 0 j)) (y 0) (y 1)

/-- The product into a zero matrix is the sum over the contracted coordinate; the broadcast row adds bias j. -/
theorem lin_payload (x : FVec Ideal ⟨2, ![M, K]⟩ .bf16) (w : FVec Ideal ⟨2, ![K, N]⟩ .bf16) (b : FVec Ideal ⟨2, ![1, N]⟩ .f32)
    (hx hw hb) (hbc : (⟨2, ![1, N]⟩ : Shape).Broadcasts ⟨2, ![M, N]⟩) :
    addf (matmul (DotDims.plain M K N) none (shapeCast ⟨2, ![M, K]⟩ x hx) (shapeCast ⟨2, ![K, N]⟩ w hw)
        (constant (F := Ideal) ⟨2, ![M, N]⟩ .f32 0x00000000#32))
      (broadcastTo ⟨2, ![M, N]⟩ (shapeCast ⟨2, ![1, N]⟩ b hb) hbc) = linArr x w b := by
  funext y
  obtain ⟨p, q, rfl⟩ : ∃ (p : Fin M) (q : Fin N), y = ix2 p q := ⟨y 0, y 1, eq_ix2 y⟩
  rw [shapeCast_self, shapeCast_self, shapeCast_self, addf_apply, broadcastTo_1b_ab_apply, matmul_zero_eq_dotGeneral,
    StackMember.dotGeneral_plain_apply]
  rfl

theorem zero2 {o : Fin 2 → Nat} (h0 : o 0 = 0) (h1 : o 1 = 0) : o = fun _ => 0 := funext fun a => by fin_cases a <;> assumption

/-- A single piece covering every index is the array itself, and an array read at every index is itself. -/
theorem canon_lin (p : FVec Ideal ⟨2, ![M, K]⟩ .bf16 → FVec Ideal ⟨2, ![K, N]⟩ .bf16 → FVec Ideal ⟨2, ![1, N]⟩ .f32 → FVec Ideal ⟨2, ![M, N]⟩ .f32)
    (hp : ∀ x w b, p x w b = linArr x w b)
    (x : FVec Ideal ⟨2, ![M, K]⟩ .bf16) (w : FVec Ideal ⟨2, ![K, N]⟩ .bf16) (b : FVec Ideal ⟨2, ![1, N]⟩ .f32) {j0 j1 j2 j3} :
    View.canon [(⟨Rect.unit (s := ⟨2, ![M, N]⟩) ![0, 0] ![M, N] j3,
        p (View.ld (Val := Elt Ideal) (e' := .bf16) x (Rect.unit (s := ⟨2, ![M, K]⟩) ![0, 0] ![M, K] j0))
          (View.ld (Val := Elt Ideal) (e' := .bf16) w (Rect.unit (s := ⟨2, ![K, N]⟩) ![0, 0] ![K, N] j1))
          (View.ld (Val := Elt Ideal) (e' := .f32) b (Rect.unit (s := ⟨2, ![1, N]⟩) ![0, 0] ![1, N] j2))⟩ :
        View.Piece (Elt Ideal) ⟨2, ![M, N]⟩ .f32)] = linArr x w b := by
  rw [View.canon_unit_zero (zero2 rfl rfl), View.ld_unit_zero (S := ⟨2, ![M, K]⟩) (zero2 rfl rfl),
    View.ld_unit_zero (S := ⟨2, ![K, N]⟩) (zero2 rfl rfl), View.ld_unit_zero (S := ⟨2, ![1, N]⟩) (zero2 rfl rfl), hp]

/-- Offsets of four blocks: the activations' and the output's at row r, the weights' and the biases' at the origin. -/
abbrev RowOffs (r : Nat) (o0 o1 o2 o3 : Fin 2 → Nat) : Prop :=
  o0 0 = r ∧ o0 1 = 0 ∧ o1 0 = 0 ∧ o1 1 = 0 ∧ o2 0 = 0 ∧ o2 1 = 0 ∧ o3 0 = r ∧ o3 1 = 0

/-- Rows r … r + M − 1 of the layer's output are the layer of rows r … r + M − 1 of the activations. -/
theorem lin_ld (X : FVec Ideal ⟨2, ![R, K]⟩ .bf16) (W : FVec Ideal ⟨2, ![K, N]⟩ .bf16) (B : FVec Ideal ⟨2, ![1, N]⟩ .f32)
    {r : Nat} {o0 o1 o2 o3 : Fin 2 → Nat} {i0 i1 i2 i3} (h : RowOffs r o0 o1 o2 o3) :
    linArr (View.ld (Val := Elt Ideal) (e' := .bf16) X (Rect.unit (s := ⟨2, ![R, K]⟩) o0 ![M, K] i0))
        (View.ld (Val := Elt Ideal) (e' := .bf16) W (Rect.unit (s := ⟨2, ![K, N]⟩) o1 ![K, N] i1))
        (View.ld (Val := Elt Ideal) (e' := .f32) B (Rect.unit (s := ⟨2, ![1, N]⟩) o2 ![1, N] i2))
      = View.ld (Val := Elt Ideal) (e' := .f32) (linArr X W B) (Rect.unit (s := ⟨2, ![R, N]⟩) o3 ![M, N] i3) := by
  obtain ⟨h00, h01, h10, h11, h20, h21, h30, h31⟩ := h
  rw [View.ld_unit_zero (S := ⟨2, ![K, N]⟩) (zero2 h10 h11), View.ld_unit_zero (S := ⟨2, ![1, N]⟩) (zero2 h20 h21)]
  funext y
  have c1 : (Rect.unit (s := ⟨2, ![R, N]⟩) o3 ![M, N] i3).idx y 1 = y 1 := Fin.ext (by show o3 1 + 1 * (y 1).val = _; omega)
  have c0 : ∀ k, (Rect.unit (s := ⟨2, ![R, K]⟩) o0 ![M, K] i0).idx (ix2 (y 0) k)
      = ix2 ((Rect.unit (s := ⟨2, ![R, N]⟩) o3 ![M, N] i3).idx y 0) k := fun k =>
    Shape.idx_ext₂ (by show o0 0 + 1 * (y 0).val = o3 0 + 1 * (y 0).val; omega) (by show o0 1 + 1 * k.val = k.val; omega)
  simp only [linArr, Cert.Spec.lin, View.ld, c0, c1]
  rfl

/-- Blocks of M rows at offsets t · M tile an array of n · M rows: row r lies in block r / M. -/
theorem exists_rows {n : Nat} (hR : R = n * M) (hM : 0 < M) {o0 o1 o2 : Fin n → Fin 2 → Nat} (o : Fin n → Fin 2 → Nat)
    (inb : ∀ t a, o t a + ![M, N] a ≤ (⟨2, ![R, N]⟩ : Shape).size a)
    (ho : ∀ t, RowOffs (t.val * M) (o0 t) (o1 t) (o2 t) (o t)) (i : (⟨2, ![R, N]⟩ : Shape).Idx) :
    ∃ t : Fin n, i ∈ (Rect.unit (s := ⟨2, ![R, N]⟩) (o t) ![M, N] (inb t)).set := by
  have hi : (i 0).val < n * M := hR ▸ (i 0).isLt
  refine ⟨⟨(i 0).val / M, Nat.div_lt_of_lt_mul (Nat.mul_comm n M ▸ hi)⟩, Rect.mem_set_unit.mpr fun a => ?_⟩
  obtain ⟨-, -, -, -, -, -, h0, h1⟩ := ho ⟨(i 0).val / M, Nat.div_lt_of_lt_mul (Nat.mul_comm n M ▸ hi)⟩
  match a with
  | ⟨0, _⟩ =>
    show o _ 0 ≤ (i 0).val ∧ (i 0).val < o _ 0 + M
    rw [h0]
    exact ⟨Nat.div_mul_le_self _ _, Nat.lt_div_mul_add hM⟩
  | ⟨1, _⟩ =>
    show o _ 1 ≤ (i 1).val ∧ (i 1).val < o _ 1 + N
    rw [h1]
    exact ⟨Nat.zero_le _, (Nat.zero_add N).symm ▸ (i 1).isLt⟩

variable (V : (c : Dev nD) → (b : Ref sig .tc) → Buf (Elt Ideal) ((c : Thread nD τ).loc b))

theorem idx0 : ∀ t : Fin cfg0.N, RowOffs (t.val * 256) (win0_0.rect t).off (win0_1.rect t).off (win0_2.rect t).off (win0_3.rect t).off :=
  (by decide +kernel : ∀ t : Fin grid0.N, _)

theorem fin0 (c : Dev nD) (i : Fin 3072) (j : Fin 500) :
    (dat0 (F := Ideal) V c).arrAt 3 cfg0.N (ix2 i j)
      = Cert.Spec.lin (fun i k => V c main_v0 (ix2 i k)) (fun k j => V c main_v1 (ix2 k j)) (fun j => V c main_v2 (ix2 0 j)) i j :=
  congrFun ((dat0 (F := Ideal) V c).arrAt_eq_of_cover 3 (linArr (V c main_v0) (V c main_v1) (V c main_v2))
    (fun t _ => by
      show (cfg0.win 3).cut (grid0.coords t) ((dat0 (F := Ideal) V c).after 3 t) = _
      rw [after0_3]
      unfold out0_3
      rw [canon_lin (k0_pay1 (F := Ideal)) fun x w b => lin_payload x w b _ _ _ _]
      exact lin_ld (V c main_v0) (V c main_v1) (V c main_v2) (idx0 t))
    fun y => (exists_rows (n := cfg0.N) rfl (by decide) _ _ idx0 y).imp
      fun t h => ⟨flush0_3 t, (congrArg (y ∈ ·) (View.set_slice_whole _ _)).mpr h⟩) (ix2 i j)

theorem idx3 : ∀ t : Fin cfg3.N, RowOffs (t.val * 256) (win3_0.rect t).off (win3_1.rect t).off (win3_2.rect t).off (win3_3.rect t).off :=
  (by decide +kernel : ∀ t : Fin grid3.N, _)

theorem fin3 (c : Dev nD) (i : Fin 3072) (j : Fin 500) :
    (dat3 (F := Ideal) V c).arrAt 3 cfg3.N (ix2 i j)
      = Cert.Spec.lin (fun i k => V c main_v13 (ix2 i k)) (fun k j => V c main_v14 (ix2 k j)) (fun j => V c main_v15 (ix2 0 j)) i j :=
  congrFun ((dat3 (F := Ideal) V c).arrAt_eq_of_cover 3 (linArr (V c main_v13) (V c main_v14) (V c main_v15))
    (fun t _ => by
      show (cfg3.win 3).cut (grid3.coords t) ((dat3 (F := Ideal) V c).after 3 t) = _
      rw [after3_3]
      unfold out3_3
      rw [canon_lin (k3_pay1 (F := Ideal)) fun x w b => lin_payload x w b _ _ _ _]
      exact lin_ld (V c main_v13) (V c main_v14) (V c main_v15) (idx3 t))
    fun y => (exists_rows (n := cfg3.N) rfl (by decide) _ _ idx3 y).imp
      fun t h => ⟨flush3_3 t, (congrArg (y ∈ ·) (View.set_slice_whole _ _)).mpr h⟩) (ix2 i j)

theorem idx6 : ∀ t : Fin cfg6.N, RowOffs (t.val * 256) (win6_0.rect t).off (win6_1.rect t).off (win6_2.rect t).off (win6_3.rect t).off :=
  (by decide +kernel : ∀ t : Fin grid6.N, _)

theorem fin6 (c : Dev nD) (i : Fin 3072) (j : Fin 2000) :
    (dat6 (F := Ideal) V c).arrAt 3 cfg6.N (ix2 i j)
      = Cert.Spec.lin (fun i k => V c main_v26 (ix2 i k)) (fun k j => V c main_v27 (ix2 k j)) (fun j => V c main_v28 (ix2 0 j)) i j :=
  congrFun ((dat6 (F := Ideal) V c).arrAt_eq_of_cover 3 (linArr (V c main_v26) (V c main_v27) (V c main_v28))
    (fun t _ => by
      show (cfg6.win 3).cut (grid6.coords t) ((dat6 (F := Ideal) V c).after 3 t) = _
      rw [after6_3]
      unfold out6_3
      rw [canon_lin (k6_pay1 (F := Ideal)) fun x w b => lin_payload x w b _ _ _ _]
      exact lin_ld (V c main_v26) (V c main_v27) (V c main_v28) (idx6 t))
    fun y => (exists_rows (n := cfg6.N) rfl (by decide) _ _ idx6 y).imp
      fun t h => ⟨flush6_3 t, (congrArg (y ∈ ·) (View.set_slice_whole _ _)).mpr h⟩) (ix2 i j)

theorem idx9 : ∀ t : Fin cfg9.N, RowOffs (t.val * 256) (win9_0.rect t).off (win9_1.rect t).off (win9_2.rect t).off (win9_3.rect t).off :=
  (by decide +kernel : ∀ t : Fin grid9.N, _)

theorem fin9 (c : Dev nD) (i : Fin 3072) (j : Fin 10) :
    (dat9 (F := Ideal) V c).arrAt 3 cfg9.N (ix2 i j)
      = Cert.Spec.lin (fun i k => V c main_v39 (ix2 i k)) (fun k j => V c main_v40 (ix2 k j)) (fun j => V c main_v41 (ix2 0 j)) i j :=
  congrFun ((dat9 (F := Ideal) V c).arrAt_eq_of_cover 3 (linArr (V c main_v39) (V c main_v40) (V c main_v41))
    (fun t _ => by
      show (cfg9.win 3).cut (grid9.coords t) ((dat9 (F := Ideal) V c).after 3 t) = _
      rw [after9_3]
      unfold out9_3
      rw [canon_lin (k9_pay1 (F := Ideal)) fun x w b => lin_payload x w b _ _ _ _]
      exact lin_ld (V c main_v39) (V c main_v40) (V c main_v41) (idx9 t))
    fun y => (exists_rows (n := cfg9.N) rfl (by decide) _ _ idx9 y).imp
      fun t h => ⟨flush9_3 t, (congrArg (y ∈ ·) (View.set_slice_whole _ _)).mpr h⟩) (ix2 i j)

theorem idx13 : ∀ t : Fin cfg13.N, RowOffs (t.val * 256) (win13_0.rect t).off (win13_1.rect t).off (win13_2.rect t).off (win13_3.rect t).off :=
  (by decide +kernel : ∀ t : Fin grid13.N, _)

theorem fin13 (c : Dev nD) (i : Fin 3072) (j : Fin 2000) :
    (dat13 (F := Ideal) V c).arrAt 3 cfg13.N (ix2 i j)
      = Cert.Spec.lin (fun i k => V c main_v53 (ix2 i k)) (fun k j => V c main_v54 (ix2 k j)) (fun j => V c main_v55 (ix2 0 j)) i j :=
  congrFun ((dat13 (F := Ideal) V c).arrAt_eq_of_cover 3 (linArr (V c main_v53) (V c main_v54) (V c main_v55))
    (fun t _ => by
      show (cfg13.win 3).cut (grid13.coords t) ((dat13 (F := Ideal) V c).after 3 t) = _
      rw [after13_3]
      unfold out13_3
      rw [canon_lin (k13_pay1 (F := Ideal)) fun x w b => lin_payload x w b _ _ _ _]
      exact lin_ld (V c main_v53) (V c main_v54) (V c main_v55) (idx13 t))
    fun y => (exists_rows (n := cfg13.N) rfl (by decide) _ _ idx13 y).imp
      fun t h => ⟨flush13_3 t, (congrArg (y ∈ ·) (View.set_slice_whole _ _)).mpr h⟩) (ix2 i j)

theorem idx14 : ∀ t : Fin cfg14.N, RowOffs (t.val * 256) (win14_0.rect t).off (win14_1.rect t).off (win14_2.rect t).off (win14_3.rect t).off :=
  (by decide +kernel : ∀ t : Fin grid14.N, _)

theorem fin14 (c : Dev nD) (i : Fin 3072) (j : Fin 500) :
    (dat14 (F := Ideal) V c).arrAt 3 cfg14.N (ix2 i j)
      = Cert.Spec.lin (fun i k => V c main_v57 (ix2 i k)) (fun k j => V c main_v58 (ix2 k j)) (fun j => V c main_v59 (ix2 0 j)) i j :=
  congrFun ((dat14 (F := Ideal) V c).arrAt_eq_of_cover 3 (linArr (V c main_v57) (V c main_v58) (V c main_v59))
    (fun t _ => by
      show (cfg14.win 3).cut (grid14.coords t) ((dat14 (F := Ideal) V c).after 3 t) = _
      rw [after14_3]
      unfold out14_3
      rw [canon_lin (k14_pay1 (F := Ideal)) fun x w b => lin_payload x w b _ _ _ _]
      exact lin_ld (V c main_v57) (V c main_v58) (V c main_v59) (idx14 t))
    fun y => (exists_rows (n := cfg14.N) rfl (by decide) _ _ idx14 y).imp
      fun t h => ⟨flush14_3 t, (congrArg (y ∈ ·) (View.set_slice_whole _ _)).mpr h⟩) (ix2 i j)

theorem idx15 : ∀ t : Fin cfg15.N, RowOffs (t.val * 256) (win15_0.rect t).off (win15_1.rect t).off (win15_2.rect t).off (win15_3.rect t).off :=
  (by decide +kernel : ∀ t : Fin grid15.N, _)

theorem fin15 (c : Dev nD) (i : Fin 3072) (j : Fin 500) :
    (dat15 (F := Ideal) V c).arrAt 3 cfg15.N (ix2 i j)
      = Cert.Spec.lin (fun i k => V c main_v61 (ix2 i k)) (fun k j => V c main_v62 (ix2 k j)) (fun j => V c main_v63 (ix2 0 j)) i j :=
  congrFun ((dat15 (F := Ideal) V c).arrAt_eq_of_cover 3 (linArr (V c main_v61) (V c main_v62) (V c main_v63))
    (fun t _ => by
      show (cfg15.win 3).cut (grid15.coords t) ((dat15 (F := Ideal) V c).after 3 t) = _
      rw [after15_3]
      unfold out15_3
      rw [canon_lin (k15_pay1 (F := Ideal)) fun x w b => lin_payload x w b _ _ _ _]
      exact lin_ld (V c main_v61) (V c main_v62) (V c main_v63) (idx15 t))
    fun y => (exists_rows (n := cfg15.N) rfl (by decide) _ _ idx15 y).imp
      fun t h => ⟨flush15_3 t, (congrArg (y ∈ ·) (View.set_slice_whole _ _)).mpr h⟩) (ix2 i j)

theorem idx16 : ∀ t : Fin cfg16.N, RowOffs (t.val * 256) (win16_0.rect t).off (win16_1.rect t).off (win16_2.rect t).off (win16_3.rect t).off :=
  (by decide +kernel : ∀ t : Fin grid16.N, _)

theorem fin16 (c : Dev nD) (i : Fin 3072) (j : Fin 784) :
    (dat16 (F := Ideal) V c).arrAt 3 cfg16.N (ix2 i j)
      = Cert.Spec.lin (fun i k => V c main_v65 (ix2 i k)) (fun k j => V c main_v66 (ix2 k j)) (fun j => V c main_v67 (ix2 0 j)) i j :=
  congrFun ((dat16 (F := Ideal) V c).arrAt_eq_of_cover 3 (linArr (V c main_v65) (V c main_v66) (V c main_v67))
    (fun t _ => by
      show (cfg16.win 3).cut (grid16.coords t) ((dat16 (F := Ideal) V c).after 3 t) = _
      rw [after16_3]
      unfold out16_3
      rw [canon_lin (k16_pay1 (F := Ideal)) fun x w b => lin_payload x w b _ _ _ _]
      exact lin_ld (V c main_v65) (V c main_v66) (V c main_v67) (idx16 t))
    fun y => (exists_rows (n := cfg16.N) rfl (by decide) _ _ idx16 y).imp
      fun t h => ⟨flush16_3 t, (congrArg (y ∈ ·) (View.set_slice_whole _ _)).mpr h⟩) (ix2 i j)

end Cert.KI

end
-- ==== Proof.KI.PayStats.lean ====
import proofs.«146000_j29076928594330_2_alg».proof.Proof.Gen.KernelIdeal.Skeleton
import proofs.«146000_j29076928594330_2_alg».proof.Proof.Spec
import Idealize.ShloMosaic.PureOps.Ideal.Laws
import Idealize.ShloMosaic.Lib.ValueLayout

noncomputable section

open scoped BigOperators

namespace Cert.KI

open Idealize.ShloMosaic Idealize.ShloMosaic.ValueIdx Cert.KernelIdeal Cert.KernelIdeal.Gen

-- A column broadcast along the columns reads, at (p, c), the column at p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Gram

variable (M K N : ℕ)

-- In the product contracting both operands' last axes, the left operand's row is the entry's row,
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

-- and the right operand's row is the entry's column.
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

-- Into zeros, that product at (p, j) is row p of a against row j of w.
theorem gramT {φ₁ φ₂ : FTy} (a : FVec Ideal ⟨2, ![M, K]⟩ φ₁) (w : FVec Ideal ⟨2, ![N, K]⟩ φ₂) (p : Fin M) (j : Fin N) :
    FloatOps.matmul (DotDims.transposedRhs M K N) none a w (constant (F := Ideal) ⟨2, ![M, N]⟩ .f32 0x00000000#32) (ix2 p j)
      = ∑ k : Fin K, a (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    Shape.idx_ext₂ (lhsT_0 M K N _ _) (((DotDims.transposedRhs M K N).lhsIdx_val_of_single rfl _ _).trans hk)
  have er : (DotDims.transposedRhs M K N).rhsIdx (ix2 p j) ((contrEquiv1 (DotDims.transposedRhs M K N) K rfl rfl).symm k) = ix2 j k :=
    Shape.idx_ext₂ (rhsT_0 M K N _ _) (((DotDims.transposedRhs M K N).rhsIdx_val_of_single rfl _ _).trans hk)
  rw [el, er]

end Gram

-- A vector of 64 entries viewed as a column reads, at (p, 0), the vector at p.
theorem castCol64 {α : Type} (v : S64.Idx → α) (p : Fin 64) :
    shapeCast S64x1 v shapeCasts_S64_S64x1 (ix2 p (0 : Fin 1)) = v (ix1 p) :=
  shapeCast_apply v shapeCasts_S64_S64x1 (ix2 p (0 : Fin 1)) (ix1 p) (by
    rw [Shape.rowMajor_val_one, Shape.rowMajor_val_two]
    show p.val = p.val * 1 + 0
    omega)

-- The sum along each row of a [64, 3072] matrix, at row p.
theorem laneSum64 (src : FVec Ideal S64x3072 .f32) (p : Fin 64) :
    multiReduction .add [1] S64 src 0x00000000#32 reduces_S64x3072_S64 (.inl rfl) rfl (ix1 p)
      = ∑ j : Fin 3072, src (ix2 p j) := by
  refine (Ideal.multiReduction_add_single src 0x00000000#32 reduces_S64x3072_S64 (.inl rfl) rfl (ix1 p)).trans ?_
  refine Finset.sum_congr rfl fun j _ => congrArg src ?_
  funext ax
  apply Fin.ext
  match ax with
  | ⟨0, _⟩ => rfl
  | ⟨1, _⟩ => rfl

-- The 0/1 factor: 0 when g·64 + p = j, else 1; at these sizes the 32-bit sum is the natural-number sum.
theorem maskWord (g p j : ℕ) (hg : g < 48) (hp : p < 64) (hj : j < 3072) :
    FloatOps.sitofp (F := Ideal) .f32
        ((IntOp.cmpi .ne (IntOp.addi (Scalar.muli (BitVec.ofNat 32 g) 64#32) (BitVec.ofNat 32 p)) (BitVec.ofNat 32 j)).setWidth 32)
      = if g * 64 + p = j then (0 : EReal) else 1 := by
  have e : IntOp.addi (Scalar.muli (BitVec.ofNat 32 g) 64#32) (BitVec.ofNat 32 p) = BitVec.ofNat 32 (g * 64 + p) := by
    show BitVec.ofNat 32 g * BitVec.ofNat 32 64 + BitVec.ofNat 32 p = _
    rw [BitVec.ofNat_add, BitVec.ofNat_mul]
  rw [e]
  show ((((IntOp.cmpi .ne (BitVec.ofNat 32 (g * 64 + p)) (BitVec.ofNat 32 j)).setWidth 32).toInt : ℝ) : EReal) = _
  unfold IntOp.cmpi
  by_cases h : g * 64 + p = j
  · rw [if_pos h, h]
    simp
  · rw [if_neg h]
    have hne : (BitVec.ofNat 32 (g * 64 + p) != BitVec.ofNat 32 j) = true := by
      rw [bne_iff_ne]
      intro hh
      have h2 := congrArg BitVec.toNat hh
      rw [BitVec.toNat_ofNat, BitVec.toNat_ofNat, Nat.mod_eq_of_lt (by omega), Nat.mod_eq_of_lt (by omega)] at h2
      exact h h2
    simp only [hne]
    simp

-- The stored block at width K for row block g: per row, (Σ_j exp(−d²/2)·[row ≠ j] + ε)^(−1/2), d² from the inner products.
def pay (K g : ℕ) (x0 : Vec Ideal ⟨2, ![64, K]⟩ .bf16) (x1 : Vec Ideal ⟨2, ![3072, K]⟩ .bf16) (x2 : Vec Ideal S64x1 .f32)
    (x3 : Vec Ideal S1x3072 .f32) : FVec Ideal S64x1 .f32 :=
  rsqrt (addf (shapeCast S64x1 (multiReduction .add [1] S64
      (mulf (exp (mulf (broadcast S64x3072 (Scalar.ofBits .f32 0xBF000000#32))
          (maximumf (subf (addf (broadcastTo S64x3072 x2 broadcasts_S64x1_S64x3072) (broadcastTo S64x3072 x3 broadcasts_S1x3072_S64x3072))
              (mulf (broadcast S64x3072 (Scalar.ofBits .f32 0x40000000#32))
                (matmul (φ₁ := .bf16) (φ₂ := .bf16) (DotDims.transposedRhs 64 K 3072) none x0 x1 (constant S64x3072 .f32 0x00000000#32))))
            (broadcast S64x3072 (Scalar.ofBits .f32 0x00000000#32)))))
        (sitofp .f32 (extui 32 (cmpi .ne (addi (broadcast S64x3072 (Scalar.muli (BitVec.ofNat 32 g) 64#32))
            (iota .tc S64x3072 32 [0] iota_S64x3072_d0_w32)) (iota .tc S64x3072 32 [1] iota_S64x3072_d1_w32)) natLt_1_32)))
      0x00000000#32 reduces_S64x3072_S64 (.inl rfl) rfl) shapeCasts_S64_S64x1)
    (broadcast S64x1 (Scalar.ofBits .f32 0x2B8CBCCC#32)))

-- Its row p: the inverse square root of Σ_j exp(−d²(p,j)/2)·[g·64 + p ≠ j] + ε.
theorem pay_row (K g : ℕ) (hg : g < 48) (x0 : Vec Ideal ⟨2, ![64, K]⟩ .bf16) (x1 : Vec Ideal ⟨2, ![3072, K]⟩ .bf16)
    (x2 : Vec Ideal S64x1 .f32) (x3 : Vec Ideal S1x3072 .f32) (p : Fin 64) :
    pay K g x0 x1 x2 x3 (ix2 p 0)
      = Ideal.rsqrt ((∑ j : Fin 3072, Ideal.exp (Cert.Spec.cmh * max (x2 (ix2 p 0) + x3 (ix2 0 j)
            - Cert.Spec.c2 * ∑ k : Fin K, x0 (ix2 p k) * x1 (ix2 j k)) Cert.Spec.c0)
          * (if g * 64 + p.val = j.val then 0 else 1)) + Cert.Spec.ceps) := by
  show Ideal.rsqrt (shapeCast S64x1 _ shapeCasts_S64_S64x1 (ix2 p (0 : Fin 1)) + Cert.Spec.ceps) = _
  rw [castCol64, laneSum64]
  refine congrArg (fun s => Ideal.rsqrt (s + Cert.Spec.ceps)) (Finset.sum_congr rfl fun j _ => ?_)
  rw [mulf_apply]
  refine congr (congrArg HMul.hMul ?_) ?_
  · show Ideal.exp (Cert.Spec.cmh * max (broadcastTo S64x3072 x2 broadcasts_S64x1_S64x3072 (ix2 p j)
        + broadcastTo S64x3072 x3 broadcasts_S1x3072_S64x3072 (ix2 p j)
        - Cert.Spec.c2 * FloatOps.matmul (DotDims.transposedRhs 64 K 3072) none x0 x1 (constant (F := Ideal) S64x3072 .f32 0x00000000#32) (ix2 p j)) Cert.Spec.c0) = _
    rw [broadcastTo_a1_ab_apply, broadcastTo_1b_ab_apply, gramT]
  · show FloatOps.sitofp (F := Ideal) .f32
        ((IntOp.cmpi .ne (IntOp.addi (Scalar.muli (BitVec.ofNat 32 g) 64#32)
          (iota .tc S64x3072 32 [0] iota_S64x3072_d0_w32 (ix2 p j))) (iota .tc S64x3072 32 [1] iota_S64x3072_d1_w32 (ix2 p j))).setWidth 32) = _
    rw [iota_single_apply, iota_single_apply]
    exact maskWord g p.val j.val hg p.isLt j.isLt

-- The generated payloads are that block at widths 500, 500, 2000 and 10.
theorem k1_pay1_eq (i : grid1.Coords) (x0 : Vec Ideal S64x500 .bf16) (x1 : Vec Ideal S3072x500 .bf16) (x2 : Vec Ideal S64x1 .f32)
    (x3 : Vec Ideal S1x3072 .f32) : k1_pay1 (F := Ideal) i x0 x1 x2 x3 = pay 500 (i 0).val x0 x1 x2 x3 := by
  unfold k1_pay1
  simp only [shapeCast_self]
  rfl
theorem k4_pay1_eq (i : grid4.Coords) (x0 : Vec Ideal S64x500 .bf16) (x1 : Vec Ideal S3072x500 .bf16) (x2 : Vec Ideal S64x1 .f32)
    (x3 : Vec Ideal S1x3072 .f32) : k4_pay1 (F := Ideal) i x0 x1 x2 x3 = pay 500 (i 0).val x0 x1 x2 x3 :=
  k1_pay1_eq i x0 x1 x2 x3
theorem k7_pay1_eq (i : grid7.Coords) (x0 : Vec Ideal S64x2000 .bf16) (x1 : Vec Ideal S3072x2000 .bf16) (x2 : Vec Ideal S64x1 .f32)
    (x3 : Vec Ideal S1x3072 .f32) : k7_pay1 (F := Ideal) i x0 x1 x2 x3 = pay 2000 (i 0).val x0 x1 x2 x3 := by
  unfold k7_pay1
  simp only [shapeCast_self]
  rfl
theorem k10_pay1_eq (i : grid10.Coords) (x0 : Vec Ideal S64x10 .bf16) (x1 : Vec Ideal S3072x10 .bf16) (x2 : Vec Ideal S64x1 .f32)
    (x3 : Vec Ideal S1x3072 .f32) : k10_pay1 (F := Ideal) i x0 x1 x2 x3 = pay 10 (i 0).val x0 x1 x2 x3 := by
  unfold k10_pay1
  simp only [shapeCast_self]
  rfl

end Cert.KI

end
-- ==== Proof.KI.FinStats.lean ====
import proofs.«146000_j29076928594330_2_alg».proof.Proof.KI.R01
import proofs.«146000_j29076928594330_2_alg».proof.Proof.KI.R04
import proofs.«146000_j29076928594330_2_alg».proof.Proof.KI.R07
import proofs.«146000_j29076928594330_2_alg».proof.Proof.KI.R10
import proofs.«146000_j29076928594330_2_alg».proof.Proof.KI.PayStats
import proofs.«146000_j29076928594330_2_alg».proof.Proof.Spec
import Idealize.ShloMosaic.Lib.Pipeline.Value

noncomputable section

open scoped BigOperators

namespace Cert.KI

open Cert.KernelIdeal Cert.KernelIdeal.Gen
open Idealize.ShloMosaic Idealize.ShloMosaic.TcCoe Idealize.ShloMosaic.ValueIdx
open Idealize.SL.Sem
open Idealize.ShloMosaic.Pipeline (Dat)

-- Entry i of the column: (Σ_{j ≠ i} exp(−d²(i,j)/2) + ε)^(−1/2), d²(i,j) = max(s_i + s'_j − 2 h_i·h_j, 0).
def degInv {K : ℕ} (h : Vec Ideal ⟨2, ![3072, K]⟩ .bf16) (s : Vec Ideal S3072x1 .f32) (s' : Vec Ideal S1x3072 .f32) :
    Vec Ideal S3072x1 .f32 := fun y =>
  Ideal.rsqrt ((∑ j : Fin 3072, Ideal.exp (Cert.Spec.cmh * max (s (ix2 (y 0) (0 : Fin 1)) + s' (ix2 (0 : Fin 1) j)
      - Cert.Spec.c2 * ∑ k : Fin K, h (ix2 (y 0) k) * h (ix2 j k)) Cert.Spec.c0) * Cert.Spec.offdiag (y 0) j) + Cert.Spec.ceps)

-- Maps i0, i2, i4 send t to (t, 0), maps i1, i3 send it to (0, 0), and g is t.
abbrev RowStep (i0 i1 i2 i3 i4 : Fin 2 → ℕ) (g t : ℕ) : Prop :=
  i0 0 = t ∧ i0 1 = 0 ∧ i1 0 = 0 ∧ i1 1 = 0 ∧ i2 0 = t ∧ i2 1 = 0 ∧ i3 0 = 0 ∧ i3 1 = 0 ∧ i4 0 = t ∧ i4 1 = 0 ∧ g = t

-- Row x of row block t is row z = 64·t + x of that column: there [64·t + x ≠ j] is [z ≠ j].
theorem pay_point {K : ℕ} (h : Vec Ideal ⟨2, ![3072, K]⟩ .bf16) (s : Vec Ideal S3072x1 .f32) (s' : Vec Ideal S1x3072 .f32)
    {t g : ℕ} (ht : t < 48) {i0 i1 i2 i3 i4 : Fin 2 → ℕ}
    (hi : RowStep i0 i1 i2 i3 i4 g t)
    {ε0 : (⟨2, ![64, K]⟩ : Shape).Idx → (⟨2, ![3072, K]⟩ : Shape).Idx} (h0 : ∀ y a, (ε0 y a).val = i0 a * (![64, K] : Fin 2 → ℕ) a + (y a).val)
    {ε1 : (⟨2, ![3072, K]⟩ : Shape).Idx → (⟨2, ![3072, K]⟩ : Shape).Idx} (h1 : ∀ y a, (ε1 y a).val = i1 a * (![3072, K] : Fin 2 → ℕ) a + (y a).val)
    {ε2 : S64x1.Idx → S3072x1.Idx} (h2 : ∀ y a, (ε2 y a).val = i2 a * (![64, 1] : Fin 2 → ℕ) a + (y a).val)
    {ε3 : S1x3072.Idx → S1x3072.Idx} (h3 : ∀ y a, (ε3 y a).val = i3 a * (![1, 3072] : Fin 2 → ℕ) a + (y a).val)
    {ε4 : S64x1.Idx → S3072x1.Idx} (h4 : ∀ y a, (ε4 y a).val = i4 a * (![64, 1] : Fin 2 → ℕ) a + (y a).val)
    (b0 : Vec Ideal ⟨2, ![64, K]⟩ .bf16) (hb0 : ∀ y, b0 y = h (ε0 y)) (b1 : Vec Ideal ⟨2, ![3072, K]⟩ .bf16) (hb1 : ∀ y, b1 y = h (ε1 y))
    (b2 : Vec Ideal S64x1 .f32) (hb2 : ∀ y, b2 y = s (ε2 y)) (b3 : Vec Ideal S1x3072 .f32) (hb3 : ∀ y, b3 y = s' (ε3 y)) (x : S64x1.Idx) :
    pay K g b0 b1 b2 b3 x = degInv h s s' (ε4 x) := by
  obtain ⟨e0, e1, e2, e3, e4, e5, e6, e7, e8, e9, rfl⟩ := hi
  have hx : x = ix2 (x 0) (0 : Fin 1) := Shape.idx_ext₂ rfl (by show (x 1).val = 0; have := idx2_lt1 x; omega)
  have z0 : (ε4 x 0).val = g * 64 + (x 0).val := (h4 x 0).trans (congrArg (· * 64 + (x 0).val) e8)
  have w1 : b1 = h := funext fun y => (hb1 y).trans (congrArg h (Shape.idx_ext₂
    ((h1 y 0).trans (by rw [e2, Nat.zero_mul, Nat.zero_add])) ((h1 y 1).trans (by rw [e3, Nat.zero_mul, Nat.zero_add]))))
  have w3 : b3 = s' := funext fun y => (hb3 y).trans (congrArg s' (Shape.idx_ext₂
    ((h3 y 0).trans (by rw [e6, Nat.zero_mul, Nat.zero_add])) ((h3 y 1).trans (by rw [e7, Nat.zero_mul, Nat.zero_add]))))
  have w0 : ∀ k, b0 (ix2 (x 0) k) = h (ix2 (ε4 x 0) k) := fun k => (hb0 _).trans (congrArg h (Shape.idx_ext₂
    ((h0 _ 0).trans ((congrArg (· * 64 + (x 0).val) e0).trans z0.symm)) ((h0 _ 1).trans (by rw [e1, Nat.zero_mul, Nat.zero_add]; rfl))))
  have w2 : b2 (ix2 (x 0) (0 : Fin 1)) = s (ix2 (ε4 x 0) (0 : Fin 1)) := (hb2 _).trans (congrArg s (Shape.idx_ext₂
    ((h2 _ 0).trans ((congrArg (· * 64 + (x 0).val) e4).trans z0.symm)) ((h2 _ 1).trans (by rw [e5, Nat.zero_mul, Nat.zero_add]))))
  rw [w1, w3]
  refine (congrArg (pay K g b0 h b2 s') hx).trans ((pay_row K g ht b0 h b2 s' (x 0)).trans ?_)
  show _ = Ideal.rsqrt ((∑ j : Fin 3072, Ideal.exp (Cert.Spec.cmh * max (s (ix2 (ε4 x 0) (0 : Fin 1)) + s' (ix2 (0 : Fin 1) j)
      - Cert.Spec.c2 * ∑ k : Fin K, h (ix2 (ε4 x 0) k) * h (ix2 j k)) Cert.Spec.c0) * Cert.Spec.offdiag (ε4 x 0) j) + Cert.Spec.ceps)
  refine congrArg (fun u => Ideal.rsqrt (u + Cert.Spec.ceps)) (Finset.sum_congr rfl fun j _ => ?_)
  refine congr (congrArg HMul.hMul (congrArg Ideal.exp (congrArg (Cert.Spec.cmh * ·) (congrArg (max · Cert.Spec.c0) ?_)))) ?_
  · exact congr (congrArg HSub.hSub (congrArg (· + s' (ix2 (0 : Fin 1) j)) w2))
      (congrArg (Cert.Spec.c2 * ·) (Finset.sum_congr rfl fun k _ => congrArg (· * h (ix2 j k)) (w0 k)))
  · show _ = Cert.Spec.offdiag (ε4 x 0) j
    unfold Cert.Spec.offdiag
    by_cases hj : g * 64 + (x 0).val = j.val
    · rw [if_pos hj, if_pos (Fin.ext (z0.trans hj))]
    · rw [if_neg hj, if_neg fun e => hj (z0.symm.trans (congrArg Fin.val e))]

-- Row i0 lies in the block of 64 rows numbered i0 / 64; the single column lies in block 0.
theorem mem_rowBlock {x0 x1 i0 i1 : ℕ} (e0 : x0 = i0 / 64) (e1 : x1 = 0) (h1 : i1 < 1) :
    (x0 * 64 ≤ i0 ∧ i0 < x0 * 64 + 64) ∧ x1 * 1 ≤ i1 ∧ i1 < x1 * 1 + 1 := by
  subst e0 e1
  omega

variable (V : (c : Dev nD) → (b : Ref sig .tc) → Buf (Elt Ideal) ((c : Thread nD τ).loc b))

theorem zero2s : (![0, 0] : Fin 2 → Nat) = fun _ => 0 := funext fun a => by fin_cases a <;> rfl

abbrev arr1_0 (c : Dev nD) : Vec Ideal S3072x500 .bf16 := V c main_v4
abbrev arr1_2 (c : Dev nD) : Vec Ideal S3072x1 .f32 := V c main_v8
abbrev arr1_3 (c : Dev nD) : Vec Ideal S1x3072 .f32 := V c main_v9

theorem idx_facts1 : ∀ t : Fin cfg1.N, RowStep (win1_0.index t) (win1_1.index t) (win1_2.index t) (win1_3.index t)
    (win1_4.index t) (grid1.coords t 0).val t.val :=
  (by decide +kernel : ∀ t : Fin grid1.N, _)

theorem flushed1_eq (c : Dev nD) (t : Fin cfg1.N) :
    (dat1 (F := Ideal) V c).flushed 4 t
      = ((cfg1.win 4).blk t).view.read (Elt Ideal) (degInv (arr1_0 V c) (arr1_2 V c) (arr1_3 V c)) := by
  show (cfg1.win 4).cut (grid1.coords t) ((dat1 (F := Ideal) V c).after 4 t) = _
  rw [after1_4]
  unfold out1_4
  rw [View.canon_unit_zero zero2s]
  simp only [View.ld_unit_zero (S := S64x500) zero2s, View.ld_unit_zero (S := S3072x500) zero2s,
    View.ld_unit_zero (S := S64x1) zero2s, View.ld_unit_zero (S := S1x3072) zero2s]
  funext y
  exact (congrFun (k1_pay1_eq _ _ _ _ _) _).trans <| pay_point (arr1_0 V c) (arr1_2 V c) (arr1_3 V c) (Nat.lt_of_lt_of_eq t.isLt N_1) (idx_facts1 t)
    (fun y a => win1_0.rect_emb_val t y a) (fun y a => win1_1.rect_emb_val t y a) (fun y a => win1_2.rect_emb_val t y a)
    (fun y a => win1_3.rect_emb_val t y a) (fun y a => win1_4.rect_emb_val t y a)
    (iblk1 V c 0 t) (fun _ => rfl) (iblk1 V c 1 t) (fun _ => rfl) (iblk1 V c 2 t) (fun _ => rfl) (iblk1 V c 3 t) (fun _ => rfl) _

theorem cover1 (i : S3072x1.Idx) : ∃ t : Fin cfg1.N, (cfg1.win 4).flush t = true ∧ i ∈ ((cfg1.win 4).blk t).view.set := by
  have hi0 : (i 0).val < 3072 := (i 0).isLt
  have hN : cfg1.N = 48 := N_1
  obtain ⟨t, ht⟩ : ∃ t : Fin cfg1.N, t.val = (i 0).val / 64 := ⟨⟨(i 0).val / 64, by rw [hN]; omega⟩, rfl⟩
  obtain ⟨-, -, -, -, -, -, -, -, e8, e9, -⟩ := idx_facts1 t
  refine ⟨t, flush1_4 t, ?_⟩
  show i ∈ ((View.whole main_v10).slice (win1_4.rect t)).set
  rw [View.set_slice_whole, Rect.mem_set_unit]
  intro a
  match a with
  | ⟨0, _⟩ => exact (mem_rowBlock (e8.trans ht) e9 (i 1).isLt).1
  | ⟨1, _⟩ => exact (mem_rowBlock (e8.trans ht) e9 (i 1).isLt).2

theorem fin1 (c : Dev nD) (i : Fin 3072) :
    (dat1 (F := Ideal) V c).arrAt 4 cfg1.N (ix2 i 0)
      = Ideal.rsqrt ((∑ j : Fin 3072, Ideal.exp (Cert.Spec.cmh * max (arr1_2 V c (ix2 i 0) + arr1_3 V c (ix2 0 j)
          - Cert.Spec.c2 * ∑ k : Fin 500, arr1_0 V c (ix2 i k) * arr1_0 V c (ix2 j k)) Cert.Spec.c0) * Cert.Spec.offdiag i j) + Cert.Spec.ceps) :=
  congrFun ((dat1 (F := Ideal) V c).arrAt_eq_of_cover 4 (degInv (arr1_0 V c) (arr1_2 V c) (arr1_3 V c))
    (fun t _ => flushed1_eq V c t) cover1) (ix2 i 0)

abbrev arr4_0 (c : Dev nD) : Vec Ideal S3072x500 .bf16 := V c main_v17
abbrev arr4_2 (c : Dev nD) : Vec Ideal S3072x1 .f32 := V c main_v21
abbrev arr4_3 (c : Dev nD) : Vec Ideal S1x3072 .f32 := V c main_v22

theorem idx_facts4 : ∀ t : Fin cfg4.N, RowStep (win4_0.index t) (win4_1.index t) (win4_2.index t) (win4_3.index t)
    (win4_4.index t) (grid4.coords t 0).val t.val :=
  (by decide +kernel : ∀ t : Fin grid4.N, _)

theorem flushed4_eq (c : Dev nD) (t : Fin cfg4.N) :
    (dat4 (F := Ideal) V c).flushed 4 t
      = ((cfg4.win 4).blk t).view.read (Elt Ideal) (degInv (arr4_0 V c) (arr4_2 V c) (arr4_3 V c)) := by
  show (cfg4.win 4).cut (grid4.coords t) ((dat4 (F := Ideal) V c).after 4 t) = _
  rw [after4_4]
  unfold out4_4
  rw [View.canon_unit_zero zero2s]
  simp only [View.ld_unit_zero (S := S64x500) zero2s, View.ld_unit_zero (S := S3072x500) zero2s,
    View.ld_unit_zero (S := S64x1) zero2s, View.ld_unit_zero (S := S1x3072) zero2s]
  funext y
  exact (congrFun (k4_pay1_eq _ _ _ _ _) _).trans <| pay_point (arr4_0 V c) (arr4_2 V c) (arr4_3 V c) (Nat.lt_of_lt_of_eq t.isLt N_4) (idx_facts4 t)
    (fun y a => win4_0.rect_emb_val t y a) (fun y a => win4_1.rect_emb_val t y a) (fun y a => win4_2.rect_emb_val t y a)
    (fun y a => win4_3.rect_emb_val t y a) (fun y a => win4_4.rect_emb_val t y a)
    (iblk4 V c 0 t) (fun _ => rfl) (iblk4 V c 1 t) (fun _ => rfl) (iblk4 V c 2 t) (fun _ => rfl) (iblk4 V c 3 t) (fun _ => rfl) _

theorem cover4 (i : S3072x1.Idx) : ∃ t : Fin cfg4.N, (cfg4.win 4).flush t = true ∧ i ∈ ((cfg4.win 4).blk t).view.set := by
  have hi0 : (i 0).val < 3072 := (i 0).isLt
  have hN : cfg4.N = 48 := N_4
  obtain ⟨t, ht⟩ : ∃ t : Fin cfg4.N, t.val = (i 0).val / 64 := ⟨⟨(i 0).val / 64, by rw [hN]; omega⟩, rfl⟩
  obtain ⟨-, -, -, -, -, -, -, -, e8, e9, -⟩ := idx_facts4 t
  refine ⟨t, flush4_4 t, ?_⟩
  show i ∈ ((View.whole main_v23).slice (win4_4.rect t)).set
  rw [View.set_slice_whole, Rect.mem_set_unit]
  intro a
  match a with
  | ⟨0, _⟩ => exact (mem_rowBlock (e8.trans ht) e9 (i 1).isLt).1
  | ⟨1, _⟩ => exact (mem_rowBlock (e8.trans ht) e9 (i 1).isLt).2

theorem fin4 (c : Dev nD) (i : Fin 3072) :
    (dat4 (F := Ideal) V c).arrAt 4 cfg4.N (ix2 i 0)
      = Ideal.rsqrt ((∑ j : Fin 3072, Ideal.exp (Cert.Spec.cmh * max (arr4_2 V c (ix2 i 0) + arr4_3 V c (ix2 0 j)
          - Cert.Spec.c2 * ∑ k : Fin 500, arr4_0 V c (ix2 i k) * arr4_0 V c (ix2 j k)) Cert.Spec.c0) * Cert.Spec.offdiag i j) + Cert.Spec.ceps) :=
  congrFun ((dat4 (F := Ideal) V c).arrAt_eq_of_cover 4 (degInv (arr4_0 V c) (arr4_2 V c) (arr4_3 V c))
    (fun t _ => flushed4_eq V c t) cover4) (ix2 i 0)

abbrev arr7_0 (c : Dev nD) : Vec Ideal S3072x2000 .bf16 := V c main_v30
abbrev arr7_2 (c : Dev nD) : Vec Ideal S3072x1 .f32 := V c main_v34
abbrev arr7_3 (c : Dev nD) : Vec Ideal S1x3072 .f32 := V c main_v35

theorem idx_facts7 : ∀ t : Fin cfg7.N, RowStep (win7_0.index t) (win7_1.index t) (win7_2.index t) (win7_3.index t)
    (win7_4.index t) (grid7.coords t 0).val t.val :=
  (by decide +kernel : ∀ t : Fin grid7.N, _)

theorem flushed7_eq (c : Dev nD) (t : Fin cfg7.N) :
    (dat7 (F := Ideal) V c).flushed 4 t
      = ((cfg7.win 4).blk t).view.read (Elt Ideal) (degInv (arr7_0 V c) (arr7_2 V c) (arr7_3 V c)) := by
  show (cfg7.win 4).cut (grid7.coords t) ((dat7 (F := Ideal) V c).after 4 t) = _
  rw [after7_4]
  unfold out7_4
  rw [View.canon_unit_zero zero2s]
  simp only [View.ld_unit_zero (S := S64x2000) zero2s, View.ld_unit_zero (S := S3072x2000) zero2s,
    View.ld_unit_zero (S := S64x1) zero2s, View.ld_unit_zero (S := S1x3072) zero2s]
  funext y
  exact (congrFun (k7_pay1_eq _ _ _ _ _) _).trans <| pay_point (arr7_0 V c) (arr7_2 V c) (arr7_3 V c) (Nat.lt_of_lt_of_eq t.isLt N_7) (idx_facts7 t)
    (fun y a => win7_0.rect_emb_val t y a) (fun y a => win7_1.rect_emb_val t y a) (fun y a => win7_2.rect_emb_val t y a)
    (fun y a => win7_3.rect_emb_val t y a) (fun y a => win7_4.rect_emb_val t y a)
    (iblk7 V c 0 t) (fun _ => rfl) (iblk7 V c 1 t) (fun _ => rfl) (iblk7 V c 2 t) (fun _ => rfl) (iblk7 V c 3 t) (fun _ => rfl) _

theorem cover7 (i : S3072x1.Idx) : ∃ t : Fin cfg7.N, (cfg7.win 4).flush t = true ∧ i ∈ ((cfg7.win 4).blk t).view.set := by
  have hi0 : (i 0).val < 3072 := (i 0).isLt
  have hN : cfg7.N = 48 := N_7
  obtain ⟨t, ht⟩ : ∃ t : Fin cfg7.N, t.val = (i 0).val / 64 := ⟨⟨(i 0).val / 64, by rw [hN]; omega⟩, rfl⟩
  obtain ⟨-, -, -, -, -, -, -, -, e8, e9, -⟩ := idx_facts7 t
  refine ⟨t, flush7_4 t, ?_⟩
  show i ∈ ((View.whole main_v36).slice (win7_4.rect t)).set
  rw [View.set_slice_whole, Rect.mem_set_unit]
  intro a
  match a with
  | ⟨0, _⟩ => exact (mem_rowBlock (e8.trans ht) e9 (i 1).isLt).1
  | ⟨1, _⟩ => exact (mem_rowBlock (e8.trans ht) e9 (i 1).isLt).2

theorem fin7 (c : Dev nD) (i : Fin 3072) :
    (dat7 (F := Ideal) V c).arrAt 4 cfg7.N (ix2 i 0)
      = Ideal.rsqrt ((∑ j : Fin 3072, Ideal.exp (Cert.Spec.cmh * max (arr7_2 V c (ix2 i 0) + arr7_3 V c (ix2 0 j)
          - Cert.Spec.c2 * ∑ k : Fin 2000, arr7_0 V c (ix2 i k) * arr7_0 V c (ix2 j k)) Cert.Spec.c0) * Cert.Spec.offdiag i j) + Cert.Spec.ceps) :=
  congrFun ((dat7 (F := Ideal) V c).arrAt_eq_of_cover 4 (degInv (arr7_0 V c) (arr7_2 V c) (arr7_3 V c))
    (fun t _ => flushed7_eq V c t) cover7) (ix2 i 0)

abbrev arr10_0 (c : Dev nD) : Vec Ideal S3072x10 .bf16 := V c main_v43
abbrev arr10_2 (c : Dev nD) : Vec Ideal S3072x1 .f32 := V c main_v47
abbrev arr10_3 (c : Dev nD) : Vec Ideal S1x3072 .f32 := V c main_v48

theorem idx_facts10 : ∀ t : Fin cfg10.N, RowStep (win10_0.index t) (win10_1.index t) (win10_2.index t) (win10_3.index t)
    (win10_4.index t) (grid10.coords t 0).val t.val :=
  (by decide +kernel : ∀ t : Fin grid10.N, _)

theorem flushed10_eq (c : Dev nD) (t : Fin cfg10.N) :
    (dat10 (F := Ideal) V c).flushed 4 t
      = ((cfg10.win 4).blk t).view.read (Elt Ideal) (degInv (arr10_0 V c) (arr10_2 V c) (arr10_3 V c)) := by
  show (cfg10.win 4).cut (grid10.coords t) ((dat10 (F := Ideal) V c).after 4 t) = _
  rw [after10_4]
  unfold out10_4
  rw [View.canon_unit_zero zero2s]
  simp only [View.ld_unit_zero (S := S64x10) zero2s, View.ld_unit_zero (S := S3072x10) zero2s,
    View.ld_unit_zero (S := S64x1) zero2s, View.ld_unit_zero (S := S1x3072) zero2s]
  funext y
  exact (congrFun (k10_pay1_eq _ _ _ _ _) _).trans <| pay_point (arr10_0 V c) (arr10_2 V c) (arr10_3 V c) (Nat.lt_of_lt_of_eq t.isLt N_10) (idx_facts10 t)
    (fun y a => win10_0.rect_emb_val t y a) (fun y a => win10_1.rect_emb_val t y a) (fun y a => win10_2.rect_emb_val t y a)
    (fun y a => win10_3.rect_emb_val t y a) (fun y a => win10_4.rect_emb_val t y a)
    (iblk10 V c 0 t) (fun _ => rfl) (iblk10 V c 1 t) (fun _ => rfl) (iblk10 V c 2 t) (fun _ => rfl) (iblk10 V c 3 t) (fun _ => rfl) _

theorem cover10 (i : S3072x1.Idx) : ∃ t : Fin cfg10.N, (cfg10.win 4).flush t = true ∧ i ∈ ((cfg10.win 4).blk t).view.set := by
  have hi0 : (i 0).val < 3072 := (i 0).isLt
  have hN : cfg10.N = 48 := N_10
  obtain ⟨t, ht⟩ : ∃ t : Fin cfg10.N, t.val = (i 0).val / 64 := ⟨⟨(i 0).val / 64, by rw [hN]; omega⟩, rfl⟩
  obtain ⟨-, -, -, -, -, -, -, -, e8, e9, -⟩ := idx_facts10 t
  refine ⟨t, flush10_4 t, ?_⟩
  show i ∈ ((View.whole main_v49).slice (win10_4.rect t)).set
  rw [View.set_slice_whole, Rect.mem_set_unit]
  intro a
  match a with
  | ⟨0, _⟩ => exact (mem_rowBlock (e8.trans ht) e9 (i 1).isLt).1
  | ⟨1, _⟩ => exact (mem_rowBlock (e8.trans ht) e9 (i 1).isLt).2

theorem fin10 (c : Dev nD) (i : Fin 3072) :
    (dat10 (F := Ideal) V c).arrAt 4 cfg10.N (ix2 i 0)
      = Ideal.rsqrt ((∑ j : Fin 3072, Ideal.exp (Cert.Spec.cmh * max (arr10_2 V c (ix2 i 0) + arr10_3 V c (ix2 0 j)
          - Cert.Spec.c2 * ∑ k : Fin 10, arr10_0 V c (ix2 i k) * arr10_0 V c (ix2 j k)) Cert.Spec.c0) * Cert.Spec.offdiag i j) + Cert.Spec.ceps) :=
  congrFun ((dat10 (F := Ideal) V c).arrAt_eq_of_cover 4 (degInv (arr10_0 V c) (arr10_2 V c) (arr10_3 V c))
    (fun t _ => flushed10_eq V c t) cover10) (ix2 i 0)

end Cert.KI

end
-- ==== Proof.KI.PayComb.lean ====
import proofs.«146000_j29076928594330_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«146000_j29076928594330_2_alg».proof.Proof.Spec

noncomputable section

open scoped BigOperators

namespace Cert.KI.PayComb

open Cert.KernelIdeal Cert.KernelIdeal.Gen
open Idealize.ShloMosaic Idealize.ShloMosaic.ValueIdx
open Cert.Spec (c0 c1 c2 cmh)

-- A Bᵀ at (p, q) is row p of A times row q of B, whatever the sizes.
theorem gram_apply {M K N : ℕ} (x0 : FVec Ideal ⟨2, ![M, K]⟩ .bf16) (x1 : FVec Ideal ⟨2, ![N, K]⟩ .bf16) (p : Fin M) (q : Fin N) :
    matmul (DotDims.transposedRhs M K N) none x0 x1 (constant ⟨2, ![M, N]⟩ .f32 0x00000000#32) (ix2 p q)
      = ∑ k : Fin K, x0 (ix2 p k) * x1 (ix2 q k) := by
  refine (Ideal.matmul_constant_zero_apply (φ₁ := .bf16) (φ₂ := .bf16) _ none x0 x1 (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  rw [show (DotDims.transposedRhs M K N).lhsIdx (ix2 p q) ((contrEquiv1 _ K rfl rfl).symm k) = ix2 p k from
      Shape.idx_ext₂ rfl ((DotDims.lhsIdx_val_of_single _ rfl _ _).trans hk),
    show (DotDims.transposedRhs M K N).rhsIdx (ix2 p q) ((contrEquiv1 _ K rfl rfl).symm k) = ix2 q k from
      Shape.idx_ext₂ rfl ((DotDims.rhsIdx_val_of_single _ rfl _ _).trans hk)]

-- The comparison word of row r * 64 + p against column q, as a real: 0 where they agree, 1 where they differ.
theorem mask_word (r p q : ℕ) (hr : r < 48) (hp : p < 64) (hq : q < 3072) :
    FloatOps.sitofp (F := Ideal) .f32
        ((IntOp.cmpi .ne (IntOp.addi (Scalar.muli (BitVec.ofNat 32 r) 64#32) (BitVec.ofNat 32 p)) (BitVec.ofNat 32 q)).setWidth 32)
      = if r * 64 + p = q then (0 : EReal) else 1 := by
  have hx : IntOp.addi (Scalar.muli (BitVec.ofNat 32 r) 64#32) (BitVec.ofNat 32 p) = BitVec.ofNat 32 (r * 64 + p) := by
    apply BitVec.eq_of_toNat_eq
    simp only [IntOp.addi, Scalar.muli, IntOp.muli, BitVec.toNat_add, BitVec.toNat_mul, BitVec.toNat_ofNat]
    omega
  rw [hx]
  show (((BitVec.setWidth 32 (IntOp.cmpi .ne (BitVec.ofNat 32 (r * 64 + p)) (BitVec.ofNat 32 q))).toInt : ℝ) : EReal) = _
  by_cases h : r * 64 + p = q
  · have e : IntOp.cmpi .ne (BitVec.ofNat 32 (r * 64 + p)) (BitVec.ofNat 32 q) = 0#1 := by
      rw [h]; simp [IntOp.cmpi]
    rw [if_pos h, e, show (BitVec.setWidth 32 (0#1)).toInt = 0 by decide, Int.cast_zero, EReal.coe_zero]
  · have hne : BitVec.ofNat 32 (r * 64 + p) ≠ BitVec.ofNat 32 q := fun e => by
      have := congrArg BitVec.toNat e
      simp only [BitVec.toNat_ofNat] at this
      omega
    have e : IntOp.cmpi .ne (BitVec.ofNat 32 (r * 64 + p)) (BitVec.ofNat 32 q) = 1#1 := by
      show BitVec.ofBool (BitVec.ofNat 32 (r * 64 + p) != BitVec.ofNat 32 q) = 1#1
      rw [bne_iff_ne.mpr hne]
      rfl
    rw [if_neg h, e, show (BitVec.setWidth 32 (1#1)).toInt = 1 by decide, Int.cast_one, EReal.coe_one]

theorem col_apply (v : Vec Ideal S64x1 .f32) (p : Fin 64) (q : Fin 3072) :
    broadcastTo S64x3072 v broadcasts_S64x1_S64x3072 (ix2 p q) = v (ix2 p (0 : Fin 1)) :=
  broadcastTo_apply v broadcasts_S64x1_S64x3072 (ix2 p q) (ix2 p (0 : Fin 1)) fun ax => by
    match ax with
    | ⟨0, _⟩ => rfl
    | ⟨1, _⟩ => rfl

theorem row_apply (v : Vec Ideal S1x3072 .f32) (p : Fin 64) (q : Fin 3072) :
    broadcastTo S64x3072 v broadcasts_S1x3072_S64x3072 (ix2 p q) = v (ix2 (0 : Fin 1) q) :=
  broadcastTo_1b_ab_apply v broadcasts_S1x3072_S64x3072 p q

-- The clamped squared distances of a block of rows against all rows, from the block G of their Gram matrix.
def sqB (G : FVec Ideal S64x3072 .f32) (x2 : Vec Ideal S64x1 .f32) (x3 : Vec Ideal S1x3072 .f32) : FVec Ideal S64x3072 .f32 :=
  maximumf (subf (addf (broadcastTo S64x3072 (shapeCast S64x1 x2 shapeCasts_S64x1_S64x1) broadcasts_S64x1_S64x3072)
      (broadcastTo S64x3072 (shapeCast S1x3072 x3 shapeCasts_S1x3072_S1x3072) broadcasts_S1x3072_S64x3072))
    (mulf (broadcast S64x3072 c2) G)) (broadcast S64x3072 c0)

theorem sqB_apply (G : FVec Ideal S64x3072 .f32) (x2 : Vec Ideal S64x1 .f32) (x3 : Vec Ideal S1x3072 .f32) (p : Fin 64) (q : Fin 3072) :
    sqB G x2 x3 (ix2 p q) = max (x2 (ix2 p (0 : Fin 1)) + x3 (ix2 (0 : Fin 1) q) - c2 * G (ix2 p q)) c0 := by
  unfold sqB
  rw [shapeCast_self, shapeCast_self]
  simp only [maximumf_apply, subf_apply, addf_apply, mulf_apply, broadcast_apply]
  rw [col_apply, row_apply]

-- Block r of a layer's combined kernel from the block G of the Gram matrix: what every width's stored block unfolds to.
def combB (G : FVec Ideal S64x3072 .f32) (r : ℕ) (x2 : Vec Ideal S64x1 .f32) (x3 : Vec Ideal S1x3072 .f32) (x4 : Vec Ideal S64x1 .f32)
    (x5 : Vec Ideal S1x3072 .f32) (x6 x7 x8 x9 : Vec Ideal S64x3072 .f32) : FVec Ideal S64x3072 .f32 :=
  k2_pay1 G (divf (broadcast S64x3072 c1) (addf (broadcast S64x3072 c1) (sqB G x2 x3)))
    (mulf (addf G (broadcast S64x3072 c1)) (addf G (broadcast S64x3072 c1)))
    (mulf (mulf (exp (mulf (broadcast S64x3072 cmh) (sqB G x2 x3)))
        (sitofp .f32 (extui 32 (cmpi .ne
          (addi (broadcast S64x3072 (Scalar.muli (BitVec.ofNat 32 r) 64#32)) (iota .tc S64x3072 32 [0] iota_S64x3072_d0_w32))
          (iota .tc S64x3072 32 [1] iota_S64x3072_d1_w32)) natLt_1_32)))
      (broadcastTo S64x3072 (shapeCast S64x1 x4 shapeCasts_S64x1_S64x1) broadcasts_S64x1_S64x3072))
    x5 x6 x7 x8 x9

-- One entry of a layer's combined kernel: Gram entry g, squared norms s s', inverse root degrees d d', indicator m, four weights.
def entryF (g s s' d d' m w0 w1 w2 w3 : EReal) : EReal :=
  w0 * g + w1 * Ideal.div c1 (c1 + max (s + s' - c2 * g) c0) + w2 * ((g + c1) * (g + c1))
    + w3 * (Ideal.exp (cmh * max (s + s' - c2 * g) c0) * m * d * d')

theorem combB_apply (G : FVec Ideal S64x3072 .f32) (r : ℕ) (hr : r < 48) (x2 : Vec Ideal S64x1 .f32) (x3 : Vec Ideal S1x3072 .f32)
    (x4 : Vec Ideal S64x1 .f32) (x5 : Vec Ideal S1x3072 .f32) (x6 x7 x8 x9 : Vec Ideal S64x3072 .f32) (p : Fin 64) (q : Fin 3072) :
    combB G r x2 x3 x4 x5 x6 x7 x8 x9 (ix2 p q)
      = entryF (G (ix2 p q)) (x2 (ix2 p 0)) (x3 (ix2 0 q)) (x4 (ix2 p 0)) (x5 (ix2 0 q)) (if r * 64 + p.val = q.val then 0 else 1)
          (x6 (ix2 p q)) (x7 (ix2 p q)) (x8 (ix2 p q)) (x9 (ix2 p q)) := by
  have hm : (sitofp (F := Ideal) .f32 (extui 32 (cmpi .ne
        (addi (broadcast S64x3072 (Scalar.muli (BitVec.ofNat 32 r) 64#32)) (iota .tc S64x3072 32 [0] iota_S64x3072_d0_w32))
        (iota .tc S64x3072 32 [1] iota_S64x3072_d1_w32)) natLt_1_32) : FVec Ideal S64x3072 .f32) (ix2 p q)
      = if r * 64 + p.val = q.val then (0 : EReal) else 1 := by
    show FloatOps.sitofp (F := Ideal) .f32 ((IntOp.cmpi .ne (IntOp.addi (Scalar.muli (BitVec.ofNat 32 r) 64#32)
      (iota .tc S64x3072 32 [0] iota_S64x3072_d0_w32 (ix2 p q))) (iota .tc S64x3072 32 [1] iota_S64x3072_d1_w32 (ix2 p q))).setWidth 32) = _
    rw [iota_single_apply, iota_single_apply]
    exact mask_word r p.val q.val hr p.isLt q.isLt
  have he : ∀ v : FVec Ideal S64x3072 .f32, exp v (ix2 p q) = Ideal.exp (v (ix2 p q)) := fun _ => rfl
  unfold combB k2_pay1 entryF
  rw [shapeCast_self, shapeCast_self]
  simp only [addf_apply, mulf_apply, divf_apply, broadcast_apply, he]
  rw [col_apply, row_apply, hm, sqB_apply]

-- Row p of block r of 64 rows.
def row (r : ℕ) (hr : r < 48) (p : Fin 64) : Fin 3072 := ⟨r * 64 + p.val, by have := p.isLt; omega⟩

-- A layer's combined kernel at (i, j): from the activations, the squared norms and inverse root degrees, the four weight matrices.
def entry {n : ℕ} (H : FVec Ideal ⟨2, ![3072, n]⟩ .bf16) (S D : Vec Ideal S3072x1 .f32) (St Dt : Vec Ideal S1x3072 .f32)
    (W0 W1 W2 W3 : Vec Ideal S3072x3072 .f32) (i j : Fin 3072) : EReal :=
  entryF (∑ k : Fin n, H (ix2 i k) * H (ix2 j k)) (S (ix2 i (0 : Fin 1))) (St (ix2 (0 : Fin 1) j)) (D (ix2 i (0 : Fin 1)))
    (Dt (ix2 (0 : Fin 1) j)) (Cert.Spec.offdiag i j) (W0 (ix2 i j)) (W1 (ix2 i j)) (W2 (ix2 i j)) (W3 (ix2 i j))

def whole {n : ℕ} (H : FVec Ideal ⟨2, ![3072, n]⟩ .bf16) (S D : Vec Ideal S3072x1 .f32) (St Dt : Vec Ideal S1x3072 .f32)
    (W0 W1 W2 W3 : Vec Ideal S3072x3072 .f32) : Vec Ideal S3072x3072 .f32 := fun i => entry H S D St Dt W0 W1 W2 W3 (i 0) (i 1)

theorem hz : (![0, 0] : Fin 2 → Nat) = fun _ => 0 := funext fun a => by fin_cases a <;> rfl
theorem row_val {a t r p : ℕ} (h : a = t) (e : r = t) : a * 64 + 1 * p = r * 64 + p := by subst h e; omega
theorem col_val {a n b : ℕ} (h : a = 0) : a * n + 1 * b = b := by subst h; omega
theorem cover_row {a i : ℕ} (h : a = i / 64) : a * 64 ≤ i ∧ i < a * 64 + 64 := by subst h; omega
theorem cover_col {a n i : ℕ} (h : a = 0) (hi : i < n) : a * n ≤ i ∧ i < a * n + n := by subst h; omega

-- Block r of the combined kernel from blocks of the arrays: x0 x2 x4 x6 … x9 are rows r * 64 … of theirs, x1 x3 x5 whole arrays; e places the block.
theorem block_eq {n : ℕ} (H : FVec Ideal ⟨2, ![3072, n]⟩ .bf16) (S D : Vec Ideal S3072x1 .f32) (St Dt : Vec Ideal S1x3072 .f32)
    (W0 W1 W2 W3 : Vec Ideal S3072x3072 .f32) (r : ℕ) (hr : r < 48)
    (x0 : FVec Ideal ⟨2, ![64, n]⟩ .bf16) (x1 : FVec Ideal ⟨2, ![3072, n]⟩ .bf16) (s0 : Shape.ShapeCasts ⟨2, ![64, n]⟩ ⟨2, ![64, n]⟩)
    (s1 : Shape.ShapeCasts ⟨2, ![3072, n]⟩ ⟨2, ![3072, n]⟩) (x2 : Vec Ideal S64x1 .f32) (x3 : Vec Ideal S1x3072 .f32)
    (x4 : Vec Ideal S64x1 .f32) (x5 : Vec Ideal S1x3072 .f32) (x6 x7 x8 x9 : Vec Ideal S64x3072 .f32)
    (h0 : ∀ p k, x0 (ix2 p k) = H (ix2 (row r hr p) k)) (h1 : ∀ a k, x1 (ix2 a k) = H (ix2 a k))
    (h2 : ∀ p b, x2 (ix2 p b) = S (ix2 (row r hr p) b)) (h3 : ∀ a q, x3 (ix2 a q) = St (ix2 a q))
    (h4 : ∀ p b, x4 (ix2 p b) = D (ix2 (row r hr p) b)) (h5 : ∀ a q, x5 (ix2 a q) = Dt (ix2 a q))
    (h6 : ∀ p q, x6 (ix2 p q) = W0 (ix2 (row r hr p) q)) (h7 : ∀ p q, x7 (ix2 p q) = W1 (ix2 (row r hr p) q))
    (h8 : ∀ p q, x8 (ix2 p q) = W2 (ix2 (row r hr p) q)) (h9 : ∀ p q, x9 (ix2 p q) = W3 (ix2 (row r hr p) q))
    (e : S64x3072.Idx → S3072x3072.Idx) (he0 : ∀ y, ((e y 0 : Fin 3072) : ℕ) = r * 64 + (y 0 : Fin 64).val)
    (he1 : ∀ y, ((e y 1 : Fin 3072) : ℕ) = (y 1 : Fin 3072).val) :
    combB (matmul (DotDims.transposedRhs 64 n 3072) none (shapeCast _ x0 s0) (shapeCast _ x1 s1) (constant S64x3072 .f32 0x00000000#32))
        r x2 x3 x4 x5 x6 x7 x8 x9
      = fun y => whole H S D St Dt W0 W1 W2 W3 (e y) := by
  funext y
  obtain ⟨p, q, rfl⟩ : ∃ p q, y = ix2 p q := ⟨_, _, eq_ix2 y⟩
  show _ = entry H S D St Dt W0 W1 W2 W3 (e (ix2 p q) 0) (e (ix2 p q) 1)
  rw [show e (ix2 p q) 0 = row r hr p from Fin.ext (he0 _), show e (ix2 p q) 1 = q from Fin.ext (he1 _),
    combB_apply _ r hr, shapeCast_self, shapeCast_self, gram_apply, h2, h3, h4, h5, h6, h7, h8, h9,
    Finset.sum_congr rfl fun k _ => by rw [h0, h1]]
  exact congrArg (entryF _ _ _ _ _ · _ _ _ _) (if_congr (Fin.ext_iff (a := row r hr p) (b := q)).symm rfl rfl)

end Cert.KI.PayComb

end
-- ==== Proof.KI.FinComb.lean ====
import proofs.«146000_j29076928594330_2_alg».proof.Proof.KI.R02
import proofs.«146000_j29076928594330_2_alg».proof.Proof.KI.PayComb

noncomputable section

open scoped BigOperators

namespace Cert.KI.FinComb

open Cert.KernelIdeal Cert.KernelIdeal.Gen Cert.KI
open Idealize.ShloMosaic Idealize.ShloMosaic.TcCoe Idealize.ShloMosaic.ValueIdx Idealize.SL.Sem
open Idealize.ShloMosaic.Pipeline (Dat)
open Cert.Spec (c0 c1 c2 cmh)
open Cert.KI.PayComb (hz row_val col_val)

variable (V : (c : Dev nD) → (b : Ref sig .tc) → Buf (Elt Ideal) ((c : Thread nD τ).loc b))

-- At point t the output and the row-blocked inputs are at block (t, 0), the inputs read whole at block (0, 0).
theorem idx_facts : ∀ t : Fin cfg2.N,
    (grid2.coords t 0).val = t.val
    ∧ win2_10.index t (0 : Fin 2) = t.val ∧ win2_10.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

noncomputable abbrev arrH (c : Dev nD) : Vec Ideal S3072x500 .bf16 := V c main_v4
noncomputable abbrev arrS (c : Dev nD) : Vec Ideal S3072x1 .f32 := V c main_v8
noncomputable abbrev arrSt (c : Dev nD) : Vec Ideal S1x3072 .f32 := V c main_v9
noncomputable abbrev arrD (c : Dev nD) : Vec Ideal S3072x1 .f32 := V c main_v10
noncomputable abbrev arrDt (c : Dev nD) : Vec Ideal S1x3072 .f32 := V c main_v11
noncomputable abbrev arrW0 (c : Dev nD) : Vec Ideal S3072x3072 .f32 := V c main_arg25
noncomputable abbrev arrW1 (c : Dev nD) : Vec Ideal S3072x3072 .f32 := V c main_arg26
noncomputable abbrev arrW2 (c : Dev nD) : Vec Ideal S3072x3072 .f32 := V c main_arg27
noncomputable abbrev arrW3 (c : Dev nD) : Vec Ideal S3072x3072 .f32 := V c main_arg28

-- The layer's combined kernel as one array, from the arrays at entry.
noncomputable abbrev whole (c : Dev nD) : Vec Ideal S3072x3072 .f32 :=
  PayComb.whole (arrH V c) (arrS V c) (arrD V c) (arrSt V c) (arrDt V c) (arrW0 V c) (arrW1 V c) (arrW2 V c) (arrW3 V c)

-- Point t's output block is block t of the whole.
theorem flushed_eq (c : Dev nD) (t : Fin cfg2.N) :
    (dat2 (F := Ideal) V c).flushed 10 t = ((cfg2.win 10).blk t).view.read (Elt Ideal) (whole V c) := by
  obtain ⟨ec, e10_0, e10_1, e0_0, e0_1, e1_0, e1_1, e2_0, e2_1, e3_0, e3_1, e4_0, e4_1, e5_0, e5_1, e6_0, e6_1, e7_0, e7_1, e8_0, e8_1, e9_0, e9_1⟩ := idx_facts t
  show (cfg2.win 10).cut (grid2.coords t) ((dat2 V c).after 10 t) = _
  rw [after2_10]
  unfold out2_10
  rw [View.canon_unit_zero hz]
  simp only [View.ld_unit_zero (S := S64x500) hz, View.ld_unit_zero (S := S3072x500) hz, View.ld_unit_zero (S := S64x1) hz,
    View.ld_unit_zero (S := S1x3072) hz, View.ld_unit_zero (S := S64x3072) hz]
  exact PayComb.block_eq (arrH V c) (arrS V c) (arrD V c) (arrSt V c) (arrDt V c) (arrW0 V c) (arrW1 V c) (arrW2 V c) (arrW3 V c)
    (grid2.coords t 0).val (ec.trans_lt (lt_of_lt_of_eq t.isLt N_2)) (iblk2 V c 0 t) (iblk2 V c 1 t) _ _ (iblk2 V c 2 t) (iblk2 V c 3 t)
    (iblk2 V c 4 t) (iblk2 V c 5 t) (iblk2 V c 6 t) (iblk2 V c 7 t) (iblk2 V c 8 t) (iblk2 V c 9 t)
    (fun p k => congrArg (arrH V c) (Shape.idx_ext₂ (row_val e0_0 ec) (col_val e0_1)))
    (fun a k => congrArg (arrH V c) (Shape.idx_ext₂ (col_val e1_0) (col_val e1_1)))
    (fun p b => congrArg (arrS V c) (Shape.idx_ext₂ (row_val e2_0 ec) (col_val e2_1)))
    (fun a q => congrArg (arrSt V c) (Shape.idx_ext₂ (col_val e3_0) (col_val e3_1)))
    (fun p b => congrArg (arrD V c) (Shape.idx_ext₂ (row_val e4_0 ec) (col_val e4_1)))
    (fun a q => congrArg (arrDt V c) (Shape.idx_ext₂ (col_val e5_0) (col_val e5_1)))
    (fun p q => congrArg (arrW0 V c) (Shape.idx_ext₂ (row_val e6_0 ec) (col_val e6_1)))
    (fun p q => congrArg (arrW1 V c) (Shape.idx_ext₂ (row_val e7_0 ec) (col_val e7_1)))
    (fun p q => congrArg (arrW2 V c) (Shape.idx_ext₂ (row_val e8_0 ec) (col_val e8_1)))
    (fun p q => congrArg (arrW3 V c) (Shape.idx_ext₂ (row_val e9_0 ec) (col_val e9_1)))
    ((cfg2.win 10).blk t).view.emb (fun y => row_val e10_0 ec) (fun y => col_val e10_1)

-- Row i lies in block i / 64.
theorem cover (i : S3072x3072.Idx) :
    ∃ t : Fin cfg2.N, (cfg2.win 10).flush t = true ∧ i ∈ ((cfg2.win 10).blk t).view.set := by
  have ht : (i 0).val / 64 < cfg2.N := by rw [show cfg2.N = 48 from N_2]; have := idx2_lt0 i; omega
  obtain ⟨-, e0, e1, -⟩ := idx_facts ⟨_, ht⟩
  refine ⟨⟨_, ht⟩, flush2_10 _, ?_⟩
  show i ∈ ((View.whole main_v12).slice (win2_10.rect ⟨_, ht⟩)).set
  rw [View.set_slice_whole, Rect.mem_set_unit]
  intro a
  match a with
  | ⟨0, _⟩ => exact PayComb.cover_row e0
  | ⟨1, _⟩ => exact PayComb.cover_col e1 (idx2_lt1 i)

-- The blocks tile the array, so after the last point it is the whole.
theorem fin2 (c : Dev nD) (i j : Fin 3072) :
    (dat2 (F := Ideal) V c).arrAt 10 cfg2.N (ix2 i j)
      = arrW0 V c (ix2 i j) * (∑ k : Fin 500, arrH V c (ix2 i k) * arrH V c (ix2 j k))
    + arrW1 V c (ix2 i j) * Ideal.div c1 (c1 + max (arrS V c (ix2 i (0 : Fin 1)) + arrSt V c (ix2 (0 : Fin 1) j) - c2 * (∑ k : Fin 500, arrH V c (ix2 i k) * arrH V c (ix2 j k))) c0)
    + arrW2 V c (ix2 i j) * (((∑ k : Fin 500, arrH V c (ix2 i k) * arrH V c (ix2 j k)) + c1) * ((∑ k : Fin 500, arrH V c (ix2 i k) * arrH V c (ix2 j k)) + c1))
    + arrW3 V c (ix2 i j) * (Ideal.exp (cmh * max (arrS V c (ix2 i (0 : Fin 1)) + arrSt V c (ix2 (0 : Fin 1) j) - c2 * (∑ k : Fin 500, arrH V c (ix2 i k) * arrH V c (ix2 j k))) c0) * Cert.Spec.offdiag i j
        * arrD V c (ix2 i (0 : Fin 1)) * arrDt V c (ix2 (0 : Fin 1) j)) := by
  rw [(dat2 (F := Ideal) V c).arrAt_eq_of_cover 10 (whole V c) (fun t _ => flushed_eq V c t) cover]
  rfl

end Cert.KI.FinComb

end
-- ==== Proof.KI.FinComb5.lean ====
import proofs.«146000_j29076928594330_2_alg».proof.Proof.KI.R05
import proofs.«146000_j29076928594330_2_alg».proof.Proof.KI.PayComb

noncomputable section

open scoped BigOperators

namespace Cert.KI.FinComb5

open Cert.KernelIdeal Cert.KernelIdeal.Gen Cert.KI
open Idealize.ShloMosaic Idealize.ShloMosaic.TcCoe Idealize.ShloMosaic.ValueIdx Idealize.SL.Sem
open Idealize.ShloMosaic.Pipeline (Dat)
open Cert.Spec (c0 c1 c2 cmh)
open Cert.KI.PayComb (hz row_val col_val)

variable (V : (c : Dev nD) → (b : Ref sig .tc) → Buf (Elt Ideal) ((c : Thread nD τ).loc b))

-- At point t the output and the row-blocked inputs are at block (t, 0), the inputs read whole at block (0, 0).
theorem idx_facts : ∀ t : Fin cfg5.N,
    (grid5.coords t 0).val = t.val
    ∧ win5_10.index t (0 : Fin 2) = t.val ∧ win5_10.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0 :=
  (by decide +kernel : ∀ t : Fin grid5.N, _)

noncomputable abbrev arrH (c : Dev nD) : Vec Ideal S3072x500 .bf16 := V c main_v17
noncomputable abbrev arrS (c : Dev nD) : Vec Ideal S3072x1 .f32 := V c main_v21
noncomputable abbrev arrSt (c : Dev nD) : Vec Ideal S1x3072 .f32 := V c main_v22
noncomputable abbrev arrD (c : Dev nD) : Vec Ideal S3072x1 .f32 := V c main_v23
noncomputable abbrev arrDt (c : Dev nD) : Vec Ideal S1x3072 .f32 := V c main_v24
noncomputable abbrev arrW0 (c : Dev nD) : Vec Ideal S3072x3072 .f32 := V c main_arg29
noncomputable abbrev arrW1 (c : Dev nD) : Vec Ideal S3072x3072 .f32 := V c main_arg30
noncomputable abbrev arrW2 (c : Dev nD) : Vec Ideal S3072x3072 .f32 := V c main_arg31
noncomputable abbrev arrW3 (c : Dev nD) : Vec Ideal S3072x3072 .f32 := V c main_arg32

-- The layer's combined kernel as one array, from the arrays at entry.
noncomputable abbrev whole (c : Dev nD) : Vec Ideal S3072x3072 .f32 :=
  PayComb.whole (arrH V c) (arrS V c) (arrD V c) (arrSt V c) (arrDt V c) (arrW0 V c) (arrW1 V c) (arrW2 V c) (arrW3 V c)

-- Point t's output block is block t of the whole.
theorem flushed_eq (c : Dev nD) (t : Fin cfg5.N) :
    (dat5 (F := Ideal) V c).flushed 10 t = ((cfg5.win 10).blk t).view.read (Elt Ideal) (whole V c) := by
  obtain ⟨ec, e10_0, e10_1, e0_0, e0_1, e1_0, e1_1, e2_0, e2_1, e3_0, e3_1, e4_0, e4_1, e5_0, e5_1, e6_0, e6_1, e7_0, e7_1, e8_0, e8_1, e9_0, e9_1⟩ := idx_facts t
  show (cfg5.win 10).cut (grid5.coords t) ((dat5 V c).after 10 t) = _
  rw [after5_10]
  unfold out5_10
  rw [View.canon_unit_zero hz]
  simp only [View.ld_unit_zero (S := S64x500) hz, View.ld_unit_zero (S := S3072x500) hz, View.ld_unit_zero (S := S64x1) hz,
    View.ld_unit_zero (S := S1x3072) hz, View.ld_unit_zero (S := S64x3072) hz]
  exact PayComb.block_eq (arrH V c) (arrS V c) (arrD V c) (arrSt V c) (arrDt V c) (arrW0 V c) (arrW1 V c) (arrW2 V c) (arrW3 V c)
    (grid5.coords t 0).val (ec.trans_lt (lt_of_lt_of_eq t.isLt N_5)) (iblk5 V c 0 t) (iblk5 V c 1 t) _ _ (iblk5 V c 2 t) (iblk5 V c 3 t)
    (iblk5 V c 4 t) (iblk5 V c 5 t) (iblk5 V c 6 t) (iblk5 V c 7 t) (iblk5 V c 8 t) (iblk5 V c 9 t)
    (fun p k => congrArg (arrH V c) (Shape.idx_ext₂ (row_val e0_0 ec) (col_val e0_1)))
    (fun a k => congrArg (arrH V c) (Shape.idx_ext₂ (col_val e1_0) (col_val e1_1)))
    (fun p b => congrArg (arrS V c) (Shape.idx_ext₂ (row_val e2_0 ec) (col_val e2_1)))
    (fun a q => congrArg (arrSt V c) (Shape.idx_ext₂ (col_val e3_0) (col_val e3_1)))
    (fun p b => congrArg (arrD V c) (Shape.idx_ext₂ (row_val e4_0 ec) (col_val e4_1)))
    (fun a q => congrArg (arrDt V c) (Shape.idx_ext₂ (col_val e5_0) (col_val e5_1)))
    (fun p q => congrArg (arrW0 V c) (Shape.idx_ext₂ (row_val e6_0 ec) (col_val e6_1)))
    (fun p q => congrArg (arrW1 V c) (Shape.idx_ext₂ (row_val e7_0 ec) (col_val e7_1)))
    (fun p q => congrArg (arrW2 V c) (Shape.idx_ext₂ (row_val e8_0 ec) (col_val e8_1)))
    (fun p q => congrArg (arrW3 V c) (Shape.idx_ext₂ (row_val e9_0 ec) (col_val e9_1)))
    ((cfg5.win 10).blk t).view.emb (fun y => row_val e10_0 ec) (fun y => col_val e10_1)

-- Row i lies in block i / 64.
theorem cover (i : S3072x3072.Idx) :
    ∃ t : Fin cfg5.N, (cfg5.win 10).flush t = true ∧ i ∈ ((cfg5.win 10).blk t).view.set := by
  have ht : (i 0).val / 64 < cfg5.N := by rw [show cfg5.N = 48 from N_5]; have := idx2_lt0 i; omega
  obtain ⟨-, e0, e1, -⟩ := idx_facts ⟨_, ht⟩
  refine ⟨⟨_, ht⟩, flush5_10 _, ?_⟩
  show i ∈ ((View.whole main_v25).slice (win5_10.rect ⟨_, ht⟩)).set
  rw [View.set_slice_whole, Rect.mem_set_unit]
  intro a
  match a with
  | ⟨0, _⟩ => exact PayComb.cover_row e0
  | ⟨1, _⟩ => exact PayComb.cover_col e1 (idx2_lt1 i)

-- The blocks tile the array, so after the last point it is the whole.
theorem fin5 (c : Dev nD) (i j : Fin 3072) :
    (dat5 (F := Ideal) V c).arrAt 10 cfg5.N (ix2 i j)
      = arrW0 V c (ix2 i j) * (∑ k : Fin 500, arrH V c (ix2 i k) * arrH V c (ix2 j k))
    + arrW1 V c (ix2 i j) * Ideal.div c1 (c1 + max (arrS V c (ix2 i (0 : Fin 1)) + arrSt V c (ix2 (0 : Fin 1) j) - c2 * (∑ k : Fin 500, arrH V c (ix2 i k) * arrH V c (ix2 j k))) c0)
    + arrW2 V c (ix2 i j) * (((∑ k : Fin 500, arrH V c (ix2 i k) * arrH V c (ix2 j k)) + c1) * ((∑ k : Fin 500, arrH V c (ix2 i k) * arrH V c (ix2 j k)) + c1))
    + arrW3 V c (ix2 i j) * (Ideal.exp (cmh * max (arrS V c (ix2 i (0 : Fin 1)) + arrSt V c (ix2 (0 : Fin 1) j) - c2 * (∑ k : Fin 500, arrH V c (ix2 i k) * arrH V c (ix2 j k))) c0) * Cert.Spec.offdiag i j
        * arrD V c (ix2 i (0 : Fin 1)) * arrDt V c (ix2 (0 : Fin 1) j)) := by
  rw [(dat5 (F := Ideal) V c).arrAt_eq_of_cover 10 (whole V c) (fun t _ => flushed_eq V c t) cover]
  rfl

end Cert.KI.FinComb5

end
-- ==== Proof.KI.FinComb8.lean ====
import proofs.«146000_j29076928594330_2_alg».proof.Proof.KI.R08
import proofs.«146000_j29076928594330_2_alg».proof.Proof.KI.PayComb

noncomputable section

open scoped BigOperators

namespace Cert.KI.FinComb8

open Cert.KernelIdeal Cert.KernelIdeal.Gen Cert.KI
open Idealize.ShloMosaic Idealize.ShloMosaic.TcCoe Idealize.ShloMosaic.ValueIdx Idealize.SL.Sem
open Idealize.ShloMosaic.Pipeline (Dat)
open Cert.Spec (c0 c1 c2 cmh)
open Cert.KI.PayComb (hz row_val col_val)

variable (V : (c : Dev nD) → (b : Ref sig .tc) → Buf (Elt Ideal) ((c : Thread nD τ).loc b))

-- At point t the output and the row-blocked inputs are at block (t, 0), the inputs read whole at block (0, 0).
theorem idx_facts : ∀ t : Fin cfg8.N,
    (grid8.coords t 0).val = t.val
    ∧ win8_10.index t (0 : Fin 2) = t.val ∧ win8_10.index t (1 : Fin 2) = 0
    ∧ win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0
    ∧ win8_7.index t (0 : Fin 2) = t.val ∧ win8_7.index t (1 : Fin 2) = 0
    ∧ win8_8.index t (0 : Fin 2) = t.val ∧ win8_8.index t (1 : Fin 2) = 0
    ∧ win8_9.index t (0 : Fin 2) = t.val ∧ win8_9.index t (1 : Fin 2) = 0 :=
  (by decide +kernel : ∀ t : Fin grid8.N, _)

noncomputable abbrev arrH (c : Dev nD) : Vec Ideal S3072x2000 .bf16 := V c main_v30
noncomputable abbrev arrS (c : Dev nD) : Vec Ideal S3072x1 .f32 := V c main_v34
noncomputable abbrev arrSt (c : Dev nD) : Vec Ideal S1x3072 .f32 := V c main_v35
noncomputable abbrev arrD (c : Dev nD) : Vec Ideal S3072x1 .f32 := V c main_v36
noncomputable abbrev arrDt (c : Dev nD) : Vec Ideal S1x3072 .f32 := V c main_v37
noncomputable abbrev arrW0 (c : Dev nD) : Vec Ideal S3072x3072 .f32 := V c main_arg33
noncomputable abbrev arrW1 (c : Dev nD) : Vec Ideal S3072x3072 .f32 := V c main_arg34
noncomputable abbrev arrW2 (c : Dev nD) : Vec Ideal S3072x3072 .f32 := V c main_arg35
noncomputable abbrev arrW3 (c : Dev nD) : Vec Ideal S3072x3072 .f32 := V c main_arg36

-- The layer's combined kernel as one array, from the arrays at entry.
noncomputable abbrev whole (c : Dev nD) : Vec Ideal S3072x3072 .f32 :=
  PayComb.whole (arrH V c) (arrS V c) (arrD V c) (arrSt V c) (arrDt V c) (arrW0 V c) (arrW1 V c) (arrW2 V c) (arrW3 V c)

-- Point t's output block is block t of the whole.
theorem flushed_eq (c : Dev nD) (t : Fin cfg8.N) :
    (dat8 (F := Ideal) V c).flushed 10 t = ((cfg8.win 10).blk t).view.read (Elt Ideal) (whole V c) := by
  obtain ⟨ec, e10_0, e10_1, e0_0, e0_1, e1_0, e1_1, e2_0, e2_1, e3_0, e3_1, e4_0, e4_1, e5_0, e5_1, e6_0, e6_1, e7_0, e7_1, e8_0, e8_1, e9_0, e9_1⟩ := idx_facts t
  show (cfg8.win 10).cut (grid8.coords t) ((dat8 V c).after 10 t) = _
  rw [after8_10]
  unfold out8_10
  rw [View.canon_unit_zero hz]
  simp only [View.ld_unit_zero (S := S64x2000) hz, View.ld_unit_zero (S := S3072x2000) hz, View.ld_unit_zero (S := S64x1) hz,
    View.ld_unit_zero (S := S1x3072) hz, View.ld_unit_zero (S := S64x3072) hz]
  exact PayComb.block_eq (arrH V c) (arrS V c) (arrD V c) (arrSt V c) (arrDt V c) (arrW0 V c) (arrW1 V c) (arrW2 V c) (arrW3 V c)
    (grid8.coords t 0).val (ec.trans_lt (lt_of_lt_of_eq t.isLt N_8)) (iblk8 V c 0 t) (iblk8 V c 1 t) _ _ (iblk8 V c 2 t) (iblk8 V c 3 t)
    (iblk8 V c 4 t) (iblk8 V c 5 t) (iblk8 V c 6 t) (iblk8 V c 7 t) (iblk8 V c 8 t) (iblk8 V c 9 t)
    (fun p k => congrArg (arrH V c) (Shape.idx_ext₂ (row_val e0_0 ec) (col_val e0_1)))
    (fun a k => congrArg (arrH V c) (Shape.idx_ext₂ (col_val e1_0) (col_val e1_1)))
    (fun p b => congrArg (arrS V c) (Shape.idx_ext₂ (row_val e2_0 ec) (col_val e2_1)))
    (fun a q => congrArg (arrSt V c) (Shape.idx_ext₂ (col_val e3_0) (col_val e3_1)))
    (fun p b => congrArg (arrD V c) (Shape.idx_ext₂ (row_val e4_0 ec) (col_val e4_1)))
    (fun a q => congrArg (arrDt V c) (Shape.idx_ext₂ (col_val e5_0) (col_val e5_1)))
    (fun p q => congrArg (arrW0 V c) (Shape.idx_ext₂ (row_val e6_0 ec) (col_val e6_1)))
    (fun p q => congrArg (arrW1 V c) (Shape.idx_ext₂ (row_val e7_0 ec) (col_val e7_1)))
    (fun p q => congrArg (arrW2 V c) (Shape.idx_ext₂ (row_val e8_0 ec) (col_val e8_1)))
    (fun p q => congrArg (arrW3 V c) (Shape.idx_ext₂ (row_val e9_0 ec) (col_val e9_1)))
    ((cfg8.win 10).blk t).view.emb (fun y => row_val e10_0 ec) (fun y => col_val e10_1)

-- Row i lies in block i / 64.
theorem cover (i : S3072x3072.Idx) :
    ∃ t : Fin cfg8.N, (cfg8.win 10).flush t = true ∧ i ∈ ((cfg8.win 10).blk t).view.set := by
  have ht : (i 0).val / 64 < cfg8.N := by rw [show cfg8.N = 48 from N_8]; have := idx2_lt0 i; omega
  obtain ⟨-, e0, e1, -⟩ := idx_facts ⟨_, ht⟩
  refine ⟨⟨_, ht⟩, flush8_10 _, ?_⟩
  show i ∈ ((View.whole main_v38).slice (win8_10.rect ⟨_, ht⟩)).set
  rw [View.set_slice_whole, Rect.mem_set_unit]
  intro a
  match a with
  | ⟨0, _⟩ => exact PayComb.cover_row e0
  | ⟨1, _⟩ => exact PayComb.cover_col e1 (idx2_lt1 i)

-- The blocks tile the array, so after the last point it is the whole.
theorem fin8 (c : Dev nD) (i j : Fin 3072) :
    (dat8 (F := Ideal) V c).arrAt 10 cfg8.N (ix2 i j)
      = arrW0 V c (ix2 i j) * (∑ k : Fin 2000, arrH V c (ix2 i k) * arrH V c (ix2 j k))
    + arrW1 V c (ix2 i j) * Ideal.div c1 (c1 + max (arrS V c (ix2 i (0 : Fin 1)) + arrSt V c (ix2 (0 : Fin 1) j) - c2 * (∑ k : Fin 2000, arrH V c (ix2 i k) * arrH V c (ix2 j k))) c0)
    + arrW2 V c (ix2 i j) * (((∑ k : Fin 2000, arrH V c (ix2 i k) * arrH V c (ix2 j k)) + c1) * ((∑ k : Fin 2000, arrH V c (ix2 i k) * arrH V c (ix2 j k)) + c1))
    + arrW3 V c (ix2 i j) * (Ideal.exp (cmh * max (arrS V c (ix2 i (0 : Fin 1)) + arrSt V c (ix2 (0 : Fin 1) j) - c2 * (∑ k : Fin 2000, arrH V c (ix2 i k) * arrH V c (ix2 j k))) c0) * Cert.Spec.offdiag i j
        * arrD V c (ix2 i (0 : Fin 1)) * arrDt V c (ix2 (0 : Fin 1) j)) := by
  rw [(dat8 (F := Ideal) V c).arrAt_eq_of_cover 10 (whole V c) (fun t _ => flushed_eq V c t) cover]
  rfl

end Cert.KI.FinComb8

end
-- ==== Proof.KI.FinComb11.lean ====
import proofs.«146000_j29076928594330_2_alg».proof.Proof.KI.R11
import proofs.«146000_j29076928594330_2_alg».proof.Proof.KI.PayComb

noncomputable section

open scoped BigOperators

namespace Cert.KI.FinComb11

open Cert.KernelIdeal Cert.KernelIdeal.Gen Cert.KI
open Idealize.ShloMosaic Idealize.ShloMosaic.TcCoe Idealize.ShloMosaic.ValueIdx Idealize.SL.Sem
open Idealize.ShloMosaic.Pipeline (Dat)
open Cert.Spec (c0 c1 c2 cmh)
open Cert.KI.PayComb (hz row_val col_val)

variable (V : (c : Dev nD) → (b : Ref sig .tc) → Buf (Elt Ideal) ((c : Thread nD τ).loc b))

-- At point t the output and the row-blocked inputs are at block (t, 0), the inputs read whole at block (0, 0).
theorem idx_facts : ∀ t : Fin cfg11.N,
    (grid11.coords t 0).val = t.val
    ∧ win11_10.index t (0 : Fin 2) = t.val ∧ win11_10.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0
    ∧ win11_7.index t (0 : Fin 2) = t.val ∧ win11_7.index t (1 : Fin 2) = 0
    ∧ win11_8.index t (0 : Fin 2) = t.val ∧ win11_8.index t (1 : Fin 2) = 0
    ∧ win11_9.index t (0 : Fin 2) = t.val ∧ win11_9.index t (1 : Fin 2) = 0 :=
  (by decide +kernel : ∀ t : Fin grid11.N, _)

noncomputable abbrev arrH (c : Dev nD) : Vec Ideal S3072x10 .bf16 := V c main_v43
noncomputable abbrev arrS (c : Dev nD) : Vec Ideal S3072x1 .f32 := V c main_v47
noncomputable abbrev arrSt (c : Dev nD) : Vec Ideal S1x3072 .f32 := V c main_v48
noncomputable abbrev arrD (c : Dev nD) : Vec Ideal S3072x1 .f32 := V c main_v49
noncomputable abbrev arrDt (c : Dev nD) : Vec Ideal S1x3072 .f32 := V c main_v50
noncomputable abbrev arrW0 (c : Dev nD) : Vec Ideal S3072x3072 .f32 := V c main_arg21
noncomputable abbrev arrW1 (c : Dev nD) : Vec Ideal S3072x3072 .f32 := V c main_arg22
noncomputable abbrev arrW2 (c : Dev nD) : Vec Ideal S3072x3072 .f32 := V c main_arg23
noncomputable abbrev arrW3 (c : Dev nD) : Vec Ideal S3072x3072 .f32 := V c main_arg24

-- The layer's combined kernel as one array, from the arrays at entry.
noncomputable abbrev whole (c : Dev nD) : Vec Ideal S3072x3072 .f32 :=
  PayComb.whole (arrH V c) (arrS V c) (arrD V c) (arrSt V c) (arrDt V c) (arrW0 V c) (arrW1 V c) (arrW2 V c) (arrW3 V c)

-- Point t's output block is block t of the whole.
theorem flushed_eq (c : Dev nD) (t : Fin cfg11.N) :
    (dat11 (F := Ideal) V c).flushed 10 t = ((cfg11.win 10).blk t).view.read (Elt Ideal) (whole V c) := by
  obtain ⟨ec, e10_0, e10_1, e0_0, e0_1, e1_0, e1_1, e2_0, e2_1, e3_0, e3_1, e4_0, e4_1, e5_0, e5_1, e6_0, e6_1, e7_0, e7_1, e8_0, e8_1, e9_0, e9_1⟩ := idx_facts t
  show (cfg11.win 10).cut (grid11.coords t) ((dat11 V c).after 10 t) = _
  rw [after11_10]
  unfold out11_10
  rw [View.canon_unit_zero hz]
  simp only [View.ld_unit_zero (S := S64x10) hz, View.ld_unit_zero (S := S3072x10) hz, View.ld_unit_zero (S := S64x1) hz,
    View.ld_unit_zero (S := S1x3072) hz, View.ld_unit_zero (S := S64x3072) hz]
  exact PayComb.block_eq (arrH V c) (arrS V c) (arrD V c) (arrSt V c) (arrDt V c) (arrW0 V c) (arrW1 V c) (arrW2 V c) (arrW3 V c)
    (grid11.coords t 0).val (ec.trans_lt (lt_of_lt_of_eq t.isLt N_11)) (iblk11 V c 0 t) (iblk11 V c 1 t) _ _ (iblk11 V c 2 t) (iblk11 V c 3 t)
    (iblk11 V c 4 t) (iblk11 V c 5 t) (iblk11 V c 6 t) (iblk11 V c 7 t) (iblk11 V c 8 t) (iblk11 V c 9 t)
    (fun p k => congrArg (arrH V c) (Shape.idx_ext₂ (row_val e0_0 ec) (col_val e0_1)))
    (fun a k => congrArg (arrH V c) (Shape.idx_ext₂ (col_val e1_0) (col_val e1_1)))
    (fun p b => congrArg (arrS V c) (Shape.idx_ext₂ (row_val e2_0 ec) (col_val e2_1)))
    (fun a q => congrArg (arrSt V c) (Shape.idx_ext₂ (col_val e3_0) (col_val e3_1)))
    (fun p b => congrArg (arrD V c) (Shape.idx_ext₂ (row_val e4_0 ec) (col_val e4_1)))
    (fun a q => congrArg (arrDt V c) (Shape.idx_ext₂ (col_val e5_0) (col_val e5_1)))
    (fun p q => congrArg (arrW0 V c) (Shape.idx_ext₂ (row_val e6_0 ec) (col_val e6_1)))
    (fun p q => congrArg (arrW1 V c) (Shape.idx_ext₂ (row_val e7_0 ec) (col_val e7_1)))
    (fun p q => congrArg (arrW2 V c) (Shape.idx_ext₂ (row_val e8_0 ec) (col_val e8_1)))
    (fun p q => congrArg (arrW3 V c) (Shape.idx_ext₂ (row_val e9_0 ec) (col_val e9_1)))
    ((cfg11.win 10).blk t).view.emb (fun y => row_val e10_0 ec) (fun y => col_val e10_1)

-- Row i lies in block i / 64.
theorem cover (i : S3072x3072.Idx) :
    ∃ t : Fin cfg11.N, (cfg11.win 10).flush t = true ∧ i ∈ ((cfg11.win 10).blk t).view.set := by
  have ht : (i 0).val / 64 < cfg11.N := by rw [show cfg11.N = 48 from N_11]; have := idx2_lt0 i; omega
  obtain ⟨-, e0, e1, -⟩ := idx_facts ⟨_, ht⟩
  refine ⟨⟨_, ht⟩, flush11_10 _, ?_⟩
  show i ∈ ((View.whole main_v51).slice (win11_10.rect ⟨_, ht⟩)).set
  rw [View.set_slice_whole, Rect.mem_set_unit]
  intro a
  match a with
  | ⟨0, _⟩ => exact PayComb.cover_row e0
  | ⟨1, _⟩ => exact PayComb.cover_col e1 (idx2_lt1 i)

-- The blocks tile the array, so after the last point it is the whole.
theorem fin11 (c : Dev nD) (i j : Fin 3072) :
    (dat11 (F := Ideal) V c).arrAt 10 cfg11.N (ix2 i j)
      = arrW0 V c (ix2 i j) * (∑ k : Fin 10, arrH V c (ix2 i k) * arrH V c (ix2 j k))
    + arrW1 V c (ix2 i j) * Ideal.div c1 (c1 + max (arrS V c (ix2 i (0 : Fin 1)) + arrSt V c (ix2 (0 : Fin 1) j) - c2 * (∑ k : Fin 10, arrH V c (ix2 i k) * arrH V c (ix2 j k))) c0)
    + arrW2 V c (ix2 i j) * (((∑ k : Fin 10, arrH V c (ix2 i k) * arrH V c (ix2 j k)) + c1) * ((∑ k : Fin 10, arrH V c (ix2 i k) * arrH V c (ix2 j k)) + c1))
    + arrW3 V c (ix2 i j) * (Ideal.exp (cmh * max (arrS V c (ix2 i (0 : Fin 1)) + arrSt V c (ix2 (0 : Fin 1) j) - c2 * (∑ k : Fin 10, arrH V c (ix2 i k) * arrH V c (ix2 j k))) c0) * Cert.Spec.offdiag i j
        * arrD V c (ix2 i (0 : Fin 1)) * arrDt V c (ix2 (0 : Fin 1) j)) := by
  rw [(dat11 (F := Ideal) V c).arrAt_eq_of_cover 10 (whole V c) (fun t _ => flushed_eq V c t) cover]
  rfl

end Cert.KI.FinComb11

end
-- ==== Proof.KI.Bridge.lean ====
import proofs.«146000_j29076928594330_2_alg».proof.Proof.KI.Fold
import proofs.«146000_j29076928594330_2_alg».proof.Proof.Net
import proofs.«146000_j29076928594330_2_alg».proof.Proof.KI.ArgsK
import proofs.«146000_j29076928594330_2_alg».proof.Proof.KI.FinLin
import proofs.«146000_j29076928594330_2_alg».proof.Proof.KI.FinStats
import proofs.«146000_j29076928594330_2_alg».proof.Proof.KI.FinComb
import proofs.«146000_j29076928594330_2_alg».proof.Proof.KI.FinComb5
import proofs.«146000_j29076928594330_2_alg».proof.Proof.KI.FinComb8
import proofs.«146000_j29076928594330_2_alg».proof.Proof.KI.FinComb11
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KI

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

theorem cast_row {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

theorem cast_col {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem cast_col_row {α : Type} {n : ℕ} (x : (⟨2, ![n, 1]⟩ : Shape).Idx → α)
    (h : (⟨2, ![n, 1]⟩ : Shape).ShapeCasts ⟨2, ![1, n]⟩) (u v : Fin 1) (j : Fin n) :
    shapeCast ⟨2, ![1, n]⟩ x h (ix2 u j) = x (ix2 j v) :=
  shapeCast_apply x h _ _ (by
    have hu : u.val = 0 := by omega
    have hv : v.val = 0 := by omega
    rw [Shape.rowMajor_val_two, Shape.rowMajor_val_two]
    show j.val * 1 + v.val = u.val * n + j.val
    rw [hu, hv, Nat.mul_one, Nat.add_zero, Nat.zero_mul, Nat.zero_add])

theorem rowsum_apply {n d : ℕ} (x : FVec Ideal ⟨2, ![n, d]⟩ .f32)
    (h' : (⟨2, ![n, d]⟩ : Shape).ReducesTo [1] ⟨1, ![n]⟩) (hu : 0 < (⟨0, ![]⟩ : Shape).numel) (i : Fin n) :
    Host.reduceAdd x (constant (F := Ideal) ⟨0, ![]⟩ .f32 0x00000000#32) h' hu (ix1 i) = ∑ k : Fin d, x (ix2 i k) := by
  have h : (⟨2, ![n, d]⟩ : Shape).Reduces [1] ⟨1, ![n]⟩ := by
    obtain ⟨hr, hs⟩ := h'
    exact ⟨hr, Nat.one_pos, hs⟩
  rw [hostReduceAdd_apply, Ideal.hostReduceAdd_single h' h, constant_apply, Ideal.ofBits_zero_f32, zero_add]
  show ∑ k : Fin d, x (h.lift (ix1 i) k) = _
  refine Finset.sum_congr rfl fun k _ => congrArg x ?_
  funext a
  apply Fin.ext
  match a with
  | ⟨0, _⟩ => rfl
  | ⟨1, _⟩ => rfl

theorem sqrows_apply {n d : ℕ} (x : FVec Ideal ⟨2, ![n, d]⟩ .f32) (hlt : FTy.bits .bf16 < FTy.bits .f32)
    (h' : (⟨2, ![n, d]⟩ : Shape).ReducesTo [1] ⟨1, ![n]⟩) (hu : 0 < (⟨0, ![]⟩ : Shape).numel) (i : Fin n) :
    Host.reduceAdd (mulf (extf .f32 (truncf .bf16 x hlt) hlt) (extf .f32 (truncf .bf16 x hlt) hlt))
        (constant (F := Ideal) ⟨0, ![]⟩ .f32 0x00000000#32) h' hu (ix1 i)
      = Cert.Spec.svec (fun i k => x (ix2 i k)) i := by
  rw [rowsum_apply]; rfl

section Formulas
open Cert.Spec
variable {M K N : ℕ}

theorem lin_of {a a' : Fin M → Fin K → EReal} {w w' : Fin K → Fin N → EReal} {b b' : Fin N → EReal}
    (ea : ∀ i k, a i k = a' i k) (ew : ∀ k j, w k j = w' k j) (eb : ∀ j, b j = b' j) (i : Fin M) (j : Fin N) :
    lin a w b i j = lin a' w' b' i j := by
  obtain rfl : a = a' := funext fun i => funext (ea i)
  obtain rfl : w = w' := funext fun k => funext (ew k)
  obtain rfl : b = b' := funext eb
  rfl

theorem dinv_of (h : Fin M → Fin K → EReal) (v4 : Fin M → Fin K → EReal) (v8 v9 : Fin M → EReal)
    (e4 : ∀ i k, v4 i k = h i k) (e8 : ∀ i, v8 i = svec h i) (e9 : ∀ j, v9 j = svec h j) (i : Fin M) :
    Ideal.rsqrt ((∑ j : Fin M, Ideal.exp (cmh * max (v8 i + v9 j - c2 * ∑ k : Fin K, v4 i k * v4 j k) c0) * offdiag i j) + ceps)
      = dinv h i := by
  obtain rfl : v4 = h := funext fun i => funext (e4 i)
  obtain rfl : v8 = svec v4 := funext e8
  obtain rfl : v9 = svec v4 := funext e9
  rfl

theorem kh_of (h : Fin M → Fin K → EReal) (e f g hh : Fin M → Fin M → EReal) (v4 : Fin M → Fin K → EReal)
    (v8 v9 v10 v11 : Fin M → EReal) (we wf wg wh : Fin M → Fin M → EReal)
    (e4 : ∀ i k, v4 i k = h i k) (e8 : ∀ i, v8 i = svec h i) (e9 : ∀ j, v9 j = svec h j)
    (e10 : ∀ i, v10 i = dinv h i) (e11 : ∀ j, v11 j = dinv h j)
    (ee : ∀ i j, we i j = e i j) (ef : ∀ i j, wf i j = f i j) (eg : ∀ i j, wg i j = g i j) (eh : ∀ i j, wh i j = hh i j)
    (i j : Fin M) :
    we i j * (∑ k : Fin K, v4 i k * v4 j k)
      + wf i j * Ideal.div c1 (c1 + max (v8 i + v9 j - c2 * ∑ k : Fin K, v4 i k * v4 j k) c0)
      + wg i j * (((∑ k : Fin K, v4 i k * v4 j k) + c1) * ((∑ k : Fin K, v4 i k * v4 j k) + c1))
      + wh i j * (Ideal.exp (cmh * max (v8 i + v9 j - c2 * ∑ k : Fin K, v4 i k * v4 j k) c0) * offdiag i j * v10 i * v11 j)
      = kh h e f g hh i j := by
  obtain rfl : v4 = h := funext fun i => funext (e4 i)
  obtain rfl : v8 = svec v4 := funext e8
  obtain rfl : v9 = svec v4 := funext e9
  obtain rfl : v10 = dinv v4 := funext e10
  obtain rfl : v11 = dinv v4 := funext e11
  obtain rfl : we = e := funext fun i => funext (ee i)
  obtain rfl : wf = f := funext fun i => funext (ef i)
  obtain rfl : wg = g := funext fun i => funext (eg i)
  obtain rfl : wh = hh := funext fun i => funext (eh i)
  rfl

end Formulas

variable (m : (ℓ : Loc nD τ sig) → Buf (Elt Ideal) ℓ) (ρ : Dev nD → PrngReg)

theorem enc_kept (c : Dev nD) (r : Ref sig .tc) (h : Kept r) :
    W5 m ρ c (Proc.devRef .tc r) = m ((c : Thread nD τ).loc r) ∧ W6 m ρ c (Proc.devRef .tc r) = m ((c : Thread nD τ).loc r)
    ∧ W11 m ρ c (Proc.devRef .tc r) = m ((c : Thread nD τ).loc r) ∧ W12 m ρ c (Proc.devRef .tc r) = m ((c : Thread nD τ).loc r)
    ∧ W17 m ρ c (Proc.devRef .tc r) = m ((c : Thread nD τ).loc r) ∧ W18 m ρ c (Proc.devRef .tc r) = m ((c : Thread nD τ).loc r)
    ∧ W23 m ρ c (Proc.devRef .tc r) = m ((c : Thread nD τ).loc r) := by
  obtain ⟨h0, h1, h2, h3, h4, h5, h6, h7, h8, h9, h10, h11, h12, h13, h14, h15, h16, h17, h18, h19, h20, h21, h22, h23, h24, h25, h26, h27, h28, h29, h30, h31, h32, h33⟩ := h
  have e5 : W5 m ρ c (Proc.devRef .tc r) = m ((c : Thread nD τ).loc r) := (W5_of m ρ c r h4).trans ((W4_of m ρ c r h3).trans ((W3_of m ρ c r h2).trans ((W2_of m ρ c r h1).trans (W1_of m ρ c r h0))))
  have e6 := (W6_of m ρ c r h5).trans e5
  have e11 := (W11_of m ρ c r h10).trans ((W10_of m ρ c r h9).trans ((W9_of m ρ c r h8).trans ((W8_of m ρ c r h7).trans ((W7_of m ρ c r h6).trans (e6)))))
  have e12 := (W12_of m ρ c r h11).trans e11
  have e17 := (W17_of m ρ c r h16).trans ((W16_of m ρ c r h15).trans ((W15_of m ρ c r h14).trans ((W14_of m ρ c r h13).trans ((W13_of m ρ c r h12).trans (e12)))))
  have e18 := (W18_of m ρ c r h17).trans e17
  exact ⟨e5, e6, e11, e12, e17, e18, (W23_of m ρ c r h22).trans ((W22_of m ρ c r h21).trans ((W21_of m ρ c r h20).trans ((W20_of m ρ c r h19).trans ((W19_of m ρ c r h18).trans (e18)))))⟩

theorem W23_kept (c : Dev nD) (r : Ref sig .tc) (h : Kept r) : W23 m ρ c (Proc.devRef .tc r) = m ((c : Thread nD τ).loc r) :=
  (enc_kept m ρ c r h).2.2.2.2.2.2

theorem E_v0 (c : Dev nD) (i : Fin 3072) (k : Fin 784) : V1 m ρ c main_v0 (ix2 i k) = (argsK m c).x i k := by
  have e : V1 m ρ c main_v0
      = (truncf .bf16 (V0 m ρ c main_arg0 : FVec Ideal S3072x784 .f32) bitsLt_bf16_f32 : FVec Ideal S3072x784 .bf16) := by
    dsimp only [V1, W1, hostOps0]; after_results <;> rfl
  rw [e]; rfl
theorem E_v1 (c : Dev nD) (k : Fin 784) (j : Fin 500) : V1 m ρ c main_v1 (ix2 k j) = (argsK m c).w1 k j := by
  have e : V1 m ρ c main_v1
      = (truncf .bf16 (V0 m ρ c main_arg1 : FVec Ideal S784x500 .f32) bitsLt_bf16_f32 : FVec Ideal S784x500 .bf16) := by
    dsimp only [V1, W1, hostOps0]; after_results <;> rfl
  rw [e]
  rfl
theorem E_v2 (c : Dev nD) (j : Fin 500) : V1 m ρ c main_v2 (ix2 0 j) = (argsK m c).b1 j := by
  have e : V1 m ρ c main_v2
      = shapeCast S1x500 (V0 m ρ c main_arg2 : S500.Idx → EReal) shapeCasts_S500_S1x500 := by
    dsimp only [V1, W1, hostOps0]; after_results <;> rfl
  rw [e]
  exact cast_row _ _ 0 j
theorem K_enc1 (c : Dev nD) (i : Fin 3072) (j : Fin 500) : V2 m ρ c main_v3 (ix2 i j) = Cert.Net.enc1 (argsK m c) i j := by
  refine (congrFun (V2_out m ρ c) (ix2 i j)).trans ?_
  refine (fin0 (V1 m ρ) c i j).trans ?_
  exact lin_of (E_v0 m ρ c) (E_v1 m ρ c) (E_v2 m ρ c) i j

theorem E_v4 (c : Dev nD) (i : Fin 3072) (k : Fin 500) : V3 m ρ c main_v4 (ix2 i k) = Cert.Net.enc1 (argsK m c) i k := by
  have e : V3 m ρ c main_v4
      = (truncf .bf16 (V2 m ρ c main_v3 : FVec Ideal S3072x500 .f32) bitsLt_bf16_f32 : FVec Ideal S3072x500 .bf16) := by
    dsimp only [V3, W3, hostOps1]; after_results <;> rfl
  rw [e]
  exact K_enc1 m ρ c i k
theorem E_v8 (c : Dev nD) (i : Fin 3072) : V3 m ρ c main_v8 (ix2 i 0) = Cert.Spec.svec (Cert.Net.enc1 (argsK m c)) i := by
  have e : V3 m ρ c main_v8
      = shapeCast S3072x1 (Host.reduceAdd (mulf (extf .f32 (truncf .bf16 (V2 m ρ c main_v3 : FVec Ideal S3072x500 .f32) bitsLt_bf16_f32) bitsLt_bf16_f32)
          (extf .f32 (truncf .bf16 (V2 m ρ c main_v3 : FVec Ideal S3072x500 .f32) bitsLt_bf16_f32) bitsLt_bf16_f32))
          (constant (F := Ideal) S_ .f32 0x00000000#32) reducesTo_S3072x500_S3072_d1 h_S_) shapeCasts_S3072_S3072x1 := by
    dsimp only [V3, W3, hostOps1]; after_results <;> rfl
  rw [e]
  exact ((cast_col _ _ i 0).trans (sqrows_apply _ _ _ _ i)).trans
    (congrArg (fun h => Cert.Spec.svec h i) (funext fun i => funext fun k => K_enc1 m ρ c i k))
theorem E_v9 (c : Dev nD) (j : Fin 3072) : V3 m ρ c main_v9 (ix2 0 j) = Cert.Spec.svec (Cert.Net.enc1 (argsK m c)) j := by
  have e : V3 m ρ c main_v9
      = shapeCast S1x3072 (Host.reduceAdd (mulf (extf .f32 (truncf .bf16 (V2 m ρ c main_v3 : FVec Ideal S3072x500 .f32) bitsLt_bf16_f32) bitsLt_bf16_f32)
          (extf .f32 (truncf .bf16 (V2 m ρ c main_v3 : FVec Ideal S3072x500 .f32) bitsLt_bf16_f32) bitsLt_bf16_f32))
          (constant (F := Ideal) S_ .f32 0x00000000#32) reducesTo_S3072x500_S3072_d1 h_S_) shapeCasts_S3072_S1x3072 := by
    dsimp only [V3, W3, hostOps1]; after_results <;> rfl
  rw [e]
  exact ((cast_row _ _ 0 j).trans (sqrows_apply _ _ _ _ j)).trans
    (congrArg (fun h => Cert.Spec.svec h j) (funext fun i => funext fun k => K_enc1 m ρ c i k))
theorem K_dinv1 (c : Dev nD) (i : Fin 3072) : V4 m ρ c main_v10 (ix2 i 0) = Cert.Spec.dinv (Cert.Net.enc1 (argsK m c)) i := by
  refine (congrFun (V4_out m ρ c) (ix2 i 0)).trans ?_
  refine (fin1 (V3 m ρ) c i).trans ?_
  exact dinv_of (Cert.Net.enc1 (argsK m c)) (fun i k => V3 m ρ c main_v4 (ix2 i k)) (fun i => V3 m ρ c main_v8 (ix2 i 0)) (fun j => V3 m ρ c main_v9 (ix2 0 j))
      (E_v4 m ρ c) (E_v8 m ρ c) (E_v9 m ρ c) i

theorem E_v11 (c : Dev nD) (j : Fin 3072) : V5 m ρ c main_v11 (ix2 0 j) = Cert.Spec.dinv (Cert.Net.enc1 (argsK m c)) j := by
  have e : V5 m ρ c main_v11
      = shapeCast S1x3072 (V4 m ρ c main_v10 : S3072x1.Idx → EReal) shapeCasts_S3072x1_S1x3072 := by
    dsimp only [V5, W5, hostOps2]; after_results <;> rfl
  rw [e]
  exact (cast_col_row _ _ 0 0 j).trans (K_dinv1 m ρ c j)
theorem E5_v4 (c : Dev nD) (i : Fin 3072) (k : Fin 500) : V5 m ρ c main_v4 (ix2 i k) = Cert.Net.enc1 (argsK m c) i k :=
  (congrFun ((W5_of m ρ c main_v4 (by decide)).trans <| (W4_of m ρ c main_v4 (by decide))) (ix2 i k)).trans (E_v4 m ρ c i k)
theorem E5_v8 (c : Dev nD) (i : Fin 3072) : V5 m ρ c main_v8 (ix2 i 0) = Cert.Spec.svec (Cert.Net.enc1 (argsK m c)) i :=
  (congrFun ((W5_of m ρ c main_v8 (by decide)).trans <| (W4_of m ρ c main_v8 (by decide))) (ix2 i 0)).trans (E_v8 m ρ c i)
theorem E5_v9 (c : Dev nD) (j : Fin 3072) : V5 m ρ c main_v9 (ix2 0 j) = Cert.Spec.svec (Cert.Net.enc1 (argsK m c)) j :=
  (congrFun ((W5_of m ρ c main_v9 (by decide)).trans <| (W4_of m ρ c main_v9 (by decide))) (ix2 0 j)).trans (E_v9 m ρ c j)
theorem E5_v10 (c : Dev nD) (i : Fin 3072) : V5 m ρ c main_v10 (ix2 i 0) = Cert.Spec.dinv (Cert.Net.enc1 (argsK m c)) i :=
  (congrFun ((W5_of m ρ c main_v10 (by decide))) (ix2 i 0)).trans (K_dinv1 m ρ c i)
theorem E5_arg25 (c : Dev nD) (i j : Fin 3072) : V5 m ρ c main_arg25 (ix2 i j) = (argsK m c).e1 i j :=
  congrFun ((enc_kept m ρ c main_arg25 (by decide)).1) (ix2 i j)
theorem E5_arg26 (c : Dev nD) (i j : Fin 3072) : V5 m ρ c main_arg26 (ix2 i j) = (argsK m c).f1 i j :=
  congrFun ((enc_kept m ρ c main_arg26 (by decide)).1) (ix2 i j)
theorem E5_arg27 (c : Dev nD) (i j : Fin 3072) : V5 m ρ c main_arg27 (ix2 i j) = (argsK m c).g1 i j :=
  congrFun ((enc_kept m ρ c main_arg27 (by decide)).1) (ix2 i j)
theorem E5_arg28 (c : Dev nD) (i j : Fin 3072) : V5 m ρ c main_arg28 (ix2 i j) = (argsK m c).h1 i j :=
  congrFun ((enc_kept m ρ c main_arg28 (by decide)).1) (ix2 i j)
theorem K_kh1 (c : Dev nD) (i j : Fin 3072) : V6 m ρ c main_v12 (ix2 i j) = Cert.Net.kh1 (argsK m c) i j := by
  refine (congrFun (V6_out m ρ c) (ix2 i j)).trans ?_
  refine (FinComb.fin2 (V5 m ρ) c i j).trans ?_
  exact kh_of (Cert.Net.enc1 (argsK m c)) (argsK m c).e1 (argsK m c).f1 (argsK m c).g1 (argsK m c).h1
      (fun i k => V5 m ρ c main_v4 (ix2 i k)) (fun i => V5 m ρ c main_v8 (ix2 i 0)) (fun j => V5 m ρ c main_v9 (ix2 0 j))
      (fun i => V5 m ρ c main_v10 (ix2 i 0)) (fun j => V5 m ρ c main_v11 (ix2 0 j))
      (fun i j => V5 m ρ c main_arg25 (ix2 i j)) (fun i j => V5 m ρ c main_arg26 (ix2 i j))
      (fun i j => V5 m ρ c main_arg27 (ix2 i j)) (fun i j => V5 m ρ c main_arg28 (ix2 i j))
      (E5_v4 m ρ c) (E5_v8 m ρ c) (E5_v9 m ρ c) (E5_v10 m ρ c) (E_v11 m ρ c)
      (E5_arg25 m ρ c) (E5_arg26 m ρ c) (E5_arg27 m ρ c) (E5_arg28 m ρ c) i j

theorem E_v13 (c : Dev nD) (i : Fin 3072) (k : Fin 500) : V7 m ρ c main_v13 (ix2 i k) = Cert.Net.enc1 (argsK m c) i k := by
  have e : V7 m ρ c main_v13
      = (truncf .bf16 (V6 m ρ c main_v3 : FVec Ideal S3072x500 .f32) bitsLt_bf16_f32 : FVec Ideal S3072x500 .bf16) := by
    dsimp only [V7, W7, hostOps3]; after_results <;> rfl
  rw [e]
  exact (congrFun ((W6_of m ρ c main_v3 (by decide)).trans <| (W5_of m ρ c main_v3 (by decide)).trans <| (W4_of m ρ c main_v3 (by decide)).trans <| (W3_of m ρ c main_v3 (by decide))) (ix2 i k)).trans (K_enc1 m ρ c i k)
theorem E_v14 (c : Dev nD) (k : Fin 500) (j : Fin 500) : V7 m ρ c main_v14 (ix2 k j) = (argsK m c).w2 k j := by
  have e : V7 m ρ c main_v14
      = (truncf .bf16 (V6 m ρ c main_arg3 : FVec Ideal S500x500 .f32) bitsLt_bf16_f32 : FVec Ideal S500x500 .bf16) := by
    dsimp only [V7, W7, hostOps3]; after_results <;> rfl
  rw [e]
  exact congrFun ((enc_kept m ρ c main_arg3 (by decide)).2.1) (ix2 k j)
theorem E_v15 (c : Dev nD) (j : Fin 500) : V7 m ρ c main_v15 (ix2 0 j) = (argsK m c).b2 j := by
  have e : V7 m ρ c main_v15
      = shapeCast S1x500 (V6 m ρ c main_arg4 : S500.Idx → EReal) shapeCasts_S500_S1x500 := by
    dsimp only [V7, W7, hostOps3]; after_results <;> rfl
  rw [e]
  exact (cast_row _ _ 0 j).trans (congrFun ((enc_kept m ρ c main_arg4 (by decide)).2.1) (ix1 j))
theorem K_enc2 (c : Dev nD) (i : Fin 3072) (j : Fin 500) : V8 m ρ c main_v16 (ix2 i j) = Cert.Net.enc2 (argsK m c) i j := by
  refine (congrFun (V8_out m ρ c) (ix2 i j)).trans ?_
  refine (fin3 (V7 m ρ) c i j).trans ?_
  exact lin_of (E_v13 m ρ c) (E_v14 m ρ c) (E_v15 m ρ c) i j

theorem E_v17 (c : Dev nD) (i : Fin 3072) (k : Fin 500) : V9 m ρ c main_v17 (ix2 i k) = Cert.Net.enc2 (argsK m c) i k := by
  have e : V9 m ρ c main_v17
      = (truncf .bf16 (V8 m ρ c main_v16 : FVec Ideal S3072x500 .f32) bitsLt_bf16_f32 : FVec Ideal S3072x500 .bf16) := by
    dsimp only [V9, W9, hostOps4]; after_results <;> rfl
  rw [e]
  exact K_enc2 m ρ c i k
theorem E_v21 (c : Dev nD) (i : Fin 3072) : V9 m ρ c main_v21 (ix2 i 0) = Cert.Spec.svec (Cert.Net.enc2 (argsK m c)) i := by
  have e : V9 m ρ c main_v21
      = shapeCast S3072x1 (Host.reduceAdd (mulf (extf .f32 (truncf .bf16 (V8 m ρ c main_v16 : FVec Ideal S3072x500 .f32) bitsLt_bf16_f32) bitsLt_bf16_f32)
          (extf .f32 (truncf .bf16 (V8 m ρ c main_v16 : FVec Ideal S3072x500 .f32) bitsLt_bf16_f32) bitsLt_bf16_f32))
          (constant (F := Ideal) S_ .f32 0x00000000#32) reducesTo_S3072x500_S3072_d1 h_S_) shapeCasts_S3072_S3072x1 := by
    dsimp only [V9, W9, hostOps4]; after_results <;> rfl
  rw [e]
  exact ((cast_col _ _ i 0).trans (sqrows_apply _ _ _ _ i)).trans
    (congrArg (fun h => Cert.Spec.svec h i) (funext fun i => funext fun k => K_enc2 m ρ c i k))
theorem E_v22 (c : Dev nD) (j : Fin 3072) : V9 m ρ c main_v22 (ix2 0 j) = Cert.Spec.svec (Cert.Net.enc2 (argsK m c)) j := by
  have e : V9 m ρ c main_v22
      = shapeCast S1x3072 (Host.reduceAdd (mulf (extf .f32 (truncf .bf16 (V8 m ρ c main_v16 : FVec Ideal S3072x500 .f32) bitsLt_bf16_f32) bitsLt_bf16_f32)
          (extf .f32 (truncf .bf16 (V8 m ρ c main_v16 : FVec Ideal S3072x500 .f32) bitsLt_bf16_f32) bitsLt_bf16_f32))
          (constant (F := Ideal) S_ .f32 0x00000000#32) reducesTo_S3072x500_S3072_d1 h_S_) shapeCasts_S3072_S1x3072 := by
    dsimp only [V9, W9, hostOps4]; after_results <;> rfl
  rw [e]
  exact ((cast_row _ _ 0 j).trans (sqrows_apply _ _ _ _ j)).trans
    (congrArg (fun h => Cert.Spec.svec h j) (funext fun i => funext fun k => K_enc2 m ρ c i k))
theorem K_dinv2 (c : Dev nD) (i : Fin 3072) : V10 m ρ c main_v23 (ix2 i 0) = Cert.Spec.dinv (Cert.Net.enc2 (argsK m c)) i := by
  refine (congrFun (V10_out m ρ c) (ix2 i 0)).trans ?_
  refine (fin4 (V9 m ρ) c i).trans ?_
  exact dinv_of (Cert.Net.enc2 (argsK m c)) (fun i k => V9 m ρ c main_v17 (ix2 i k)) (fun i => V9 m ρ c main_v21 (ix2 i 0)) (fun j => V9 m ρ c main_v22 (ix2 0 j))
      (E_v17 m ρ c) (E_v21 m ρ c) (E_v22 m ρ c) i

theorem E_v24 (c : Dev nD) (j : Fin 3072) : V11 m ρ c main_v24 (ix2 0 j) = Cert.Spec.dinv (Cert.Net.enc2 (argsK m c)) j := by
  have e : V11 m ρ c main_v24
      = shapeCast S1x3072 (V10 m ρ c main_v23 : S3072x1.Idx → EReal) shapeCasts_S3072x1_S1x3072 := by
    dsimp only [V11, W11, hostOps5]; after_results <;> rfl
  rw [e]
  exact (cast_col_row _ _ 0 0 j).trans (K_dinv2 m ρ c j)
theorem E11_v17 (c : Dev nD) (i : Fin 3072) (k : Fin 500) : V11 m ρ c main_v17 (ix2 i k) = Cert.Net.enc2 (argsK m c) i k :=
  (congrFun ((W11_of m ρ c main_v17 (by decide)).trans <| (W10_of m ρ c main_v17 (by decide))) (ix2 i k)).trans (E_v17 m ρ c i k)
theorem E11_v21 (c : Dev nD) (i : Fin 3072) : V11 m ρ c main_v21 (ix2 i 0) = Cert.Spec.svec (Cert.Net.enc2 (argsK m c)) i :=
  (congrFun ((W11_of m ρ c main_v21 (by decide)).trans <| (W10_of m ρ c main_v21 (by decide))) (ix2 i 0)).trans (E_v21 m ρ c i)
theorem E11_v22 (c : Dev nD) (j : Fin 3072) : V11 m ρ c main_v22 (ix2 0 j) = Cert.Spec.svec (Cert.Net.enc2 (argsK m c)) j :=
  (congrFun ((W11_of m ρ c main_v22 (by decide)).trans <| (W10_of m ρ c main_v22 (by decide))) (ix2 0 j)).trans (E_v22 m ρ c j)
theorem E11_v23 (c : Dev nD) (i : Fin 3072) : V11 m ρ c main_v23 (ix2 i 0) = Cert.Spec.dinv (Cert.Net.enc2 (argsK m c)) i :=
  (congrFun ((W11_of m ρ c main_v23 (by decide))) (ix2 i 0)).trans (K_dinv2 m ρ c i)
theorem E11_arg29 (c : Dev nD) (i j : Fin 3072) : V11 m ρ c main_arg29 (ix2 i j) = (argsK m c).e2 i j :=
  congrFun ((enc_kept m ρ c main_arg29 (by decide)).2.2.1) (ix2 i j)
theorem E11_arg30 (c : Dev nD) (i j : Fin 3072) : V11 m ρ c main_arg30 (ix2 i j) = (argsK m c).f2 i j :=
  congrFun ((enc_kept m ρ c main_arg30 (by decide)).2.2.1) (ix2 i j)
theorem E11_arg31 (c : Dev nD) (i j : Fin 3072) : V11 m ρ c main_arg31 (ix2 i j) = (argsK m c).g2 i j :=
  congrFun ((enc_kept m ρ c main_arg31 (by decide)).2.2.1) (ix2 i j)
theorem E11_arg32 (c : Dev nD) (i j : Fin 3072) : V11 m ρ c main_arg32 (ix2 i j) = (argsK m c).h2 i j :=
  congrFun ((enc_kept m ρ c main_arg32 (by decide)).2.2.1) (ix2 i j)
theorem K_kh2 (c : Dev nD) (i j : Fin 3072) : V12 m ρ c main_v25 (ix2 i j) = Cert.Net.kh2 (argsK m c) i j := by
  refine (congrFun (V12_out m ρ c) (ix2 i j)).trans ?_
  refine (FinComb5.fin5 (V11 m ρ) c i j).trans ?_
  exact kh_of (Cert.Net.enc2 (argsK m c)) (argsK m c).e2 (argsK m c).f2 (argsK m c).g2 (argsK m c).h2
      (fun i k => V11 m ρ c main_v17 (ix2 i k)) (fun i => V11 m ρ c main_v21 (ix2 i 0)) (fun j => V11 m ρ c main_v22 (ix2 0 j))
      (fun i => V11 m ρ c main_v23 (ix2 i 0)) (fun j => V11 m ρ c main_v24 (ix2 0 j))
      (fun i j => V11 m ρ c main_arg29 (ix2 i j)) (fun i j => V11 m ρ c main_arg30 (ix2 i j))
      (fun i j => V11 m ρ c main_arg31 (ix2 i j)) (fun i j => V11 m ρ c main_arg32 (ix2 i j))
      (E11_v17 m ρ c) (E11_v21 m ρ c) (E11_v22 m ρ c) (E11_v23 m ρ c) (E_v24 m ρ c)
      (E11_arg29 m ρ c) (E11_arg30 m ρ c) (E11_arg31 m ρ c) (E11_arg32 m ρ c) i j

theorem E_v26 (c : Dev nD) (i : Fin 3072) (k : Fin 500) : V13 m ρ c main_v26 (ix2 i k) = Cert.Net.enc2 (argsK m c) i k := by
  have e : V13 m ρ c main_v26
      = (truncf .bf16 (V12 m ρ c main_v16 : FVec Ideal S3072x500 .f32) bitsLt_bf16_f32 : FVec Ideal S3072x500 .bf16) := by
    dsimp only [V13, W13, hostOps6]; after_results <;> rfl
  rw [e]
  exact (congrFun ((W12_of m ρ c main_v16 (by decide)).trans <| (W11_of m ρ c main_v16 (by decide)).trans <| (W10_of m ρ c main_v16 (by decide)).trans <| (W9_of m ρ c main_v16 (by decide))) (ix2 i k)).trans (K_enc2 m ρ c i k)
theorem E_v27 (c : Dev nD) (k : Fin 500) (j : Fin 2000) : V13 m ρ c main_v27 (ix2 k j) = (argsK m c).w3 k j := by
  have e : V13 m ρ c main_v27
      = (truncf .bf16 (V12 m ρ c main_arg5 : FVec Ideal S500x2000 .f32) bitsLt_bf16_f32 : FVec Ideal S500x2000 .bf16) := by
    dsimp only [V13, W13, hostOps6]; after_results <;> rfl
  rw [e]
  exact congrFun ((enc_kept m ρ c main_arg5 (by decide)).2.2.2.1) (ix2 k j)
theorem E_v28 (c : Dev nD) (j : Fin 2000) : V13 m ρ c main_v28 (ix2 0 j) = (argsK m c).b3 j := by
  have e : V13 m ρ c main_v28
      = shapeCast S1x2000 (V12 m ρ c main_arg6 : S2000.Idx → EReal) shapeCasts_S2000_S1x2000 := by
    dsimp only [V13, W13, hostOps6]; after_results <;> rfl
  rw [e]
  exact (cast_row _ _ 0 j).trans (congrFun ((enc_kept m ρ c main_arg6 (by decide)).2.2.2.1) (ix1 j))
theorem K_enc3 (c : Dev nD) (i : Fin 3072) (j : Fin 2000) : V14 m ρ c main_v29 (ix2 i j) = Cert.Net.enc3 (argsK m c) i j := by
  refine (congrFun (V14_out m ρ c) (ix2 i j)).trans ?_
  refine (fin6 (V13 m ρ) c i j).trans ?_
  exact lin_of (E_v26 m ρ c) (E_v27 m ρ c) (E_v28 m ρ c) i j

theorem E_v30 (c : Dev nD) (i : Fin 3072) (k : Fin 2000) : V15 m ρ c main_v30 (ix2 i k) = Cert.Net.enc3 (argsK m c) i k := by
  have e : V15 m ρ c main_v30
      = (truncf .bf16 (V14 m ρ c main_v29 : FVec Ideal S3072x2000 .f32) bitsLt_bf16_f32 : FVec Ideal S3072x2000 .bf16) := by
    dsimp only [V15, W15, hostOps7]; after_results <;> rfl
  rw [e]
  exact K_enc3 m ρ c i k
theorem E_v34 (c : Dev nD) (i : Fin 3072) : V15 m ρ c main_v34 (ix2 i 0) = Cert.Spec.svec (Cert.Net.enc3 (argsK m c)) i := by
  have e : V15 m ρ c main_v34
      = shapeCast S3072x1 (Host.reduceAdd (mulf (extf .f32 (truncf .bf16 (V14 m ρ c main_v29 : FVec Ideal S3072x2000 .f32) bitsLt_bf16_f32) bitsLt_bf16_f32)
          (extf .f32 (truncf .bf16 (V14 m ρ c main_v29 : FVec Ideal S3072x2000 .f32) bitsLt_bf16_f32) bitsLt_bf16_f32))
          (constant (F := Ideal) S_ .f32 0x00000000#32) reducesTo_S3072x2000_S3072_d1 h_S_) shapeCasts_S3072_S3072x1 := by
    dsimp only [V15, W15, hostOps7]; after_results <;> rfl
  rw [e]
  exact ((cast_col _ _ i 0).trans (sqrows_apply _ _ _ _ i)).trans
    (congrArg (fun h => Cert.Spec.svec h i) (funext fun i => funext fun k => K_enc3 m ρ c i k))
theorem E_v35 (c : Dev nD) (j : Fin 3072) : V15 m ρ c main_v35 (ix2 0 j) = Cert.Spec.svec (Cert.Net.enc3 (argsK m c)) j := by
  have e : V15 m ρ c main_v35
      = shapeCast S1x3072 (Host.reduceAdd (mulf (extf .f32 (truncf .bf16 (V14 m ρ c main_v29 : FVec Ideal S3072x2000 .f32) bitsLt_bf16_f32) bitsLt_bf16_f32)
          (extf .f32 (truncf .bf16 (V14 m ρ c main_v29 : FVec Ideal S3072x2000 .f32) bitsLt_bf16_f32) bitsLt_bf16_f32))
          (constant (F := Ideal) S_ .f32 0x00000000#32) reducesTo_S3072x2000_S3072_d1 h_S_) shapeCasts_S3072_S1x3072 := by
    dsimp only [V15, W15, hostOps7]; after_results <;> rfl
  rw [e]
  exact ((cast_row _ _ 0 j).trans (sqrows_apply _ _ _ _ j)).trans
    (congrArg (fun h => Cert.Spec.svec h j) (funext fun i => funext fun k => K_enc3 m ρ c i k))
theorem K_dinv3 (c : Dev nD) (i : Fin 3072) : V16 m ρ c main_v36 (ix2 i 0) = Cert.Spec.dinv (Cert.Net.enc3 (argsK m c)) i := by
  refine (congrFun (V16_out m ρ c) (ix2 i 0)).trans ?_
  refine (fin7 (V15 m ρ) c i).trans ?_
  exact dinv_of (Cert.Net.enc3 (argsK m c)) (fun i k => V15 m ρ c main_v30 (ix2 i k)) (fun i => V15 m ρ c main_v34 (ix2 i 0)) (fun j => V15 m ρ c main_v35 (ix2 0 j))
      (E_v30 m ρ c) (E_v34 m ρ c) (E_v35 m ρ c) i

theorem E_v37 (c : Dev nD) (j : Fin 3072) : V17 m ρ c main_v37 (ix2 0 j) = Cert.Spec.dinv (Cert.Net.enc3 (argsK m c)) j := by
  have e : V17 m ρ c main_v37
      = shapeCast S1x3072 (V16 m ρ c main_v36 : S3072x1.Idx → EReal) shapeCasts_S3072x1_S1x3072 := by
    dsimp only [V17, W17, hostOps8]; after_results <;> rfl
  rw [e]
  exact (cast_col_row _ _ 0 0 j).trans (K_dinv3 m ρ c j)
theorem E17_v30 (c : Dev nD) (i : Fin 3072) (k : Fin 2000) : V17 m ρ c main_v30 (ix2 i k) = Cert.Net.enc3 (argsK m c) i k :=
  (congrFun ((W17_of m ρ c main_v30 (by decide)).trans <| (W16_of m ρ c main_v30 (by decide))) (ix2 i k)).trans (E_v30 m ρ c i k)
theorem E17_v34 (c : Dev nD) (i : Fin 3072) : V17 m ρ c main_v34 (ix2 i 0) = Cert.Spec.svec (Cert.Net.enc3 (argsK m c)) i :=
  (congrFun ((W17_of m ρ c main_v34 (by decide)).trans <| (W16_of m ρ c main_v34 (by decide))) (ix2 i 0)).trans (E_v34 m ρ c i)
theorem E17_v35 (c : Dev nD) (j : Fin 3072) : V17 m ρ c main_v35 (ix2 0 j) = Cert.Spec.svec (Cert.Net.enc3 (argsK m c)) j :=
  (congrFun ((W17_of m ρ c main_v35 (by decide)).trans <| (W16_of m ρ c main_v35 (by decide))) (ix2 0 j)).trans (E_v35 m ρ c j)
theorem E17_v36 (c : Dev nD) (i : Fin 3072) : V17 m ρ c main_v36 (ix2 i 0) = Cert.Spec.dinv (Cert.Net.enc3 (argsK m c)) i :=
  (congrFun ((W17_of m ρ c main_v36 (by decide))) (ix2 i 0)).trans (K_dinv3 m ρ c i)
theorem E17_arg33 (c : Dev nD) (i j : Fin 3072) : V17 m ρ c main_arg33 (ix2 i j) = (argsK m c).e3 i j :=
  congrFun ((enc_kept m ρ c main_arg33 (by decide)).2.2.2.2.1) (ix2 i j)
theorem E17_arg34 (c : Dev nD) (i j : Fin 3072) : V17 m ρ c main_arg34 (ix2 i j) = (argsK m c).f3 i j :=
  congrFun ((enc_kept m ρ c main_arg34 (by decide)).2.2.2.2.1) (ix2 i j)
theorem E17_arg35 (c : Dev nD) (i j : Fin 3072) : V17 m ρ c main_arg35 (ix2 i j) = (argsK m c).g3 i j :=
  congrFun ((enc_kept m ρ c main_arg35 (by decide)).2.2.2.2.1) (ix2 i j)
theorem E17_arg36 (c : Dev nD) (i j : Fin 3072) : V17 m ρ c main_arg36 (ix2 i j) = (argsK m c).h3 i j :=
  congrFun ((enc_kept m ρ c main_arg36 (by decide)).2.2.2.2.1) (ix2 i j)
theorem K_kh3 (c : Dev nD) (i j : Fin 3072) : V18 m ρ c main_v38 (ix2 i j) = Cert.Net.kh3 (argsK m c) i j := by
  refine (congrFun (V18_out m ρ c) (ix2 i j)).trans ?_
  refine (FinComb8.fin8 (V17 m ρ) c i j).trans ?_
  exact kh_of (Cert.Net.enc3 (argsK m c)) (argsK m c).e3 (argsK m c).f3 (argsK m c).g3 (argsK m c).h3
      (fun i k => V17 m ρ c main_v30 (ix2 i k)) (fun i => V17 m ρ c main_v34 (ix2 i 0)) (fun j => V17 m ρ c main_v35 (ix2 0 j))
      (fun i => V17 m ρ c main_v36 (ix2 i 0)) (fun j => V17 m ρ c main_v37 (ix2 0 j))
      (fun i j => V17 m ρ c main_arg33 (ix2 i j)) (fun i j => V17 m ρ c main_arg34 (ix2 i j))
      (fun i j => V17 m ρ c main_arg35 (ix2 i j)) (fun i j => V17 m ρ c main_arg36 (ix2 i j))
      (E17_v30 m ρ c) (E17_v34 m ρ c) (E17_v35 m ρ c) (E17_v36 m ρ c) (E_v37 m ρ c)
      (E17_arg33 m ρ c) (E17_arg34 m ρ c) (E17_arg35 m ρ c) (E17_arg36 m ρ c) i j

theorem E_v39 (c : Dev nD) (i : Fin 3072) (k : Fin 2000) : V19 m ρ c main_v39 (ix2 i k) = Cert.Net.enc3 (argsK m c) i k := by
  have e : V19 m ρ c main_v39
      = (truncf .bf16 (V18 m ρ c main_v29 : FVec Ideal S3072x2000 .f32) bitsLt_bf16_f32 : FVec Ideal S3072x2000 .bf16) := by
    dsimp only [V19, W19, hostOps9]; after_results <;> rfl
  rw [e]
  exact (congrFun ((W18_of m ρ c main_v29 (by decide)).trans <| (W17_of m ρ c main_v29 (by decide)).trans <| (W16_of m ρ c main_v29 (by decide)).trans <| (W15_of m ρ c main_v29 (by decide))) (ix2 i k)).trans (K_enc3 m ρ c i k)
theorem E_v40 (c : Dev nD) (k : Fin 2000) (j : Fin 10) : V19 m ρ c main_v40 (ix2 k j) = (argsK m c).wz k j := by
  have e : V19 m ρ c main_v40
      = (truncf .bf16 (V18 m ρ c main_arg7 : FVec Ideal S2000x10 .f32) bitsLt_bf16_f32 : FVec Ideal S2000x10 .bf16) := by
    dsimp only [V19, W19, hostOps9]; after_results <;> rfl
  rw [e]
  exact congrFun ((enc_kept m ρ c main_arg7 (by decide)).2.2.2.2.2.1) (ix2 k j)
theorem E_v41 (c : Dev nD) (j : Fin 10) : V19 m ρ c main_v41 (ix2 0 j) = (argsK m c).bz j := by
  have e : V19 m ρ c main_v41
      = shapeCast S1x10 (V18 m ρ c main_arg8 : S10.Idx → EReal) shapeCasts_S10_S1x10 := by
    dsimp only [V19, W19, hostOps9]; after_results <;> rfl
  rw [e]
  exact (cast_row _ _ 0 j).trans (congrFun ((enc_kept m ρ c main_arg8 (by decide)).2.2.2.2.2.1) (ix1 j))
theorem K_lat (c : Dev nD) (i : Fin 3072) (j : Fin 10) : V20 m ρ c main_v42 (ix2 i j) = Cert.Net.lat (argsK m c) i j := by
  refine (congrFun (V20_out m ρ c) (ix2 i j)).trans ?_
  refine (fin9 (V19 m ρ) c i j).trans ?_
  exact lin_of (E_v39 m ρ c) (E_v40 m ρ c) (E_v41 m ρ c) i j

theorem E_v43 (c : Dev nD) (i : Fin 3072) (k : Fin 10) : V21 m ρ c main_v43 (ix2 i k) = Cert.Net.lat (argsK m c) i k := by
  have e : V21 m ρ c main_v43
      = (truncf .bf16 (V20 m ρ c main_v42 : FVec Ideal S3072x10 .f32) bitsLt_bf16_f32 : FVec Ideal S3072x10 .bf16) := by
    dsimp only [V21, W21, hostOps10]; after_results <;> rfl
  rw [e]
  exact K_lat m ρ c i k
theorem E_v47 (c : Dev nD) (i : Fin 3072) : V21 m ρ c main_v47 (ix2 i 0) = Cert.Spec.svec (Cert.Net.lat (argsK m c)) i := by
  have e : V21 m ρ c main_v47
      = shapeCast S3072x1 (Host.reduceAdd (mulf (extf .f32 (truncf .bf16 (V20 m ρ c main_v42 : FVec Ideal S3072x10 .f32) bitsLt_bf16_f32) bitsLt_bf16_f32)
          (extf .f32 (truncf .bf16 (V20 m ρ c main_v42 : FVec Ideal S3072x10 .f32) bitsLt_bf16_f32) bitsLt_bf16_f32))
          (constant (F := Ideal) S_ .f32 0x00000000#32) reducesTo_S3072x10_S3072_d1 h_S_) shapeCasts_S3072_S3072x1 := by
    dsimp only [V21, W21, hostOps10]; after_results <;> rfl
  rw [e]
  exact ((cast_col _ _ i 0).trans (sqrows_apply _ _ _ _ i)).trans
    (congrArg (fun h => Cert.Spec.svec h i) (funext fun i => funext fun k => K_lat m ρ c i k))
theorem E_v48 (c : Dev nD) (j : Fin 3072) : V21 m ρ c main_v48 (ix2 0 j) = Cert.Spec.svec (Cert.Net.lat (argsK m c)) j := by
  have e : V21 m ρ c main_v48
      = shapeCast S1x3072 (Host.reduceAdd (mulf (extf .f32 (truncf .bf16 (V20 m ρ c main_v42 : FVec Ideal S3072x10 .f32) bitsLt_bf16_f32) bitsLt_bf16_f32)
          (extf .f32 (truncf .bf16 (V20 m ρ c main_v42 : FVec Ideal S3072x10 .f32) bitsLt_bf16_f32) bitsLt_bf16_f32))
          (constant (F := Ideal) S_ .f32 0x00000000#32) reducesTo_S3072x10_S3072_d1 h_S_) shapeCasts_S3072_S1x3072 := by
    dsimp only [V21, W21, hostOps10]; after_results <;> rfl
  rw [e]
  exact ((cast_row _ _ 0 j).trans (sqrows_apply _ _ _ _ j)).trans
    (congrArg (fun h => Cert.Spec.svec h j) (funext fun i => funext fun k => K_lat m ρ c i k))
theorem K_dinvz (c : Dev nD) (i : Fin 3072) : V22 m ρ c main_v49 (ix2 i 0) = Cert.Spec.dinv (Cert.Net.lat (argsK m c)) i := by
  refine (congrFun (V22_out m ρ c) (ix2 i 0)).trans ?_
  refine (fin10 (V21 m ρ) c i).trans ?_
  exact dinv_of (Cert.Net.lat (argsK m c)) (fun i k => V21 m ρ c main_v43 (ix2 i k)) (fun i => V21 m ρ c main_v47 (ix2 i 0)) (fun j => V21 m ρ c main_v48 (ix2 0 j))
      (E_v43 m ρ c) (E_v47 m ρ c) (E_v48 m ρ c) i

theorem E_v50 (c : Dev nD) (j : Fin 3072) : V23 m ρ c main_v50 (ix2 0 j) = Cert.Spec.dinv (Cert.Net.lat (argsK m c)) j := by
  have e : V23 m ρ c main_v50
      = shapeCast S1x3072 (V22 m ρ c main_v49 : S3072x1.Idx → EReal) shapeCasts_S3072x1_S1x3072 := by
    dsimp only [V23, W23, hostOps11]; after_results <;> rfl
  rw [e]
  exact (cast_col_row _ _ 0 0 j).trans (K_dinvz m ρ c j)
theorem E23_v43 (c : Dev nD) (i : Fin 3072) (k : Fin 10) : V23 m ρ c main_v43 (ix2 i k) = Cert.Net.lat (argsK m c) i k :=
  (congrFun ((W23_of m ρ c main_v43 (by decide)).trans <| (W22_of m ρ c main_v43 (by decide))) (ix2 i k)).trans (E_v43 m ρ c i k)
theorem E23_v47 (c : Dev nD) (i : Fin 3072) : V23 m ρ c main_v47 (ix2 i 0) = Cert.Spec.svec (Cert.Net.lat (argsK m c)) i :=
  (congrFun ((W23_of m ρ c main_v47 (by decide)).trans <| (W22_of m ρ c main_v47 (by decide))) (ix2 i 0)).trans (E_v47 m ρ c i)
theorem E23_v48 (c : Dev nD) (j : Fin 3072) : V23 m ρ c main_v48 (ix2 0 j) = Cert.Spec.svec (Cert.Net.lat (argsK m c)) j :=
  (congrFun ((W23_of m ρ c main_v48 (by decide)).trans <| (W22_of m ρ c main_v48 (by decide))) (ix2 0 j)).trans (E_v48 m ρ c j)
theorem E23_v49 (c : Dev nD) (i : Fin 3072) : V23 m ρ c main_v49 (ix2 i 0) = Cert.Spec.dinv (Cert.Net.lat (argsK m c)) i :=
  (congrFun ((W23_of m ρ c main_v49 (by decide))) (ix2 i 0)).trans (K_dinvz m ρ c i)
theorem E23_arg21 (c : Dev nD) (i j : Fin 3072) : V23 m ρ c main_arg21 (ix2 i j) = (argsK m c).e i j :=
  congrFun ((enc_kept m ρ c main_arg21 (by decide)).2.2.2.2.2.2) (ix2 i j)
theorem E23_arg22 (c : Dev nD) (i j : Fin 3072) : V23 m ρ c main_arg22 (ix2 i j) = (argsK m c).f i j :=
  congrFun ((enc_kept m ρ c main_arg22 (by decide)).2.2.2.2.2.2) (ix2 i j)
theorem E23_arg23 (c : Dev nD) (i j : Fin 3072) : V23 m ρ c main_arg23 (ix2 i j) = (argsK m c).g i j :=
  congrFun ((enc_kept m ρ c main_arg23 (by decide)).2.2.2.2.2.2) (ix2 i j)
theorem E23_arg24 (c : Dev nD) (i j : Fin 3072) : V23 m ρ c main_arg24 (ix2 i j) = (argsK m c).h i j :=
  congrFun ((enc_kept m ρ c main_arg24 (by decide)).2.2.2.2.2.2) (ix2 i j)
theorem K_khz (c : Dev nD) (i j : Fin 3072) : V24 m ρ c main_v51 (ix2 i j) = Cert.Net.khz (argsK m c) i j := by
  refine (congrFun (V24_out m ρ c) (ix2 i j)).trans ?_
  refine (FinComb11.fin11 (V23 m ρ) c i j).trans ?_
  exact kh_of (Cert.Net.lat (argsK m c)) (argsK m c).e (argsK m c).f (argsK m c).g (argsK m c).h
      (fun i k => V23 m ρ c main_v43 (ix2 i k)) (fun i => V23 m ρ c main_v47 (ix2 i 0)) (fun j => V23 m ρ c main_v48 (ix2 0 j))
      (fun i => V23 m ρ c main_v49 (ix2 i 0)) (fun j => V23 m ρ c main_v50 (ix2 0 j))
      (fun i j => V23 m ρ c main_arg21 (ix2 i j)) (fun i j => V23 m ρ c main_arg22 (ix2 i j))
      (fun i j => V23 m ρ c main_arg23 (ix2 i j)) (fun i j => V23 m ρ c main_arg24 (ix2 i j))
      (E23_v43 m ρ c) (E23_v47 m ρ c) (E23_v48 m ρ c) (E23_v49 m ρ c) (E_v50 m ρ c)
      (E23_arg21 m ρ c) (E23_arg22 m ρ c) (E23_arg23 m ρ c) (E23_arg24 m ρ c) i j

end Cert.KI

end
-- ==== Proof.KI.Fin12.lean ====
import proofs.«146000_j29076928594330_2_alg».proof.Proof.KI.R12
import proofs.«146000_j29076928594330_2_alg».proof.Proof.Spec
import Idealize.ShloMosaic.Lib.Pipeline.Value
import Idealize.ShloMosaic.Lib.ValueIdx
import Idealize.ShloMosaic.Lib.Tactic

set_option maxRecDepth 16384

noncomputable section

namespace Cert.KI

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz12 : (![0, 0] : Fin 2 → Nat) = fun _ => 0 := funext fun a => by fin_cases a <;> rfl

theorem pay12_at (v0 v1 v4 v5 v9 v10 v14 v15 : Vec Ideal S128x3072 .f32) (j : S128x3072.Idx) :
    k12_pay1 v0 v1 v4 v5 v9 v10 v14 v15 j
      = (v0 j : EReal) * v1 j + v4 j * v5 j + v9 j * v10 j + v14 j * v15 j := by
  unfold k12_pay1
  simp only [shapeCast_self]
  rfl

abbrev ent12_0 (c : Dev nD) : S3072x3072.Idx → EReal := V c (Pipeline.arrRef spec12 0)
abbrev ent12_1 (c : Dev nD) : S3072x3072.Idx → EReal := V c (Pipeline.arrRef spec12 1)
abbrev ent12_2 (c : Dev nD) : S3072x3072.Idx → EReal := V c (Pipeline.arrRef spec12 2)
abbrev ent12_3 (c : Dev nD) : S3072x3072.Idx → EReal := V c (Pipeline.arrRef spec12 3)
abbrev ent12_4 (c : Dev nD) : S3072x3072.Idx → EReal := V c (Pipeline.arrRef spec12 4)
abbrev ent12_5 (c : Dev nD) : S3072x3072.Idx → EReal := V c (Pipeline.arrRef spec12 5)
abbrev ent12_6 (c : Dev nD) : S3072x3072.Idx → EReal := V c (Pipeline.arrRef spec12 6)
abbrev ent12_7 (c : Dev nD) : S3072x3072.Idx → EReal := V c (Pipeline.arrRef spec12 7)

-- The entrywise weighted sum of windows 4 to 7's arrays, the weights being windows 0 to 3's.
abbrev G12 (c : Dev nD) : S3072x3072.Idx → EReal := fun i =>
  ent12_0 V c i * ent12_4 V c i + ent12_1 V c i * ent12_5 V c i + ent12_2 V c i * ent12_6 V c i + ent12_3 V c i * ent12_7 V c i

theorem idx_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0
    ∧ win12_7.index t (0 : Fin 2) = t.val ∧ win12_7.index t (1 : Fin 2) = 0
    ∧ win12_8.index t (0 : Fin 2) = t.val ∧ win12_8.index t (1 : Fin 2) = 0 :=
  (by decide +kernel : ∀ t : Fin grid12.N, _)

def row12 (t : Fin cfg12.N) (p : Fin 128) : Fin 3072 := ⟨t.val * 128 + p.val, by
  have h : t.val < 24 := lt_of_lt_of_eq t.isLt N_12
  have := p.isLt
  omega⟩

-- An index whose row is p within band t and whose column is q.
theorem band {x : S3072x3072.Idx} {a b : ℕ} {t : Fin cfg12.N} {p : Fin 128} {q : Fin 3072} (ha : a = t.val) (hb : b = 0)
    (h0 : (x 0 : ℕ) = a * 128 + 1 * p.val) (h1 : (x 1 : ℕ) = b * 3072 + 1 * q.val) : x = ix2 (row12 t p) q := by
  funext k
  apply Fin.ext
  match k with
  | ⟨0, _⟩ => exact h0.trans (by rw [ha, Nat.one_mul]; rfl)
  | ⟨1, _⟩ => exact h1.trans (by rw [hb, Nat.zero_mul, Nat.zero_add, Nat.one_mul])

-- Entry (p, q) of every window's block at point t sits in the array at row p of band t, column q.
theorem emb12 (t : Fin cfg12.N) (p : Fin 128) (q : Fin 3072) :
    ((cfg12.win 0).blk t).view.emb (ix2 p q) = ix2 (row12 t p) q ∧ ((cfg12.win 1).blk t).view.emb (ix2 p q) = ix2 (row12 t p) q
    ∧ ((cfg12.win 2).blk t).view.emb (ix2 p q) = ix2 (row12 t p) q ∧ ((cfg12.win 3).blk t).view.emb (ix2 p q) = ix2 (row12 t p) q
    ∧ ((cfg12.win 4).blk t).view.emb (ix2 p q) = ix2 (row12 t p) q ∧ ((cfg12.win 5).blk t).view.emb (ix2 p q) = ix2 (row12 t p) q
    ∧ ((cfg12.win 6).blk t).view.emb (ix2 p q) = ix2 (row12 t p) q ∧ ((cfg12.win 7).blk t).view.emb (ix2 p q) = ix2 (row12 t p) q
    ∧ ((cfg12.win 8).blk t).view.emb (ix2 p q) = ix2 (row12 t p) q := by
  obtain ⟨a0, b0, a1, b1, a2, b2, a3, b3, a4, b4, a5, b5, a6, b6, a7, b7, a8, b8⟩ := idx_facts12 t
  exact ⟨band a0 b0 rfl rfl, band a1 b1 rfl rfl, band a2 b2 rfl rfl, band a3 b3 rfl rfl, band a4 b4 rfl rfl,
    band a5 b5 rfl rfl, band a6 b6 rfl rfl, band a7 b7 rfl rfl, band a8 b8 rfl rfl⟩

theorem flushed12_eq (c : Dev nD) (t : Fin cfg12.N) :
    (dat12 V c).flushed 8 t = ((cfg12.win 8).blk t).view.read (Elt Ideal) (G12 V c) := by
  show (cfg12.win 8).cut (grid12.coords t) ((dat12 V c).after 8 t) = _
  rw [after12_8]
  unfold out12_8
  rw [View.canon_unit_zero hz12]
  simp only [View.ld_unit_zero (S := S128x3072) hz12]
  funext j
  obtain ⟨p, q, rfl⟩ : ∃ (p : Fin 128) (q : Fin 3072), j = ix2 p q := ⟨j 0, j 1, eq_ix2 j⟩
  obtain ⟨e0, e1, e2, e3, e4, e5, e6, e7, e8⟩ := emb12 t p q
  refine (pay12_at _ _ _ _ _ _ _ _ _).trans ?_
  show ent12_0 V c (((cfg12.win 0).blk t).view.emb (ix2 p q)) * ent12_4 V c (((cfg12.win 4).blk t).view.emb (ix2 p q))
      + ent12_1 V c (((cfg12.win 1).blk t).view.emb (ix2 p q)) * ent12_5 V c (((cfg12.win 5).blk t).view.emb (ix2 p q))
      + ent12_2 V c (((cfg12.win 2).blk t).view.emb (ix2 p q)) * ent12_6 V c (((cfg12.win 6).blk t).view.emb (ix2 p q))
      + ent12_3 V c (((cfg12.win 3).blk t).view.emb (ix2 p q)) * ent12_7 V c (((cfg12.win 7).blk t).view.emb (ix2 p q))
    = G12 V c (((cfg12.win 8).blk t).view.emb (ix2 p q))
  rw [e0, e1, e2, e3, e4, e5, e6, e7, e8]

theorem mem_blk12 (t : Fin cfg12.N) (i : S3072x3072.Idx) :
    i ∈ ((cfg12.win 8).blk t).view.set ↔ ∀ a : Fin 2, win12_8.index t a * S128x3072.size a ≤ (i a).val ∧ (i a).val < win12_8.index t a * S128x3072.size a + S128x3072.size a := by
  show i ∈ ((View.whole main_v52).slice (win12_8.rect t)).set ↔ _
  rw [View.set_slice_whole, Rect.mem_set_unit]
  exact Iff.rfl

-- Row r lies in band r / 128.
theorem cover12 (i : S3072x3072.Idx) :
    ∃ t : Fin cfg12.N, (cfg12.win 8).flush t = true ∧ i ∈ ((cfg12.win 8).blk t).view.set := by
  have hi0 : (i 0).val < 3072 := (i 0).isLt
  have hi1 : (i 1).val < 3072 := (i 1).isLt
  have hN : cfg12.N = 24 := N_12
  let t : Fin cfg12.N := ⟨(i 0).val / 128, by rw [hN]; omega⟩
  obtain ⟨-, -, -, -, -, -, -, -, -, -, -, -, -, -, -, -, e0, e1⟩ := idx_facts12 t
  have ht : t.val = (i 0).val / 128 := rfl
  refine ⟨t, flush12_8 t, ?_⟩
  rw [mem_blk12]
  intro a
  match a with
  | ⟨0, _⟩ => show win12_8.index t (0 : Fin 2) * 128 ≤ (i 0).val ∧ (i 0).val < win12_8.index t (0 : Fin 2) * 128 + 128; omega
  | ⟨1, _⟩ => show win12_8.index t (1 : Fin 2) * 3072 ≤ (i 1).val ∧ (i 1).val < win12_8.index t (1 : Fin 2) * 3072 + 3072; omega

theorem fin12 (c : Dev nD) (i j : Fin 3072) :
    ((dat12 V c).arrAt 8 cfg12.N : S3072x3072.Idx → EReal) (ix2 i j)
      = Cert.Spec.kfin (fun i j => ent12_0 V c (ix2 i j)) (fun i j => ent12_1 V c (ix2 i j)) (fun i j => ent12_2 V c (ix2 i j))
          (fun i j => ent12_3 V c (ix2 i j)) (fun i j => ent12_4 V c (ix2 i j)) (fun i j => ent12_5 V c (ix2 i j))
          (fun i j => ent12_6 V c (ix2 i j)) (fun i j => ent12_7 V c (ix2 i j)) i j :=
  congrFun ((dat12 V c).arrAt_eq_of_cover 8 (G12 V c) (fun t _ => flushed12_eq V c t) cover12) (ix2 i j)

end Cert.KI
-- ==== Proof.KI.Fin17.lean ====
import proofs.«146000_j29076928594330_2_alg».proof.Proof.KI.R17
import proofs.«146000_j29076928594330_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KI

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz17_2 : (![0, 0] : Fin 2 → Nat) = fun _ => 0 := funext fun a => by fin_cases a <;> rfl
theorem hz17_3 : (![0, 0, 0] : Fin 3 → Nat) = fun _ => 0 := funext fun a => by fin_cases a <;> rfl

-- A matrix given a middle unit axis reads, at (p, u, q), the matrix at (p, q).
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

theorem pay17_at (v0 : Vec Ideal S64x3072 .f32) (v2 : Vec Ideal S10x3072 .f32) (p : Fin 64) (n : Fin 10) (q : Fin 3072) :
    k17_pay1 v0 v2 (ix3 p n q) = (v0 (ix2 p q) : EReal) - v2 (ix2 n q) := by
  unfold k17_pay1
  simp only [shapeCast_self]
  have e1 : broadcastTo S64x10x3072 (shapeCast S64x1x3072 v0 shapeCasts_S64x3072_S64x1x3072) broadcasts_S64x1x3072_S64x10x3072 (ix3 p n q) = v0 (ix2 p q) :=
    (broadcastTo_apply _ _ (ix3 p n q) (ix3 p (0 : Fin 1) q) (fun a => match a with | ⟨0, _⟩ => rfl | ⟨1, _⟩ => rfl | ⟨2, _⟩ => rfl)).trans
      (shapeCast_ab_a1b_apply _ _ _ _ _)
  have e2 : broadcastTo S64x10x3072 (shapeCast S1x10x3072 v2 shapeCasts_S10x3072_S1x10x3072) broadcasts_S1x10x3072_S64x10x3072 (ix3 p n q) = v2 (ix2 n q) :=
    (broadcastTo_apply _ _ (ix3 p n q) (ix3 (0 : Fin 1) n q) (fun a => match a with | ⟨0, _⟩ => rfl | ⟨1, _⟩ => rfl | ⟨2, _⟩ => rfl)).trans
      (shapeCast_ab_1ab_apply _ _ _ _ _)
  exact (subf_apply _ _ _).trans (congrArg₂ (fun x y : EReal => x - y) e1 e2)

abbrev kin17 (c : Dev nD) : S3072x3072.Idx → EReal := V c (Pipeline.arrRef spec17 0)
abbrev cin17 (c : Dev nD) : S10x3072.Idx → EReal := V c (Pipeline.arrRef spec17 1)

-- Window 0's array at (row, column) minus window 1's at (centre, column).
abbrev G17 (c : Dev nD) : S3072x10x3072.Idx → EReal := fun i =>
  kin17 V c (ix2 (i 0 : Fin 3072) (i 2 : Fin 3072)) - cin17 V c (ix2 (i 1 : Fin 10) (i 2 : Fin 3072))

theorem idx_facts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 3) = t.val ∧ win17_2.index t (1 : Fin 3) = 0 ∧ win17_2.index t (2 : Fin 3) = 0 :=
  (by decide +kernel : ∀ t : Fin grid17.N, _)

theorem flushed17_eq (c : Dev nD) (t : Fin cfg17.N) :
    (dat17 V c).flushed 2 t = ((cfg17.win 2).blk t).view.read (Elt Ideal) (G17 V c) := by
  show (cfg17.win 2).cut (grid17.coords t) ((dat17 V c).after 2 t) = _
  rw [after17_2]
  unfold out17_2
  rw [View.canon_unit_zero hz17_3]
  simp only [View.ld_unit_zero (S := S64x3072) hz17_2, View.ld_unit_zero (S := S10x3072) hz17_2]
  obtain ⟨a0, b0, a1, b1, a2, b2, c2⟩ := idx_facts17 t
  funext j
  obtain ⟨p, n, q, rfl⟩ : ∃ (p : Fin 64) (n : Fin 10) (q : Fin 3072), j = ix3 p n q := ⟨j 0, j 1, j 2, eq_ix3 j⟩
  refine (pay17_at _ _ p n q).trans ?_
  show kin17 V c (((cfg17.win 0).blk t).view.emb (ix2 p q)) - cin17 V c (((cfg17.win 1).blk t).view.emb (ix2 n q))
    = G17 V c (((cfg17.win 2).blk t).view.emb (ix3 p n q))
  have h0 : ((cfg17.win 0).blk t).view.emb (ix2 p q)
      = ix2 ((((cfg17.win 2).blk t).view.emb (ix3 p n q)) 0 : Fin 3072) ((((cfg17.win 2).blk t).view.emb (ix3 p n q)) 2 : Fin 3072) := by
    funext a; apply Fin.ext
    match a with
    | ⟨0, _⟩ => show win17_0.index t (0 : Fin 2) * 64 + 1 * p.val = win17_2.index t (0 : Fin 3) * 64 + 1 * p.val; omega
    | ⟨1, _⟩ => show win17_0.index t (1 : Fin 2) * 3072 + 1 * q.val = win17_2.index t (2 : Fin 3) * 3072 + 1 * q.val; omega
  have h1 : ((cfg17.win 1).blk t).view.emb (ix2 n q)
      = ix2 ((((cfg17.win 2).blk t).view.emb (ix3 p n q)) 1 : Fin 10) ((((cfg17.win 2).blk t).view.emb (ix3 p n q)) 2 : Fin 3072) := by
    funext a; apply Fin.ext
    match a with
    | ⟨0, _⟩ => show win17_1.index t (0 : Fin 2) * 10 + 1 * n.val = win17_2.index t (1 : Fin 3) * 10 + 1 * n.val; omega
    | ⟨1, _⟩ => show win17_1.index t (1 : Fin 2) * 3072 + 1 * q.val = win17_2.index t (2 : Fin 3) * 3072 + 1 * q.val; omega
  rw [h0, h1]
  rfl

-- Row r lies in band r / 64.
theorem cover17 (i : S3072x10x3072.Idx) :
    ∃ t : Fin cfg17.N, (cfg17.win 2).flush t = true ∧ i ∈ ((cfg17.win 2).blk t).view.set := by
  have hi0 : (i 0).val < 3072 := (i 0).isLt
  have hi1 : (i 1).val < 10 := (i 1).isLt
  have hi2 : (i 2).val < 3072 := (i 2).isLt
  have hN : cfg17.N = 48 := N_17
  let t : Fin cfg17.N := ⟨(i 0).val / 64, by rw [hN]; omega⟩
  obtain ⟨-, -, -, -, e0, e1, e2⟩ := idx_facts17 t
  have ht : t.val = (i 0).val / 64 := rfl
  refine ⟨t, flush17_2 t, ?_⟩
  show i ∈ ((View.whole main_v69).slice (win17_2.rect t)).set
  rw [View.set_slice_whole, Rect.mem_set_unit]
  intro a
  match a with
  | ⟨0, _⟩ => show win17_2.index t (0 : Fin 3) * 64 ≤ (i 0).val ∧ (i 0).val < win17_2.index t (0 : Fin 3) * 64 + 64; omega
  | ⟨1, _⟩ => show win17_2.index t (1 : Fin 3) * 10 ≤ (i 1).val ∧ (i 1).val < win17_2.index t (1 : Fin 3) * 10 + 10; omega
  | ⟨2, _⟩ => show win17_2.index t (2 : Fin 3) * 3072 ≤ (i 2).val ∧ (i 2).val < win17_2.index t (2 : Fin 3) * 3072 + 3072; omega

theorem fin17 (c : Dev nD) (i : Fin 3072) (n : Fin 10) (j : Fin 3072) :
    ((dat17 V c).arrAt 2 cfg17.N : S3072x10x3072.Idx → EReal) (ix3 i n j)
      = Cert.Spec.qsub (fun i j => kin17 V c (ix2 i j)) (fun n j => cin17 V c (ix2 n j)) i n j :=
  congrFun ((dat17 V c).arrAt_eq_of_cover 2 (G17 V c) (fun t _ => flushed17_eq V c t) cover17) (ix3 i n j)

end Cert.KI
-- ==== Proof.KI.BridgeTail.lean ====
import proofs.«146000_j29076928594330_2_alg».proof.Proof.KI.Fold
import proofs.«146000_j29076928594330_2_alg».proof.Proof.Net
import proofs.«146000_j29076928594330_2_alg».proof.Proof.KI.Fin12
import proofs.«146000_j29076928594330_2_alg».proof.Proof.KI.Fin17
import proofs.«146000_j29076928594330_2_alg».proof.Proof.KI.FinLin
import proofs.«146000_j29076928594330_2_alg».proof.Proof.KI.ArgsK
import proofs.«146000_j29076928594330_2_alg».proof.Proof.KI.Bridge
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KI

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

theorem lin_congr3 {M K N : Nat} {a a' : Fin M → Fin K → EReal} {w w' : Fin K → Fin N → EReal} {b b' : Fin N → EReal}
    (ha : ∀ i k, a i k = a' i k) (hw : ∀ k j, w k j = w' k j) (hb : ∀ j, b j = b' j) :
    Cert.Spec.lin a w b = Cert.Spec.lin a' w' b' := by
  have e1 : a = a' := funext fun i => funext fun k => ha i k
  have e2 : w = w' := funext fun k => funext fun j => hw k j
  have e3 : b = b' := funext fun j => hb j
  rw [e1, e2, e3]

theorem kfin_congr {M : Nat} {a a' b b' c c' d d' k1 k1' k2 k2' k3 k3' kz kz' : Fin M → Fin M → EReal}
    (ha : ∀ i j, a i j = a' i j) (hb : ∀ i j, b i j = b' i j) (hc : ∀ i j, c i j = c' i j) (hd : ∀ i j, d i j = d' i j)
    (h1 : ∀ i j, k1 i j = k1' i j) (h2 : ∀ i j, k2 i j = k2' i j) (h3 : ∀ i j, k3 i j = k3' i j) (hz : ∀ i j, kz i j = kz' i j) :
    Cert.Spec.kfin a b c d k1 k2 k3 kz = Cert.Spec.kfin a' b' c' d' k1' k2' k3' kz' := by
  have e1 : a = a' := funext fun i => funext fun j => ha i j
  have e2 : b = b' := funext fun i => funext fun j => hb i j
  have e3 : c = c' := funext fun i => funext fun j => hc i j
  have e4 : d = d' := funext fun i => funext fun j => hd i j
  have e5 : k1 = k1' := funext fun i => funext fun j => h1 i j
  have e6 : k2 = k2' := funext fun i => funext fun j => h2 i j
  have e7 : k3 = k3' := funext fun i => funext fun j => h3 i j
  have e8 : kz = kz' := funext fun i => funext fun j => hz i j
  rw [e1, e2, e3, e4, e5, e6, e7, e8]

theorem qsub_congr {M N : Nat} {k k' : Fin M → Fin M → EReal} {cl cl' : Fin N → Fin M → EReal}
    (hk : ∀ i j, k i j = k' i j) (hc : ∀ n j, cl n j = cl' n j) : Cert.Spec.qsub k cl = Cert.Spec.qsub k' cl' := by
  have e1 : k = k' := funext fun i => funext fun j => hk i j
  have e2 : cl = cl' := funext fun n => funext fun j => hc n j
  rw [e1, e2]

theorem host13_act (W : Valuation τ sig (Elt Ideal)) (i : Fin 3072) (k : Fin 3072) :
    StableHlo.after hostOps13 W (Proc.devRef .tc main_v53) (ix2 i k) = W (Proc.devRef .tc main_v52) (ix2 i k) := by
  have e : StableHlo.after hostOps13 W (Proc.devRef .tc main_v53)
      = (truncf .bf16 (W (Proc.devRef .tc main_v52) : FVec Ideal S3072x3072 .f32) bitsLt_bf16_f32 : FVec Ideal S3072x3072 .bf16) := by
    dsimp only [hostOps13]; after_results
  rw [e]; rfl

theorem host13_wt (W : Valuation τ sig (Elt Ideal)) (k : Fin 3072) (j : Fin 2000) :
    StableHlo.after hostOps13 W (Proc.devRef .tc main_v54) (ix2 k j) = W (Proc.devRef .tc main_arg9) (ix2 k j) := by
  have e : StableHlo.after hostOps13 W (Proc.devRef .tc main_v54)
      = (truncf .bf16 (W (Proc.devRef .tc main_arg9) : FVec Ideal S3072x2000 .f32) bitsLt_bf16_f32 : FVec Ideal S3072x2000 .bf16) := by
    dsimp only [hostOps13]; after_results
  rw [e]; rfl

theorem host13_bias (W : Valuation τ sig (Elt Ideal)) (j : Fin 2000) :
    StableHlo.after hostOps13 W (Proc.devRef .tc main_v55) (ix2 0 j) = W (Proc.devRef .tc main_arg10) (ix1 j) := by
  have e : StableHlo.after hostOps13 W (Proc.devRef .tc main_v55)
      = shapeCast S1x2000 (W (Proc.devRef .tc main_arg10) : S2000.Idx → EReal) shapeCasts_S2000_S1x2000 := by
    dsimp only [hostOps13]; after_results; rfl
  rw [e]; exact cast_row _ _ 0 j

theorem host14_act (W : Valuation τ sig (Elt Ideal)) (i : Fin 3072) (k : Fin 2000) :
    StableHlo.after hostOps14 W (Proc.devRef .tc main_v57) (ix2 i k) = W (Proc.devRef .tc main_v56) (ix2 i k) := by
  have e : StableHlo.after hostOps14 W (Proc.devRef .tc main_v57)
      = (truncf .bf16 (W (Proc.devRef .tc main_v56) : FVec Ideal S3072x2000 .f32) bitsLt_bf16_f32 : FVec Ideal S3072x2000 .bf16) := by
    dsimp only [hostOps14]; after_results
  rw [e]; rfl

theorem host14_wt (W : Valuation τ sig (Elt Ideal)) (k : Fin 2000) (j : Fin 500) :
    StableHlo.after hostOps14 W (Proc.devRef .tc main_v58) (ix2 k j) = W (Proc.devRef .tc main_arg11) (ix2 k j) := by
  have e : StableHlo.after hostOps14 W (Proc.devRef .tc main_v58)
      = (truncf .bf16 (W (Proc.devRef .tc main_arg11) : FVec Ideal S2000x500 .f32) bitsLt_bf16_f32 : FVec Ideal S2000x500 .bf16) := by
    dsimp only [hostOps14]; after_results
  rw [e]; rfl

theorem host14_bias (W : Valuation τ sig (Elt Ideal)) (j : Fin 500) :
    StableHlo.after hostOps14 W (Proc.devRef .tc main_v59) (ix2 0 j) = W (Proc.devRef .tc main_arg12) (ix1 j) := by
  have e : StableHlo.after hostOps14 W (Proc.devRef .tc main_v59)
      = shapeCast S1x500 (W (Proc.devRef .tc main_arg12) : S500.Idx → EReal) shapeCasts_S500_S1x500 := by
    dsimp only [hostOps14]; after_results; rfl
  rw [e]; exact cast_row _ _ 0 j

theorem host15_act (W : Valuation τ sig (Elt Ideal)) (i : Fin 3072) (k : Fin 500) :
    StableHlo.after hostOps15 W (Proc.devRef .tc main_v61) (ix2 i k) = W (Proc.devRef .tc main_v60) (ix2 i k) := by
  have e : StableHlo.after hostOps15 W (Proc.devRef .tc main_v61)
      = (truncf .bf16 (W (Proc.devRef .tc main_v60) : FVec Ideal S3072x500 .f32) bitsLt_bf16_f32 : FVec Ideal S3072x500 .bf16) := by
    dsimp only [hostOps15]; after_results
  rw [e]; rfl

theorem host15_wt (W : Valuation τ sig (Elt Ideal)) (k : Fin 500) (j : Fin 500) :
    StableHlo.after hostOps15 W (Proc.devRef .tc main_v62) (ix2 k j) = W (Proc.devRef .tc main_arg13) (ix2 k j) := by
  have e : StableHlo.after hostOps15 W (Proc.devRef .tc main_v62)
      = (truncf .bf16 (W (Proc.devRef .tc main_arg13) : FVec Ideal S500x500 .f32) bitsLt_bf16_f32 : FVec Ideal S500x500 .bf16) := by
    dsimp only [hostOps15]; after_results
  rw [e]; rfl

theorem host15_bias (W : Valuation τ sig (Elt Ideal)) (j : Fin 500) :
    StableHlo.after hostOps15 W (Proc.devRef .tc main_v63) (ix2 0 j) = W (Proc.devRef .tc main_arg14) (ix1 j) := by
  have e : StableHlo.after hostOps15 W (Proc.devRef .tc main_v63)
      = shapeCast S1x500 (W (Proc.devRef .tc main_arg14) : S500.Idx → EReal) shapeCasts_S500_S1x500 := by
    dsimp only [hostOps15]; after_results; rfl
  rw [e]; exact cast_row _ _ 0 j

theorem host16_act (W : Valuation τ sig (Elt Ideal)) (i : Fin 3072) (k : Fin 500) :
    StableHlo.after hostOps16 W (Proc.devRef .tc main_v65) (ix2 i k) = W (Proc.devRef .tc main_v64) (ix2 i k) := by
  have e : StableHlo.after hostOps16 W (Proc.devRef .tc main_v65)
      = (truncf .bf16 (W (Proc.devRef .tc main_v64) : FVec Ideal S3072x500 .f32) bitsLt_bf16_f32 : FVec Ideal S3072x500 .bf16) := by
    dsimp only [hostOps16]; after_results
  rw [e]; rfl

theorem host16_wt (W : Valuation τ sig (Elt Ideal)) (k : Fin 500) (j : Fin 784) :
    StableHlo.after hostOps16 W (Proc.devRef .tc main_v66) (ix2 k j) = W (Proc.devRef .tc main_arg15) (ix2 k j) := by
  have e : StableHlo.after hostOps16 W (Proc.devRef .tc main_v66)
      = (truncf .bf16 (W (Proc.devRef .tc main_arg15) : FVec Ideal S500x784 .f32) bitsLt_bf16_f32 : FVec Ideal S500x784 .bf16) := by
    dsimp only [hostOps16]; after_results
  rw [e]; rfl

theorem host16_bias (W : Valuation τ sig (Elt Ideal)) (j : Fin 784) :
    StableHlo.after hostOps16 W (Proc.devRef .tc main_v67) (ix2 0 j) = W (Proc.devRef .tc main_arg16) (ix1 j) := by
  have e : StableHlo.after hostOps16 W (Proc.devRef .tc main_v67)
      = shapeCast S1x784 (W (Proc.devRef .tc main_arg16) : S784.Idx → EReal) shapeCasts_S784_S1x784 := by
    dsimp only [hostOps16]; after_results; rfl
  rw [e]; exact cast_row _ _ 0 j

variable (m : (ℓ : Loc nD τ sig) → Buf (Elt Ideal) ℓ) (ρ : Dev nD → PrngReg)

theorem tail_kept (c : Dev nD) (r : Ref sig .tc) (h : Kept r) :
    W24 m ρ c (Proc.devRef .tc r) = m ((c : Thread nD τ).loc r) ∧ W25 m ρ c (Proc.devRef .tc r) = m ((c : Thread nD τ).loc r)
    ∧ W27 m ρ c (Proc.devRef .tc r) = m ((c : Thread nD τ).loc r) ∧ W29 m ρ c (Proc.devRef .tc r) = m ((c : Thread nD τ).loc r)
    ∧ W31 m ρ c (Proc.devRef .tc r) = m ((c : Thread nD τ).loc r) ∧ W33 m ρ c (Proc.devRef .tc r) = m ((c : Thread nD τ).loc r) := by
  have e23 := W23_kept m ρ c r h
  obtain ⟨h0, h1, h2, h3, h4, h5, h6, h7, h8, h9, h10, h11, h12, h13, h14, h15, h16, h17, h18, h19, h20, h21, h22, h23, h24, h25, h26, h27, h28, h29, h30, h31, h32, h33⟩ := h
  have e24 := (W24_of m ρ c r h23).trans e23
  have e25 := (W25_of m ρ c r h24).trans e24
  have e27 := (W27_of m ρ c r h26).trans ((W26_of m ρ c r h25).trans e25)
  have e29 := (W29_of m ρ c r h28).trans ((W28_of m ρ c r h27).trans e27)
  have e31 := (W31_of m ρ c r h30).trans ((W30_of m ρ c r h29).trans e29)
  exact ⟨e24, e25, e27, e29, e31, (W33_of m ρ c r h32).trans ((W32_of m ρ c r h31).trans e31)⟩

theorem A24_arg17 (c : Dev nD) (p : Fin 3072) (q : Fin 3072) : V24 m ρ c main_arg17 (ix2 p q) = (argsK m c).a p q := by
  rw [show V24 m ρ c main_arg17 = m ((c : Thread nD τ).loc main_arg17) from (tail_kept m ρ c main_arg17 (by decide)).1]
  rfl

theorem A24_arg18 (c : Dev nD) (p : Fin 3072) (q : Fin 3072) : V24 m ρ c main_arg18 (ix2 p q) = (argsK m c).b p q := by
  rw [show V24 m ρ c main_arg18 = m ((c : Thread nD τ).loc main_arg18) from (tail_kept m ρ c main_arg18 (by decide)).1]
  rfl

theorem A24_arg19 (c : Dev nD) (p : Fin 3072) (q : Fin 3072) : V24 m ρ c main_arg19 (ix2 p q) = (argsK m c).c p q := by
  rw [show V24 m ρ c main_arg19 = m ((c : Thread nD τ).loc main_arg19) from (tail_kept m ρ c main_arg19 (by decide)).1]
  rfl

theorem A24_arg20 (c : Dev nD) (p : Fin 3072) (q : Fin 3072) : V24 m ρ c main_arg20 (ix2 p q) = (argsK m c).d p q := by
  rw [show V24 m ρ c main_arg20 = m ((c : Thread nD τ).loc main_arg20) from (tail_kept m ρ c main_arg20 (by decide)).1]
  rfl

theorem A25_arg9 (c : Dev nD) (p : Fin 3072) (q : Fin 2000) : V25 m ρ c main_arg9 (ix2 p q) = (argsK m c).wk1 p q := by
  rw [show V25 m ρ c main_arg9 = m ((c : Thread nD τ).loc main_arg9) from (tail_kept m ρ c main_arg9 (by decide)).2.1]
  rfl

theorem A25_arg10 (c : Dev nD) (p : Fin 2000) : V25 m ρ c main_arg10 (ix1 p) = (argsK m c).bk1 p := by
  rw [show V25 m ρ c main_arg10 = m ((c : Thread nD τ).loc main_arg10) from (tail_kept m ρ c main_arg10 (by decide)).2.1]
  rfl

theorem A27_arg11 (c : Dev nD) (p : Fin 2000) (q : Fin 500) : V27 m ρ c main_arg11 (ix2 p q) = (argsK m c).wk2 p q := by
  rw [show V27 m ρ c main_arg11 = m ((c : Thread nD τ).loc main_arg11) from (tail_kept m ρ c main_arg11 (by decide)).2.2.1]
  rfl

theorem A27_arg12 (c : Dev nD) (p : Fin 500) : V27 m ρ c main_arg12 (ix1 p) = (argsK m c).bk2 p := by
  rw [show V27 m ρ c main_arg12 = m ((c : Thread nD τ).loc main_arg12) from (tail_kept m ρ c main_arg12 (by decide)).2.2.1]
  rfl

theorem A29_arg13 (c : Dev nD) (p : Fin 500) (q : Fin 500) : V29 m ρ c main_arg13 (ix2 p q) = (argsK m c).wk3 p q := by
  rw [show V29 m ρ c main_arg13 = m ((c : Thread nD τ).loc main_arg13) from (tail_kept m ρ c main_arg13 (by decide)).2.2.2.1]
  rfl

theorem A29_arg14 (c : Dev nD) (p : Fin 500) : V29 m ρ c main_arg14 (ix1 p) = (argsK m c).bk3 p := by
  rw [show V29 m ρ c main_arg14 = m ((c : Thread nD τ).loc main_arg14) from (tail_kept m ρ c main_arg14 (by decide)).2.2.2.1]
  rfl

theorem A31_arg15 (c : Dev nD) (p : Fin 500) (q : Fin 784) : V31 m ρ c main_arg15 (ix2 p q) = (argsK m c).wk4 p q := by
  rw [show V31 m ρ c main_arg15 = m ((c : Thread nD τ).loc main_arg15) from (tail_kept m ρ c main_arg15 (by decide)).2.2.2.2.1]
  rfl

theorem A31_arg16 (c : Dev nD) (p : Fin 784) : V31 m ρ c main_arg16 (ix1 p) = (argsK m c).bk4 p := by
  rw [show V31 m ρ c main_arg16 = m ((c : Thread nD τ).loc main_arg16) from (tail_kept m ρ c main_arg16 (by decide)).2.2.2.2.1]
  rfl

theorem A33_arg37 (c : Dev nD) (p : Fin 10) (q : Fin 3072) : V33 m ρ c main_arg37 (ix2 p q) = (argsK m c).cl p q := by
  rw [show V33 m ρ c main_arg37 = m ((c : Thread nD τ).loc main_arg37) from (tail_kept m ρ c main_arg37 (by decide)).2.2.2.2.2]
  rfl

theorem V24_main_v12 (c : Dev nD) : V24 m ρ c main_v12 = V6 m ρ c main_v12 :=
  (W24_of m ρ c main_v12 (by decide)).trans <|
    (W23_of m ρ c main_v12 (by decide)).trans <|
    (W22_of m ρ c main_v12 (by decide)).trans <|
    (W21_of m ρ c main_v12 (by decide)).trans <|
    (W20_of m ρ c main_v12 (by decide)).trans <|
    (W19_of m ρ c main_v12 (by decide)).trans <|
    (W18_of m ρ c main_v12 (by decide)).trans <|
    (W17_of m ρ c main_v12 (by decide)).trans <|
    (W16_of m ρ c main_v12 (by decide)).trans <|
    (W15_of m ρ c main_v12 (by decide)).trans <|
    (W14_of m ρ c main_v12 (by decide)).trans <|
    (W13_of m ρ c main_v12 (by decide)).trans <|
    (W12_of m ρ c main_v12 (by decide)).trans <|
    (W11_of m ρ c main_v12 (by decide)).trans <|
    (W10_of m ρ c main_v12 (by decide)).trans <|
    (W9_of m ρ c main_v12 (by decide)).trans <|
    (W8_of m ρ c main_v12 (by decide)).trans <|
    (W7_of m ρ c main_v12 (by decide))

theorem V24_main_v25 (c : Dev nD) : V24 m ρ c main_v25 = V12 m ρ c main_v25 :=
  (W24_of m ρ c main_v25 (by decide)).trans <|
    (W23_of m ρ c main_v25 (by decide)).trans <|
    (W22_of m ρ c main_v25 (by decide)).trans <|
    (W21_of m ρ c main_v25 (by decide)).trans <|
    (W20_of m ρ c main_v25 (by decide)).trans <|
    (W19_of m ρ c main_v25 (by decide)).trans <|
    (W18_of m ρ c main_v25 (by decide)).trans <|
    (W17_of m ρ c main_v25 (by decide)).trans <|
    (W16_of m ρ c main_v25 (by decide)).trans <|
    (W15_of m ρ c main_v25 (by decide)).trans <|
    (W14_of m ρ c main_v25 (by decide)).trans <|
    (W13_of m ρ c main_v25 (by decide))

theorem V24_main_v38 (c : Dev nD) : V24 m ρ c main_v38 = V18 m ρ c main_v38 :=
  (W24_of m ρ c main_v38 (by decide)).trans <|
    (W23_of m ρ c main_v38 (by decide)).trans <|
    (W22_of m ρ c main_v38 (by decide)).trans <|
    (W21_of m ρ c main_v38 (by decide)).trans <|
    (W20_of m ρ c main_v38 (by decide)).trans <|
    (W19_of m ρ c main_v38 (by decide))

theorem V33_main_v52 (c : Dev nD) : V33 m ρ c main_v52 = V25 m ρ c main_v52 :=
  (W33_of m ρ c main_v52 (by decide)).trans <|
    (W32_of m ρ c main_v52 (by decide)).trans <|
    (W31_of m ρ c main_v52 (by decide)).trans <|
    (W30_of m ρ c main_v52 (by decide)).trans <|
    (W29_of m ρ c main_v52 (by decide)).trans <|
    (W28_of m ρ c main_v52 (by decide)).trans <|
    (W27_of m ρ c main_v52 (by decide)).trans <|
    (W26_of m ρ c main_v52 (by decide))

theorem K_ker (c : Dev nD) (i j : Fin 3072) : V25 m ρ c main_v52 (ix2 i j) = Cert.Net.ker (argsK m c) i j := by
  rw [V25_out, fin12 (V24 m ρ) c i j]
  exact congrFun (congrFun (kfin_congr
    (fun i j => A24_arg17 m ρ c i j) (fun i j => A24_arg18 m ρ c i j) (fun i j => A24_arg19 m ρ c i j)
    (fun i j => A24_arg20 m ρ c i j)
    (fun i j => (congrFun (V24_main_v12 m ρ c) (ix2 i j)).trans (K_kh1 m ρ c i j))
    (fun i j => (congrFun (V24_main_v25 m ρ c) (ix2 i j)).trans (K_kh2 m ρ c i j))
    (fun i j => (congrFun (V24_main_v38 m ρ c) (ix2 i j)).trans (K_kh3 m ρ c i j))
    (fun i j => K_khz m ρ c i j)) i) j

theorem K_dec1 (c : Dev nD) (i : Fin 3072) (j : Fin 2000) : V27 m ρ c main_v56 (ix2 i j) = Cert.Net.dec1 (argsK m c) i j := by
  rw [V27_out, fin13 (V26 m ρ) c i j]
  exact congrFun (congrFun (lin_congr3
    (fun i k => (host13_act (W25 m ρ c) i k).trans (K_ker m ρ c i k))
    (fun k j => (host13_wt (W25 m ρ c) k j).trans (A25_arg9 m ρ c k j))
    (fun j => (host13_bias (W25 m ρ c) j).trans (A25_arg10 m ρ c j))) i) j

theorem K_dec2 (c : Dev nD) (i : Fin 3072) (j : Fin 500) : V29 m ρ c main_v60 (ix2 i j) = Cert.Net.dec2 (argsK m c) i j := by
  rw [V29_out, fin14 (V28 m ρ) c i j]
  exact congrFun (congrFun (lin_congr3
    (fun i k => (host14_act (W27 m ρ c) i k).trans (K_dec1 m ρ c i k))
    (fun k j => (host14_wt (W27 m ρ c) k j).trans (A27_arg11 m ρ c k j))
    (fun j => (host14_bias (W27 m ρ c) j).trans (A27_arg12 m ρ c j))) i) j

theorem K_dec3 (c : Dev nD) (i : Fin 3072) (j : Fin 500) : V31 m ρ c main_v64 (ix2 i j) = Cert.Net.dec3 (argsK m c) i j := by
  rw [V31_out, fin15 (V30 m ρ) c i j]
  exact congrFun (congrFun (lin_congr3
    (fun i k => (host15_act (W29 m ρ c) i k).trans (K_dec2 m ρ c i k))
    (fun k j => (host15_wt (W29 m ρ c) k j).trans (A29_arg13 m ρ c k j))
    (fun j => (host15_bias (W29 m ρ c) j).trans (A29_arg14 m ρ c j))) i) j

theorem K_xbar (c : Dev nD) (i : Fin 3072) (j : Fin 784) : V33 m ρ c main_v68 (ix2 i j) = Cert.Net.xbar (argsK m c) i j := by
  rw [V33_out, fin16 (V32 m ρ) c i j]
  exact congrFun (congrFun (lin_congr3
    (fun i k => (host16_act (W31 m ρ c) i k).trans (K_dec3 m ρ c i k))
    (fun k j => (host16_wt (W31 m ρ c) k j).trans (A31_arg15 m ρ c k j))
    (fun j => (host16_bias (W31 m ρ c) j).trans (A31_arg16 m ρ c j))) i) j

theorem K_qq (c : Dev nD) (i : Fin 3072) (n : Fin 10) (j : Fin 3072) :
    V34 m ρ c main_v69 (ix3 i n j) = Cert.Net.qq (argsK m c) i n j := by
  rw [V34_out, fin17 (V33 m ρ) c i n j]
  exact congrFun (congrFun (congrFun (qsub_congr
    (fun i j => (congrFun (V33_main_v52 m ρ c) (ix2 i j)).trans (K_ker m ρ c i j))
    (fun n j => A33_arg37 m ρ c n j)) i) n) j

end Cert.KI

end
-- ==== Proof.Ref.Args.lean ====
import proofs.«146000_j29076928594330_2_alg».proof.Proof.Gen.ReferenceIdeal
import proofs.«146000_j29076928594330_2_alg».proof.Proof.Net
import Idealize.ShloMosaic.Lib.ValueIdx

noncomputable section

namespace Cert.Ref

open Cert.ReferenceIdeal Cert.ReferenceIdeal.Gen Idealize.ShloMosaic Idealize.ShloMosaic.TcCoe Idealize.ShloMosaic.ValueIdx
  Idealize.ShloMosaic.StableHlo Idealize.SL.Sem

/-- The network's arguments as the reference finds them at launch: each argument array read at its coordinates. -/
def argsR (V0 : Valuation τ sig (Elt Ideal)) : Cert.Net.Args where
  x := fun p q => V0 (Proc.devRef .tc main_arg0) (ix2 p q)
  w1 := fun p q => V0 (Proc.devRef .tc main_arg1) (ix2 p q)
  b1 := fun p => V0 (Proc.devRef .tc main_arg2) (ix1 p)
  w2 := fun p q => V0 (Proc.devRef .tc main_arg3) (ix2 p q)
  b2 := fun p => V0 (Proc.devRef .tc main_arg4) (ix1 p)
  w3 := fun p q => V0 (Proc.devRef .tc main_arg5) (ix2 p q)
  b3 := fun p => V0 (Proc.devRef .tc main_arg6) (ix1 p)
  wz := fun p q => V0 (Proc.devRef .tc main_arg7) (ix2 p q)
  bz := fun p => V0 (Proc.devRef .tc main_arg8) (ix1 p)
  wk1 := fun p q => V0 (Proc.devRef .tc main_arg9) (ix2 p q)
  bk1 := fun p => V0 (Proc.devRef .tc main_arg10) (ix1 p)
  wk2 := fun p q => V0 (Proc.devRef .tc main_arg11) (ix2 p q)
  bk2 := fun p => V0 (Proc.devRef .tc main_arg12) (ix1 p)
  wk3 := fun p q => V0 (Proc.devRef .tc main_arg13) (ix2 p q)
  bk3 := fun p => V0 (Proc.devRef .tc main_arg14) (ix1 p)
  wk4 := fun p q => V0 (Proc.devRef .tc main_arg15) (ix2 p q)
  bk4 := fun p => V0 (Proc.devRef .tc main_arg16) (ix1 p)
  a := fun p q => V0 (Proc.devRef .tc main_arg17) (ix2 p q)
  b := fun p q => V0 (Proc.devRef .tc main_arg18) (ix2 p q)
  c := fun p q => V0 (Proc.devRef .tc main_arg19) (ix2 p q)
  d := fun p q => V0 (Proc.devRef .tc main_arg20) (ix2 p q)
  e := fun p q => V0 (Proc.devRef .tc main_arg21) (ix2 p q)
  f := fun p q => V0 (Proc.devRef .tc main_arg22) (ix2 p q)
  g := fun p q => V0 (Proc.devRef .tc main_arg23) (ix2 p q)
  h := fun p q => V0 (Proc.devRef .tc main_arg24) (ix2 p q)
  e1 := fun p q => V0 (Proc.devRef .tc main_arg25) (ix2 p q)
  f1 := fun p q => V0 (Proc.devRef .tc main_arg26) (ix2 p q)
  g1 := fun p q => V0 (Proc.devRef .tc main_arg27) (ix2 p q)
  h1 := fun p q => V0 (Proc.devRef .tc main_arg28) (ix2 p q)
  e2 := fun p q => V0 (Proc.devRef .tc main_arg29) (ix2 p q)
  f2 := fun p q => V0 (Proc.devRef .tc main_arg30) (ix2 p q)
  g2 := fun p q => V0 (Proc.devRef .tc main_arg31) (ix2 p q)
  h2 := fun p q => V0 (Proc.devRef .tc main_arg32) (ix2 p q)
  e3 := fun p q => V0 (Proc.devRef .tc main_arg33) (ix2 p q)
  f3 := fun p q => V0 (Proc.devRef .tc main_arg34) (ix2 p q)
  g3 := fun p q => V0 (Proc.devRef .tc main_arg35) (ix2 p q)
  h3 := fun p q => V0 (Proc.devRef .tc main_arg36) (ix2 p q)
  cl := fun p q => V0 (Proc.devRef .tc main_arg37) (ix2 p q)

end Cert.Ref

end
-- ==== Proof.Ref.Lin.lean ====
import Idealize.ShloMosaic.Lib.IdealHost
import Idealize.ShloMosaic.Lib.Pipeline.Value
import Idealize.ShloMosaic.Lib.StackMember
import proofs.«146000_j29076928594330_2_alg».proof.Proof.Spec

noncomputable section

open scoped BigOperators

namespace Cert.Ref

open Idealize.ShloMosaic Idealize.ShloMosaic.ValueIdx Idealize.ShloMosaic.StackMember

variable {F : FTy → Type} [FloatOps F] {M K N : Nat}

/-- A dense layer as the reference spells it: a matrix product plus a row of biases repeated over the rows. -/
def dense (D : DotDims ⟨2, ![M, K]⟩ ⟨2, ![K, N]⟩ ⟨2, ![M, N]⟩) (h1 : (⟨1, ![N]⟩ : Shape).BroadcastsInDim ⟨2, ![1, N]⟩ ![1])
    (h2 : (⟨2, ![1, N]⟩ : Shape).BroadcastsInDim ⟨2, ![M, N]⟩ ![0, 1]) (A : FVec F ⟨2, ![M, K]⟩ .f32) (W : FVec F ⟨2, ![K, N]⟩ .f32)
    (B : FVec F ⟨1, ![N]⟩ .f32) : FVec F ⟨2, ![M, N]⟩ .f32 :=
  addf (Host.dotGeneral D none A W) (broadcastInDim ⟨2, ![M, N]⟩ ![0, 1] h2 (broadcastInDim ⟨2, ![1, N]⟩ ![1] h1 B))

/-- A coordinate below an extent n is itself, and is zero when n is one. -/
theorem val_eq_ite {n : Nat} (x : Fin n) : x.val = if n = 1 then 0 else x.val := by
  split_ifs with h
  · have := x.isLt; omega
  · rfl

/-- A vector laid as one row and repeated down M rows reads, at (i, j), its entry j. -/
theorem row_apply {α : Type} (h1 : (⟨1, ![N]⟩ : Shape).BroadcastsInDim ⟨2, ![1, N]⟩ ![1])
    (h2 : (⟨2, ![1, N]⟩ : Shape).BroadcastsInDim ⟨2, ![M, N]⟩ ![0, 1]) (B : (⟨1, ![N]⟩ : Shape).Idx → α) (i : Fin M) (j : Fin N) :
    broadcastInDim ⟨2, ![M, N]⟩ ![0, 1] h2 (broadcastInDim ⟨2, ![1, N]⟩ ![1] h1 B) (ix2 i j) = B (ix1 j) := by
  refine (broadcastInDim_apply _ h2 _ (ix2 i j) (ix2 (0 : Fin 1) j) fun a => ?_).trans
    (broadcastInDim_apply _ h1 B (ix2 (0 : Fin 1) j) (ix1 j) fun a => ?_)
  · match a with
    | ⟨0, _⟩ => exact (if_pos rfl).symm
    | ⟨1, _⟩ => exact val_eq_ite j
  · match a with
    | ⟨0, _⟩ => exact val_eq_ite j

/-- A vector laid as one column and repeated along N columns reads, at (i, j), its entry i. -/
theorem col_apply {α : Type} (h1 : (⟨1, ![M]⟩ : Shape).BroadcastsInDim ⟨2, ![M, 1]⟩ ![0])
    (h2 : (⟨2, ![M, 1]⟩ : Shape).BroadcastsInDim ⟨2, ![M, N]⟩ ![0, 1]) (s : (⟨1, ![M]⟩ : Shape).Idx → α) (i : Fin M) (j : Fin N) :
    broadcastInDim ⟨2, ![M, N]⟩ ![0, 1] h2 (broadcastInDim ⟨2, ![M, 1]⟩ ![0] h1 s) (ix2 i j) = s (ix1 i) := by
  refine (broadcastInDim_apply _ h2 _ (ix2 i j) (ix2 i (0 : Fin 1)) fun a => ?_).trans
    (broadcastInDim_apply _ h1 s (ix2 i (0 : Fin 1)) (ix1 i) fun a => ?_)
  · match a with
    | ⟨0, _⟩ => exact val_eq_ite i
    | ⟨1, _⟩ => exact (if_pos rfl).symm
  · match a with
    | ⟨0, _⟩ => exact val_eq_ite i

/-- A dense layer at (i, j), its first operand known entry by entry: the sum over k of a(i, k) · W(k, j), plus bias j. -/
theorem dense_apply (D : DotDims ⟨2, ![M, K]⟩ ⟨2, ![K, N]⟩ ⟨2, ![M, N]⟩) (hD : D = DotDims.plain M K N) (h1) (h2)
    (A : FVec Ideal ⟨2, ![M, K]⟩ .f32) (W : FVec Ideal ⟨2, ![K, N]⟩ .f32) (B : FVec Ideal ⟨1, ![N]⟩ .f32)
    {a : Fin M → Fin K → EReal} (ha : ∀ i k, A (ix2 i k) = a i k) (i : Fin M) (j : Fin N) :
    dense D h1 h2 A W B (ix2 i j) = Cert.Spec.lin a (fun k j => W (ix2 k j)) (fun j => B (ix1 j)) i j := by
  obtain rfl : (fun i k => A (ix2 i k)) = a := funext fun i => funext fun k => ha i k
  subst hD
  unfold dense
  rw [addf_apply, dotGeneral_plain_apply, row_apply]
  rfl

/-- Entry (i, j) of H Hᵀ is the sum over k of H(i, k) · H(j, k). -/
theorem gram_apply (D : DotDims ⟨2, ![M, K]⟩ ⟨2, ![K, M]⟩ ⟨2, ![M, M]⟩) (hD : D = DotDims.plain M K M)
    (T : (⟨2, ![M, K]⟩ : Shape).Transposes [1, 0] ⟨2, ![K, M]⟩) (H : FVec Ideal ⟨2, ![M, K]⟩ .f32) (i j : Fin M) :
    Host.dotGeneral D none H (transpose ⟨2, ![K, M]⟩ [1, 0] H T) (ix2 i j) = Cert.Spec.gram (fun a k => H (ix2 a k)) i j := by
  subst hD
  rw [dotGeneral_plain_apply]
  exact Finset.sum_congr rfl fun k _ => congrArg (H (ix2 i k) * ·)
    (transpose_apply [1, 0] H T (ix2 k j) (ix2 j k) fun b => match b with | ⟨0, _⟩ => rfl | ⟨1, _⟩ => rfl)

/-- Entry i of a matrix's row sums, started from zero, is the sum over the columns k of its entries (i, k). -/
theorem rowsum_apply (R : (⟨2, ![M, K]⟩ : Shape).ReducesTo [1] ⟨1, ![M]⟩) (hS : 0 < (⟨0, ![]⟩ : Shape).numel)
    (A : FVec Ideal ⟨2, ![M, K]⟩ .f32) (i : Fin M) :
    Host.reduceAdd A (constant (F := Ideal) ⟨0, ![]⟩ .f32 0x00000000#32) R hS (ix1 i) = ∑ k : Fin K, A (ix2 i k) := by
  rw [hostReduceAdd_apply, Ideal.hostReduceAdd_single R ⟨R.1, Nat.one_pos, R.2⟩]
  refine (congrArg (· + _) Ideal.ofBits_zero_f32).trans ((zero_add _).trans ?_)
  exact Finset.sum_congr rfl fun k _ => congrArg A (funext fun a => Fin.ext (by match a with | ⟨0, _⟩ => rfl | ⟨1, _⟩ => rfl))

/-- A matrix given a middle axis of extent one and repeated N times along it reads, at (i, n, j), its entry (i, j). -/
theorem mid_apply {α : Type} (h1 : (⟨2, ![M, M]⟩ : Shape).BroadcastsInDim ⟨3, ![M, 1, M]⟩ ![0, 2])
    (h2 : (⟨3, ![M, 1, M]⟩ : Shape).BroadcastsInDim ⟨3, ![M, N, M]⟩ ![0, 1, 2]) (X : (⟨2, ![M, M]⟩ : Shape).Idx → α)
    (i : Fin M) (n : Fin N) (j : Fin M) :
    broadcastInDim ⟨3, ![M, N, M]⟩ ![0, 1, 2] h2 (broadcastInDim ⟨3, ![M, 1, M]⟩ ![0, 2] h1 X) (ix3 i n j) = X (ix2 i j) := by
  refine (broadcastInDim_apply _ h2 _ (ix3 i n j) (ix3 i (0 : Fin 1) j) fun a => ?_).trans
    (broadcastInDim_apply _ h1 X (ix3 i (0 : Fin 1) j) (ix2 i j) fun a => ?_)
  · match a with
    | ⟨0, _⟩ => exact val_eq_ite i
    | ⟨1, _⟩ => exact (if_pos rfl).symm
    | ⟨2, _⟩ => exact val_eq_ite j
  · match a with
    | ⟨0, _⟩ => exact val_eq_ite i
    | ⟨1, _⟩ => exact val_eq_ite j

/-- A matrix given a leading axis of extent one and repeated M times along it reads, at (i, n, j), its entry (n, j). -/
theorem lead_apply {α : Type} (h1 : (⟨2, ![N, M]⟩ : Shape).BroadcastsInDim ⟨3, ![1, N, M]⟩ ![1, 2])
    (h2 : (⟨3, ![1, N, M]⟩ : Shape).BroadcastsInDim ⟨3, ![M, N, M]⟩ ![0, 1, 2]) (Y : (⟨2, ![N, M]⟩ : Shape).Idx → α)
    (i : Fin M) (n : Fin N) (j : Fin M) :
    broadcastInDim ⟨3, ![M, N, M]⟩ ![0, 1, 2] h2 (broadcastInDim ⟨3, ![1, N, M]⟩ ![1, 2] h1 Y) (ix3 i n j) = Y (ix2 n j) := by
  refine (broadcastInDim_apply _ h2 _ (ix3 i n j) (ix3 (0 : Fin 1) n j) fun a => ?_).trans
    (broadcastInDim_apply _ h1 Y (ix3 (0 : Fin 1) n j) (ix2 n j) fun a => ?_)
  · match a with
    | ⟨0, _⟩ => exact (if_pos rfl).symm
    | ⟨1, _⟩ => exact val_eq_ite n
    | ⟨2, _⟩ => exact val_eq_ite j
  · match a with
    | ⟨0, _⟩ => exact val_eq_ite n
    | ⟨1, _⟩ => exact val_eq_ite j

/-- Every row of a matrix known entry by entry, less every row of a second matrix, at (i, n, j). -/
theorem qsub_apply (h1) (h2) (h3) (h4) (X : FVec Ideal ⟨2, ![M, M]⟩ .f32) (Y : FVec Ideal ⟨2, ![N, M]⟩ .f32)
    {k : Fin M → Fin M → EReal} (hX : ∀ i j, X (ix2 i j) = k i j) (i : Fin M) (n : Fin N) (j : Fin M) :
    subf (broadcastInDim ⟨3, ![M, N, M]⟩ ![0, 1, 2] h2 (broadcastInDim ⟨3, ![M, 1, M]⟩ ![0, 2] h1 X))
        (broadcastInDim ⟨3, ![M, N, M]⟩ ![0, 1, 2] h4 (broadcastInDim ⟨3, ![1, N, M]⟩ ![1, 2] h3 Y)) (ix3 i n j)
      = Cert.Spec.qsub k (fun n j => Y (ix2 n j)) i n j := by
  rw [subf_apply, mid_apply, lead_apply, hX]
  rfl

end Cert.Ref

end
-- ==== Proof.Ref.Rsqrt.lean ====
import Idealize.ShloMosaic.Lib.IdealHost
import proofs.«146000_j29076928594330_2_alg».proof.Proof.Spec

noncomputable section

open scoped BigOperators

namespace Cert.Ref

open Idealize.ShloMosaic

/-- For a positive extended real, one over the square root is the inverse square root (at ⊤ both are 0). -/
theorem div_sqrt_eq_rsqrt (d : EReal) (hd : 0 < d) : Ideal.div 1 (Ideal.sqrt d) = Ideal.rsqrt d := by
  induction d using EReal.rec with
  | bot => exact absurd hd (by simp)
  | top => rw [Ideal.sqrt_top, Ideal.rsqrt_top, Ideal.div, if_neg (by simp), EReal.inv_top, mul_zero]
  | coe r =>
    have hr : 0 < r := by exact_mod_cast hd
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_mul, one_div]

theorem ceps_pos : 0 < Cert.Spec.ceps := by
  simp [Cert.Spec.ceps, Ideal.ofBits, Ideal.ieee, -EReal.coe_mul]

theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- A row degree is a sum of nonnegative terms plus a positive one, so one over its square root is its inverse square root. -/
theorem dref_eq {M K : Nat} (h : Fin M → Fin K → EReal) (i : Fin M) :
    Ideal.div Cert.Spec.c1 (Ideal.sqrt (Cert.Spec.deg h i)) = Cert.Spec.dinv h i := by
  have h0 : (0 : EReal) ≤ ∑ j, Cert.Spec.amat h i j := Finset.sum_nonneg fun j _ => by
    unfold Cert.Spec.amat Cert.Spec.offdiag
    split_ifs
    · rw [mul_zero]
    · rw [mul_one]; exact exp_nonneg _
  rw [show Cert.Spec.c1 = 1 from Ideal.ofBits_one_f32]
  exact div_sqrt_eq_rsqrt _ (lt_of_lt_of_le ceps_pos (le_add_of_nonneg_left h0))

end Cert.Ref

end
-- ==== Proof.Ref.Common.lean ====
import proofs.«146000_j29076928594330_2_alg».proof.Proof.Gen.ReferenceIdeal
import proofs.«146000_j29076928594330_2_alg».proof.Proof.Ref.Lin
import proofs.«146000_j29076928594330_2_alg».proof.Proof.Ref.Rsqrt

noncomputable section

open scoped BigOperators

namespace Cert.Ref

open Cert.ReferenceIdeal Cert.ReferenceIdeal.Gen Idealize.ShloMosaic Idealize.ShloMosaic.ValueIdx

section Layer
variable {F : FTy → Type} [FloatOps F] {K : Nat}

/-- A float word repeated over the square, and over a vector. -/
def splat (w : BitVec 32) : FVec F S3072x3072 .f32 := broadcastInDim S3072x3072 ![] bcast_S_S3072x3072 (constant S_ .f32 w)
def splatV (w : BitVec 32) : FVec F S3072 .f32 := broadcastInDim S3072 ![] bcast_S_S3072 (constant S_ .f32 w)

/-- A vector as a column repeated along the rows, and as a row repeated down the columns. -/
def colB {α : Type} (s : S3072.Idx → α) : S3072x3072.Idx → α :=
  broadcastInDim S3072x3072 ![0, 1] bcast_S3072x1_S3072x3072_0_1 (broadcastInDim S3072x1 ![0] bcast_S3072_S3072x1_0 s)
def rowB {α : Type} (s : S3072.Idx → α) : S3072x3072.Idx → α :=
  broadcastInDim S3072x3072 ![0, 1] bcast_S1x3072_S3072x3072_0_1 (broadcastInDim S1x3072 ![1] bcast_S3072_S1x3072_1 s)

/-- The clamped squared distances from the Gram matrix and the squared norms. -/
def sqT (G : FVec F S3072x3072 .f32) (s : FVec F S3072 .f32) : FVec F S3072x3072 .f32 :=
  maximumf (subf (addf (colB s) (rowB s)) (mulf (splat 0x40000000#32) G)) (splat 0x00000000#32)

/-- The adjacency: the heat kernel of the squared distances, times one minus the indicator of the diagonal. -/
def amatT (Q : FVec F S3072x3072 .f32) : FVec F S3072x3072 .f32 :=
  mulf (Host.exp (mulf (splat 0xBF000000#32) Q)) (subf (splat 0x3F800000#32) (uitofp .f32 (cmpi .eq
    (addi (iotaInDim S3072x3072 32 0) (broadcastInDim S3072x3072 ![] bcast_S_S3072x3072 (constantI S_ 32 0#32))) (iotaInDim S3072x3072 32 1))))

/-- One over the square roots of the adjacency's row sums plus ε. -/
def drefT (A : FVec F S3072x3072 .f32) : FVec F S3072 .f32 :=
  Host.divf (splatV 0x3F800000#32) (Host.sqrt (addf (Host.reduceAdd A (constant S_ .f32 0x00000000#32) reducesTo_S3072x3072_S3072_d1 h_S_)
    (splatV 0x2B8CBCCC#32)))

/-- One layer's combined kernel as the reference computes it from the activations H and the four weight arrays. -/
def layerT (D : DotDims ⟨2, ![3072, K]⟩ ⟨2, ![K, 3072]⟩ S3072x3072) (T : (⟨2, ![3072, K]⟩ : Shape).Transposes [1, 0] ⟨2, ![K, 3072]⟩)
    (R : (⟨2, ![3072, K]⟩ : Shape).ReducesTo [1] S3072) (H : FVec F ⟨2, ![3072, K]⟩ .f32) (E Fw Gw Hw : FVec F S3072x3072 .f32) :
    FVec F S3072x3072 .f32 :=
  let G := Host.dotGeneral D none H (transpose ⟨2, ![K, 3072]⟩ [1, 0] H T)
  let Q := sqT G (Host.reduceAdd (mulf H H) (constant S_ .f32 0x00000000#32) R h_S_)
  let P := addf G (splat 0x3F800000#32)
  let A := amatT Q
  let d := drefT A
  addf (addf (addf (mulf E G) (mulf Fw (Host.divf (splat 0x3F800000#32) (addf (splat 0x3F800000#32) Q)))) (mulf Gw (mulf P P)))
    (mulf Hw (mulf (mulf A (colB d)) (rowB d)))

theorem splat_apply (w : BitVec 32) (i : S3072x3072.Idx) : splat (F := Ideal) w i = Ideal.ofBits .f32 w :=
  (broadcastInDim_scalar_apply bcast_S_S3072x3072 _ i).trans (constant_apply _ _)

theorem splatV_apply (w : BitVec 32) (i : S3072.Idx) : splatV (F := Ideal) w i = Ideal.ofBits .f32 w :=
  (broadcastInDim_scalar_apply bcast_S_S3072 _ i).trans (constant_apply _ _)

theorem colB_apply {α : Type} (s : S3072.Idx → α) (i j : Fin 3072) : colB s (ix2 i j) = s (ix1 i) := col_apply _ _ s i j

theorem rowB_apply {α : Type} (s : S3072.Idx → α) (i j : Fin 3072) : rowB s (ix2 i j) = s (ix1 j) := row_apply _ _ s i j

/-- Two row or column numbers below 3072 are the same 32-bit word only if they are the same number. -/
theorem word_inj {a b : Nat} (ha : a < 3072) (hb : b < 3072) (h : BitVec.ofNat 32 a + 0#32 = BitVec.ofNat 32 b) : a = b := by
  have h' := congrArg BitVec.toNat h
  rw [BitVec.add_zero, BitVec.toNat_ofNat, BitVec.toNat_ofNat] at h'
  omega

theorem one_sub_one : (1 : EReal) - 1 = 0 := by
  rw [← EReal.coe_one, ← EReal.coe_sub, sub_self, EReal.coe_zero]

variable {h : Fin 3072 → Fin K → EReal}

theorem sqT_apply (G : FVec Ideal S3072x3072 .f32) (s : FVec Ideal S3072 .f32) (hG : ∀ i j, G (ix2 i j) = Cert.Spec.gram h i j)
    (hs : ∀ i, s (ix1 i) = Cert.Spec.svec h i) (i j : Fin 3072) : sqT G s (ix2 i j) = Cert.Spec.sq h i j := by
  unfold sqT
  rw [maximumf_apply, subf_apply, addf_apply, mulf_apply, colB_apply, rowB_apply, splat_apply, splat_apply, hs, hs, hG]
  rfl

theorem amatT_apply (Q : FVec Ideal S3072x3072 .f32) (hQ : ∀ i j, Q (ix2 i j) = Cert.Spec.sq h i j) (i j : Fin 3072) :
    amatT Q (ix2 i j) = Cert.Spec.amat h i j := by
  unfold amatT Cert.Spec.amat
  rw [mulf_apply, subf_apply, splat_apply, Ideal.ofBits_one_f32, ← hQ]
  show Ideal.exp (splat (F := Ideal) 0xBF000000#32 (ix2 i j) * Q (ix2 i j))
    * ((1 : EReal) - (((IntOp.cmpi .eq (IntOp.addi (BitVec.ofNat 32 i.val) 0#32) (BitVec.ofNat 32 j.val)).toNat : ℝ) : EReal)) = _
  rw [splat_apply]
  refine congrArg (Ideal.exp (Cert.Spec.cmh * Q (ix2 i j)) * ·) ?_
  unfold Cert.Spec.offdiag IntOp.addi
  by_cases hij : i = j
  · subst hij
    rw [if_pos rfl, IntOp.cmpi_eq.2 (BitVec.add_zero _)]
    show (1 : EReal) - (((1 : ℕ) : ℝ) : EReal) = 0
    rw [Nat.cast_one]
    exact one_sub_one
  · rw [if_neg hij, eq_zero_of_ne_one fun e => hij (Fin.ext (word_inj i.isLt j.isLt (IntOp.cmpi_eq.1 e)))]
    show (1 : EReal) - ((0 : ℕ) : ℝ) = 1
    norm_num

theorem drefT_apply (A : FVec Ideal S3072x3072 .f32) (hA : ∀ i j, A (ix2 i j) = Cert.Spec.amat h i j) (i : Fin 3072) :
    drefT A (ix1 i) = Cert.Spec.dinv h i := by
  unfold drefT
  rw [hostDivf_apply, splatV_apply]
  show Ideal.div _ (Ideal.sqrt (Host.reduceAdd A (constant (F := Ideal) S_ .f32 0x00000000#32) reducesTo_S3072x3072_S3072_d1 h_S_ (ix1 i)
    + splatV (F := Ideal) 0x2B8CBCCC#32 (ix1 i))) = _
  rw [rowsum_apply, splatV_apply]
  simp only [hA]
  exact dref_eq h i

/-- One layer's combined kernel at an entry is the specification's, of the activations known entry by entry. -/
theorem layerT_apply (D : DotDims ⟨2, ![3072, K]⟩ ⟨2, ![K, 3072]⟩ S3072x3072) (hD : D = DotDims.plain 3072 K 3072) (T) (R)
    (H : FVec Ideal ⟨2, ![3072, K]⟩ .f32) (E Fw Gw Hw : FVec Ideal S3072x3072 .f32) (hH : ∀ a k, H (ix2 a k) = h a k) (i j : Fin 3072) :
    layerT D T R H E Fw Gw Hw (ix2 i j)
      = Cert.Spec.kh h (fun a b => E (ix2 a b)) (fun a b => Fw (ix2 a b)) (fun a b => Gw (ix2 a b)) (fun a b => Hw (ix2 a b)) i j := by
  obtain rfl : (fun a k => H (ix2 a k)) = h := funext fun a => funext fun k => hH a k
  have hG := gram_apply D hD T H
  have hQ := sqT_apply _ _ hG fun i => rowsum_apply R h_S_ (mulf H H) i
  have hA := amatT_apply _ hQ
  have hd := drefT_apply _ hA
  unfold layerT Cert.Spec.kh
  simp only [addf_apply, mulf_apply, hostDivf_apply, splat_apply, colB_apply, rowB_apply, hG, hQ, hA, hd]

end Layer

end Cert.Ref

end
-- ==== Proof.Ref.Bridge.lean ====
import proofs.«146000_j29076928594330_2_alg».proof.Proof.Gen.ReferenceIdeal.Run
import proofs.«146000_j29076928594330_2_alg».proof.Proof.Ref.Args
import proofs.«146000_j29076928594330_2_alg».proof.Proof.Ref.Common

noncomputable section

open scoped BigOperators

namespace Cert.Ref

open Cert.ReferenceIdeal Cert.ReferenceIdeal.Gen Cert.ReferenceIdeal.Value Idealize.ShloMosaic Idealize.ShloMosaic.TcCoe
  Idealize.ShloMosaic.ValueIdx Idealize.ShloMosaic.StableHlo Idealize.SL.Sem

section Terms
variable {F : FTy → Type} [FloatOps F] (V0 : Valuation τ sig (Elt F))

/-- The four layers' combined kernels, as the run states them. -/
def khTerm_L1 : FVec F S3072x3072 .f32 :=
  layerT dot_S3072x500_S500x3072_S3072x3072_1_0_0_1_n_n transposes_S3072x500_S500x3072_1_0 reducesTo_S3072x500_S3072_d1 (res_main_v3 V0)
    (V0 (Proc.devRef .tc main_arg25)) (V0 (Proc.devRef .tc main_arg26)) (V0 (Proc.devRef .tc main_arg27)) (V0 (Proc.devRef .tc main_arg28))
def khTerm_L2 : FVec F S3072x3072 .f32 :=
  layerT dot_S3072x500_S500x3072_S3072x3072_1_0_0_1_n_n transposes_S3072x500_S500x3072_1_0 reducesTo_S3072x500_S3072_d1 (res_main_v59 V0)
    (V0 (Proc.devRef .tc main_arg29)) (V0 (Proc.devRef .tc main_arg30)) (V0 (Proc.devRef .tc main_arg31)) (V0 (Proc.devRef .tc main_arg32))
def khTerm_L3 : FVec F S3072x3072 .f32 :=
  layerT dot_S3072x2000_S2000x3072_S3072x3072_1_0_0_1_n_n transposes_S3072x2000_S2000x3072_1_0 reducesTo_S3072x2000_S3072_d1 (res_main_v115 V0)
    (V0 (Proc.devRef .tc main_arg33)) (V0 (Proc.devRef .tc main_arg34)) (V0 (Proc.devRef .tc main_arg35)) (V0 (Proc.devRef .tc main_arg36))
def khTerm_Lz : FVec F S3072x3072 .f32 :=
  layerT dot_S3072x10_S10x3072_S3072x3072_1_0_0_1_n_n transposes_S3072x10_S10x3072_1_0 reducesTo_S3072x10_S3072_d1 (res_main_v171 V0)
    (V0 (Proc.devRef .tc main_arg21)) (V0 (Proc.devRef .tc main_arg22)) (V0 (Proc.devRef .tc main_arg23)) (V0 (Proc.devRef .tc main_arg24))

end Terms

variable (V0 : Valuation τ sig (Elt Ideal))

theorem R_enc1 (i : Fin 3072) (j : Fin 500) : res_main_v3 (F := Ideal) V0 (ix2 i j) = Cert.Net.enc1 (argsR V0) i j :=
  dense_apply _ rfl _ _ _ _ _ (fun _ _ => rfl) i j

theorem R_enc2 (i : Fin 3072) (j : Fin 500) : res_main_v59 (F := Ideal) V0 (ix2 i j) = Cert.Net.enc2 (argsR V0) i j :=
  dense_apply _ rfl _ _ _ _ _ (R_enc1 V0) i j

theorem R_enc3 (i : Fin 3072) (j : Fin 2000) : res_main_v115 (F := Ideal) V0 (ix2 i j) = Cert.Net.enc3 (argsR V0) i j :=
  dense_apply _ rfl _ _ _ _ _ (R_enc2 V0) i j

theorem R_lat (i : Fin 3072) (j : Fin 10) : res_main_v171 (F := Ideal) V0 (ix2 i j) = Cert.Net.lat (argsR V0) i j :=
  dense_apply _ rfl _ _ _ _ _ (R_enc3 V0) i j

theorem R_kh1 (i j : Fin 3072) : khTerm_L1 (F := Ideal) V0 (ix2 i j) = Cert.Net.kh1 (argsR V0) i j :=
  layerT_apply _ rfl _ _ _ _ _ _ _ (R_enc1 V0) i j

theorem R_kh2 (i j : Fin 3072) : khTerm_L2 (F := Ideal) V0 (ix2 i j) = Cert.Net.kh2 (argsR V0) i j :=
  layerT_apply _ rfl _ _ _ _ _ _ _ (R_enc2 V0) i j

theorem R_kh3 (i j : Fin 3072) : khTerm_L3 (F := Ideal) V0 (ix2 i j) = Cert.Net.kh3 (argsR V0) i j :=
  layerT_apply _ rfl _ _ _ _ _ _ _ (R_enc3 V0) i j

theorem R_khz (i j : Fin 3072) : khTerm_Lz (F := Ideal) V0 (ix2 i j) = Cert.Net.khz (argsR V0) i j :=
  layerT_apply _ rfl _ _ _ _ _ _ _ (R_lat V0) i j

end Cert.Ref

end
-- ==== Proof.Ref.BridgeTail.lean ====
import proofs.«146000_j29076928594330_2_alg».proof.Proof.Ref.Bridge

noncomputable section

open scoped BigOperators

namespace Cert.Ref

open Cert.ReferenceIdeal Cert.ReferenceIdeal.Gen Cert.ReferenceIdeal.Value Idealize.ShloMosaic Idealize.ShloMosaic.TcCoe
  Idealize.ShloMosaic.ValueIdx Idealize.ShloMosaic.StableHlo Idealize.SL.Sem

section Terms
variable {F : FTy → Type} [FloatOps F] (V0 : Valuation τ sig (Elt F))

/-- The four decoder layers over the network's kernel, and the kernel's rows less the cluster centres. -/
def dec1Term : FVec F S3072x2000 .f32 :=
  dense dot_S3072x3072_S3072x2000_S3072x2000_1_0_0_1_n_n bcast_S2000_S1x2000_1 bcast_S1x2000_S3072x2000_0_1 (res_main_v230 V0)
    (V0 (Proc.devRef .tc main_arg9)) (V0 (Proc.devRef .tc main_arg10))
def k22Term : FVec F S3072x500 .f32 :=
  dense dot_S3072x2000_S2000x500_S3072x500_1_0_0_1_n_n bcast_S500_S1x500_1 bcast_S1x500_S3072x500_0_1 (dec1Term V0)
    (V0 (Proc.devRef .tc main_arg11)) (V0 (Proc.devRef .tc main_arg12))
def k33Term : FVec F S3072x500 .f32 :=
  dense dot_S3072x500_S500x500_S3072x500_1_0_0_1_n_n bcast_S500_S1x500_1 bcast_S1x500_S3072x500_0_1 (k22Term V0)
    (V0 (Proc.devRef .tc main_arg13)) (V0 (Proc.devRef .tc main_arg14))
def xbarTerm : FVec F S3072x784 .f32 :=
  dense dot_S3072x500_S500x784_S3072x784_1_0_0_1_n_n bcast_S784_S1x784_1 bcast_S1x784_S3072x784_0_1 (k33Term V0)
    (V0 (Proc.devRef .tc main_arg15)) (V0 (Proc.devRef .tc main_arg16))
def qqTerm : FVec F S3072x10x3072 .f32 :=
  subf (broadcastInDim S3072x10x3072 ![0, 1, 2] bcast_S3072x1x3072_S3072x10x3072_0_1_2 (broadcastInDim S3072x1x3072 ![0, 2] bcast_S3072x3072_S3072x1x3072_0_2 (res_main_v230 V0)))
    (broadcastInDim S3072x10x3072 ![0, 1, 2] bcast_S1x10x3072_S3072x10x3072_0_1_2 (broadcastInDim S1x10x3072 ![1, 2] bcast_S10x3072_S1x10x3072_1_2 (V0 (Proc.devRef .tc main_arg37))))

end Terms

variable (V0 : Valuation τ sig (Elt Ideal))

/-- The network's kernel: the four layers' kernels under their four weights, entry by entry. -/
theorem R_ker (i j : Fin 3072) : res_main_v230 (F := Ideal) V0 (ix2 i j) = Cert.Net.ker (argsR V0) i j := by
  show _ * khTerm_L1 V0 (ix2 i j) + _ * khTerm_L2 V0 (ix2 i j) + _ * khTerm_L3 V0 (ix2 i j) + _ * khTerm_Lz V0 (ix2 i j) = _
  rw [R_kh1, R_kh2, R_kh3, R_khz]
  rfl

theorem R_dec1 (i : Fin 3072) (j : Fin 2000) : dec1Term (F := Ideal) V0 (ix2 i j) = Cert.Net.dec1 (argsR V0) i j :=
  dense_apply _ rfl _ _ _ _ _ (R_ker V0) i j

theorem R_dec2 (i : Fin 3072) (j : Fin 500) : k22Term (F := Ideal) V0 (ix2 i j) = Cert.Net.dec2 (argsR V0) i j :=
  dense_apply _ rfl _ _ _ _ _ (R_dec1 V0) i j

theorem R_dec3 (i : Fin 3072) (j : Fin 500) : k33Term (F := Ideal) V0 (ix2 i j) = Cert.Net.dec3 (argsR V0) i j :=
  dense_apply _ rfl _ _ _ _ _ (R_dec2 V0) i j

theorem R_xbar (i : Fin 3072) (j : Fin 784) : xbarTerm (F := Ideal) V0 (ix2 i j) = Cert.Net.xbar (argsR V0) i j :=
  dense_apply _ rfl _ _ _ _ _ (R_dec3 V0) i j

theorem R_qq (i : Fin 3072) (n : Fin 10) (j : Fin 3072) : qqTerm (F := Ideal) V0 (ix3 i n j) = Cert.Net.qq (argsR V0) i n j :=
  qsub_apply _ _ _ _ _ _ (R_ker V0) i n j

end Cert.Ref

end
-- ==== Proof.lean ====
import proofs.«146000_j29076928594330_2_alg».proof.Defs
import proofs.«146000_j29076928594330_2_alg».proof.Proof.Gen.Kernel
import proofs.«146000_j29076928594330_2_alg».proof.Proof.Gen.KernelIdeal
import proofs.«146000_j29076928594330_2_alg».proof.Proof.Gen.ReferenceIdeal
import proofs.«146000_j29076928594330_2_alg».proof.Proof.Gen.Pre_finite_inputs
import proofs.«146000_j29076928594330_2_alg».proof.Proof.KB.Run
import proofs.«146000_j29076928594330_2_alg».proof.Proof.KI.Run
import proofs.«146000_j29076928594330_2_alg».proof.Proof.KI.Bridge
import proofs.«146000_j29076928594330_2_alg».proof.Proof.KI.BridgeTail
import proofs.«146000_j29076928594330_2_alg».proof.Proof.Ref.Bridge
import proofs.«146000_j29076928594330_2_alg».proof.Proof.Ref.BridgeTail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx

theorem frame_k : Cert.frame_Kernel := fun m ρ _ =>
  (θ_run Cert.Kernel.defs _ _).mono (fun _ h c => (h c).2.2.2.2.2.2.2.2.2.2.2.2.2) (Cert.KB.run_vals m ρ)
theorem frame_ki : Cert.frame_KernelIdeal := fun m ρ _ =>
  (θ_run Cert.KernelIdeal.defs _ _).mono (fun _ h c => (h c).2.2.2.2.2.2.2.2.2.2.2.2.2) (Cert.KI.run_vals m ρ)
theorem frame_ri : Cert.frame_ReferenceIdeal := fun m ρ _ =>
  (θ_run Cert.ReferenceIdeal.defs _ _).mono (fun _ h c => (h c).2.2.2.2.2.2.2.2.2.2.2.2.2)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, _, _, _, _, _, _, _, _, _, _, _, Cert.KI.run_vals (F := Ideal) m ρ, ?_⟩
  refine (θ_run Cert.ReferenceIdeal.defs _ _).mono (fun r h c => ?_) (Cert.ReferenceIdeal.Value.run (F := Ideal) m' ρ')
  have hA : Cert.Ref.argsR (launchContents m' c) = Cert.KI.argsK m c := by
    obtain ⟨g0, g1, g2, g3, g4, g5, g6, g7, g8, g9, g10, g11, g12, g13, g14, g15, g16, g17, g18, g19, g20, g21, g22, g23, g24, g25, g26, g27, g28, g29, g30, g31, g32, g33, g34, g35, g36, g37⟩ := hagree c
    unfold Cert.Ref.argsR Cert.KI.argsK
    congr 1 <;> first
      | exact funext fun _ => funext fun _ => congrFun (by assumption) _
      | exact funext fun _ => congrFun (by assumption) _
  obtain ⟨h0, h1, h2, h3, h4, h5, h6, h7, h8, h9, h10, h11, h12, hargs⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, hargs⟩
  · funext idx
    obtain ⟨i, j, rfl⟩ : ∃ i j, idx = ix2 i j := ⟨idx 0, idx 1, eq_ix2 idx⟩
    exact (Cert.Ref.R_xbar (launchContents m' c) i j).trans (by rw [hA]; exact (Cert.KI.K_xbar m ρ c i j).symm)
  · funext idx
    obtain ⟨i, j, rfl⟩ : ∃ i j, idx = ix2 i j := ⟨idx 0, idx 1, eq_ix2 idx⟩
    exact (Cert.Ref.R_ker (launchContents m' c) i j).trans (by rw [hA]; exact (Cert.KI.K_ker m ρ c i j).symm)
  · funext idx
    obtain ⟨i, j, rfl⟩ : ∃ i j, idx = ix2 i j := ⟨idx 0, idx 1, eq_ix2 idx⟩
    exact (Cert.Ref.R_lat (launchContents m' c) i j).trans (by rw [hA]; exact (Cert.KI.K_lat m ρ c i j).symm)
  · funext idx
    obtain ⟨i, j, rfl⟩ : ∃ i j, idx = ix2 i j := ⟨idx 0, idx 1, eq_ix2 idx⟩
    exact (Cert.Ref.R_enc1 (launchContents m' c) i j).trans (by rw [hA]; exact (Cert.KI.K_enc1 m ρ c i j).symm)
  · funext idx
    obtain ⟨i, j, rfl⟩ : ∃ i j, idx = ix2 i j := ⟨idx 0, idx 1, eq_ix2 idx⟩
    exact (Cert.Ref.R_enc2 (launchContents m' c) i j).trans (by rw [hA]; exact (Cert.KI.K_enc2 m ρ c i j).symm)
  · funext idx
    obtain ⟨i, j, rfl⟩ : ∃ i j, idx = ix2 i j := ⟨idx 0, idx 1, eq_ix2 idx⟩
    exact (Cert.Ref.R_enc3 (launchContents m' c) i j).trans (by rw [hA]; exact (Cert.KI.K_enc3 m ρ c i j).symm)
  · funext idx
    obtain ⟨i, n, j, rfl⟩ : ∃ i n j, idx = ix3 i n j := ⟨idx 0, idx 1, idx 2, eq_ix3 idx⟩
    exact (Cert.Ref.R_qq (launchContents m' c) i n j).trans (by rw [hA]; exact (Cert.KI.K_qq m ρ c i n j).symm)
  · funext idx
    obtain ⟨i, j, rfl⟩ : ∃ i j, idx = ix2 i j := ⟨idx 0, idx 1, eq_ix2 idx⟩
    exact (Cert.Ref.R_dec2 (launchContents m' c) i j).trans (by rw [hA]; exact (Cert.KI.K_dec2 m ρ c i j).symm)
  · funext idx
    obtain ⟨i, j, rfl⟩ : ∃ i j, idx = ix2 i j := ⟨idx 0, idx 1, eq_ix2 idx⟩
    exact (Cert.Ref.R_dec3 (launchContents m' c) i j).trans (by rw [hA]; exact (Cert.KI.K_dec3 m ρ c i j).symm)
  · funext idx
    obtain ⟨i, j, rfl⟩ : ∃ i j, idx = ix2 i j := ⟨idx 0, idx 1, eq_ix2 idx⟩
    exact (Cert.Ref.R_kh1 (launchContents m' c) i j).trans (by rw [hA]; exact (Cert.KI.K_kh1 m ρ c i j).symm)
  · funext idx
    obtain ⟨i, j, rfl⟩ : ∃ i j, idx = ix2 i j := ⟨idx 0, idx 1, eq_ix2 idx⟩
    exact (Cert.Ref.R_kh2 (launchContents m' c) i j).trans (by rw [hA]; exact (Cert.KI.K_kh2 m ρ c i j).symm)
  · funext idx
    obtain ⟨i, j, rfl⟩ : ∃ i j, idx = ix2 i j := ⟨idx 0, idx 1, eq_ix2 idx⟩
    exact (Cert.Ref.R_kh3 (launchContents m' c) i j).trans (by rw [hA]; exact (Cert.KI.K_kh3 m ρ c i j).symm)
  · funext idx
    obtain ⟨i, j, rfl⟩ : ∃ i j, idx = ix2 i j := ⟨idx 0, idx 1, eq_ix2 idx⟩
    exact (Cert.Ref.R_khz (launchContents m' c) i j).trans (by rw [hA]; exact (Cert.KI.K_khz m ρ c i j).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
